-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1000000 : Shape := ⟨2, ![2, 1000000]⟩
abbrev S1000000x7 : Shape := ⟨2, ![1000000, 7]⟩
abbrev S1x64 : Shape := ⟨2, ![1, 64]⟩
abbrev S5x7x64 : Shape := ⟨3, ![5, 7, 64]⟩
abbrev S5x64 : Shape := ⟨2, ![5, 64]⟩
abbrev S5x64x64 : Shape := ⟨3, ![5, 64, 64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩

class Facts : Prop where
  slices_S2x1000000_S1x1000000_0_0 : S2x1000000.Slices ![0, 0] S1x1000000
  shapeCasts_S1x1000000_S1000000 : S1x1000000.ShapeCasts S1000000
  bcast_S_S1000000x7 : S_.BroadcastsInDim S1000000x7 (![] : Fin 0 → Fin S1000000x7.rank)
  reducesTo_S1000000x7_S_d0_1 : S1000000x7.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S5x7x64 : S_.BroadcastsInDim S5x7x64 (![] : Fin 0 → Fin S5x7x64.rank)
  reducesTo_S5x7x64_S_d0_1_2 : S5x7x64.ReducesTo [0, 1, 2] S_
  bcast_S_S5x64 : S_.BroadcastsInDim S5x64 (![] : Fin 0 → Fin S5x64.rank)
  reducesTo_S5x64_S_d0_1 : S5x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S100000 : S_.BroadcastsInDim S100000 (![] : Fin 0 → Fin S100000.rank)
  reducesTo_S100000_S_d0 : S100000.ReducesTo [0] S_
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_v1 : IVec S1000000 32) (main_v67 : IVec S_ 1) (main_c_25 : IVec S_ 32) : IVec S_ 1 :=
  let main_v68 : IVec S1000000 32 := broadcastInDim S1000000 ![] bcast_S_S1000000 main_c_25
  let main_v69 : IVec S1000000 1 := cmpi .sge main_v1 main_v68
  let main_c_26 : IVec S_ 32 := constantI S_ 32 100000#32
  let main_v70 : IVec S1000000 32 := broadcastInDim S1000000 ![] bcast_S_S1000000 main_c_26
  let main_v71 : IVec S1000000 1 := cmpi .slt main_v1 main_v70
  let main_v72 : IVec S1000000 1 := andi main_v69 main_v71
  let main_c_27 : IVec S_ 1 := constantI S_ 1 1#1
  let main_v73 : IVec S_ 1 := (fun x v => Host.reduce IntOp.andi x v reducesTo_S1000000_S_d0 h_S_) main_v72 main_c_27
  let main_v74 : IVec S_ 1 := andi main_v67 main_v73
  main_v74

def fn_part3 {F : FTy → Type} [FloatOps F] (main_arg0 : IVec S100000 32) (main_arg14 : FVec F S10 .f32) (main_v1 : IVec S1000000 32) (main_v50 : IVec S_ 1) (main_v51 : FVec F S64x10 .f32) : IVec S_ 1 :=
  let main_cst_18 : FVec F S_ .f32 := constant S_ .f32 0x7F800000#32
  let main_v52 : FVec F S64x10 .f32 := broadcastInDim S64x10 ![] bcast_S_S64x10 main_cst_18
  let main_v53 : IVec S64x10 1 := cmpf .olt main_v51 main_v52
  let main_c_19 : IVec S_ 1 := constantI S_ 1 1#1
  let main_v54 : IVec S_ 1 := (fun x v => Host.reduce IntOp.andi x v reducesTo_S64x10_S_d0_1 h_S_) main_v53 main_c_19
  let main_v55 : IVec S_ 1 := andi main_v50 main_v54
  let main_v56 : FVec F S10 .f32 := Host.absf main_arg14
  let main_cst_20 : FVec F S_ .f32 := constant S_ .f32 0x7F800000#32
  let main_v57 : FVec F S10 .f32 := broadcastInDim S10 ![] bcast_S_S10 main_cst_20
  let main_v58 : IVec S10 1 := cmpf .olt main_v56 main_v57
  let main_c_21 : IVec S_ 1 := constantI S_ 1 1#1
  let main_v59 : IVec S_ 1 := (fun x v => Host.reduce IntOp.andi x v reducesTo_S10_S_d0 h_S_) main_v58 main_c_21
  let main_v60 : IVec S_ 1 := andi main_v55 main_v59
  let main_c_22 : IVec S_ 32 := constantI S_ 32 0#32
  let main_v61 : IVec S100000 32 := broadcastInDim S100000 ![] bcast_S_S100000 main_c_22
  let main_v62 : IVec S100000 1 := cmpi .sge main_arg0 main_v61
  let main_c_23 : IVec S_ 32 := constantI S_ 32 1#32
  let main_v63 : IVec S100000 32 := broadcastInDim S100000 ![] bcast_S_S100000 main_c_23
  let main_v64 : IVec S100000 1 := cmpi .slt main_arg0 main_v63
  let main_v65 : IVec S100000 1 := andi main_v62 main_v64
  let main_c_24 : IVec S_ 1 := constantI S_ 1 1#1
  let main_v66 : IVec S_ 1 := (fun x v => Host.reduce IntOp.andi x v reducesTo_S100000_S_d0 h_S_) main_v65 main_c_24
  let main_v67 : IVec S_ 1 := andi main_v60 main_v66
  let main_c_25 : IVec S_ 32 := constantI S_ 32 0#32
  fn_part4 (F := F) main_v1 main_v67 main_c_25

def fn_part2 {F : FTy → Type} [FloatOps F] (main_arg0 : IVec S100000 32) (main_arg10 : FVec F S5x64 .f32) (main_arg11 : FVec F S5x64 .f32) (main_arg12 : FVec F S5x64 .f32) (main_arg13 : FVec F S64x10 .f32) (main_arg14 : FVec F S10 .f32) (main_v1 : IVec S1000000 32) (main_v30 : IVec S_ 1) (main_v33 : IVec S5x64x64 1) (main_c_11 : IVec S_ 1) : IVec S_ 1 :=
  let main_v34 : IVec S_ 1 := (fun x v => Host.reduce IntOp.andi x v reducesTo_S5x64x64_S_d0_1_2 h_S_) main_v33 main_c_11
  let main_v35 : IVec S_ 1 := andi main_v30 main_v34
  let main_v36 : FVec F S5x64 .f32 := Host.absf main_arg10
  let main_cst_12 : FVec F S_ .f32 := constant S_ .f32 0x7F800000#32
  let main_v37 : FVec F S5x64 .f32 := broadcastInDim S5x64 ![] bcast_S_S5x64 main_cst_12
  let main_v38 : IVec S5x64 1 := cmpf .olt main_v36 main_v37
  let main_c_13 : IVec S_ 1 := constantI S_ 1 1#1
  let main_v39 : IVec S_ 1 := (fun x v => Host.reduce IntOp.andi x v reducesTo_S5x64_S_d0_1 h_S_) main_v38 main_c_13
  let main_v40 : IVec S_ 1 := andi main_v35 main_v39
  let main_v41 : FVec F S5x64 .f32 := Host.absf main_arg11
  let main_cst_14 : FVec F S_ .f32 := constant S_ .f32 0x7F800000#32
  let main_v42 : FVec F S5x64 .f32 := broadcastInDim S5x64 ![] bcast_S_S5x64 main_cst_14
  let main_v43 : IVec S5x64 1 := cmpf .olt main_v41 main_v42
  let main_c_15 : IVec S_ 1 := constantI S_ 1 1#1
  let main_v44 : IVec S_ 1 := (fun x v => Host.reduce IntOp.andi x v reducesTo_S5x64_S_d0_1 h_S_) main_v43 main_c_15
  let main_v45 : IVec S_ 1 := andi main_v40 main_v44
  let main_v46 : FVec F S5x64 .f32 := Host.absf main_arg12
  let main_cst_16 : FVec F S_ .f32 := constant S_ .f32 0x7F800000#32
  let main_v47 : FVec F S5x64 .f32 := broadcastInDim S5x64 ![] bcast_S_S5x64 main_cst_16
  let main_v48 : IVec S5x64 1 := cmpf .olt main_v46 main_v47
  let main_c_17 : IVec S_ 1 := constantI S_ 1 1#1
  let main_v49 : IVec S_ 1 := (fun x v => Host.reduce IntOp.andi x v reducesTo_S5x64_S_d0_1 h_S_) main_v48 main_c_17
  let main_v50 : IVec S_ 1 := andi main_v45 main_v49
  let main_v51 : FVec F S64x10 .f32 := Host.absf main_arg13
  fn_part3 (F := F) main_arg0 main_arg14 main_v1 main_v50 main_v51

def fn_part1 {F : FTy → Type} [FloatOps F] (main_arg0 : IVec S100000 32) (main_arg7 : FVec F S5x64x64 .f32) (main_arg8 : FVec F S5x64 .f32) (main_arg9 : FVec F S5x64x64 .f32) (main_arg10 : FVec F S5x64 .f32) (main_arg11 : FVec F S5x64 .f32) (main_arg12 : FVec F S5x64 .f32) (main_arg13 : FVec F S64x10 .f32) (main_arg14 : FVec F S10 .f32) (main_v1 : IVec S1000000 32) (main_v15 : IVec S_ 1) (main_v16 : FVec F S5x64 .f32) (main_cst_4 : FVec F S_ .f32) : IVec S_ 1 :=
  let main_v17 : FVec F S5x64 .f32 := broadcastInDim S5x64 ![] bcast_S_S5x64 main_cst_4
  let main_v18 : IVec S5x64 1 := cmpf .olt main_v16 main_v17
  let main_c_5 : IVec S_ 1 := constantI S_ 1 1#1
  let main_v19 : IVec S_ 1 := (fun x v => Host.reduce IntOp.andi x v reducesTo_S5x64_S_d0_1 h_S_) main_v18 main_c_5
  let main_v20 : IVec S_ 1 := andi main_v15 main_v19
  let main_v21 : FVec F S5x64x64 .f32 := Host.absf main_arg7
  let main_cst_6 : FVec F S_ .f32 := constant S_ .f32 0x7F800000#32
  let main_v22 : FVec F S5x64x64 .f32 := broadcastInDim S5x64x64 ![] bcast_S_S5x64x64 main_cst_6
  let main_v23 : IVec S5x64x64 1 := cmpf .olt main_v21 main_v22
  let main_c_7 : IVec S_ 1 := constantI S_ 1 1#1
  let main_v24 : IVec S_ 1 := (fun x v => Host.reduce IntOp.andi x v reducesTo_S5x64x64_S_d0_1_2 h_S_) main_v23 main_c_7
  let main_v25 : IVec S_ 1 := andi main_v20 main_v24
  let main_v26 : FVec F S5x64 .f32 := Host.absf main_arg8
  let main_cst_8 : FVec F S_ .f32 := constant S_ .f32 0x7F800000#32
  let main_v27 : FVec F S5x64 .f32 := broadcastInDim S5x64 ![] bcast_S_S5x64 main_cst_8
  let main_v28 : IVec S5x64 1 := cmpf .olt main_v26 main_v27
  let main_c_9 : IVec S_ 1 := constantI S_ 1 1#1
  let main_v29 : IVec S_ 1 := (fun x v => Host.reduce IntOp.andi x v reducesTo_S5x64_S_d0_1 h_S_) main_v28 main_c_9
  let main_v30 : IVec S_ 1 := andi main_v25 main_v29
  let main_v31 : FVec F S5x64x64 .f32 := Host.absf main_arg9
  let main_cst_10 : FVec F S_ .f32 := constant S_ .f32 0x7F800000#32
  let main_v32 : FVec F S5x64x64 .f32 := broadcastInDim S5x64x64 ![] bcast_S_S5x64x64 main_cst_10
  let main_v33 : IVec S5x64x64 1 := cmpf .olt main_v31 main_v32
  let main_c_11 : IVec S_ 1 := constantI S_ 1 1#1
  fn_part2 (F := F) main_arg0 main_arg10 main_arg11 main_arg12 main_arg13 main_arg14 main_v1 main_v30 main_v33 main_c_11

def fn {F : FTy → Type} [FloatOps F] (main_arg0 : IVec S100000 32) (main_arg1 : IVec S2x1000000 32) (main_arg2 : FVec F S1000000x7 .f32) (main_arg3 : IVec S100000 32) (main_arg4 : FVec F S1x64 .f32) (main_arg5 : FVec F S5x7x64 .f32) (main_arg6 : FVec F S5x64 .f32) (main_arg7 : FVec F S5x64x64 .f32) (main_arg8 : FVec F S5x64 .f32) (main_arg9 : FVec F S5x64x64 .f32) (main_arg10 : FVec F S5x64 .f32) (main_arg11 : FVec F S5x64 .f32) (main_arg12 : FVec F S5x64 .f32) (main_arg13 : FVec F S64x10 .f32) (main_arg14 : FVec F S10 .f32) : IVec S_ 1 :=
  let main_v0 : IVec S1x1000000 32 := (extractStridedSlice S1x1000000 ![0, 0] · slices_S2x1000000_S1x1000000_0_0) main_arg1
  let main_v1 : IVec S1000000 32 := shapeCast S1000000 main_v0 shapeCasts_S1x1000000_S1000000
  let main_v2 : FVec F S1000000x7 .f32 := Host.absf main_arg2
  let main_cst : FVec F S_ .f32 := constant S_ .f32 0x7F800000#32
  let main_v3 : FVec F S1000000x7 .f32 := broadcastInDim S1000000x7 ![] bcast_S_S1000000x7 main_cst
  let main_v4 : IVec S1000000x7 1 := cmpf .olt main_v2 main_v3
  let main_c : IVec S_ 1 := constantI S_ 1 1#1
  let main_v5 : IVec S_ 1 := (fun x v => Host.reduce IntOp.andi x v reducesTo_S1000000x7_S_d0_1 h_S_) main_v4 main_c
  let main_v6 : FVec F S1x64 .f32 := Host.absf main_arg4
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S5x7x64 .f32 := Host.absf main_arg5
  let main_cst_2 : FVec F S_ .f32 := constant S_ .f32 0x7F800000#32
  let main_v12 : FVec F S5x7x64 .f32 := broadcastInDim S5x7x64 ![] bcast_S_S5x7x64 main_cst_2
  let main_v13 : IVec S5x7x64 1 := cmpf .olt main_v11 main_v12
  let main_c_3 : IVec S_ 1 := constantI S_ 1 1#1
  let main_v14 : IVec S_ 1 := (fun x v => Host.reduce IntOp.andi x v reducesTo_S5x7x64_S_d0_1_2 h_S_) main_v13 main_c_3
  let main_v15 : IVec S_ 1 := andi main_v10 main_v14
  let main_v16 : FVec F S5x64 .f32 := Host.absf main_arg6
  let main_cst_4 : FVec F S_ .f32 := constant S_ .f32 0x7F800000#32
  fn_part1 (F := F) main_arg0 main_arg7 main_arg8 main_arg9 main_arg10 main_arg11 main_arg12 main_arg13 main_arg14 main_v1 main_v15 main_v16 main_cst_4
-- ==== Kernel.lean ====
abbrev S100000 : Shape := ⟨1, ![100000]⟩
abbrev S2x1000000 : Shape := ⟨2, ![2, 1000000]⟩
abbrev S1000000x7 : Shape := ⟨2, ![1000000, 7]⟩
abbrev S1x64 : Shape := ⟨2, ![1, 64]⟩
abbrev S5x7x64 : Shape := ⟨3, ![5, 7, 64]⟩
abbrev S5x64 : Shape := ⟨2, ![5, 64]⟩
abbrev S5x64x64 : Shape := ⟨3, ![5, 64, 64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x64 : Shape := ⟨2, ![100000, 64]⟩
abbrev S1000000x1 : Shape := ⟨2, ![1000000, 1]⟩
abbrev S1000000x64 : Shape := ⟨2, ![1000000, 64]⟩
abbrev S1x7x64 : Shape := ⟨3, ![1, 7, 64]⟩
abbrev S7x64 : Shape := ⟨2, ![7, 64]⟩
abbrev S64 : Shape := ⟨1, ![64]⟩
abbrev S8000x64 : Shape := ⟨2, ![8000, 64]⟩
abbrev S8000x7 : Shape := ⟨2, ![8000, 7]⟩
abbrev S1x64x64 : Shape := ⟨3, ![1, 64, 64]⟩
abbrev S64x64 : Shape := ⟨2, ![64, 64]⟩
abbrev S5000x64 : Shape := ⟨2, ![5000, 64]⟩
abbrev S128x64 : Shape := ⟨2, ![128, 64]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 487
  | .vmem => 130
  | .smem => 0
  | _ => 0

abbrev hbmTy0_0 (i : Nat) : BufTy := match i % 128 with
  | 0 => ⟨S100000, .i32⟩
  | 1 => ⟨S2x1000000, .i32⟩
  | 2 => ⟨S1000000x7, .f32⟩
  | 3 => ⟨S100000, .i32⟩
  | 4 => ⟨S1x64, .f32⟩
  | 5 => ⟨S5x7x64, .f32⟩
  | 6 => ⟨S5x64, .f32⟩
  | 7 => ⟨S5x64x64, .f32⟩
  | 8 => ⟨S5x64, .f32⟩
  | 9 => ⟨S5x64x64, .f32⟩
  | 10 => ⟨S5x64, .f32⟩
  | 11 => ⟨S5x64, .f32⟩
  | 12 => ⟨S5x64, .f32⟩
  | 13 => ⟨S64x10, .f32⟩
  | 14 => ⟨S10, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S1, .i32⟩
  | 28 => ⟨S_, .i32⟩
  | 29 => ⟨S100000x1, .i32⟩
  | 30 => ⟨S100000x1, .i1⟩
  | 31 => ⟨S1x1, .i32⟩
  | 32 => ⟨S100000x1, .i32⟩
  | 33 => ⟨S100000x1, .i1⟩
  | 34 => ⟨S100000x1, .i1⟩
  | 35 => ⟨S_, .i1⟩
  | 36 => ⟨S100000, .i1⟩
  | 37 => ⟨S100000x64, .f32⟩
  | 38 => ⟨S100000x64, .i1⟩
  | 39 => ⟨S_, .f32⟩
  | 40 => ⟨S100000x64, .f32⟩
  | 41 => ⟨S100000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1, .i32⟩
  | 51 => ⟨S_, .i32⟩
  | 52 => ⟨S1000000x1, .i32⟩
  | 53 => ⟨S1000000x1, .i1⟩
  | 54 => ⟨S1x1, .i32⟩
  | 55 => ⟨S1000000x1, .i32⟩
  | 56 => ⟨S1000000x1, .i1⟩
  | 57 => ⟨S1000000x1, .i1⟩
  | 58 => ⟨S_, .i1⟩
  | 59 => ⟨S1000000, .i1⟩
  | 60 => ⟨S1000000x64, .f32⟩
  | 61 => ⟨S1000000x64, .i1⟩
  | 62 => ⟨S_, .f32⟩
  | 63 => ⟨S1000000x64, .f32⟩
  | 64 => ⟨S1000000x64, .f32⟩
  | 65 => ⟨S1x7x64, .f32⟩
  | 66 => ⟨S7x64, .f32⟩
  | 67 => ⟨S1x64, .f32⟩
  | 68 => ⟨S64, .f32⟩
  | 69 => ⟨S1x64, .f32⟩
  | 70 => ⟨S1000000x64, .f32⟩
  | 71 => ⟨S_, .f32⟩
  | 72 => ⟨S100000x64, .f32⟩
  | 73 => ⟨S1000000x1, .i32⟩
  | 74 => ⟨S100000x64, .f32⟩
  | 75 => ⟨S1x64x64, .f32⟩
  | 76 => ⟨S64x64, .f32⟩
  | 77 => ⟨S1x64, .f32⟩
  | 78 => ⟨S64, .f32⟩
  | 79 => ⟨S1x64x64, .f32⟩
  | 80 => ⟨S64x64, .f32⟩
  | 81 => ⟨S1x64, .f32⟩
  | 82 => ⟨S64, .f32⟩
  | 83 => ⟨S1x64, .f32⟩
  | 84 => ⟨S1x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S_, .i32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S_, .f32⟩
  | 103 => ⟨S_, .f32⟩
  | 104 => ⟨S_, .f32⟩
  | 105 => ⟨S64, .f32⟩
  | 106 => ⟨S64, .f32⟩
  | 107 => ⟨S64, .f32⟩
  | 108 => ⟨S_, .f32⟩
  | 109 => ⟨S_, .i1⟩
  | 110 => ⟨S_, .f32⟩
  | 111 => ⟨S_, .f32⟩
  | 112 => ⟨S64, .f32⟩
  | 113 => ⟨S64, .f32⟩
  | 114 => ⟨S1x64, .f32⟩
  | 115 => ⟨S64, .f32⟩
  | 116 => ⟨S1x64, .f32⟩
  | 117 => ⟨S64, .f32⟩
  | 118 => ⟨S1x64, .f32⟩
  | 119 => ⟨S_, .f32⟩
  | 120 => ⟨S64, .f32⟩
  | 121 => ⟨S64, .f32⟩
  | 122 => ⟨S64, .f32⟩
  | 123 => ⟨S1x64, .f32⟩
  | 124 => ⟨S1x64, .f32⟩
  | 125 => ⟨S1x64, .f32⟩
  | 126 => ⟨S100000x64, .f32⟩
  | 127 => ⟨S_, .i32⟩
  | _ => ⟨S100000, .i32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1, .i32⟩
  | 8 => ⟨S_, .i32⟩
  | 9 => ⟨S1000000x1, .i32⟩
  | 10 => ⟨S1000000x1, .i1⟩
  | 11 => ⟨S1x1, .i32⟩
  | 12 => ⟨S1000000x1, .i32⟩
  | 13 => ⟨S1000000x1, .i1⟩
  | 14 => ⟨S1000000x1, .i1⟩
  | 15 => ⟨S_, .i1⟩
  | 16 => ⟨S1000000, .i1⟩
  | 17 => ⟨S1000000x64, .f32⟩
  | 18 => ⟨S1000000x64, .i1⟩
  | 19 => ⟨S_, .f32⟩
  | 20 => ⟨S1000000x64, .f32⟩
  | 21 => ⟨S1000000x64, .f32⟩
  | 22 => ⟨S1x7x64, .f32⟩
  | 23 => ⟨S7x64, .f32⟩
  | 24 => ⟨S1x64, .f32⟩
  | 25 => ⟨S64, .f32⟩
  | 26 => ⟨S1x64, .f32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S1x64x64, .f32⟩
  | 33 => ⟨S64x64, .f32⟩
  | 34 => ⟨S1x64, .f32⟩
  | 35 => ⟨S64, .f32⟩
  | 36 => ⟨S1x64x64, .f32⟩
  | 37 => ⟨S64x64, .f32⟩
  | 38 => ⟨S1x64, .f32⟩
  | 39 => ⟨S64, .f32⟩
  | 40 => ⟨S1x64, .f32⟩
  | 41 => ⟨S1x64, .f32⟩
  | 42 => ⟨S100000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S100000x64, .f32⟩
  | 56 => ⟨S100000x64, .f32⟩
  | 57 => ⟨S100000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S64, .f32⟩
  | 73 => ⟨S1x64, .f32⟩
  | 74 => ⟨S64, .f32⟩
  | 75 => ⟨S1x64, .f32⟩
  | 76 => ⟨S_, .f32⟩
  | 77 => ⟨S64, .f32⟩
  | 78 => ⟨S64, .f32⟩
  | 79 => ⟨S64, .f32⟩
  | 80 => ⟨S1x64, .f32⟩
  | 81 => ⟨S1x64, .f32⟩
  | 82 => ⟨S1x64, .f32⟩
  | 83 => ⟨S100000x64, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1, .i32⟩
  | 93 => ⟨S_, .i32⟩
  | 94 => ⟨S1000000x1, .i32⟩
  | 95 => ⟨S1000000x1, .i1⟩
  | 96 => ⟨S1x1, .i32⟩
  | 97 => ⟨S1000000x1, .i32⟩
  | 98 => ⟨S1000000x1, .i1⟩
  | 99 => ⟨S1000000x1, .i1⟩
  | 100 => ⟨S_, .i1⟩
  | 101 => ⟨S1000000, .i1⟩
  | 102 => ⟨S1000000x64, .f32⟩
  | 103 => ⟨S1000000x64, .i1⟩
  | 104 => ⟨S_, .f32⟩
  | 105 => ⟨S1000000x64, .f32⟩
  | 106 => ⟨S1000000x64, .f32⟩
  | 107 => ⟨S1x7x64, .f32⟩
  | 108 => ⟨S7x64, .f32⟩
  | 109 => ⟨S1x64, .f32⟩
  | 110 => ⟨S64, .f32⟩
  | 111 => ⟨S1x64, .f32⟩
  | 112 => ⟨S1000000x64, .f32⟩
  | 113 => ⟨S_, .f32⟩
  | 114 => ⟨S100000x64, .f32⟩
  | 115 => ⟨S1000000x1, .i32⟩
  | 116 => ⟨S100000x64, .f32⟩
  | 117 => ⟨S1x64x64, .f32⟩
  | 118 => ⟨S64x64, .f32⟩
  | 119 => ⟨S1x64, .f32⟩
  | 120 => ⟨S64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S1x64, .f32⟩
  | 127 => ⟨S100000x64, .f32⟩
  | _ => ⟨S100000, .i32⟩

abbrev hbmTy0_2 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S64, .f32⟩
  | 30 => ⟨S1x64, .f32⟩
  | 31 => ⟨S64, .f32⟩
  | 32 => ⟨S1x64, .f32⟩
  | 33 => ⟨S_, .f32⟩
  | 34 => ⟨S64, .f32⟩
  | 35 => ⟨S64, .f32⟩
  | 36 => ⟨S64, .f32⟩
  | 37 => ⟨S1x64, .f32⟩
  | 38 => ⟨S1x64, .f32⟩
  | 39 => ⟨S1x64, .f32⟩
  | 40 => ⟨S100000x64, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1, .i32⟩
  | 50 => ⟨S_, .i32⟩
  | 51 => ⟨S1000000x1, .i32⟩
  | 52 => ⟨S1000000x1, .i1⟩
  | 53 => ⟨S1x1, .i32⟩
  | 54 => ⟨S1000000x1, .i32⟩
  | 55 => ⟨S1000000x1, .i1⟩
  | 56 => ⟨S1000000x1, .i1⟩
  | 57 => ⟨S_, .i1⟩
  | 58 => ⟨S1000000, .i1⟩
  | 59 => ⟨S1000000x64, .f32⟩
  | 60 => ⟨S1000000x64, .i1⟩
  | 61 => ⟨S_, .f32⟩
  | 62 => ⟨S1000000x64, .f32⟩
  | 63 => ⟨S1000000x64, .f32⟩
  | 64 => ⟨S1x7x64, .f32⟩
  | 65 => ⟨S7x64, .f32⟩
  | 66 => ⟨S1x64, .f32⟩
  | 67 => ⟨S64, .f32⟩
  | 68 => ⟨S1x64, .f32⟩
  | 69 => ⟨S1000000x64, .f32⟩
  | 70 => ⟨S_, .f32⟩
  | 71 => ⟨S100000x64, .f32⟩
  | 72 => ⟨S1000000x1, .i32⟩
  | 73 => ⟨S100000x64, .f32⟩
  | 74 => ⟨S1x64x64, .f32⟩
  | 75 => ⟨S64x64, .f32⟩
  | 76 => ⟨S1x64, .f32⟩
  | 77 => ⟨S64, .f32⟩
  | 78 => ⟨S1x64x64, .f32⟩
  | 79 => ⟨S64x64, .f32⟩
  | 80 => ⟨S1x64, .f32⟩
  | 81 => ⟨S64, .f32⟩
  | 82 => ⟨S1x64, .f32⟩
  | 83 => ⟨S1x64, .f32⟩
  | 84 => ⟨S100000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S_, .f32⟩
  | 119 => ⟨S64, .f32⟩
  | 120 => ⟨S64, .f32⟩
  | 121 => ⟨S64, .f32⟩
  | 122 => ⟨S1x64, .f32⟩
  | 123 => ⟨S1x64, .f32⟩
  | 124 => ⟨S1x64, .f32⟩
  | 125 => ⟨S100000x64, .f32⟩
  | 126 => ⟨S_, .i32⟩
  | 127 => ⟨S1000000, .i32⟩
  | _ => ⟨S100000, .i32⟩

abbrev hbmTy0_3 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1, .i32⟩
  | 7 => ⟨S_, .i32⟩
  | 8 => ⟨S1000000x1, .i32⟩
  | 9 => ⟨S1000000x1, .i1⟩
  | 10 => ⟨S1x1, .i32⟩
  | 11 => ⟨S1000000x1, .i32⟩
  | 12 => ⟨S1000000x1, .i1⟩
  | 13 => ⟨S1000000x1, .i1⟩
  | 14 => ⟨S_, .i1⟩
  | 15 => ⟨S1000000, .i1⟩
  | 16 => ⟨S1000000x64, .f32⟩
  | 17 => ⟨S1000000x64, .i1⟩
  | 18 => ⟨S_, .f32⟩
  | 19 => ⟨S1000000x64, .f32⟩
  | 20 => ⟨S1000000x64, .f32⟩
  | 21 => ⟨S1x7x64, .f32⟩
  | 22 => ⟨S7x64, .f32⟩
  | 23 => ⟨S1x64, .f32⟩
  | 24 => ⟨S64, .f32⟩
  | 25 => ⟨S1x64, .f32⟩
  | 26 => ⟨S1000000x64, .f32⟩
  | 27 => ⟨S_, .f32⟩
  | 28 => ⟨S100000x64, .f32⟩
  | 29 => ⟨S1000000x1, .i32⟩
  | 30 => ⟨S100000x64, .f32⟩
  | 31 => ⟨S1x64x64, .f32⟩
  | 32 => ⟨S64x64, .f32⟩
  | 33 => ⟨S1x64, .f32⟩
  | 34 => ⟨S64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S1x64, .f32⟩
  | 41 => ⟨S100000x64, .f32⟩
  | 42 => ⟨S_, .f32⟩
  | 43 => ⟨S64, .f32⟩
  | 44 => ⟨S_, .f32⟩
  | 45 => ⟨S64, .f32⟩
  | 46 => ⟨S64, .f32⟩
  | 47 => ⟨S_, .i32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S100000x64, .f32⟩
  | 55 => ⟨S100000x64, .f32⟩
  | 56 => ⟨S100000x64, .f32⟩
  | 57 => ⟨S_, .f32⟩
  | 58 => ⟨S_, .f32⟩
  | 59 => ⟨S_, .f32⟩
  | 60 => ⟨S_, .f32⟩
  | 61 => ⟨S64, .f32⟩
  | 62 => ⟨S64, .f32⟩
  | 63 => ⟨S64, .f32⟩
  | 64 => ⟨S_, .f32⟩
  | 65 => ⟨S_, .i1⟩
  | 66 => ⟨S_, .f32⟩
  | 67 => ⟨S_, .f32⟩
  | 68 => ⟨S64, .f32⟩
  | 69 => ⟨S64, .f32⟩
  | 70 => ⟨S1x64, .f32⟩
  | 71 => ⟨S64, .f32⟩
  | 72 => ⟨S1x64, .f32⟩
  | 73 => ⟨S64, .f32⟩
  | 74 => ⟨S1x64, .f32⟩
  | 75 => ⟨S_, .f32⟩
  | 76 => ⟨S64, .f32⟩
  | 77 => ⟨S64, .f32⟩
  | 78 => ⟨S64, .f32⟩
  | 79 => ⟨S1x64, .f32⟩
  | 80 => ⟨S1x64, .f32⟩
  | 81 => ⟨S1x64, .f32⟩
  | 82 => ⟨S100000x64, .f32⟩
  | 83 => ⟨S_, .f32⟩
  | 84 => ⟨S128x64, .f32⟩
  | 85 => ⟨S100000x1, .i32⟩
  | 86 => ⟨S128x64, .f32⟩
  | 87 => ⟨S_, .f32⟩
  | 88 => ⟨S100000, .f32⟩
  | 89 => ⟨S_, .f32⟩
  | 90 => ⟨S128, .f32⟩
  | 91 => ⟨S100000x1, .i32⟩
  | 92 => ⟨S128, .f32⟩
  | 93 => ⟨S_, .f32⟩
  | 94 => ⟨S128, .f32⟩
  | 95 => ⟨S128, .f32⟩
  | 96 => ⟨S128x1, .f32⟩
  | 97 => ⟨S128x64, .f32⟩
  | 98 => ⟨S128x64, .f32⟩
  | 99 => ⟨S128x10, .f32⟩
  | 100 => ⟨S1x10, .f32⟩
  | 101 => ⟨S128x10, .f32⟩
  | 102 => ⟨S128x10, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev vmemTy0_0 (i : Nat) : BufTy := match i % 128 with
  | 0 => ⟨S8000x64, .f32⟩
  | 1 => ⟨S8000x64, .f32⟩
  | 2 => ⟨S8000x7, .f32⟩
  | 3 => ⟨S8000x7, .f32⟩
  | 4 => ⟨S7x64, .f32⟩
  | 5 => ⟨S1x64, .f32⟩
  | 6 => ⟨S8000x64, .f32⟩
  | 7 => ⟨S8000x64, .f32⟩
  | 8 => ⟨S5000x64, .f32⟩
  | 9 => ⟨S5000x64, .f32⟩
  | 10 => ⟨S5000x64, .f32⟩
  | 11 => ⟨S5000x64, .f32⟩
  | 12 => ⟨S64x64, .f32⟩
  | 13 => ⟨S1x64, .f32⟩
  | 14 => ⟨S64x64, .f32⟩
  | 15 => ⟨S1x64, .f32⟩
  | 16 => ⟨S5000x64, .f32⟩
  | 17 => ⟨S5000x64, .f32⟩
  | 18 => ⟨S5000x64, .f32⟩
  | 19 => ⟨S5000x64, .f32⟩
  | 20 => ⟨S1x64, .f32⟩
  | 21 => ⟨S1x64, .f32⟩
  | 22 => ⟨S1x64, .f32⟩
  | 23 => ⟨S1x64, .f32⟩
  | 24 => ⟨S5000x64, .f32⟩
  | 25 => ⟨S5000x64, .f32⟩
  | 26 => ⟨S8000x64, .f32⟩
  | 27 => ⟨S8000x64, .f32⟩
  | 28 => ⟨S8000x7, .f32⟩
  | 29 => ⟨S8000x7, .f32⟩
  | 30 => ⟨S7x64, .f32⟩
  | 31 => ⟨S1x64, .f32⟩
  | 32 => ⟨S8000x64, .f32⟩
  | 33 => ⟨S8000x64, .f32⟩
  | 34 => ⟨S5000x64, .f32⟩
  | 35 => ⟨S5000x64, .f32⟩
  | 36 => ⟨S5000x64, .f32⟩
  | 37 => ⟨S5000x64, .f32⟩
  | 38 => ⟨S64x64, .f32⟩
  | 39 => ⟨S1x64, .f32⟩
  | 40 => ⟨S64x64, .f32⟩
  | 41 => ⟨S1x64, .f32⟩
  | 42 => ⟨S5000x64, .f32⟩
  | 43 => ⟨S5000x64, .f32⟩
  | 44 => ⟨S5000x64, .f32⟩
  | 45 => ⟨S5000x64, .f32⟩
  | 46 => ⟨S1x64, .f32⟩
  | 47 => ⟨S1x64, .f32⟩
  | 48 => ⟨S1x64, .f32⟩
  | 49 => ⟨S1x64, .f32⟩
  | 50 => ⟨S5000x64, .f32⟩
  | 51 => ⟨S5000x64, .f32⟩
  | 52 => ⟨S8000x64, .f32⟩
  | 53 => ⟨S8000x64, .f32⟩
  | 54 => ⟨S8000x7, .f32⟩
  | 55 => ⟨S8000x7, .f32⟩
  | 56 => ⟨S7x64, .f32⟩
  | 57 => ⟨S1x64, .f32⟩
  | 58 => ⟨S8000x64, .f32⟩
  | 59 => ⟨S8000x64, .f32⟩
  | 60 => ⟨S5000x64, .f32⟩
  | 61 => ⟨S5000x64, .f32⟩
  | 62 => ⟨S5000x64, .f32⟩
  | 63 => ⟨S5000x64, .f32⟩
  | 64 => ⟨S64x64, .f32⟩
  | 65 => ⟨S1x64, .f32⟩
  | 66 => ⟨S64x64, .f32⟩
  | 67 => ⟨S1x64, .f32⟩
  | 68 => ⟨S5000x64, .f32⟩
  | 69 => ⟨S5000x64, .f32⟩
  | 70 => ⟨S5000x64, .f32⟩
  | 71 => ⟨S5000x64, .f32⟩
  | 72 => ⟨S1x64, .f32⟩
  | 73 => ⟨S1x64, .f32⟩
  | 74 => ⟨S1x64, .f32⟩
  | 75 => ⟨S1x64, .f32⟩
  | 76 => ⟨S5000x64, .f32⟩
  | 77 => ⟨S5000x64, .f32⟩
  | 78 => ⟨S8000x64, .f32⟩
  | 79 => ⟨S8000x64, .f32⟩
  | 80 => ⟨S8000x7, .f32⟩
  | 81 => ⟨S8000x7, .f32⟩
  | 82 => ⟨S7x64, .f32⟩
  | 83 => ⟨S1x64, .f32⟩
  | 84 => ⟨S8000x64, .f32⟩
  | 85 => ⟨S8000x64, .f32⟩
  | 86 => ⟨S5000x64, .f32⟩
  | 87 => ⟨S5000x64, .f32⟩
  | 88 => ⟨S5000x64, .f32⟩
  | 89 => ⟨S5000x64, .f32⟩
  | 90 => ⟨S64x64, .f32⟩
  | 91 => ⟨S1x64, .f32⟩
  | 92 => ⟨S64x64, .f32⟩
  | 93 => ⟨S1x64, .f32⟩
  | 94 => ⟨S5000x64, .f32⟩
  | 95 => ⟨S5000x64, .f32⟩
  | 96 => ⟨S5000x64, .f32⟩
  | 97 => ⟨S5000x64, .f32⟩
  | 98 => ⟨S1x64, .f32⟩
  | 99 => ⟨S1x64, .f32⟩
  | 100 => ⟨S1x64, .f32⟩
  | 101 => ⟨S1x64, .f32⟩
  | 102 => ⟨S5000x64, .f32⟩
  | 103 => ⟨S5000x64, .f32⟩
  | 104 => ⟨S8000x64, .f32⟩
  | 105 => ⟨S8000x64, .f32⟩
  | 106 => ⟨S8000x7, .f32⟩
  | 107 => ⟨S8000x7, .f32⟩
  | 108 => ⟨S7x64, .f32⟩
  | 109 => ⟨S1x64, .f32⟩
  | 110 => ⟨S8000x64, .f32⟩
  | 111 => ⟨S8000x64, .f32⟩
  | 112 => ⟨S5000x64, .f32⟩
  | 113 => ⟨S5000x64, .f32⟩
  | 114 => ⟨S5000x64, .f32⟩
  | 115 => ⟨S5000x64, .f32⟩
  | 116 => ⟨S64x64, .f32⟩
  | 117 => ⟨S1x64, .f32⟩
  | 118 => ⟨S64x64, .f32⟩
  | 119 => ⟨S1x64, .f32⟩
  | 120 => ⟨S5000x64, .f32⟩
  | 121 => ⟨S5000x64, .f32⟩
  | 122 => ⟨S5000x64, .f32⟩
  | 123 => ⟨S5000x64, .f32⟩
  | 124 => ⟨S1x64, .f32⟩
  | 125 => ⟨S1x64, .f32⟩
  | 126 => ⟨S1x64, .f32⟩
  | 127 => ⟨S1x64, .f32⟩
  | _ => ⟨S100000, .i32⟩

abbrev vmemTy0_1 (i : Nat) : BufTy := match i % 128 with
  | 0 => ⟨S5000x64, .f32⟩
  | 1 => ⟨S5000x64, .f32⟩
  | _ => ⟨S100000, .i32⟩

abbrev vmemTy (i : Nat) : BufTy := match i / 128 with
  | 0 => vmemTy0_0 i
  | 1 => vmemTy0_1 i
  | _ => ⟨S100000, .i32⟩

abbrev bufTy : (tb : Table) → Fin (tcTables nBuf tb) → BufTy
  | .hbm, ⟨i, _⟩ => hbmTy i
  | .local _ .vmem, ⟨i, _⟩ => vmemTy i
  | _, _ => ⟨S100000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_cst : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_cst_0 : Ref sig .tc := ⟨.hbm, 86, rfl⟩
abbrev main_v26 : Ref sig .tc := ⟨.hbm, 87, rfl⟩
abbrev main_cst_1 : Ref sig .tc := ⟨.hbm, 88, rfl⟩
abbrev main_v27 : Ref sig .tc := ⟨.hbm, 89, rfl⟩
abbrev main_v28 : Ref sig .tc := ⟨.hbm, 90, rfl⟩
abbrev main_c : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_cst_3 : Ref sig .tc := ⟨.hbm, 108, rfl⟩
abbrev main_call2_v12 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_cst_2 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_cst_3 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_cst_4 : Ref sig .tc := ⟨.hbm, 171, rfl⟩
abbrev main_v63 : Ref sig .tc := ⟨.hbm, 172, rfl⟩
abbrev main_cst_5 : Ref sig .tc := ⟨.hbm, 173, rfl⟩
abbrev main_v64 : Ref sig .tc := ⟨.hbm, 174, rfl⟩
abbrev main_v65 : Ref sig .tc := ⟨.hbm, 175, rfl⟩
abbrev main_c_6 : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_cst_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_v6 : Ref sig .tc := ⟨.hbm, 185, rfl⟩
abbrev main_call4_v7 : Ref sig .tc := ⟨.hbm, 186, rfl⟩
abbrev main_call4_cst_1 : Ref sig .tc := ⟨.hbm, 187, rfl⟩
abbrev main_call4_v8 : Ref sig .tc := ⟨.hbm, 188, rfl⟩
abbrev main_call4_cst_2 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_cst_3 : Ref sig .tc := ⟨.hbm, 193, rfl⟩
abbrev main_call4_v12 : Ref sig .tc := ⟨.hbm, 194, rfl⟩
abbrev main_call4_cst_4 : Ref sig .tc := ⟨.hbm, 195, rfl⟩
abbrev main_call4_call0_v0 : Ref sig .tc := ⟨.hbm, 196, rfl⟩
abbrev main_call4_call0_v1 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_v71 : Ref sig .tc := ⟨.hbm, 203, rfl⟩
abbrev main_cst_7 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_v76 : Ref sig .tc := ⟨.hbm, 209, rfl⟩
abbrev main_v77 : Ref sig .tc := ⟨.hbm, 210, rfl⟩
abbrev main_v78 : Ref sig .tc := ⟨.hbm, 211, rfl⟩
abbrev main_call5_c : Ref sig .tc := ⟨.hbm, 212, rfl⟩
abbrev main_call5_v0 : Ref sig .tc := ⟨.hbm, 213, rfl⟩
abbrev main_call5_v1 : Ref sig .tc := ⟨.hbm, 214, rfl⟩
abbrev main_call5_c_0 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_call5_v5 : Ref sig .tc := ⟨.hbm, 219, rfl⟩
abbrev main_call5_c_1 : Ref sig .tc := ⟨.hbm, 220, rfl⟩
abbrev main_call5_c_2 : Ref sig .tc := ⟨.hbm, 221, rfl⟩
abbrev main_call5_v6 : Ref sig .tc := ⟨.hbm, 222, rfl⟩
abbrev main_call5_v7 : Ref sig .tc := ⟨.hbm, 223, rfl⟩
abbrev main_call5_v8 : Ref sig .tc := ⟨.hbm, 224, rfl⟩
abbrev main_call5_v9 : Ref sig .tc := ⟨.hbm, 225, rfl⟩
abbrev main_call5_v10 : Ref sig .tc := ⟨.hbm, 226, rfl⟩
abbrev main_call5_v11 : Ref sig .tc := ⟨.hbm, 227, rfl⟩
abbrev main_call5_c_3 : Ref sig .tc := ⟨.hbm, 228, rfl⟩
abbrev main_call5_v12 : Ref sig .tc := ⟨.hbm, 229, rfl⟩
abbrev main_call5_v13 : Ref sig .tc := ⟨.hbm, 230, rfl⟩
abbrev main_call5_v14 : Ref sig .tc := ⟨.hbm, 231, rfl⟩
abbrev main_call5_cst : Ref sig .tc := ⟨.hbm, 232, rfl⟩
abbrev main_call5_v15 : Ref sig .tc := ⟨.hbm, 233, rfl⟩
abbrev main_v79 : Ref sig .tc := ⟨.hbm, 234, rfl⟩
abbrev main_v80 : Ref sig .tc := ⟨.hbm, 235, rfl⟩
abbrev main_v81 : Ref sig .tc := ⟨.hbm, 236, rfl⟩
abbrev main_v82 : Ref sig .tc := ⟨.hbm, 237, rfl⟩
abbrev main_v83 : Ref sig .tc := ⟨.hbm, 238, rfl⟩
abbrev main_v84 : Ref sig .tc := ⟨.hbm, 239, rfl⟩
abbrev main_v85 : Ref sig .tc := ⟨.hbm, 240, rfl⟩
abbrev main_cst_8 : Ref sig .tc := ⟨.hbm, 241, rfl⟩
abbrev main_v86 : Ref sig .tc := ⟨.hbm, 242, rfl⟩
abbrev main_v87 : Ref sig .tc := ⟨.hbm, 243, rfl⟩
abbrev main_v88 : Ref sig .tc := ⟨.hbm, 244, rfl⟩
abbrev main_v89 : Ref sig .tc := ⟨.hbm, 245, rfl⟩
abbrev main_v90 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_v94 : Ref sig .tc := ⟨.hbm, 250, rfl⟩
abbrev main_v95 : Ref sig .tc := ⟨.hbm, 251, rfl⟩
abbrev main_v96 : Ref sig .tc := ⟨.hbm, 252, rfl⟩
abbrev main_v97 : Ref sig .tc := ⟨.hbm, 253, rfl⟩
abbrev main_v98 : Ref sig .tc := ⟨.hbm, 254, rfl⟩
abbrev main_v99 : Ref sig .tc := ⟨.hbm, 255, rfl⟩
abbrev main_cst_9 : Ref sig .tc := ⟨.hbm, 256, rfl⟩
abbrev main_v100 : Ref sig .tc := ⟨.hbm, 257, rfl⟩
abbrev main_cst_10 : Ref sig .tc := ⟨.hbm, 258, rfl⟩
abbrev main_v101 : Ref sig .tc := ⟨.hbm, 259, rfl⟩
abbrev main_v102 : Ref sig .tc := ⟨.hbm, 260, rfl⟩
abbrev main_c_11 : Ref sig .tc := ⟨.hbm, 261, rfl⟩
abbrev main_call6_cst : Ref sig .tc := ⟨.hbm, 262, rfl⟩
abbrev main_call6_v0 : Ref sig .tc := ⟨.hbm, 263, rfl⟩
abbrev main_call6_v1 : Ref sig .tc := ⟨.hbm, 264, rfl⟩
abbrev main_call6_cst_0 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_call6_v5 : Ref sig .tc := ⟨.hbm, 269, rfl⟩
abbrev main_call6_v6 : Ref sig .tc := ⟨.hbm, 270, rfl⟩
abbrev main_call6_v7 : Ref sig .tc := ⟨.hbm, 271, rfl⟩
abbrev main_call6_cst_1 : Ref sig .tc := ⟨.hbm, 272, rfl⟩
abbrev main_call6_v8 : Ref sig .tc := ⟨.hbm, 273, rfl⟩
abbrev main_call6_cst_2 : Ref sig .tc := ⟨.hbm, 274, rfl⟩
abbrev main_call6_v9 : Ref sig .tc := ⟨.hbm, 275, rfl⟩
abbrev main_call6_v10 : Ref sig .tc := ⟨.hbm, 276, rfl⟩
abbrev main_call6_v11 : Ref sig .tc := ⟨.hbm, 277, rfl⟩
abbrev main_call6_cst_3 : Ref sig .tc := ⟨.hbm, 278, rfl⟩
abbrev main_call6_v12 : Ref sig .tc := ⟨.hbm, 279, rfl⟩
abbrev main_call6_cst_4 : Ref sig .tc := ⟨.hbm, 280, rfl⟩
abbrev main_call6_call0_v0 : Ref sig .tc := ⟨.hbm, 281, rfl⟩
abbrev main_call6_call0_v1 : Ref sig .tc := ⟨.hbm, 282, rfl⟩
abbrev main_v103 : Ref sig .tc := ⟨.hbm, 283, rfl⟩
abbrev main_v104 : Ref sig .tc := ⟨.hbm, 284, rfl⟩
abbrev main_v105 : Ref sig .tc := ⟨.hbm, 285, rfl⟩
abbrev main_v106 : Ref sig .tc := ⟨.hbm, 286, rfl⟩
abbrev main_v107 : Ref sig .tc := ⟨.hbm, 287, rfl⟩
abbrev main_v108 : Ref sig .tc := ⟨.hbm, 288, rfl⟩
abbrev main_cst_12 : Ref sig .tc := ⟨.hbm, 289, rfl⟩
abbrev main_v109 : Ref sig .tc := ⟨.hbm, 290, rfl⟩
abbrev main_v110 : Ref sig .tc := ⟨.hbm, 291, rfl⟩
abbrev main_v111 : Ref sig .tc := ⟨.hbm, 292, rfl⟩
abbrev main_v112 : Ref sig .tc := ⟨.hbm, 293, rfl⟩
abbrev main_v113 : Ref sig .tc := ⟨.hbm, 294, rfl⟩
abbrev main_v114 : Ref sig .tc := ⟨.hbm, 295, rfl⟩
abbrev main_v115 : Ref sig .tc := ⟨.hbm, 296, rfl⟩
abbrev main_call7_c : Ref sig .tc := ⟨.hbm, 297, rfl⟩
abbrev main_call7_v0 : Ref sig .tc := ⟨.hbm, 298, rfl⟩
abbrev main_call7_v1 : Ref sig .tc := ⟨.hbm, 299, rfl⟩
abbrev main_call7_c_0 : Ref sig .tc := ⟨.hbm, 300, rfl⟩
abbrev main_call7_v2 : Ref sig .tc := ⟨.hbm, 301, rfl⟩
abbrev main_call7_v3 : Ref sig .tc := ⟨.hbm, 302, rfl⟩
abbrev main_call7_v4 : Ref sig .tc := ⟨.hbm, 303, rfl⟩
abbrev main_call7_v5 : Ref sig .tc := ⟨.hbm, 304, rfl⟩
abbrev main_call7_c_1 : Ref sig .tc := ⟨.hbm, 305, rfl⟩
abbrev main_call7_c_2 : Ref sig .tc := ⟨.hbm, 306, rfl⟩
abbrev main_call7_v6 : Ref sig .tc := ⟨.hbm, 307, rfl⟩
abbrev main_call7_v7 : Ref sig .tc := ⟨.hbm, 308, rfl⟩
abbrev main_call7_v8 : Ref sig .tc := ⟨.hbm, 309, rfl⟩
abbrev main_call7_v9 : Ref sig .tc := ⟨.hbm, 310, rfl⟩
abbrev main_call7_v10 : Ref sig .tc := ⟨.hbm, 311, rfl⟩
abbrev main_call7_v11 : Ref sig .tc := ⟨.hbm, 312, rfl⟩
abbrev main_call7_c_3 : Ref sig .tc := ⟨.hbm, 313, rfl⟩
abbrev main_call7_v12 : Ref sig .tc := ⟨.hbm, 314, rfl⟩
abbrev main_call7_v13 : Ref sig .tc := ⟨.hbm, 315, rfl⟩
abbrev main_call7_v14 : Ref sig .tc := ⟨.hbm, 316, rfl⟩
abbrev main_call7_cst : Ref sig .tc := ⟨.hbm, 317, rfl⟩
abbrev main_call7_v15 : Ref sig .tc := ⟨.hbm, 318, rfl⟩
abbrev main_v116 : Ref sig .tc := ⟨.hbm, 319, rfl⟩
abbrev main_v117 : Ref sig .tc := ⟨.hbm, 320, rfl⟩
abbrev main_v118 : Ref sig .tc := ⟨.hbm, 321, rfl⟩
abbrev main_v119 : Ref sig .tc := ⟨.hbm, 322, rfl⟩
abbrev main_v120 : Ref sig .tc := ⟨.hbm, 323, rfl⟩
abbrev main_v121 : Ref sig .tc := ⟨.hbm, 324, rfl⟩
abbrev main_v122 : Ref sig .tc := ⟨.hbm, 325, rfl⟩
abbrev main_cst_13 : Ref sig .tc := ⟨.hbm, 326, rfl⟩
abbrev main_v123 : Ref sig .tc := ⟨.hbm, 327, rfl⟩
abbrev main_v124 : Ref sig .tc := ⟨.hbm, 328, rfl⟩
abbrev main_v125 : Ref sig .tc := ⟨.hbm, 329, rfl⟩
abbrev main_v126 : Ref sig .tc := ⟨.hbm, 330, rfl⟩
abbrev main_v127 : Ref sig .tc := ⟨.hbm, 331, rfl⟩
abbrev main_v128 : Ref sig .tc := ⟨.hbm, 332, rfl⟩
abbrev main_v129 : Ref sig .tc := ⟨.hbm, 333, rfl⟩
abbrev main_v130 : Ref sig .tc := ⟨.hbm, 334, rfl⟩
abbrev main_v131 : Ref sig .tc := ⟨.hbm, 335, rfl⟩
abbrev main_v132 : Ref sig .tc := ⟨.hbm, 336, rfl⟩
abbrev main_v133 : Ref sig .tc := ⟨.hbm, 337, rfl⟩
abbrev main_v134 : Ref sig .tc := ⟨.hbm, 338, rfl⟩
abbrev main_v135 : Ref sig .tc := ⟨.hbm, 339, rfl⟩
abbrev main_v136 : Ref sig .tc := ⟨.hbm, 340, rfl⟩
abbrev main_cst_14 : Ref sig .tc := ⟨.hbm, 341, rfl⟩
abbrev main_v137 : Ref sig .tc := ⟨.hbm, 342, rfl⟩
abbrev main_cst_15 : Ref sig .tc := ⟨.hbm, 343, rfl⟩
abbrev main_v138 : Ref sig .tc := ⟨.hbm, 344, rfl⟩
abbrev main_v139 : Ref sig .tc := ⟨.hbm, 345, rfl⟩
abbrev main_c_16 : Ref sig .tc := ⟨.hbm, 346, rfl⟩
abbrev main_call8_cst : Ref sig .tc := ⟨.hbm, 347, rfl⟩
abbrev main_call8_v0 : Ref sig .tc := ⟨.hbm, 348, rfl⟩
abbrev main_call8_v1 : Ref sig .tc := ⟨.hbm, 349, rfl⟩
abbrev main_call8_cst_0 : Ref sig .tc := ⟨.hbm, 350, rfl⟩
abbrev main_call8_v2 : Ref sig .tc := ⟨.hbm, 351, rfl⟩
abbrev main_call8_v3 : Ref sig .tc := ⟨.hbm, 352, rfl⟩
abbrev main_call8_v4 : Ref sig .tc := ⟨.hbm, 353, rfl⟩
abbrev main_call8_v5 : Ref sig .tc := ⟨.hbm, 354, rfl⟩
abbrev main_call8_v6 : Ref sig .tc := ⟨.hbm, 355, rfl⟩
abbrev main_call8_v7 : Ref sig .tc := ⟨.hbm, 356, rfl⟩
abbrev main_call8_cst_1 : Ref sig .tc := ⟨.hbm, 357, rfl⟩
abbrev main_call8_v8 : Ref sig .tc := ⟨.hbm, 358, rfl⟩
abbrev main_call8_cst_2 : Ref sig .tc := ⟨.hbm, 359, rfl⟩
abbrev main_call8_v9 : Ref sig .tc := ⟨.hbm, 360, rfl⟩
abbrev main_call8_v10 : Ref sig .tc := ⟨.hbm, 361, rfl⟩
abbrev main_call8_v11 : Ref sig .tc := ⟨.hbm, 362, rfl⟩
abbrev main_call8_cst_3 : Ref sig .tc := ⟨.hbm, 363, rfl⟩
abbrev main_call8_v12 : Ref sig .tc := ⟨.hbm, 364, rfl⟩
abbrev main_call8_cst_4 : Ref sig .tc := ⟨.hbm, 365, rfl⟩
abbrev main_call8_call0_v0 : Ref sig .tc := ⟨.hbm, 366, rfl⟩
abbrev main_call8_call0_v1 : Ref sig .tc := ⟨.hbm, 367, rfl⟩
abbrev main_v140 : Ref sig .tc := ⟨.hbm, 368, rfl⟩
abbrev main_v141 : Ref sig .tc := ⟨.hbm, 369, rfl⟩
abbrev main_v142 : Ref sig .tc := ⟨.hbm, 370, rfl⟩
abbrev main_v143 : Ref sig .tc := ⟨.hbm, 371, rfl⟩
abbrev main_v144 : Ref sig .tc := ⟨.hbm, 372, rfl⟩
abbrev main_v145 : Ref sig .tc := ⟨.hbm, 373, rfl⟩
abbrev main_cst_17 : Ref sig .tc := ⟨.hbm, 374, rfl⟩
abbrev main_v146 : Ref sig .tc := ⟨.hbm, 375, rfl⟩
abbrev main_v147 : Ref sig .tc := ⟨.hbm, 376, rfl⟩
abbrev main_v148 : Ref sig .tc := ⟨.hbm, 377, rfl⟩
abbrev main_v149 : Ref sig .tc := ⟨.hbm, 378, rfl⟩
abbrev main_v150 : Ref sig .tc := ⟨.hbm, 379, rfl⟩
abbrev main_v151 : Ref sig .tc := ⟨.hbm, 380, rfl⟩
abbrev main_v152 : Ref sig .tc := ⟨.hbm, 381, rfl⟩
abbrev main_call9_c : Ref sig .tc := ⟨.hbm, 382, rfl⟩
abbrev main_call9_v0 : Ref sig .tc := ⟨.hbm, 383, rfl⟩
abbrev main_call9_v1 : Ref sig .tc := ⟨.hbm, 384, rfl⟩
abbrev main_call9_c_0 : Ref sig .tc := ⟨.hbm, 385, rfl⟩
abbrev main_call9_v2 : Ref sig .tc := ⟨.hbm, 386, rfl⟩
abbrev main_call9_v3 : Ref sig .tc := ⟨.hbm, 387, rfl⟩
abbrev main_call9_v4 : Ref sig .tc := ⟨.hbm, 388, rfl⟩
abbrev main_call9_v5 : Ref sig .tc := ⟨.hbm, 389, rfl⟩
abbrev main_call9_c_1 : Ref sig .tc := ⟨.hbm, 390, rfl⟩
abbrev main_call9_c_2 : Ref sig .tc := ⟨.hbm, 391, rfl⟩
abbrev main_call9_v6 : Ref sig .tc := ⟨.hbm, 392, rfl⟩
abbrev main_call9_v7 : Ref sig .tc := ⟨.hbm, 393, rfl⟩
abbrev main_call9_v8 : Ref sig .tc := ⟨.hbm, 394, rfl⟩
abbrev main_call9_v9 : Ref sig .tc := ⟨.hbm, 395, rfl⟩
abbrev main_call9_v10 : Ref sig .tc := ⟨.hbm, 396, rfl⟩
abbrev main_call9_v11 : Ref sig .tc := ⟨.hbm, 397, rfl⟩
abbrev main_call9_c_3 : Ref sig .tc := ⟨.hbm, 398, rfl⟩
abbrev main_call9_v12 : Ref sig .tc := ⟨.hbm, 399, rfl⟩
abbrev main_call9_v13 : Ref sig .tc := ⟨.hbm, 400, rfl⟩
abbrev main_call9_v14 : Ref sig .tc := ⟨.hbm, 401, rfl⟩
abbrev main_call9_cst : Ref sig .tc := ⟨.hbm, 402, rfl⟩
abbrev main_call9_v15 : Ref sig .tc := ⟨.hbm, 403, rfl⟩
abbrev main_v153 : Ref sig .tc := ⟨.hbm, 404, rfl⟩
abbrev main_v154 : Ref sig .tc := ⟨.hbm, 405, rfl⟩
abbrev main_v155 : Ref sig .tc := ⟨.hbm, 406, rfl⟩
abbrev main_v156 : Ref sig .tc := ⟨.hbm, 407, rfl⟩
abbrev main_v157 : Ref sig .tc := ⟨.hbm, 408, rfl⟩
abbrev main_v158 : Ref sig .tc := ⟨.hbm, 409, rfl⟩
abbrev main_v159 : Ref sig .tc := ⟨.hbm, 410, rfl⟩
abbrev main_cst_18 : Ref sig .tc := ⟨.hbm, 411, rfl⟩
abbrev main_v160 : Ref sig .tc := ⟨.hbm, 412, rfl⟩
abbrev main_v161 : Ref sig .tc := ⟨.hbm, 413, rfl⟩
abbrev main_v162 : Ref sig .tc := ⟨.hbm, 414, rfl⟩
abbrev main_v163 : Ref sig .tc := ⟨.hbm, 415, rfl⟩
abbrev main_v164 : Ref sig .tc := ⟨.hbm, 416, rfl⟩
abbrev main_v165 : Ref sig .tc := ⟨.hbm, 417, rfl⟩
abbrev main_v166 : Ref sig .tc := ⟨.hbm, 418, rfl⟩
abbrev main_v167 : Ref sig .tc := ⟨.hbm, 419, rfl⟩
abbrev main_v168 : Ref sig .tc := ⟨.hbm, 420, rfl⟩
abbrev main_v169 : Ref sig .tc := ⟨.hbm, 421, rfl⟩
abbrev main_v170 : Ref sig .tc := ⟨.hbm, 422, rfl⟩
abbrev main_v171 : Ref sig .tc := ⟨.hbm, 423, rfl⟩
abbrev main_v172 : Ref sig .tc := ⟨.hbm, 424, rfl⟩
abbrev main_v173 : Ref sig .tc := ⟨.hbm, 425, rfl⟩
abbrev main_cst_19 : Ref sig .tc := ⟨.hbm, 426, rfl⟩
abbrev main_v174 : Ref sig .tc := ⟨.hbm, 427, rfl⟩
abbrev main_cst_20 : Ref sig .tc := ⟨.hbm, 428, rfl⟩
abbrev main_v175 : Ref sig .tc := ⟨.hbm, 429, rfl⟩
abbrev main_v176 : Ref sig .tc := ⟨.hbm, 430, rfl⟩
abbrev main_c_21 : Ref sig .tc := ⟨.hbm, 431, rfl⟩
abbrev main_call10_cst : Ref sig .tc := ⟨.hbm, 432, rfl⟩
abbrev main_call10_v0 : Ref sig .tc := ⟨.hbm, 433, rfl⟩
abbrev main_call10_v1 : Ref sig .tc := ⟨.hbm, 434, rfl⟩
abbrev main_call10_cst_0 : Ref sig .tc := ⟨.hbm, 435, rfl⟩
abbrev main_call10_v2 : Ref sig .tc := ⟨.hbm, 436, rfl⟩
abbrev main_call10_v3 : Ref sig .tc := ⟨.hbm, 437, rfl⟩
abbrev main_call10_v4 : Ref sig .tc := ⟨.hbm, 438, rfl⟩
abbrev main_call10_v5 : Ref sig .tc := ⟨.hbm, 439, rfl⟩
abbrev main_call10_v6 : Ref sig .tc := ⟨.hbm, 440, rfl⟩
abbrev main_call10_v7 : Ref sig .tc := ⟨.hbm, 441, rfl⟩
abbrev main_call10_cst_1 : Ref sig .tc := ⟨.hbm, 442, rfl⟩
abbrev main_call10_v8 : Ref sig .tc := ⟨.hbm, 443, rfl⟩
abbrev main_call10_cst_2 : Ref sig .tc := ⟨.hbm, 444, rfl⟩
abbrev main_call10_v9 : Ref sig .tc := ⟨.hbm, 445, rfl⟩
abbrev main_call10_v10 : Ref sig .tc := ⟨.hbm, 446, rfl⟩
abbrev main_call10_v11 : Ref sig .tc := ⟨.hbm, 447, rfl⟩
abbrev main_call10_cst_3 : Ref sig .tc := ⟨.hbm, 448, rfl⟩
abbrev main_call10_v12 : Ref sig .tc := ⟨.hbm, 449, rfl⟩
abbrev main_call10_cst_4 : Ref sig .tc := ⟨.hbm, 450, rfl⟩
abbrev main_call10_call0_v0 : Ref sig .tc := ⟨.hbm, 451, rfl⟩
abbrev main_call10_call0_v1 : Ref sig .tc := ⟨.hbm, 452, rfl⟩
abbrev main_v177 : Ref sig .tc := ⟨.hbm, 453, rfl⟩
abbrev main_v178 : Ref sig .tc := ⟨.hbm, 454, rfl⟩
abbrev main_v179 : Ref sig .tc := ⟨.hbm, 455, rfl⟩
abbrev main_v180 : Ref sig .tc := ⟨.hbm, 456, rfl⟩
abbrev main_v181 : Ref sig .tc := ⟨.hbm, 457, rfl⟩
abbrev main_v182 : Ref sig .tc := ⟨.hbm, 458, rfl⟩
abbrev main_cst_22 : Ref sig .tc := ⟨.hbm, 459, rfl⟩
abbrev main_v183 : Ref sig .tc := ⟨.hbm, 460, rfl⟩
abbrev main_v184 : Ref sig .tc := ⟨.hbm, 461, rfl⟩
abbrev main_v185 : Ref sig .tc := ⟨.hbm, 462, rfl⟩
abbrev main_v186 : Ref sig .tc := ⟨.hbm, 463, rfl⟩
abbrev main_v187 : Ref sig .tc := ⟨.hbm, 464, rfl⟩
abbrev main_v188 : Ref sig .tc := ⟨.hbm, 465, rfl⟩
abbrev main_v189 : Ref sig .tc := ⟨.hbm, 466, rfl⟩
abbrev main_cst_23 : Ref sig .tc := ⟨.hbm, 467, rfl⟩
abbrev main_v190 : Ref sig .tc := ⟨.hbm, 468, rfl⟩
abbrev main_v191 : Ref sig .tc := ⟨.hbm, 469, rfl⟩
abbrev main_v192 : Ref sig .tc := ⟨.hbm, 470, rfl⟩
abbrev main_cst_24 : Ref sig .tc := ⟨.hbm, 471, rfl⟩
abbrev main_v193 : Ref sig .tc := ⟨.hbm, 472, rfl⟩
abbrev main_cst_25 : Ref sig .tc := ⟨.hbm, 473, rfl⟩
abbrev main_v194 : Ref sig .tc := ⟨.hbm, 474, rfl⟩
abbrev main_v195 : Ref sig .tc := ⟨.hbm, 475, rfl⟩
abbrev main_v196 : Ref sig .tc := ⟨.hbm, 476, rfl⟩
abbrev main_cst_26 : Ref sig .tc := ⟨.hbm, 477, rfl⟩
abbrev main_v197 : Ref sig .tc := ⟨.hbm, 478, rfl⟩
abbrev main_v198 : Ref sig .tc := ⟨.hbm, 479, rfl⟩
abbrev main_v199 : Ref sig .tc := ⟨.hbm, 480, rfl⟩
abbrev main_v200 : Ref sig .tc := ⟨.hbm, 481, rfl⟩
abbrev main_v201 : Ref sig .tc := ⟨.hbm, 482, rfl⟩
abbrev main_v202 : Ref sig .tc := ⟨.hbm, 483, rfl⟩
abbrev main_v203 : Ref sig .tc := ⟨.hbm, 484, rfl⟩
abbrev main_v204 : Ref sig .tc := ⟨.hbm, 485, rfl⟩
abbrev main_v205 : Ref sig .tc := ⟨.hbm, 486, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg6_0 : Ref sig .tc := ⟨.vmem, 68, rfl⟩
abbrev cc7_stg6_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc9_stg3_0 : Ref sig .tc := ⟨.vmem, 83, rfl⟩
abbrev cc9_stg4_0 : Ref sig .tc := ⟨.vmem, 84, rfl⟩
abbrev cc9_stg4_1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg1_1 : Ref sig .tc := ⟨.vmem, 89, rfl⟩
abbrev cc10_stg2_0 : Ref sig .tc := ⟨.vmem, 90, rfl⟩
abbrev cc10_stg3_0 : Ref sig .tc := ⟨.vmem, 91, rfl⟩
abbrev cc10_stg4_0 : Ref sig .tc := ⟨.vmem, 92, rfl⟩
abbrev cc10_stg5_0 : Ref sig .tc := ⟨.vmem, 93, rfl⟩
abbrev cc10_stg6_0 : Ref sig .tc := ⟨.vmem, 94, rfl⟩
abbrev cc10_stg6_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg2_0 : Ref sig .tc := ⟨.vmem, 99, rfl⟩
abbrev cc11_stg3_0 : Ref sig .tc := ⟨.vmem, 100, rfl⟩
abbrev cc11_stg4_0 : Ref sig .tc := ⟨.vmem, 101, rfl⟩
abbrev cc11_stg5_0 : Ref sig .tc := ⟨.vmem, 102, rfl⟩
abbrev cc11_stg5_1 : Ref sig .tc := ⟨.vmem, 103, rfl⟩
abbrev cc12_stg0_0 : Ref sig .tc := ⟨.vmem, 104, rfl⟩
abbrev cc12_stg0_1 : Ref sig .tc := ⟨.vmem, 105, rfl⟩
abbrev cc12_stg1_0 : Ref sig .tc := ⟨.vmem, 106, rfl⟩
abbrev cc12_stg1_1 : Ref sig .tc := ⟨.vmem, 107, rfl⟩
abbrev cc12_stg2_0 : Ref sig .tc := ⟨.vmem, 108, rfl⟩
abbrev cc12_stg3_0 : Ref sig .tc := ⟨.vmem, 109, rfl⟩
abbrev cc12_stg4_0 : Ref sig .tc := ⟨.vmem, 110, rfl⟩
abbrev cc12_stg4_1 : Ref sig .tc := ⟨.vmem, 111, rfl⟩
abbrev cc13_stg0_0 : Ref sig .tc := ⟨.vmem, 112, rfl⟩
abbrev cc13_stg0_1 : Ref sig .tc := ⟨.vmem, 113, rfl⟩
abbrev cc13_stg1_0 : Ref sig .tc := ⟨.vmem, 114, rfl⟩
abbrev cc13_stg1_1 : Ref sig .tc := ⟨.vmem, 115, rfl⟩
abbrev cc13_stg2_0 : Ref sig .tc := ⟨.vmem, 116, rfl⟩
abbrev cc13_stg3_0 : Ref sig .tc := ⟨.vmem, 117, rfl⟩
abbrev cc13_stg4_0 : Ref sig .tc := ⟨.vmem, 118, rfl⟩
abbrev cc13_stg5_0 : Ref sig .tc := ⟨.vmem, 119, rfl⟩
abbrev cc13_stg6_0 : Ref sig .tc := ⟨.vmem, 120, rfl⟩
abbrev cc13_stg6_1 : Ref sig .tc := ⟨.vmem, 121, rfl⟩
abbrev cc14_stg0_0 : Ref sig .tc := ⟨.vmem, 122, rfl⟩
abbrev cc14_stg0_1 : Ref sig .tc := ⟨.vmem, 123, rfl⟩
abbrev cc14_stg1_0 : Ref sig .tc := ⟨.vmem, 124, rfl⟩
abbrev cc14_stg2_0 : Ref sig .tc := ⟨.vmem, 125, rfl⟩
abbrev cc14_stg3_0 : Ref sig .tc := ⟨.vmem, 126, rfl⟩
abbrev cc14_stg4_0 : Ref sig .tc := ⟨.vmem, 127, rfl⟩
abbrev cc14_stg5_0 : Ref sig .tc := ⟨.vmem, 128, rfl⟩
abbrev cc14_stg5_1 : Ref sig .tc := ⟨.vmem, 129, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65
abbrev cc7_sem4_0 : DmaSem sig := 66
abbrev cc7_sem5_0 : DmaSem sig := 67
abbrev cc7_sem6_0 : DmaSem sig := 68
abbrev cc7_sem6_1 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem3_0 : DmaSem sig := 83
abbrev cc9_sem4_0 : DmaSem sig := 84
abbrev cc9_sem4_1 : DmaSem sig := 85
abbrev cc10_sem0_0 : DmaSem sig := 86
abbrev cc10_sem0_1 : DmaSem sig := 87
abbrev cc10_sem1_0 : DmaSem sig := 88
abbrev cc10_sem1_1 : DmaSem sig := 89
abbrev cc10_sem2_0 : DmaSem sig := 90
abbrev cc10_sem3_0 : DmaSem sig := 91
abbrev cc10_sem4_0 : DmaSem sig := 92
abbrev cc10_sem5_0 : DmaSem sig := 93
abbrev cc10_sem6_0 : DmaSem sig := 94
abbrev cc10_sem6_1 : DmaSem sig := 95
abbrev cc11_sem0_0 : DmaSem sig := 96
abbrev cc11_sem0_1 : DmaSem sig := 97
abbrev cc11_sem1_0 : DmaSem sig := 98
abbrev cc11_sem2_0 : DmaSem sig := 99
abbrev cc11_sem3_0 : DmaSem sig := 100
abbrev cc11_sem4_0 : DmaSem sig := 101
abbrev cc11_sem5_0 : DmaSem sig := 102
abbrev cc11_sem5_1 : DmaSem sig := 103
abbrev cc12_sem0_0 : DmaSem sig := 104
abbrev cc12_sem0_1 : DmaSem sig := 105
abbrev cc12_sem1_0 : DmaSem sig := 106
abbrev cc12_sem1_1 : DmaSem sig := 107
abbrev cc12_sem2_0 : DmaSem sig := 108
abbrev cc12_sem3_0 : DmaSem sig := 109
abbrev cc12_sem4_0 : DmaSem sig := 110
abbrev cc12_sem4_1 : DmaSem sig := 111
abbrev cc13_sem0_0 : DmaSem sig := 112
abbrev cc13_sem0_1 : DmaSem sig := 113
abbrev cc13_sem1_0 : DmaSem sig := 114
abbrev cc13_sem1_1 : DmaSem sig := 115
abbrev cc13_sem2_0 : DmaSem sig := 116
abbrev cc13_sem3_0 : DmaSem sig := 117
abbrev cc13_sem4_0 : DmaSem sig := 118
abbrev cc13_sem5_0 : DmaSem sig := 119
abbrev cc13_sem6_0 : DmaSem sig := 120
abbrev cc13_sem6_1 : DmaSem sig := 121
abbrev cc14_sem0_0 : DmaSem sig := 122
abbrev cc14_sem0_1 : DmaSem sig := 123
abbrev cc14_sem1_0 : DmaSem sig := 124
abbrev cc14_sem2_0 : DmaSem sig := 125
abbrev cc14_sem3_0 : DmaSem sig := 126
abbrev cc14_sem4_0 : DmaSem sig := 127
abbrev cc14_sem5_0 : DmaSem sig := 128
abbrev cc14_sem5_1 : DmaSem sig := 129

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x7 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S7x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x7 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S7x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S8000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![125], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x7 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S7x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S8000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![125], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8000x7 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S7x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S8000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S64x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S5000x64 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S5x7x64_S1x7x64_0_0_0 : S5x7x64.Slices ![0, 0, 0] S1x7x64
  shapeCasts_S1x7x64_S7x64 : S1x7x64.ShapeCasts S7x64
  slices_S5x64_S1x64_0_0 : S5x64.Slices ![0, 0] S1x64
  shapeCasts_S1x64_S64 : S1x64.ShapeCasts S64
  shapeCasts_S64_S1x64 : S64.ShapeCasts S1x64
  inb_S8000x7_S8000x7_0_0 : ∀ a, (![0, 0] : Fin 2 → Nat) a + S8000x7.size a ≤ S8000x7.size a
  h_S8000x7 : 0 < S8000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  shapeCasts_S7x64_S7x64 : S7x64.ShapeCasts S7x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  slices_S5x64x64_S1x64x64_0_0_0 : S5x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S5x7x64_S1x7x64_1_0_0 : S5x7x64.Slices ![1, 0, 0] S1x7x64
  slices_S5x64_S1x64_1_0 : S5x64.Slices ![1, 0] S1x64
  slices_S5x64x64_S1x64x64_1_0_0 : S5x64x64.Slices ![1, 0, 0] S1x64x64
  slices_S5x7x64_S1x7x64_2_0_0 : S5x7x64.Slices ![2, 0, 0] S1x7x64
  slices_S5x64_S1x64_2_0 : S5x64.Slices ![2, 0] S1x64
  slices_S5x64x64_S1x64x64_2_0_0 : S5x64x64.Slices ![2, 0, 0] S1x64x64
  slices_S5x7x64_S1x7x64_3_0_0 : S5x7x64.Slices ![3, 0, 0] S1x7x64
  slices_S5x64_S1x64_3_0 : S5x64.Slices ![3, 0] S1x64
  slices_S5x64x64_S1x64x64_3_0_0 : S5x64x64.Slices ![3, 0, 0] S1x64x64
  slices_S5x7x64_S1x7x64_4_0_0 : S5x7x64.Slices ![4, 0, 0] S1x7x64
  slices_S5x64_S1x64_4_0 : S5x64.Slices ![4, 0] S1x64
  slices_S5x64x64_S1x64x64_4_0_0 : S5x64x64.Slices ![4, 0, 0] S1x64x64
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S1x64_S100000x1_S100000x64_1_0_n_n_0_1_164_wf : GatherDims.WF S1x64 S100000x1 S100000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S8000x7_S7x64_S8000x64_1_0_0_1_n_n_wf : DotDims.WF S8000x7 S7x64 S8000x64 [1] [0] [0] [1] [] []
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x7.size a ≤ S1000000x7.size a
  hwx0_1 : ∀ i : grid0.Coords, EltTy.bits .f32 = 32 ∨ (Rect.block (s := S1000000x7) S8000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x64.size a ≤ S7x64.size a
  hwx0_2 : ∀ i : grid0.Coords, EltTy.bits .f32 = 32 ∨ (Rect.block (s := S7x64) S7x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1000000x64.size a
  hwx0_4 : ∀ i : grid0.Coords, EltTy.bits .f32 = 32 ∨ (Rect.block (s := S1000000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1000000x64.size a
  hwx3_0 : ∀ i : grid3.Coords, EltTy.bits .f32 = 32 ∨ (Rect.block (s := S1000000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x7.size a ≤ S1000000x7.size a
  hwx3_1 : ∀ i : grid3.Coords, EltTy.bits .f32 = 32 ∨ (Rect.block (s := S1000000x7) S8000x7.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S7x64.size a ≤ S7x64.size a
  hwx3_2 : ∀ i : grid3.Coords, EltTy.bits .f32 = 32 ∨ (Rect.block (s := S7x64) S7x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x64.size a ≤ S1000000x64.size a
  hwx3_4 : ∀ i : grid3.Coords, EltTy.bits .f32 = 32 ∨ (Rect.block (s := S1000000x64) S8000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S1000000x64.size a
  hwx6_0 : ∀ i : grid6.Coords, EltTy.bits .f32 = 32 ∨ (Rect.block (s := S1000000x64) S8000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x7.size a ≤ S1000000x7.size a
  hwx6_1 : ∀ i : grid6.Coords, EltTy.bits .f32 = 32 ∨ (Rect.block (s := S1000000x7) S8000x7.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S7x64.size a ≤ S7x64.size a
  hwx6_2 : ∀ i : grid6.Coords, EltTy.bits .f32 = 32 ∨ (Rect.block (s := S7x64) S7x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S8000x64.size a ≤ S1000000x64.size a
  hwx6_4 : ∀ i : grid6.Coords, EltTy.bits .f32 = 32 ∨ (Rect.block (s := S1000000x64) S8000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x64.size a ≤ S1000000x64.size a
  hwx9_0 : ∀ i : grid9.Coords, EltTy.bits .f32 = 32 ∨ (Rect.block (s := S1000000x64) S8000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x7.size a ≤ S1000000x7.size a
  hwx9_1 : ∀ i : grid9.Coords, EltTy.bits .f32 = 32 ∨ (Rect.block (s := S1000000x7) S8000x7.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S7x64.size a ≤ S7x64.size a
  hwx9_2 : ∀ i : grid9.Coords, EltTy.bits .f32 = 32 ∨ (Rect.block (s := S7x64) S7x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S8000x64.size a ≤ S1000000x64.size a
  hwx9_4 : ∀ i : grid9.Coords, EltTy.bits .f32 = 32 ∨ (Rect.block (s := S1000000x64) S8000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S100000x64.size a
  hwx10_1 : ∀ i : grid10.Coords, EltTy.bits .f32 = 32 ∨ (Rect.block (s := S100000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x64.size a ≤ S64x64.size a
  hwx10_4 : ∀ i : grid10.Coords, EltTy.bits .f32 = 32 ∨ (Rect.block (s := S64x64) S64x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x64.size a ≤ S100000x64.size a
  hwx10_6 : ∀ i : grid10.Coords, EltTy.bits .f32 = 32 ∨ (Rect.block (s := S100000x64) S5000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S100000x64.size a
  hwx11_5 : ∀ i : grid11.Coords, EltTy.bits .f32 = 32 ∨ (Rect.block (s := S100000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8000x64.size a ≤ S1000000x64.size a
  hwx12_0 : ∀ i : grid12.Coords, EltTy.bits .f32 = 32 ∨ (Rect.block (s := S1000000x64) S8000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8000x7.size a ≤ S1000000x7.size a
  hwx12_1 : ∀ i : grid12.Coords, EltTy.bits .f32 = 32 ∨ (Rect.block (s := S1000000x7) S8000x7.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S7x64.size a ≤ S7x64.size a
  hwx12_2 : ∀ i : grid12.Coords, EltTy.bits .f32 = 32 ∨ (Rect.block (s := S7x64) S7x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S8000x64.size a ≤ S1000000x64.size a
  hwx12_4 : ∀ i : grid12.Coords, EltTy.bits .f32 = 32 ∨ (Rect.block (s := S1000000x64) S8000x64.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S100000x64.size a
  hwx13_1 : ∀ i : grid13.Coords, EltTy.bits .f32 = 32 ∨ (Rect.block (s := S100000x64) S5000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x64.size a ≤ S64x64.size a
  hwx13_2 : ∀ i : grid13.Coords, EltTy.bits .f32 = 32 ∨ (Rect.block (s := S64x64) S64x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S64x64.size a ≤ S64x64.size a
  hwx13_4 : ∀ i : grid13.Coords, EltTy.bits .f32 = 32 ∨ (Rect.block (s := S64x64) S64x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x64.size a ≤ S1x64.size a
  hwx13_5 : ∀ i : grid13.Coords, EltTy.bits .f32 = 32 ∨ (Rect.block (s := S1x64) S1x64.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S5000x64.size a ≤ S100000x64.size a
  hwx13_6 : ∀ i : grid13.Coords, EltTy.bits .f32 = 32 ∨ (Rect.block (s := S100000x64) S5000x64.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S100000x64.size a
  hwx14_0 : ∀ i : grid14.Coords, EltTy.bits .f32 = 32 ∨ (Rect.block (s := S100000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x64.size a ≤ S100000x64.size a
  hwx14_5 : ∀ i : grid14.Coords, EltTy.bits .f32 = 32 ∨ (Rect.block (s := S100000x64) S5000x64.size (cc14_transform_5 i) (hinb14_5 i)).WholeWords (EltTy.packing .f32)

variable [Facts₀]

def gather_S1x64_S100000x1_S100000x64_1_0_n_n_0_1_164 : GatherDims S1x64 S100000x1 S100000x64 where
  offsetDims := [1]
  collapsedSliceDims := [0]
  operandBatchingDims := []
  startIndicesBatchingDims := []
  startIndexMap := [0]
  indexVectorDim := 1
  sliceSizes := ![1, 64]
  wf := gather_S1x64_S100000x1_S100000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x7_S7x64_S8000x64_1_0_0_1_n_n : DotDims S8000x7 S7x64 S8000x64 where
  lhsContracting := [1]
  rhsContracting := [0]
  lhsNonContracting := [0]
  rhsNonContracting := [1]
  lhsBatch := []
  rhsBatch := []
  wf := dot_S8000x7_S7x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_v5) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S7x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S8000x7.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S7x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S8000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v41) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v61) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v62) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v78) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v79) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S8000x7.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81) S7x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v85) S8000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v78) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v90) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v98) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v99) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v99) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v108) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v112) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v113) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v114) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v115) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v116) S8000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg2) S8000x7.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v118) S7x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v121) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v122) S8000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v115) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v125) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v127) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v134) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v131) S64x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v135) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v136) S5000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v136) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v145) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v149) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v150) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v151) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v152) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v153) S8000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg2) S8000x7.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v155) S7x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v158) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v159) S8000x64.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v152) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v162) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v164) S64x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v171) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v168) S64x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v172) S1x64.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v173) S5000x64.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v173) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v182) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v186) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v187) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v188) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v189) S5000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S100000 : Shape := ⟨1, ![100000]⟩
abbrev S2x1000000 : Shape := ⟨2, ![2, 1000000]⟩
abbrev S1000000x7 : Shape := ⟨2, ![1000000, 7]⟩
abbrev S1x64 : Shape := ⟨2, ![1, 64]⟩
abbrev S5x7x64 : Shape := ⟨3, ![5, 7, 64]⟩
abbrev S5x64 : Shape := ⟨2, ![5, 64]⟩
abbrev S5x64x64 : Shape := ⟨3, ![5, 64, 64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S100000x1 : Shape := ⟨2, ![100000, 1]⟩
abbrev S100000x64 : Shape := ⟨2, ![100000, 64]⟩
abbrev S1x7x64 : Shape := ⟨3, ![1, 7, 64]⟩
abbrev S7x64 : Shape := ⟨2, ![7, 64]⟩
abbrev S1000000x64 : Shape := ⟨2, ![1000000, 64]⟩
abbrev S64 : Shape := ⟨1, ![64]⟩
abbrev S1000000x1 : Shape := ⟨2, ![1000000, 1]⟩
abbrev S1x64x64 : Shape := ⟨3, ![1, 64, 64]⟩
abbrev S64x64 : Shape := ⟨2, ![64, 64]⟩
abbrev S128x64 : Shape := ⟨2, ![128, 64]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 525
  | .vmem => 0
  | .smem => 0
  | _ => 0

abbrev hbmTy0_0 (i : Nat) : BufTy := match i % 128 with
  | 0 => ⟨S100000, .i32⟩
  | 1 => ⟨S2x1000000, .i32⟩
  | 2 => ⟨S1000000x7, .f32⟩
  | 3 => ⟨S100000, .i32⟩
  | 4 => ⟨S1x64, .f32⟩
  | 5 => ⟨S5x7x64, .f32⟩
  | 6 => ⟨S5x64, .f32⟩
  | 7 => ⟨S5x64x64, .f32⟩
  | 8 => ⟨S5x64, .f32⟩
  | 9 => ⟨S5x64x64, .f32⟩
  | 10 => ⟨S5x64, .f32⟩
  | 11 => ⟨S5x64, .f32⟩
  | 12 => ⟨S5x64, .f32⟩
  | 13 => ⟨S64x10, .f32⟩
  | 14 => ⟨S10, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x64, .f32⟩
  | 28 => ⟨S1x7x64, .f32⟩
  | 29 => ⟨S7x64, .f32⟩
  | 30 => ⟨S1000000x64, .f32⟩
  | 31 => ⟨S1x64, .f32⟩
  | 32 => ⟨S64, .f32⟩
  | 33 => ⟨S1x64, .f32⟩
  | 34 => ⟨S1000000x64, .f32⟩
  | 35 => ⟨S1000000x64, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .f32⟩
  | 45 => ⟨S1000000x64, .f32⟩
  | 46 => ⟨S_, .f32⟩
  | 47 => ⟨S1000000x64, .f32⟩
  | 48 => ⟨S1000000x64, .f32⟩
  | 49 => ⟨S_, .f32⟩
  | 50 => ⟨S100000x64, .f32⟩
  | 51 => ⟨S1000000x1, .i32⟩
  | 52 => ⟨S100000x64, .f32⟩
  | 53 => ⟨S100000x64, .f32⟩
  | 54 => ⟨S1x64x64, .f32⟩
  | 55 => ⟨S64x64, .f32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S_, .f32⟩
  | 76 => ⟨S64, .f32⟩
  | 77 => ⟨S64, .f32⟩
  | 78 => ⟨S_, .i32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S100000x64, .f32⟩
  | 86 => ⟨S100000x64, .f32⟩
  | 87 => ⟨S100000x64, .f32⟩
  | 88 => ⟨S_, .f32⟩
  | 89 => ⟨S_, .f32⟩
  | 90 => ⟨S_, .f32⟩
  | 91 => ⟨S_, .f32⟩
  | 92 => ⟨S64, .f32⟩
  | 93 => ⟨S64, .f32⟩
  | 94 => ⟨S64, .f32⟩
  | 95 => ⟨S_, .f32⟩
  | 96 => ⟨S_, .i1⟩
  | 97 => ⟨S_, .f32⟩
  | 98 => ⟨S_, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S1x7x64, .f32⟩
  | 125 => ⟨S7x64, .f32⟩
  | 126 => ⟨S1000000x64, .f32⟩
  | 127 => ⟨S1x64, .f32⟩
  | _ => ⟨S100000, .i32⟩

abbrev hbmTy0_1 (i : Nat) : BufTy := match i % 128 with
  | 0 => ⟨S64, .f32⟩
  | 1 => ⟨S1x64, .f32⟩
  | 2 => ⟨S1000000x64, .f32⟩
  | 3 => ⟨S1000000x64, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x64, .f32⟩
  | 13 => ⟨S1000000x64, .f32⟩
  | 14 => ⟨S_, .f32⟩
  | 15 => ⟨S1000000x64, .f32⟩
  | 16 => ⟨S1000000x64, .f32⟩
  | 17 => ⟨S_, .f32⟩
  | 18 => ⟨S100000x64, .f32⟩
  | 19 => ⟨S1000000x1, .i32⟩
  | 20 => ⟨S100000x64, .f32⟩
  | 21 => ⟨S100000x64, .f32⟩
  | 22 => ⟨S1x64x64, .f32⟩
  | 23 => ⟨S64x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S64, .f32⟩
  | 43 => ⟨S_, .f32⟩
  | 44 => ⟨S64, .f32⟩
  | 45 => ⟨S64, .f32⟩
  | 46 => ⟨S_, .i32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S_, .f32⟩
  | 58 => ⟨S_, .f32⟩
  | 59 => ⟨S_, .f32⟩
  | 60 => ⟨S64, .f32⟩
  | 61 => ⟨S64, .f32⟩
  | 62 => ⟨S64, .f32⟩
  | 63 => ⟨S_, .f32⟩
  | 64 => ⟨S_, .i1⟩
  | 65 => ⟨S_, .f32⟩
  | 66 => ⟨S_, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S1x64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S1x7x64, .f32⟩
  | 93 => ⟨S7x64, .f32⟩
  | 94 => ⟨S1000000x64, .f32⟩
  | 95 => ⟨S1x64, .f32⟩
  | 96 => ⟨S64, .f32⟩
  | 97 => ⟨S1x64, .f32⟩
  | 98 => ⟨S1000000x64, .f32⟩
  | 99 => ⟨S1000000x64, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x64, .f32⟩
  | 109 => ⟨S1000000x64, .f32⟩
  | 110 => ⟨S_, .f32⟩
  | 111 => ⟨S1000000x64, .f32⟩
  | 112 => ⟨S1000000x64, .f32⟩
  | 113 => ⟨S_, .f32⟩
  | 114 => ⟨S100000x64, .f32⟩
  | 115 => ⟨S1000000x1, .i32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000, .i32⟩

abbrev hbmTy0_2 (i : Nat) : BufTy := match i % 128 with
  | 0 => ⟨S100000x64, .f32⟩
  | 1 => ⟨S1x64x64, .f32⟩
  | 2 => ⟨S64x64, .f32⟩
  | 3 => ⟨S100000x64, .f32⟩
  | 4 => ⟨S1x64, .f32⟩
  | 5 => ⟨S64, .f32⟩
  | 6 => ⟨S1x64, .f32⟩
  | 7 => ⟨S100000x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S100000x64, .f32⟩
  | 22 => ⟨S100000x64, .f32⟩
  | 23 => ⟨S100000x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S64, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S1x64, .f32⟩
  | 53 => ⟨S64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S1x7x64, .f32⟩
  | 61 => ⟨S7x64, .f32⟩
  | 62 => ⟨S1000000x64, .f32⟩
  | 63 => ⟨S1x64, .f32⟩
  | 64 => ⟨S64, .f32⟩
  | 65 => ⟨S1x64, .f32⟩
  | 66 => ⟨S1000000x64, .f32⟩
  | 67 => ⟨S1000000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S1000000x64, .f32⟩
  | 78 => ⟨S_, .f32⟩
  | 79 => ⟨S1000000x64, .f32⟩
  | 80 => ⟨S1000000x64, .f32⟩
  | 81 => ⟨S_, .f32⟩
  | 82 => ⟨S100000x64, .f32⟩
  | 83 => ⟨S1000000x1, .i32⟩
  | 84 => ⟨S100000x64, .f32⟩
  | 85 => ⟨S100000x64, .f32⟩
  | 86 => ⟨S1x64x64, .f32⟩
  | 87 => ⟨S64x64, .f32⟩
  | 88 => ⟨S100000x64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S1x64x64, .f32⟩
  | 98 => ⟨S64x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S100000, .i32⟩

abbrev hbmTy0_3 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S1x64, .f32⟩
  | 16 => ⟨S64, .f32⟩
  | 17 => ⟨S1x64, .f32⟩
  | 18 => ⟨S100000x64, .f32⟩
  | 19 => ⟨S100000x64, .f32⟩
  | 20 => ⟨S1x64, .f32⟩
  | 21 => ⟨S64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S1x7x64, .f32⟩
  | 29 => ⟨S7x64, .f32⟩
  | 30 => ⟨S1000000x64, .f32⟩
  | 31 => ⟨S1x64, .f32⟩
  | 32 => ⟨S64, .f32⟩
  | 33 => ⟨S1x64, .f32⟩
  | 34 => ⟨S1000000x64, .f32⟩
  | 35 => ⟨S1000000x64, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .f32⟩
  | 45 => ⟨S1000000x64, .f32⟩
  | 46 => ⟨S_, .f32⟩
  | 47 => ⟨S1000000x64, .f32⟩
  | 48 => ⟨S1000000x64, .f32⟩
  | 49 => ⟨S_, .f32⟩
  | 50 => ⟨S100000x64, .f32⟩
  | 51 => ⟨S1000000x1, .i32⟩
  | 52 => ⟨S100000x64, .f32⟩
  | 53 => ⟨S100000x64, .f32⟩
  | 54 => ⟨S1x64x64, .f32⟩
  | 55 => ⟨S64x64, .f32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S_, .f32⟩
  | 76 => ⟨S64, .f32⟩
  | 77 => ⟨S64, .f32⟩
  | 78 => ⟨S_, .i32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S100000x64, .f32⟩
  | 86 => ⟨S100000x64, .f32⟩
  | 87 => ⟨S100000x64, .f32⟩
  | 88 => ⟨S_, .f32⟩
  | 89 => ⟨S_, .f32⟩
  | 90 => ⟨S_, .f32⟩
  | 91 => ⟨S_, .f32⟩
  | 92 => ⟨S64, .f32⟩
  | 93 => ⟨S64, .f32⟩
  | 94 => ⟨S64, .f32⟩
  | 95 => ⟨S_, .f32⟩
  | 96 => ⟨S_, .i1⟩
  | 97 => ⟨S_, .f32⟩
  | 98 => ⟨S_, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S64, .f32⟩
  | 118 => ⟨S1x64, .f32⟩
  | 119 => ⟨S100000x64, .f32⟩
  | 120 => ⟨S100000x64, .f32⟩
  | 121 => ⟨S_, .f32⟩
  | 122 => ⟨S128x64, .f32⟩
  | 123 => ⟨S100000x1, .i32⟩
  | 124 => ⟨S128x64, .f32⟩
  | 125 => ⟨S_, .f32⟩
  | 126 => ⟨S100000, .f32⟩
  | 127 => ⟨S_, .f32⟩
  | _ => ⟨S100000, .i32⟩

abbrev hbmTy0_4 (i : Nat) : BufTy := match i % 128 with
  | 0 => ⟨S128, .f32⟩
  | 1 => ⟨S100000x1, .i32⟩
  | 2 => ⟨S128, .f32⟩
  | 3 => ⟨S_, .f32⟩
  | 4 => ⟨S128, .f32⟩
  | 5 => ⟨S128, .f32⟩
  | 6 => ⟨S128x1, .f32⟩
  | 7 => ⟨S128x64, .f32⟩
  | 8 => ⟨S128x64, .f32⟩
  | 9 => ⟨S128x10, .f32⟩
  | 10 => ⟨S1x10, .f32⟩
  | 11 => ⟨S128x10, .f32⟩
  | 12 => ⟨S128x10, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_cst : Ref sig .tc := ⟨.hbm, 62, rfl⟩
abbrev main_call1_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_3 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_c_5 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_cst_3 : Ref sig .tc := ⟨.hbm, 95, rfl⟩
abbrev main_call2_v12 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_6 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_call3_cst : Ref sig .tc := ⟨.hbm, 121, rfl⟩
abbrev main_call3_v0 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_c_7 : Ref sig .tc := ⟨.hbm, 132, rfl⟩
abbrev main_v81 : Ref sig .tc := ⟨.hbm, 133, rfl⟩
abbrev main_v82 : Ref sig .tc := ⟨.hbm, 134, rfl⟩
abbrev main_c_8 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_call4_cst : Ref sig .tc := ⟨.hbm, 142, rfl⟩
abbrev main_call4_v0 : Ref sig .tc := ⟨.hbm, 143, rfl⟩
abbrev main_v89 : Ref sig .tc := ⟨.hbm, 144, rfl⟩
abbrev main_cst_9 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call5_cst : Ref sig .tc := ⟨.hbm, 158, rfl⟩
abbrev main_call5_v0 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_10 : Ref sig .tc := ⟨.hbm, 169, rfl⟩
abbrev main_v111 : Ref sig .tc := ⟨.hbm, 170, rfl⟩
abbrev main_cst_11 : Ref sig .tc := ⟨.hbm, 171, rfl⟩
abbrev main_v112 : Ref sig .tc := ⟨.hbm, 172, rfl⟩
abbrev main_v113 : Ref sig .tc := ⟨.hbm, 173, rfl⟩
abbrev main_c_12 : Ref sig .tc := ⟨.hbm, 174, rfl⟩
abbrev main_call6_cst : Ref sig .tc := ⟨.hbm, 175, rfl⟩
abbrev main_call6_v0 : Ref sig .tc := ⟨.hbm, 176, rfl⟩
abbrev main_call6_v1 : Ref sig .tc := ⟨.hbm, 177, rfl⟩
abbrev main_call6_cst_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_v6 : Ref sig .tc := ⟨.hbm, 183, rfl⟩
abbrev main_call6_v7 : Ref sig .tc := ⟨.hbm, 184, rfl⟩
abbrev main_call6_cst_1 : Ref sig .tc := ⟨.hbm, 185, rfl⟩
abbrev main_call6_v8 : Ref sig .tc := ⟨.hbm, 186, rfl⟩
abbrev main_call6_cst_2 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_cst_3 : Ref sig .tc := ⟨.hbm, 191, rfl⟩
abbrev main_call6_v12 : Ref sig .tc := ⟨.hbm, 192, rfl⟩
abbrev main_call6_cst_4 : Ref sig .tc := ⟨.hbm, 193, rfl⟩
abbrev main_call6_call0_v0 : Ref sig .tc := ⟨.hbm, 194, rfl⟩
abbrev main_call6_call0_v1 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_cst_13 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_call7_cst : Ref sig .tc := ⟨.hbm, 217, rfl⟩
abbrev main_call7_v0 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_c_14 : Ref sig .tc := ⟨.hbm, 228, rfl⟩
abbrev main_v143 : Ref sig .tc := ⟨.hbm, 229, rfl⟩
abbrev main_v144 : Ref sig .tc := ⟨.hbm, 230, rfl⟩
abbrev main_c_15 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_call8_cst : Ref sig .tc := ⟨.hbm, 238, rfl⟩
abbrev main_call8_v0 : Ref sig .tc := ⟨.hbm, 239, rfl⟩
abbrev main_v151 : Ref sig .tc := ⟨.hbm, 240, rfl⟩
abbrev main_cst_16 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_call9_cst : Ref sig .tc := ⟨.hbm, 254, rfl⟩
abbrev main_call9_v0 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_cst_17 : Ref sig .tc := ⟨.hbm, 265, rfl⟩
abbrev main_v173 : Ref sig .tc := ⟨.hbm, 266, rfl⟩
abbrev main_cst_18 : Ref sig .tc := ⟨.hbm, 267, rfl⟩
abbrev main_v174 : Ref sig .tc := ⟨.hbm, 268, rfl⟩
abbrev main_v175 : Ref sig .tc := ⟨.hbm, 269, rfl⟩
abbrev main_c_19 : Ref sig .tc := ⟨.hbm, 270, rfl⟩
abbrev main_call10_cst : Ref sig .tc := ⟨.hbm, 271, rfl⟩
abbrev main_call10_v0 : Ref sig .tc := ⟨.hbm, 272, rfl⟩
abbrev main_call10_v1 : Ref sig .tc := ⟨.hbm, 273, rfl⟩
abbrev main_call10_cst_0 : Ref sig .tc := ⟨.hbm, 274, rfl⟩
abbrev main_call10_v2 : Ref sig .tc := ⟨.hbm, 275, rfl⟩
abbrev main_call10_v3 : Ref sig .tc := ⟨.hbm, 276, rfl⟩
abbrev main_call10_v4 : Ref sig .tc := ⟨.hbm, 277, rfl⟩
abbrev main_call10_v5 : Ref sig .tc := ⟨.hbm, 278, rfl⟩
abbrev main_call10_v6 : Ref sig .tc := ⟨.hbm, 279, rfl⟩
abbrev main_call10_v7 : Ref sig .tc := ⟨.hbm, 280, rfl⟩
abbrev main_call10_cst_1 : Ref sig .tc := ⟨.hbm, 281, rfl⟩
abbrev main_call10_v8 : Ref sig .tc := ⟨.hbm, 282, rfl⟩
abbrev main_call10_cst_2 : Ref sig .tc := ⟨.hbm, 283, rfl⟩
abbrev main_call10_v9 : Ref sig .tc := ⟨.hbm, 284, rfl⟩
abbrev main_call10_v10 : Ref sig .tc := ⟨.hbm, 285, rfl⟩
abbrev main_call10_v11 : Ref sig .tc := ⟨.hbm, 286, rfl⟩
abbrev main_call10_cst_3 : Ref sig .tc := ⟨.hbm, 287, rfl⟩
abbrev main_call10_v12 : Ref sig .tc := ⟨.hbm, 288, rfl⟩
abbrev main_call10_cst_4 : Ref sig .tc := ⟨.hbm, 289, rfl⟩
abbrev main_call10_call0_v0 : Ref sig .tc := ⟨.hbm, 290, rfl⟩
abbrev main_call10_call0_v1 : Ref sig .tc := ⟨.hbm, 291, rfl⟩
abbrev main_v176 : Ref sig .tc := ⟨.hbm, 292, rfl⟩
abbrev main_v177 : Ref sig .tc := ⟨.hbm, 293, rfl⟩
abbrev main_v178 : Ref sig .tc := ⟨.hbm, 294, rfl⟩
abbrev main_v179 : Ref sig .tc := ⟨.hbm, 295, rfl⟩
abbrev main_cst_20 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_call11_cst : Ref sig .tc := ⟨.hbm, 313, rfl⟩
abbrev main_call11_v0 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_c_21 : Ref sig .tc := ⟨.hbm, 324, rfl⟩
abbrev main_v205 : Ref sig .tc := ⟨.hbm, 325, rfl⟩
abbrev main_v206 : Ref sig .tc := ⟨.hbm, 326, rfl⟩
abbrev main_c_22 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_call12_cst : Ref sig .tc := ⟨.hbm, 334, rfl⟩
abbrev main_call12_v0 : Ref sig .tc := ⟨.hbm, 335, rfl⟩
abbrev main_v213 : Ref sig .tc := ⟨.hbm, 336, rfl⟩
abbrev main_cst_23 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_v224 : Ref sig .tc := ⟨.hbm, 348, rfl⟩
abbrev main_v225 : Ref sig .tc := ⟨.hbm, 349, rfl⟩
abbrev main_call13_cst : Ref sig .tc := ⟨.hbm, 350, rfl⟩
abbrev main_call13_v0 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_cst_24 : Ref sig .tc := ⟨.hbm, 361, rfl⟩
abbrev main_v235 : Ref sig .tc := ⟨.hbm, 362, rfl⟩
abbrev main_cst_25 : Ref sig .tc := ⟨.hbm, 363, rfl⟩
abbrev main_v236 : Ref sig .tc := ⟨.hbm, 364, rfl⟩
abbrev main_v237 : Ref sig .tc := ⟨.hbm, 365, rfl⟩
abbrev main_c_26 : Ref sig .tc := ⟨.hbm, 366, rfl⟩
abbrev main_call14_cst : Ref sig .tc := ⟨.hbm, 367, rfl⟩
abbrev main_call14_v0 : Ref sig .tc := ⟨.hbm, 368, rfl⟩
abbrev main_call14_v1 : Ref sig .tc := ⟨.hbm, 369, rfl⟩
abbrev main_call14_cst_0 : Ref sig .tc := ⟨.hbm, 370, rfl⟩
abbrev main_call14_v2 : Ref sig .tc := ⟨.hbm, 371, rfl⟩
abbrev main_call14_v3 : Ref sig .tc := ⟨.hbm, 372, rfl⟩
abbrev main_call14_v4 : Ref sig .tc := ⟨.hbm, 373, rfl⟩
abbrev main_call14_v5 : Ref sig .tc := ⟨.hbm, 374, rfl⟩
abbrev main_call14_v6 : Ref sig .tc := ⟨.hbm, 375, rfl⟩
abbrev main_call14_v7 : Ref sig .tc := ⟨.hbm, 376, rfl⟩
abbrev main_call14_cst_1 : Ref sig .tc := ⟨.hbm, 377, rfl⟩
abbrev main_call14_v8 : Ref sig .tc := ⟨.hbm, 378, rfl⟩
abbrev main_call14_cst_2 : Ref sig .tc := ⟨.hbm, 379, rfl⟩
abbrev main_call14_v9 : Ref sig .tc := ⟨.hbm, 380, rfl⟩
abbrev main_call14_v10 : Ref sig .tc := ⟨.hbm, 381, rfl⟩
abbrev main_call14_v11 : Ref sig .tc := ⟨.hbm, 382, rfl⟩
abbrev main_call14_cst_3 : Ref sig .tc := ⟨.hbm, 383, rfl⟩
abbrev main_call14_v12 : Ref sig .tc := ⟨.hbm, 384, rfl⟩
abbrev main_call14_cst_4 : Ref sig .tc := ⟨.hbm, 385, rfl⟩
abbrev main_call14_call0_v0 : Ref sig .tc := ⟨.hbm, 386, rfl⟩
abbrev main_call14_call0_v1 : Ref sig .tc := ⟨.hbm, 387, rfl⟩
abbrev main_v238 : Ref sig .tc := ⟨.hbm, 388, rfl⟩
abbrev main_v239 : Ref sig .tc := ⟨.hbm, 389, rfl⟩
abbrev main_v240 : Ref sig .tc := ⟨.hbm, 390, rfl⟩
abbrev main_v241 : Ref sig .tc := ⟨.hbm, 391, rfl⟩
abbrev main_cst_27 : Ref sig .tc := ⟨.hbm, 392, rfl⟩
abbrev main_v242 : Ref sig .tc := ⟨.hbm, 393, rfl⟩
abbrev main_v243 : Ref sig .tc := ⟨.hbm, 394, rfl⟩
abbrev main_v244 : Ref sig .tc := ⟨.hbm, 395, rfl⟩
abbrev main_v245 : Ref sig .tc := ⟨.hbm, 396, rfl⟩
abbrev main_v246 : Ref sig .tc := ⟨.hbm, 397, rfl⟩
abbrev main_v247 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_call15_cst : Ref sig .tc := ⟨.hbm, 409, rfl⟩
abbrev main_call15_v0 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_v262 : Ref sig .tc := ⟨.hbm, 415, rfl⟩
abbrev main_v263 : Ref sig .tc := ⟨.hbm, 416, rfl⟩
abbrev main_v264 : Ref sig .tc := ⟨.hbm, 417, rfl⟩
abbrev main_v265 : Ref sig .tc := ⟨.hbm, 418, rfl⟩
abbrev main_v266 : Ref sig .tc := ⟨.hbm, 419, rfl⟩
abbrev main_c_28 : Ref sig .tc := ⟨.hbm, 420, rfl⟩
abbrev main_v267 : Ref sig .tc := ⟨.hbm, 421, rfl⟩
abbrev main_v268 : Ref sig .tc := ⟨.hbm, 422, rfl⟩
abbrev main_c_29 : Ref sig .tc := ⟨.hbm, 423, rfl⟩
abbrev main_v269 : Ref sig .tc := ⟨.hbm, 424, rfl⟩
abbrev main_v270 : Ref sig .tc := ⟨.hbm, 425, rfl⟩
abbrev main_v271 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_call16_cst : Ref sig .tc := ⟨.hbm, 430, rfl⟩
abbrev main_call16_v0 : Ref sig .tc := ⟨.hbm, 431, rfl⟩
abbrev main_v275 : Ref sig .tc := ⟨.hbm, 432, rfl⟩
abbrev main_cst_30 : Ref sig .tc := ⟨.hbm, 433, rfl⟩
abbrev main_v276 : Ref sig .tc := ⟨.hbm, 434, rfl⟩
abbrev main_v277 : Ref sig .tc := ⟨.hbm, 435, rfl⟩
abbrev main_v278 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_v286 : Ref sig .tc := ⟨.hbm, 444, rfl⟩
abbrev main_v287 : Ref sig .tc := ⟨.hbm, 445, rfl⟩
abbrev main_call17_cst : Ref sig .tc := ⟨.hbm, 446, rfl⟩
abbrev main_call17_v0 : Ref sig .tc := ⟨.hbm, 447, rfl⟩
abbrev main_v288 : Ref sig .tc := ⟨.hbm, 448, rfl⟩
abbrev main_v289 : Ref sig .tc := ⟨.hbm, 449, rfl⟩
abbrev main_v290 : Ref sig .tc := ⟨.hbm, 450, rfl⟩
abbrev main_v291 : Ref sig .tc := ⟨.hbm, 451, rfl⟩
abbrev main_v292 : Ref sig .tc := ⟨.hbm, 452, rfl⟩
abbrev main_v293 : Ref sig .tc := ⟨.hbm, 453, rfl⟩
abbrev main_v294 : Ref sig .tc := ⟨.hbm, 454, rfl⟩
abbrev main_v295 : Ref sig .tc := ⟨.hbm, 455, rfl⟩
abbrev main_v296 : Ref sig .tc := ⟨.hbm, 456, rfl⟩
abbrev main_cst_31 : Ref sig .tc := ⟨.hbm, 457, rfl⟩
abbrev main_v297 : Ref sig .tc := ⟨.hbm, 458, rfl⟩
abbrev main_cst_32 : Ref sig .tc := ⟨.hbm, 459, rfl⟩
abbrev main_v298 : Ref sig .tc := ⟨.hbm, 460, rfl⟩
abbrev main_v299 : Ref sig .tc := ⟨.hbm, 461, rfl⟩
abbrev main_c_33 : Ref sig .tc := ⟨.hbm, 462, rfl⟩
abbrev main_call18_cst : Ref sig .tc := ⟨.hbm, 463, rfl⟩
abbrev main_call18_v0 : Ref sig .tc := ⟨.hbm, 464, rfl⟩
abbrev main_call18_v1 : Ref sig .tc := ⟨.hbm, 465, rfl⟩
abbrev main_call18_cst_0 : Ref sig .tc := ⟨.hbm, 466, rfl⟩
abbrev main_call18_v2 : Ref sig .tc := ⟨.hbm, 467, rfl⟩
abbrev main_call18_v3 : Ref sig .tc := ⟨.hbm, 468, rfl⟩
abbrev main_call18_v4 : Ref sig .tc := ⟨.hbm, 469, rfl⟩
abbrev main_call18_v5 : Ref sig .tc := ⟨.hbm, 470, rfl⟩
abbrev main_call18_v6 : Ref sig .tc := ⟨.hbm, 471, rfl⟩
abbrev main_call18_v7 : Ref sig .tc := ⟨.hbm, 472, rfl⟩
abbrev main_call18_cst_1 : Ref sig .tc := ⟨.hbm, 473, rfl⟩
abbrev main_call18_v8 : Ref sig .tc := ⟨.hbm, 474, rfl⟩
abbrev main_call18_cst_2 : Ref sig .tc := ⟨.hbm, 475, rfl⟩
abbrev main_call18_v9 : Ref sig .tc := ⟨.hbm, 476, rfl⟩
abbrev main_call18_v10 : Ref sig .tc := ⟨.hbm, 477, rfl⟩
abbrev main_call18_v11 : Ref sig .tc := ⟨.hbm, 478, rfl⟩
abbrev main_call18_cst_3 : Ref sig .tc := ⟨.hbm, 479, rfl⟩
abbrev main_call18_v12 : Ref sig .tc := ⟨.hbm, 480, rfl⟩
abbrev main_call18_cst_4 : Ref sig .tc := ⟨.hbm, 481, rfl⟩
abbrev main_call18_call0_v0 : Ref sig .tc := ⟨.hbm, 482, rfl⟩
abbrev main_call18_call0_v1 : Ref sig .tc := ⟨.hbm, 483, rfl⟩
abbrev main_v300 : Ref sig .tc := ⟨.hbm, 484, rfl⟩
abbrev main_v301 : Ref sig .tc := ⟨.hbm, 485, rfl⟩
abbrev main_v302 : Ref sig .tc := ⟨.hbm, 486, rfl⟩
abbrev main_v303 : Ref sig .tc := ⟨.hbm, 487, rfl⟩
abbrev main_cst_34 : Ref sig .tc := ⟨.hbm, 488, rfl⟩
abbrev main_v304 : Ref sig .tc := ⟨.hbm, 489, rfl⟩
abbrev main_v305 : Ref sig .tc := ⟨.hbm, 490, rfl⟩
abbrev main_v306 : Ref sig .tc := ⟨.hbm, 491, rfl⟩
abbrev main_v307 : Ref sig .tc := ⟨.hbm, 492, rfl⟩
abbrev main_v308 : Ref sig .tc := ⟨.hbm, 493, rfl⟩
abbrev main_v309 : Ref sig .tc := ⟨.hbm, 494, rfl⟩
abbrev main_v310 : Ref sig .tc := ⟨.hbm, 495, rfl⟩
abbrev main_v311 : Ref sig .tc := ⟨.hbm, 496, rfl⟩
abbrev main_v312 : Ref sig .tc := ⟨.hbm, 497, rfl⟩
abbrev main_v313 : Ref sig .tc := ⟨.hbm, 498, rfl⟩
abbrev main_v314 : Ref sig .tc := ⟨.hbm, 499, rfl⟩
abbrev main_v315 : Ref sig .tc := ⟨.hbm, 500, rfl⟩
abbrev main_v316 : Ref sig .tc := ⟨.hbm, 501, rfl⟩
abbrev main_v317 : Ref sig .tc := ⟨.hbm, 502, rfl⟩
abbrev main_v318 : Ref sig .tc := ⟨.hbm, 503, rfl⟩
abbrev main_v319 : Ref sig .tc := ⟨.hbm, 504, rfl⟩
abbrev main_cst_35 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_cst_36 : Ref sig .tc := ⟨.hbm, 509, rfl⟩
abbrev main_v323 : Ref sig .tc := ⟨.hbm, 510, rfl⟩
abbrev main_cst_37 : Ref sig .tc := ⟨.hbm, 511, rfl⟩
abbrev main_v324 : Ref sig .tc := ⟨.hbm, 512, rfl⟩
abbrev main_v325 : Ref sig .tc := ⟨.hbm, 513, rfl⟩
abbrev main_v326 : Ref sig .tc := ⟨.hbm, 514, rfl⟩
abbrev main_cst_38 : Ref sig .tc := ⟨.hbm, 515, rfl⟩
abbrev main_v327 : Ref sig .tc := ⟨.hbm, 516, rfl⟩
abbrev main_v328 : Ref sig .tc := ⟨.hbm, 517, rfl⟩
abbrev main_v329 : Ref sig .tc := ⟨.hbm, 518, rfl⟩
abbrev main_v330 : Ref sig .tc := ⟨.hbm, 519, rfl⟩
abbrev main_v331 : Ref sig .tc := ⟨.hbm, 520, rfl⟩
abbrev main_v332 : Ref sig .tc := ⟨.hbm, 521, rfl⟩
abbrev main_v333 : Ref sig .tc := ⟨.hbm, 522, rfl⟩
abbrev main_v334 : Ref sig .tc := ⟨.hbm, 523, rfl⟩
abbrev main_v335 : Ref sig .tc := ⟨.hbm, 524, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S100000_S100000x1_0 : S100000.BroadcastsInDim S100000x1 (![0] : Fin 1 → Fin S100000x1.rank)
  slices_S5x7x64_S1x7x64_0_0_0 : S5x7x64.Slices ![0, 0, 0] S1x7x64
  shapeCasts_S1x7x64_S7x64 : S1x7x64.ShapeCasts S7x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S5x7x64_S1x7x64_1_0_0 : S5x7x64.Slices ![1, 0, 0] S1x7x64
  slices_S5x64_S1x64_1_0 : S5x64.Slices ![1, 0] S1x64
  slices_S5x64x64_S1x64x64_1_0_0 : S5x64x64.Slices ![1, 0, 0] S1x64x64
  slices_S5x7x64_S1x7x64_2_0_0 : S5x7x64.Slices ![2, 0, 0] S1x7x64
  slices_S5x64_S1x64_2_0 : S5x64.Slices ![2, 0] S1x64
  slices_S5x64x64_S1x64x64_2_0_0 : S5x64x64.Slices ![2, 0, 0] S1x64x64
  slices_S5x7x64_S1x7x64_3_0_0 : S5x7x64.Slices ![3, 0, 0] S1x7x64
  slices_S5x64_S1x64_3_0 : S5x64.Slices ![3, 0] S1x64
  slices_S5x64x64_S1x64x64_3_0_0 : S5x64x64.Slices ![3, 0, 0] S1x64x64
  slices_S5x7x64_S1x7x64_4_0_0 : S5x7x64.Slices ![4, 0, 0] S1x7x64
  slices_S5x64_S1x64_4_0 : S5x64.Slices ![4, 0] S1x64
  slices_S5x64x64_S1x64x64_4_0_0 : S5x64x64.Slices ![4, 0, 0] S1x64x64
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S1x64_S100000x1_S100000x64_1_0_n_n_0_1_164_wf : GatherDims.WF S1x64 S100000x1 S100000x64 [1] [0] [] [0] [] 1 ![1, 64]
  dot_S1000000x7_S7x64_S1000000x64_1_0_0_1_n_n_wf : DotDims.WF S1000000x7 S7x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []

variable [Facts₀]

def gather_S1x64_S100000x1_S100000x64_1_0_n_n_0_1_164 : GatherDims S1x64 S100000x1 S100000x64 where
  offsetDims := [1]
  collapsedSliceDims := [0]
  operandBatchingDims := []
  startIndicesBatchingDims := []
  startIndexMap := [0]
  indexVectorDim := 1
  sliceSizes := ![1, 64]
  wf := gather_S1x64_S100000x1_S100000x64_1_0_n_n_0_1_164_wf
def dot_S1000000x7_S7x64_S1000000x64_1_0_0_1_n_n : DotDims S1000000x7 S7x64 S1000000x64 where
  lhsContracting := [1]
  rhsContracting := [0]
  lhsNonContracting := [0]
  rhsNonContracting := [1]
  lhsBatch := []
  rhsBatch := []
  wf := dot_S1000000x7_S7x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.RefChunks.lean ====
import proofs.«408039_j61503931678734_1_alg».proof.ReferenceIdeal
import Idealize.ShloMosaic.Lib.StableHlo.Run

noncomputable section

namespace Cert.ReferenceIdeal.Ops

open Idealize.ShloMosaic Idealize.ShloMosaic.TcCoe Idealize.SL.Sem Cert.ReferenceIdeal

variable {F : FTy → Type} [FloatOps F] [Facts]
open Facts₀ Facts

abbrev chunkH : List (HloOp τ sig (Elt F)) :=
  [ StableHlo.unary main_arg1 main_v0 ((extractStridedSlice S1x1000000 ![0, 0] · slices_S2x1000000_S1x1000000_0_0)),
    StableHlo.reshape main_v0 main_v1 rfl shapeCasts_S1x1000000_S1000000,
    StableHlo.unary main_arg1 main_v2 ((extractStridedSlice S1x1000000 ![1, 0] · slices_S2x1000000_S1x1000000_1_0)),
    StableHlo.reshape main_v2 main_v3 rfl shapeCasts_S1x1000000_S1000000,
    StableHlo.nullary main_c (constantI S_ 32 0#32),
    StableHlo.unary main_c main_v4 (broadcastInDim S100000 ![] bcast_S_S100000),
    StableHlo.binary main_arg0 main_v4 main_v5 (cmpi .slt),
    StableHlo.nullary main_c_0 (constantI S_ 32 1#32),
    StableHlo.unary main_c_0 main_v6 (broadcastInDim S100000 ![] bcast_S_S100000),
    StableHlo.binary main_arg0 main_v6 main_v7 (addi),
    StableHlo.ternary main_v5 main_v7 main_arg0 main_v8 (select),
    StableHlo.unary main_v8 main_v9 (broadcastInDim S100000x1 ![0] bcast_S100000_S100000x1_0),
    StableHlo.binary main_arg4 main_v9 main_v10 ((fun x i => Host.gather gather_S1x64_S100000x1_S100000x64_1_0_n_n_0_1_164 x i)) ]

abbrev chunkL0 : List (HloOp τ sig (Elt F)) :=
  [ StableHlo.unary main_arg5 main_v11 ((extractStridedSlice S1x7x64 ![0, 0, 0] · slices_S5x7x64_S1x7x64_0_0_0)),
    StableHlo.reshape main_v11 main_v12 rfl shapeCasts_S1x7x64_S7x64,
    StableHlo.binary main_arg2 main_v12 main_v13 ((fun l r => Host.dotGeneral dot_S1000000x7_S7x64_S1000000x64_1_0_0_1_n_n none l r)),
    StableHlo.unary main_arg6 main_v14 ((extractStridedSlice S1x64 ![0, 0] · slices_S5x64_S1x64_0_0)),
    StableHlo.reshape main_v14 main_v15 rfl shapeCasts_S1x64_S64,
    StableHlo.unary main_v15 main_v16 (broadcastInDim S1x64 ![1] bcast_S64_S1x64_1),
    StableHlo.unary main_v16 main_v17 (broadcastInDim S1000000x64 ![0, 1] bcast_S1x64_S1000000x64_0_1),
    StableHlo.binary main_v13 main_v17 main_v18 (addf),
    StableHlo.nullary main_c_1 (constantI S_ 32 0#32),
    StableHlo.unary main_c_1 main_v19 (broadcastInDim S1000000 ![] bcast_S_S1000000),
    StableHlo.binary main_v1 main_v19 main_v20 (cmpi .slt),
    StableHlo.nullary main_c_2 (constantI S_ 32 100000#32),
    StableHlo.unary main_c_2 main_v21 (broadcastInDim S1000000 ![] bcast_S_S1000000),
    StableHlo.binary main_v1 main_v21 main_v22 (addi),
    StableHlo.ternary main_v20 main_v22 main_v1 main_v23 (select),
    StableHlo.unary main_v23 main_v24 (broadcastInDim S1000000x1 ![0] bcast_S1000000_S1000000x1_0),
    StableHlo.binary main_v10 main_v24 main_v25 ((fun x i => Host.gather gather_S100000x64_S1000000x1_S1000000x64_1_0_n_n_0_1_164 x i)),
    StableHlo.binary main_v25 main_v18 main_v26 (addf),
    StableHlo.TRef.nullary main_call0.cst (constant S_ .f32 0x00000000#32),
    StableHlo.TRef.unary main_call0.cst main_call0.v0 (broadcastInDim S1000000x64 ![] bcast_S_S1000000x64),
    StableHlo.TRef.binary (.of main_v26) main_call0.v0 main_call0.v1 maximumf,
    StableHlo.nullary main_cst (constant S_ .f32 0x00000000#32),
    StableHlo.unary main_cst main_v28 (broadcastInDim S100000x64 ![] bcast_S_S100000x64),
    StableHlo.unary main_v3 main_v29 (broadcastInDim S1000000x1 ![0] bcast_S1000000_S1000000x1_0),
    StableHlo.ternary main_v28 main_v29 main_v27 main_v30 ((fun x i u => Host.scatterAdd scatter_S100000x64_S1000000x1_S1000000x64_1_0_0_1 x i u)),
    StableHlo.binary main_v10 main_v30 main_v31 (addf),
    StableHlo.unary main_arg7 main_v32 ((extractStridedSlice S1x64x64 ![0, 0, 0] · slices_S5x64x64_S1x64x64_0_0_0)),
    StableHlo.reshape main_v32 main_v33 rfl shapeCasts_S1x64x64_S64x64,
    StableHlo.binary main_v31 main_v33 main_v34 ((fun l r => Host.dotGeneral dot_S100000x64_S64x64_S100000x64_1_0_0_1_n_n none l r)),
    StableHlo.unary main_arg8 main_v35 ((extractStridedSlice S1x64 ![0, 0] · slices_S5x64_S1x64_0_0)),
    StableHlo.reshape main_v35 main_v36 rfl shapeCasts_S1x64_S64,
    StableHlo.unary main_v36 main_v37 (broadcastInDim S1x64 ![1] bcast_S64_S1x64_1),
    StableHlo.unary main_v37 main_v38 (broadcastInDim S100000x64 ![0, 1] bcast_S1x64_S100000x64_0_1),
    StableHlo.binary main_v34 main_v38 main_v39 (addf),
    StableHlo.TRef.nullary main_call1.cst (constant S_ .f32 0x00000000#32),
    StableHlo.TRef.unary main_call1.cst main_call1.v0 (broadcastInDim S100000x64 ![] bcast_S_S100000x64),
    StableHlo.TRef.binary (.of main_v39) main_call1.v0 main_call1.v1 maximumf,
    StableHlo.unary main_arg9 main_v41 ((extractStridedSlice S1x64x64 ![0, 0, 0] · slices_S5x64x64_S1x64x64_0_0_0)),
    StableHlo.reshape main_v41 main_v42 rfl shapeCasts_S1x64x64_S64x64,
    StableHlo.binary main_v40 main_v42 main_v43 ((fun l r => Host.dotGeneral dot_S100000x64_S64x64_S100000x64_1_0_0_1_n_n none l r)),
    StableHlo.unary main_arg10 main_v44 ((extractStridedSlice S1x64 ![0, 0] · slices_S5x64_S1x64_0_0)),
    StableHlo.reshape main_v44 main_v45 rfl shapeCasts_S1x64_S64,
    StableHlo.unary main_v45 main_v46 (broadcastInDim S1x64 ![1] bcast_S64_S1x64_1),
    StableHlo.unary main_v46 main_v47 (broadcastInDim S100000x64 ![0, 1] bcast_S1x64_S100000x64_0_1),
    StableHlo.binary main_v43 main_v47 main_v48 (addf),
    StableHlo.nullary main_cst_3 (constant S_ .f32 0x00000000#32),
    StableHlo.binary main_v48 main_cst_3 main_v49 ((fun x v => Host.reduceAdd x v reducesTo_S100000x64_S64_d0 h_S_)),
    StableHlo.nullary main_cst_4 (constant S_ .f32 0x47C35000#32),
    StableHlo.unary main_cst_4 main_v50 (broadcastInDim S64 ![] bcast_S_S64),
    StableHlo.binary main_v49 main_v50 main_v51 (Host.divf),
    StableHlo.nullary main_c_5 (constantI S_ 32 0#32),
    StableHlo.TRef.nullary main_call2.cst (constant S_ .f32 0x00000000#32),
    StableHlo.TRef.binary (.of main_v48) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v48) main_call2.v4 main_call2.v5 subf,
    StableHlo.TRef.binary main_call2.v5 main_call2.v5 main_call2.v6 mulf,
    StableHlo.TRef.unary (.of main_c_5) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v51 main_v53 (broadcastInDim S1x64 ![1] bcast_S64_S1x64_1),
    StableHlo.unary main_v53 main_v54 (broadcastInDim S100000x64 ![0, 1] bcast_S1x64_S100000x64_0_1),
    StableHlo.binary main_v48 main_v54 main_v55 (subf),
    StableHlo.nullary main_cst_6 (constant S_ .f32 0x3727C5AC#32),
    StableHlo.unary main_cst_6 main_v56 (broadcastInDim S64 ![] bcast_S_S64),
    StableHlo.binary main_v52 main_v56 main_v57 (addf),
    StableHlo.unary main_v57 main_v58 (Host.rsqrt),
    StableHlo.unary main_v58 main_v59 (broadcastInDim S1x64 ![1] bcast_S64_S1x64_1),
    StableHlo.unary main_v59 main_v60 (broadcastInDim S100000x64 ![0, 1] bcast_S1x64_S100000x64_0_1),
    StableHlo.binary main_v55 main_v60 main_v61 (mulf),
    StableHlo.unary main_arg11 main_v62 ((extractStridedSlice S1x64 ![0, 0] · slices_S5x64_S1x64_0_0)),
    StableHlo.reshape main_v62 main_v63 rfl shapeCasts_S1x64_S64,
    StableHlo.unary main_v63 main_v64 (broadcastInDim S1x64 ![1] bcast_S64_S1x64_1),
    StableHlo.unary main_v64 main_v65 (broadcastInDim S100000x64 ![0, 1] bcast_S1x64_S100000x64_0_1),
    StableHlo.binary main_v61 main_v65 main_v66 (mulf),
    StableHlo.unary main_arg12 main_v67 ((extractStridedSlice S1x64 ![0, 0] · slices_S5x64_S1x64_0_0)),
    StableHlo.reshape main_v67 main_v68 rfl shapeCasts_S1x64_S64,
    StableHlo.unary main_v68 main_v69 (broadcastInDim S1x64 ![1] bcast_S64_S1x64_1),
    StableHlo.unary main_v69 main_v70 (broadcastInDim S100000x64 ![0, 1] bcast_S1x64_S100000x64_0_1),
    StableHlo.binary main_v66 main_v70 main_v71 (addf),
    StableHlo.TRef.nullary main_call3.cst (constant S_ .f32 0x00000000#32),
    StableHlo.TRef.unary main_call3.cst main_call3.v0 (broadcastInDim S100000x64 ![] bcast_S_S100000x64),
    StableHlo.TRef.binary (.of main_v71) main_call3.v0 main_call3.v1 maximumf ]

abbrev chunkL1 : List (HloOp τ sig (Elt F)) :=
  [ StableHlo.unary main_arg5 main_v73 ((extractStridedSlice S1x7x64 ![1, 0, 0] · slices_S5x7x64_S1x7x64_1_0_0)),
    StableHlo.reshape main_v73 main_v74 rfl shapeCasts_S1x7x64_S7x64,
    StableHlo.binary main_arg2 main_v74 main_v75 ((fun l r => Host.dotGeneral dot_S1000000x7_S7x64_S1000000x64_1_0_0_1_n_n none l r)),
    StableHlo.unary main_arg6 main_v76 ((extractStridedSlice S1x64 ![1, 0] · slices_S5x64_S1x64_1_0)),
    StableHlo.reshape main_v76 main_v77 rfl shapeCasts_S1x64_S64,
    StableHlo.unary main_v77 main_v78 (broadcastInDim S1x64 ![1] bcast_S64_S1x64_1),
    StableHlo.unary main_v78 main_v79 (broadcastInDim S1000000x64 ![0, 1] bcast_S1x64_S1000000x64_0_1),
    StableHlo.binary main_v75 main_v79 main_v80 (addf),
    StableHlo.nullary main_c_7 (constantI S_ 32 0#32),
    StableHlo.unary main_c_7 main_v81 (broadcastInDim S1000000 ![] bcast_S_S1000000),
    StableHlo.binary main_v1 main_v81 main_v82 (cmpi .slt),
    StableHlo.nullary main_c_8 (constantI S_ 32 100000#32),
    StableHlo.unary main_c_8 main_v83 (broadcastInDim S1000000 ![] bcast_S_S1000000),
    StableHlo.binary main_v1 main_v83 main_v84 (addi),
    StableHlo.ternary main_v82 main_v84 main_v1 main_v85 (select),
    StableHlo.unary main_v85 main_v86 (broadcastInDim S1000000x1 ![0] bcast_S1000000_S1000000x1_0),
    StableHlo.binary main_v72 main_v86 main_v87 ((fun x i => Host.gather gather_S100000x64_S1000000x1_S1000000x64_1_0_n_n_0_1_164 x i)),
    StableHlo.binary main_v87 main_v80 main_v88 (addf),
    StableHlo.TRef.nullary main_call4.cst (constant S_ .f32 0x00000000#32),
    StableHlo.TRef.unary main_call4.cst main_call4.v0 (broadcastInDim S1000000x64 ![] bcast_S_S1000000x64),
    StableHlo.TRef.binary (.of main_v88) main_call4.v0 main_call4.v1 maximumf,
    StableHlo.nullary main_cst_9 (constant S_ .f32 0x00000000#32),
    StableHlo.unary main_cst_9 main_v90 (broadcastInDim S100000x64 ![] bcast_S_S100000x64),
    StableHlo.unary main_v3 main_v91 (broadcastInDim S1000000x1 ![0] bcast_S1000000_S1000000x1_0),
    StableHlo.ternary main_v90 main_v91 main_v89 main_v92 ((fun x i u => Host.scatterAdd scatter_S100000x64_S1000000x1_S1000000x64_1_0_0_1 x i u)),
    StableHlo.binary main_v72 main_v92 main_v93 (addf),
    StableHlo.unary main_arg7 main_v94 ((extractStridedSlice S1x64x64 ![1, 0, 0] · slices_S5x64x64_S1x64x64_1_0_0)),
    StableHlo.reshape main_v94 main_v95 rfl shapeCasts_S1x64x64_S64x64,
    StableHlo.binary main_v93 main_v95 main_v96 ((fun l r => Host.dotGeneral dot_S100000x64_S64x64_S100000x64_1_0_0_1_n_n none l r)),
    StableHlo.unary main_arg8 main_v97 ((extractStridedSlice S1x64 ![1, 0] · slices_S5x64_S1x64_1_0)),
    StableHlo.reshape main_v97 main_v98 rfl shapeCasts_S1x64_S64,
    StableHlo.unary main_v98 main_v99 (broadcastInDim S1x64 ![1] bcast_S64_S1x64_1),
    StableHlo.unary main_v99 main_v100 (broadcastInDim S100000x64 ![0, 1] bcast_S1x64_S100000x64_0_1),
    StableHlo.binary main_v96 main_v100 main_v101 (addf),
    StableHlo.TRef.nullary main_call5.cst (constant S_ .f32 0x00000000#32),
    StableHlo.TRef.unary main_call5.cst main_call5.v0 (broadcastInDim S100000x64 ![] bcast_S_S100000x64),
    StableHlo.TRef.binary (.of main_v101) main_call5.v0 main_call5.v1 maximumf,
    StableHlo.unary main_arg9 main_v103 ((extractStridedSlice S1x64x64 ![1, 0, 0] · slices_S5x64x64_S1x64x64_1_0_0)),
    StableHlo.reshape main_v103 main_v104 rfl shapeCasts_S1x64x64_S64x64,
    StableHlo.binary main_v102 main_v104 main_v105 ((fun l r => Host.dotGeneral dot_S100000x64_S64x64_S100000x64_1_0_0_1_n_n none l r)),
    StableHlo.unary main_arg10 main_v106 ((extractStridedSlice S1x64 ![1, 0] · slices_S5x64_S1x64_1_0)),
    StableHlo.reshape main_v106 main_v107 rfl shapeCasts_S1x64_S64,
    StableHlo.unary main_v107 main_v108 (broadcastInDim S1x64 ![1] bcast_S64_S1x64_1),
    StableHlo.unary main_v108 main_v109 (broadcastInDim S100000x64 ![0, 1] bcast_S1x64_S100000x64_0_1),
    StableHlo.binary main_v105 main_v109 main_v110 (addf),
    StableHlo.nullary main_cst_10 (constant S_ .f32 0x00000000#32),
    StableHlo.binary main_v110 main_cst_10 main_v111 ((fun x v => Host.reduceAdd x v reducesTo_S100000x64_S64_d0 h_S_)),
    StableHlo.nullary main_cst_11 (constant S_ .f32 0x47C35000#32),
    StableHlo.unary main_cst_11 main_v112 (broadcastInDim S64 ![] bcast_S_S64),
    StableHlo.binary main_v111 main_v112 main_v113 (Host.divf),
    StableHlo.nullary main_c_12 (constantI S_ 32 0#32),
    StableHlo.TRef.nullary main_call6.cst (constant S_ .f32 0x00000000#32),
    StableHlo.TRef.binary (.of main_v110) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v110) main_call6.v4 main_call6.v5 subf,
    StableHlo.TRef.binary main_call6.v5 main_call6.v5 main_call6.v6 mulf,
    StableHlo.TRef.unary (.of main_c_12) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v113 main_v115 (broadcastInDim S1x64 ![1] bcast_S64_S1x64_1),
    StableHlo.unary main_v115 main_v116 (broadcastInDim S100000x64 ![0, 1] bcast_S1x64_S100000x64_0_1),
    StableHlo.binary main_v110 main_v116 main_v117 (subf),
    StableHlo.nullary main_cst_13 (constant S_ .f32 0x3727C5AC#32),
    StableHlo.unary main_cst_13 main_v118 (broadcastInDim S64 ![] bcast_S_S64),
    StableHlo.binary main_v114 main_v118 main_v119 (addf),
    StableHlo.unary main_v119 main_v120 (Host.rsqrt),
    StableHlo.unary main_v120 main_v121 (broadcastInDim S1x64 ![1] bcast_S64_S1x64_1),
    StableHlo.unary main_v121 main_v122 (broadcastInDim S100000x64 ![0, 1] bcast_S1x64_S100000x64_0_1),
    StableHlo.binary main_v117 main_v122 main_v123 (mulf),
    StableHlo.unary main_arg11 main_v124 ((extractStridedSlice S1x64 ![1, 0] · slices_S5x64_S1x64_1_0)),
    StableHlo.reshape main_v124 main_v125 rfl shapeCasts_S1x64_S64,
    StableHlo.unary main_v125 main_v126 (broadcastInDim S1x64 ![1] bcast_S64_S1x64_1),
    StableHlo.unary main_v126 main_v127 (broadcastInDim S100000x64 ![0, 1] bcast_S1x64_S100000x64_0_1),
    StableHlo.binary main_v123 main_v127 main_v128 (mulf),
    StableHlo.unary main_arg12 main_v129 ((extractStridedSlice S1x64 ![1, 0] · slices_S5x64_S1x64_1_0)),
    StableHlo.reshape main_v129 main_v130 rfl shapeCasts_S1x64_S64,
    StableHlo.unary main_v130 main_v131 (broadcastInDim S1x64 ![1] bcast_S64_S1x64_1),
    StableHlo.unary main_v131 main_v132 (broadcastInDim S100000x64 ![0, 1] bcast_S1x64_S100000x64_0_1),
    StableHlo.binary main_v128 main_v132 main_v133 (addf),
    StableHlo.TRef.nullary main_call7.cst (constant S_ .f32 0x00000000#32),
    StableHlo.TRef.unary main_call7.cst main_call7.v0 (broadcastInDim S100000x64 ![] bcast_S_S100000x64),
    StableHlo.TRef.binary (.of main_v133) main_call7.v0 main_call7.v1 maximumf ]

abbrev chunkL2 : List (HloOp τ sig (Elt F)) :=
  [ StableHlo.unary main_arg5 main_v135 ((extractStridedSlice S1x7x64 ![2, 0, 0] · slices_S5x7x64_S1x7x64_2_0_0)),
    StableHlo.reshape main_v135 main_v136 rfl shapeCasts_S1x7x64_S7x64,
    StableHlo.binary main_arg2 main_v136 main_v137 ((fun l r => Host.dotGeneral dot_S1000000x7_S7x64_S1000000x64_1_0_0_1_n_n none l r)),
    StableHlo.unary main_arg6 main_v138 ((extractStridedSlice S1x64 ![2, 0] · slices_S5x64_S1x64_2_0)),
    StableHlo.reshape main_v138 main_v139 rfl shapeCasts_S1x64_S64,
    StableHlo.unary main_v139 main_v140 (broadcastInDim S1x64 ![1] bcast_S64_S1x64_1),
    StableHlo.unary main_v140 main_v141 (broadcastInDim S1000000x64 ![0, 1] bcast_S1x64_S1000000x64_0_1),
    StableHlo.binary main_v137 main_v141 main_v142 (addf),
    StableHlo.nullary main_c_14 (constantI S_ 32 0#32),
    StableHlo.unary main_c_14 main_v143 (broadcastInDim S1000000 ![] bcast_S_S1000000),
    StableHlo.binary main_v1 main_v143 main_v144 (cmpi .slt),
    StableHlo.nullary main_c_15 (constantI S_ 32 100000#32),
    StableHlo.unary main_c_15 main_v145 (broadcastInDim S1000000 ![] bcast_S_S1000000),
    StableHlo.binary main_v1 main_v145 main_v146 (addi),
    StableHlo.ternary main_v144 main_v146 main_v1 main_v147 (select),
    StableHlo.unary main_v147 main_v148 (broadcastInDim S1000000x1 ![0] bcast_S1000000_S1000000x1_0),
    StableHlo.binary main_v134 main_v148 main_v149 ((fun x i => Host.gather gather_S100000x64_S1000000x1_S1000000x64_1_0_n_n_0_1_164 x i)),
    StableHlo.binary main_v149 main_v142 main_v150 (addf),
    StableHlo.TRef.nullary main_call8.cst (constant S_ .f32 0x00000000#32),
    StableHlo.TRef.unary main_call8.cst main_call8.v0 (broadcastInDim S1000000x64 ![] bcast_S_S1000000x64),
    StableHlo.TRef.binary (.of main_v150) main_call8.v0 main_call8.v1 maximumf,
    StableHlo.nullary main_cst_16 (constant S_ .f32 0x00000000#32),
    StableHlo.unary main_cst_16 main_v152 (broadcastInDim S100000x64 ![] bcast_S_S100000x64),
    StableHlo.unary main_v3 main_v153 (broadcastInDim S1000000x1 ![0] bcast_S1000000_S1000000x1_0),
    StableHlo.ternary main_v152 main_v153 main_v151 main_v154 ((fun x i u => Host.scatterAdd scatter_S100000x64_S1000000x1_S1000000x64_1_0_0_1 x i u)),
    StableHlo.binary main_v134 main_v154 main_v155 (addf),
    StableHlo.unary main_arg7 main_v156 ((extractStridedSlice S1x64x64 ![2, 0, 0] · slices_S5x64x64_S1x64x64_2_0_0)),
    StableHlo.reshape main_v156 main_v157 rfl shapeCasts_S1x64x64_S64x64,
    StableHlo.binary main_v155 main_v157 main_v158 ((fun l r => Host.dotGeneral dot_S100000x64_S64x64_S100000x64_1_0_0_1_n_n none l r)),
    StableHlo.unary main_arg8 main_v159 ((extractStridedSlice S1x64 ![2, 0] · slices_S5x64_S1x64_2_0)),
    StableHlo.reshape main_v159 main_v160 rfl shapeCasts_S1x64_S64,
    StableHlo.unary main_v160 main_v161 (broadcastInDim S1x64 ![1] bcast_S64_S1x64_1),
    StableHlo.unary main_v161 main_v162 (broadcastInDim S100000x64 ![0, 1] bcast_S1x64_S100000x64_0_1),
    StableHlo.binary main_v158 main_v162 main_v163 (addf),
    StableHlo.TRef.nullary main_call9.cst (constant S_ .f32 0x00000000#32),
    StableHlo.TRef.unary main_call9.cst main_call9.v0 (broadcastInDim S100000x64 ![] bcast_S_S100000x64),
    StableHlo.TRef.binary (.of main_v163) main_call9.v0 main_call9.v1 maximumf,
    StableHlo.unary main_arg9 main_v165 ((extractStridedSlice S1x64x64 ![2, 0, 0] · slices_S5x64x64_S1x64x64_2_0_0)),
    StableHlo.reshape main_v165 main_v166 rfl shapeCasts_S1x64x64_S64x64,
    StableHlo.binary main_v164 main_v166 main_v167 ((fun l r => Host.dotGeneral dot_S100000x64_S64x64_S100000x64_1_0_0_1_n_n none l r)),
    StableHlo.unary main_arg10 main_v168 ((extractStridedSlice S1x64 ![2, 0] · slices_S5x64_S1x64_2_0)),
    StableHlo.reshape main_v168 main_v169 rfl shapeCasts_S1x64_S64,
    StableHlo.unary main_v169 main_v170 (broadcastInDim S1x64 ![1] bcast_S64_S1x64_1),
    StableHlo.unary main_v170 main_v171 (broadcastInDim S100000x64 ![0, 1] bcast_S1x64_S100000x64_0_1),
    StableHlo.binary main_v167 main_v171 main_v172 (addf),
    StableHlo.nullary main_cst_17 (constant S_ .f32 0x00000000#32),
    StableHlo.binary main_v172 main_cst_17 main_v173 ((fun x v => Host.reduceAdd x v reducesTo_S100000x64_S64_d0 h_S_)),
    StableHlo.nullary main_cst_18 (constant S_ .f32 0x47C35000#32),
    StableHlo.unary main_cst_18 main_v174 (broadcastInDim S64 ![] bcast_S_S64),
    StableHlo.binary main_v173 main_v174 main_v175 (Host.divf),
    StableHlo.nullary main_c_19 (constantI S_ 32 0#32),
    StableHlo.TRef.nullary main_call10.cst (constant S_ .f32 0x00000000#32),
    StableHlo.TRef.binary (.of main_v172) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v172) main_call10.v4 main_call10.v5 subf,
    StableHlo.TRef.binary main_call10.v5 main_call10.v5 main_call10.v6 mulf,
    StableHlo.TRef.unary (.of main_c_19) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v175 main_v177 (broadcastInDim S1x64 ![1] bcast_S64_S1x64_1),
    StableHlo.unary main_v177 main_v178 (broadcastInDim S100000x64 ![0, 1] bcast_S1x64_S100000x64_0_1),
    StableHlo.binary main_v172 main_v178 main_v179 (subf),
    StableHlo.nullary main_cst_20 (constant S_ .f32 0x3727C5AC#32),
    StableHlo.unary main_cst_20 main_v180 (broadcastInDim S64 ![] bcast_S_S64),
    StableHlo.binary main_v176 main_v180 main_v181 (addf),
    StableHlo.unary main_v181 main_v182 (Host.rsqrt),
    StableHlo.unary main_v182 main_v183 (broadcastInDim S1x64 ![1] bcast_S64_S1x64_1),
    StableHlo.unary main_v183 main_v184 (broadcastInDim S100000x64 ![0, 1] bcast_S1x64_S100000x64_0_1),
    StableHlo.binary main_v179 main_v184 main_v185 (mulf),
    StableHlo.unary main_arg11 main_v186 ((extractStridedSlice S1x64 ![2, 0] · slices_S5x64_S1x64_2_0)),
    StableHlo.reshape main_v186 main_v187 rfl shapeCasts_S1x64_S64,
    StableHlo.unary main_v187 main_v188 (broadcastInDim S1x64 ![1] bcast_S64_S1x64_1),
    StableHlo.unary main_v188 main_v189 (broadcastInDim S100000x64 ![0, 1] bcast_S1x64_S100000x64_0_1),
    StableHlo.binary main_v185 main_v189 main_v190 (mulf),
    StableHlo.unary main_arg12 main_v191 ((extractStridedSlice S1x64 ![2, 0] · slices_S5x64_S1x64_2_0)),
    StableHlo.reshape main_v191 main_v192 rfl shapeCasts_S1x64_S64,
    StableHlo.unary main_v192 main_v193 (broadcastInDim S1x64 ![1] bcast_S64_S1x64_1),
    StableHlo.unary main_v193 main_v194 (broadcastInDim S100000x64 ![0, 1] bcast_S1x64_S100000x64_0_1),
    StableHlo.binary main_v190 main_v194 main_v195 (addf),
    StableHlo.TRef.nullary main_call11.cst (constant S_ .f32 0x00000000#32),
    StableHlo.TRef.unary main_call11.cst main_call11.v0 (broadcastInDim S100000x64 ![] bcast_S_S100000x64),
    StableHlo.TRef.binary (.of main_v195) main_call11.v0 main_call11.v1 maximumf ]

abbrev chunkL3 : List (HloOp τ sig (Elt F)) :=
  [ StableHlo.unary main_arg5 main_v197 ((extractStridedSlice S1x7x64 ![3, 0, 0] · slices_S5x7x64_S1x7x64_3_0_0)),
    StableHlo.reshape main_v197 main_v198 rfl shapeCasts_S1x7x64_S7x64,
    StableHlo.binary main_arg2 main_v198 main_v199 ((fun l r => Host.dotGeneral dot_S1000000x7_S7x64_S1000000x64_1_0_0_1_n_n none l r)),
    StableHlo.unary main_arg6 main_v200 ((extractStridedSlice S1x64 ![3, 0] · slices_S5x64_S1x64_3_0)),
    StableHlo.reshape main_v200 main_v201 rfl shapeCasts_S1x64_S64,
    StableHlo.unary main_v201 main_v202 (broadcastInDim S1x64 ![1] bcast_S64_S1x64_1),
    StableHlo.unary main_v202 main_v203 (broadcastInDim S1000000x64 ![0, 1] bcast_S1x64_S1000000x64_0_1),
    StableHlo.binary main_v199 main_v203 main_v204 (addf),
    StableHlo.nullary main_c_21 (constantI S_ 32 0#32),
    StableHlo.unary main_c_21 main_v205 (broadcastInDim S1000000 ![] bcast_S_S1000000),
    StableHlo.binary main_v1 main_v205 main_v206 (cmpi .slt),
    StableHlo.nullary main_c_22 (constantI S_ 32 100000#32),
    StableHlo.unary main_c_22 main_v207 (broadcastInDim S1000000 ![] bcast_S_S1000000),
    StableHlo.binary main_v1 main_v207 main_v208 (addi),
    StableHlo.ternary main_v206 main_v208 main_v1 main_v209 (select),
    StableHlo.unary main_v209 main_v210 (broadcastInDim S1000000x1 ![0] bcast_S1000000_S1000000x1_0),
    StableHlo.binary main_v196 main_v210 main_v211 ((fun x i => Host.gather gather_S100000x64_S1000000x1_S1000000x64_1_0_n_n_0_1_164 x i)),
    StableHlo.binary main_v211 main_v204 main_v212 (addf),
    StableHlo.TRef.nullary main_call12.cst (constant S_ .f32 0x00000000#32),
    StableHlo.TRef.unary main_call12.cst main_call12.v0 (broadcastInDim S1000000x64 ![] bcast_S_S1000000x64),
    StableHlo.TRef.binary (.of main_v212) main_call12.v0 main_call12.v1 maximumf,
    StableHlo.nullary main_cst_23 (constant S_ .f32 0x00000000#32),
    StableHlo.unary main_cst_23 main_v214 (broadcastInDim S100000x64 ![] bcast_S_S100000x64),
    StableHlo.unary main_v3 main_v215 (broadcastInDim S1000000x1 ![0] bcast_S1000000_S1000000x1_0),
    StableHlo.ternary main_v214 main_v215 main_v213 main_v216 ((fun x i u => Host.scatterAdd scatter_S100000x64_S1000000x1_S1000000x64_1_0_0_1 x i u)),
    StableHlo.binary main_v196 main_v216 main_v217 (addf),
    StableHlo.unary main_arg7 main_v218 ((extractStridedSlice S1x64x64 ![3, 0, 0] · slices_S5x64x64_S1x64x64_3_0_0)),
    StableHlo.reshape main_v218 main_v219 rfl shapeCasts_S1x64x64_S64x64,
    StableHlo.binary main_v217 main_v219 main_v220 ((fun l r => Host.dotGeneral dot_S100000x64_S64x64_S100000x64_1_0_0_1_n_n none l r)),
    StableHlo.unary main_arg8 main_v221 ((extractStridedSlice S1x64 ![3, 0] · slices_S5x64_S1x64_3_0)),
    StableHlo.reshape main_v221 main_v222 rfl shapeCasts_S1x64_S64,
    StableHlo.unary main_v222 main_v223 (broadcastInDim S1x64 ![1] bcast_S64_S1x64_1),
    StableHlo.unary main_v223 main_v224 (broadcastInDim S100000x64 ![0, 1] bcast_S1x64_S100000x64_0_1),
    StableHlo.binary main_v220 main_v224 main_v225 (addf),
    StableHlo.TRef.nullary main_call13.cst (constant S_ .f32 0x00000000#32),
    StableHlo.TRef.unary main_call13.cst main_call13.v0 (broadcastInDim S100000x64 ![] bcast_S_S100000x64),
    StableHlo.TRef.binary (.of main_v225) main_call13.v0 main_call13.v1 maximumf,
    StableHlo.unary main_arg9 main_v227 ((extractStridedSlice S1x64x64 ![3, 0, 0] · slices_S5x64x64_S1x64x64_3_0_0)),
    StableHlo.reshape main_v227 main_v228 rfl shapeCasts_S1x64x64_S64x64,
    StableHlo.binary main_v226 main_v228 main_v229 ((fun l r => Host.dotGeneral dot_S100000x64_S64x64_S100000x64_1_0_0_1_n_n none l r)),
    StableHlo.unary main_arg10 main_v230 ((extractStridedSlice S1x64 ![3, 0] · slices_S5x64_S1x64_3_0)),
    StableHlo.reshape main_v230 main_v231 rfl shapeCasts_S1x64_S64,
    StableHlo.unary main_v231 main_v232 (broadcastInDim S1x64 ![1] bcast_S64_S1x64_1),
    StableHlo.unary main_v232 main_v233 (broadcastInDim S100000x64 ![0, 1] bcast_S1x64_S100000x64_0_1),
    StableHlo.binary main_v229 main_v233 main_v234 (addf),
    StableHlo.nullary main_cst_24 (constant S_ .f32 0x00000000#32),
    StableHlo.binary main_v234 main_cst_24 main_v235 ((fun x v => Host.reduceAdd x v reducesTo_S100000x64_S64_d0 h_S_)),
    StableHlo.nullary main_cst_25 (constant S_ .f32 0x47C35000#32),
    StableHlo.unary main_cst_25 main_v236 (broadcastInDim S64 ![] bcast_S_S64),
    StableHlo.binary main_v235 main_v236 main_v237 (Host.divf),
    StableHlo.nullary main_c_26 (constantI S_ 32 0#32),
    StableHlo.TRef.nullary main_call14.cst (constant S_ .f32 0x00000000#32),
    StableHlo.TRef.binary (.of main_v234) main_call14.cst main_call14.v0 (fun x v => Host.reduceAdd x v reducesTo_S100000x64_S64_d0 h_S_),
    StableHlo.TRef.unary main_call14.v0 main_call14.v1 (broadcastInDim S1x64 ![1] bcast_S64_S1x64_1),
    StableHlo.TRef.nullary main_call14.cst_0 (constant S_ .f32 0x47C35000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S100000x64 ![0, 1] bcast_S1x64_S100000x64_0_1),
    StableHlo.TRef.binary (.of main_v234) main_call14.v4 main_call14.v5 subf,
    StableHlo.TRef.binary main_call14.v5 main_call14.v5 main_call14.v6 mulf,
    StableHlo.TRef.unary (.of main_c_26) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_v237 main_v239 (broadcastInDim S1x64 ![1] bcast_S64_S1x64_1),
    StableHlo.unary main_v239 main_v240 (broadcastInDim S100000x64 ![0, 1] bcast_S1x64_S100000x64_0_1),
    StableHlo.binary main_v234 main_v240 main_v241 (subf),
    StableHlo.nullary main_cst_27 (constant S_ .f32 0x3727C5AC#32),
    StableHlo.unary main_cst_27 main_v242 (broadcastInDim S64 ![] bcast_S_S64),
    StableHlo.binary main_v238 main_v242 main_v243 (addf),
    StableHlo.unary main_v243 main_v244 (Host.rsqrt),
    StableHlo.unary main_v244 main_v245 (broadcastInDim S1x64 ![1] bcast_S64_S1x64_1),
    StableHlo.unary main_v245 main_v246 (broadcastInDim S100000x64 ![0, 1] bcast_S1x64_S100000x64_0_1),
    StableHlo.binary main_v241 main_v246 main_v247 (mulf),
    StableHlo.unary main_arg11 main_v248 ((extractStridedSlice S1x64 ![3, 0] · slices_S5x64_S1x64_3_0)),
    StableHlo.reshape main_v248 main_v249 rfl shapeCasts_S1x64_S64,
    StableHlo.unary main_v249 main_v250 (broadcastInDim S1x64 ![1] bcast_S64_S1x64_1),
    StableHlo.unary main_v250 main_v251 (broadcastInDim S100000x64 ![0, 1] bcast_S1x64_S100000x64_0_1),
    StableHlo.binary main_v247 main_v251 main_v252 (mulf),
    StableHlo.unary main_arg12 main_v253 ((extractStridedSlice S1x64 ![3, 0] · slices_S5x64_S1x64_3_0)),
    StableHlo.reshape main_v253 main_v254 rfl shapeCasts_S1x64_S64,
    StableHlo.unary main_v254 main_v255 (broadcastInDim S1x64 ![1] bcast_S64_S1x64_1),
    StableHlo.unary main_v255 main_v256 (broadcastInDim S100000x64 ![0, 1] bcast_S1x64_S100000x64_0_1),
    StableHlo.binary main_v252 main_v256 main_v257 (addf),
    StableHlo.TRef.nullary main_call15.cst (constant S_ .f32 0x00000000#32),
    StableHlo.TRef.unary main_call15.cst main_call15.v0 (broadcastInDim S100000x64 ![] bcast_S_S100000x64),
    StableHlo.TRef.binary (.of main_v257) main_call15.v0 main_call15.v1 maximumf ]

abbrev chunkL4 : List (HloOp τ sig (Elt F)) :=
  [ StableHlo.unary main_arg5 main_v259 ((extractStridedSlice S1x7x64 ![4, 0, 0] · slices_S5x7x64_S1x7x64_4_0_0)),
    StableHlo.reshape main_v259 main_v260 rfl shapeCasts_S1x7x64_S7x64,
    StableHlo.binary main_arg2 main_v260 main_v261 ((fun l r => Host.dotGeneral dot_S1000000x7_S7x64_S1000000x64_1_0_0_1_n_n none l r)),
    StableHlo.unary main_arg6 main_v262 ((extractStridedSlice S1x64 ![4, 0] · slices_S5x64_S1x64_4_0)),
    StableHlo.reshape main_v262 main_v263 rfl shapeCasts_S1x64_S64,
    StableHlo.unary main_v263 main_v264 (broadcastInDim S1x64 ![1] bcast_S64_S1x64_1),
    StableHlo.unary main_v264 main_v265 (broadcastInDim S1000000x64 ![0, 1] bcast_S1x64_S1000000x64_0_1),
    StableHlo.binary main_v261 main_v265 main_v266 (addf),
    StableHlo.nullary main_c_28 (constantI S_ 32 0#32),
    StableHlo.unary main_c_28 main_v267 (broadcastInDim S1000000 ![] bcast_S_S1000000),
    StableHlo.binary main_v1 main_v267 main_v268 (cmpi .slt),
    StableHlo.nullary main_c_29 (constantI S_ 32 100000#32),
    StableHlo.unary main_c_29 main_v269 (broadcastInDim S1000000 ![] bcast_S_S1000000),
    StableHlo.binary main_v1 main_v269 main_v270 (addi),
    StableHlo.ternary main_v268 main_v270 main_v1 main_v271 (select),
    StableHlo.unary main_v271 main_v272 (broadcastInDim S1000000x1 ![0] bcast_S1000000_S1000000x1_0),
    StableHlo.binary main_v258 main_v272 main_v273 ((fun x i => Host.gather gather_S100000x64_S1000000x1_S1000000x64_1_0_n_n_0_1_164 x i)),
    StableHlo.binary main_v273 main_v266 main_v274 (addf),
    StableHlo.TRef.nullary main_call16.cst (constant S_ .f32 0x00000000#32),
    StableHlo.TRef.unary main_call16.cst main_call16.v0 (broadcastInDim S1000000x64 ![] bcast_S_S1000000x64),
    StableHlo.TRef.binary (.of main_v274) main_call16.v0 main_call16.v1 maximumf,
    StableHlo.nullary main_cst_30 (constant S_ .f32 0x00000000#32),
    StableHlo.unary main_cst_30 main_v276 (broadcastInDim S100000x64 ![] bcast_S_S100000x64),
    StableHlo.unary main_v3 main_v277 (broadcastInDim S1000000x1 ![0] bcast_S1000000_S1000000x1_0),
    StableHlo.ternary main_v276 main_v277 main_v275 main_v278 ((fun x i u => Host.scatterAdd scatter_S100000x64_S1000000x1_S1000000x64_1_0_0_1 x i u)),
    StableHlo.binary main_v258 main_v278 main_v279 (addf),
    StableHlo.unary main_arg7 main_v280 ((extractStridedSlice S1x64x64 ![4, 0, 0] · slices_S5x64x64_S1x64x64_4_0_0)),
    StableHlo.reshape main_v280 main_v281 rfl shapeCasts_S1x64x64_S64x64,
    StableHlo.binary main_v279 main_v281 main_v282 ((fun l r => Host.dotGeneral dot_S100000x64_S64x64_S100000x64_1_0_0_1_n_n none l r)),
    StableHlo.unary main_arg8 main_v283 ((extractStridedSlice S1x64 ![4, 0] · slices_S5x64_S1x64_4_0)),
    StableHlo.reshape main_v283 main_v284 rfl shapeCasts_S1x64_S64,
    StableHlo.unary main_v284 main_v285 (broadcastInDim S1x64 ![1] bcast_S64_S1x64_1),
    StableHlo.unary main_v285 main_v286 (broadcastInDim S100000x64 ![0, 1] bcast_S1x64_S100000x64_0_1),
    StableHlo.binary main_v282 main_v286 main_v287 (addf),
    StableHlo.TRef.nullary main_call17.cst (constant S_ .f32 0x00000000#32),
    StableHlo.TRef.unary main_call17.cst main_call17.v0 (broadcastInDim S100000x64 ![] bcast_S_S100000x64),
    StableHlo.TRef.binary (.of main_v287) main_call17.v0 main_call17.v1 maximumf,
    StableHlo.unary main_arg9 main_v289 ((extractStridedSlice S1x64x64 ![4, 0, 0] · slices_S5x64x64_S1x64x64_4_0_0)),
    StableHlo.reshape main_v289 main_v290 rfl shapeCasts_S1x64x64_S64x64,
    StableHlo.binary main_v288 main_v290 main_v291 ((fun l r => Host.dotGeneral dot_S100000x64_S64x64_S100000x64_1_0_0_1_n_n none l r)),
    StableHlo.unary main_arg10 main_v292 ((extractStridedSlice S1x64 ![4, 0] · slices_S5x64_S1x64_4_0)),
    StableHlo.reshape main_v292 main_v293 rfl shapeCasts_S1x64_S64,
    StableHlo.unary main_v293 main_v294 (broadcastInDim S1x64 ![1] bcast_S64_S1x64_1),
    StableHlo.unary main_v294 main_v295 (broadcastInDim S100000x64 ![0, 1] bcast_S1x64_S100000x64_0_1),
    StableHlo.binary main_v291 main_v295 main_v296 (addf),
    StableHlo.nullary main_cst_31 (constant S_ .f32 0x00000000#32),
    StableHlo.binary main_v296 main_cst_31 main_v297 ((fun x v => Host.reduceAdd x v reducesTo_S100000x64_S64_d0 h_S_)),
    StableHlo.nullary main_cst_32 (constant S_ .f32 0x47C35000#32),
    StableHlo.unary main_cst_32 main_v298 (broadcastInDim S64 ![] bcast_S_S64),
    StableHlo.binary main_v297 main_v298 main_v299 (Host.divf),
    StableHlo.nullary main_c_33 (constantI S_ 32 0#32),
    StableHlo.TRef.nullary main_call18.cst (constant S_ .f32 0x00000000#32),
    StableHlo.TRef.binary (.of main_v296) main_call18.cst main_call18.v0 (fun x v => Host.reduceAdd x v reducesTo_S100000x64_S64_d0 h_S_),
    StableHlo.TRef.unary main_call18.v0 main_call18.v1 (broadcastInDim S1x64 ![1] bcast_S64_S1x64_1),
    StableHlo.TRef.nullary main_call18.cst_0 (constant S_ .f32 0x47C35000#32),
    StableHlo.TRef.unary main_call18.cst_0 main_call18.v2 (broadcastInDim S1x64 ![] bcast_S_S1x64),
    StableHlo.TRef.binary main_call18.v1 main_call18.v2 main_call18.v3 Host.divf,
    StableHlo.TRef.unary main_call18.v3 main_call18.v4 (broadcastInDim S100000x64 ![0, 1] bcast_S1x64_S100000x64_0_1),
    StableHlo.TRef.binary (.of main_v296) main_call18.v4 main_call18.v5 subf,
    StableHlo.TRef.binary main_call18.v5 main_call18.v5 main_call18.v6 mulf,
    StableHlo.TRef.unary (.of main_c_33) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x64_S64_d0 h_S_),
    StableHlo.TRef.unary main_call18.v8 main_call18.v10 (broadcastInDim S64 ![] bcast_S_S64),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S64 ![] bcast_S_S64),
    StableHlo.TRef.ternary main_call18.v12 main_call18.v11 main_call18.call0.v1 main_call18.call0.v2 (fun p a b => select (broadcastInDim S64 ![] bcast_S_S64 p) a b),
    StableHlo.unary main_v299 main_v301 (broadcastInDim S1x64 ![1] bcast_S64_S1x64_1),
    StableHlo.unary main_v301 main_v302 (broadcastInDim S100000x64 ![0, 1] bcast_S1x64_S100000x64_0_1),
    StableHlo.binary main_v296 main_v302 main_v303 (subf),
    StableHlo.nullary main_cst_34 (constant S_ .f32 0x3727C5AC#32),
    StableHlo.unary main_cst_34 main_v304 (broadcastInDim S64 ![] bcast_S_S64),
    StableHlo.binary main_v300 main_v304 main_v305 (addf),
    StableHlo.unary main_v305 main_v306 (Host.rsqrt),
    StableHlo.unary main_v306 main_v307 (broadcastInDim S1x64 ![1] bcast_S64_S1x64_1),
    StableHlo.unary main_v307 main_v308 (broadcastInDim S100000x64 ![0, 1] bcast_S1x64_S100000x64_0_1),
    StableHlo.binary main_v303 main_v308 main_v309 (mulf),
    StableHlo.unary main_arg11 main_v310 ((extractStridedSlice S1x64 ![4, 0] · slices_S5x64_S1x64_4_0)),
    StableHlo.reshape main_v310 main_v311 rfl shapeCasts_S1x64_S64,
    StableHlo.unary main_v311 main_v312 (broadcastInDim S1x64 ![1] bcast_S64_S1x64_1),
    StableHlo.unary main_v312 main_v313 (broadcastInDim S100000x64 ![0, 1] bcast_S1x64_S100000x64_0_1),
    StableHlo.binary main_v309 main_v313 main_v314 (mulf),
    StableHlo.unary main_arg12 main_v315 ((extractStridedSlice S1x64 ![4, 0] · slices_S5x64_S1x64_4_0)),
    StableHlo.reshape main_v315 main_v316 rfl shapeCasts_S1x64_S64,
    StableHlo.unary main_v316 main_v317 (broadcastInDim S1x64 ![1] bcast_S64_S1x64_1),
    StableHlo.unary main_v317 main_v318 (broadcastInDim S100000x64 ![0, 1] bcast_S1x64_S100000x64_0_1),
    StableHlo.binary main_v314 main_v318 main_v319 (addf) ]

abbrev chunkT : List (HloOp τ sig (Elt F)) :=
  [ StableHlo.nullary main_cst_35 (constant S_ .f32 0x00000000#32),
    StableHlo.unary main_cst_35 main_v320 (broadcastInDim S128x64 ![] bcast_S_S128x64),
    StableHlo.unary main_arg3 main_v321 (broadcastInDim S100000x1 ![0] bcast_S100000_S100000x1_0),
    StableHlo.ternary main_v320 main_v321 main_v319 main_v322 ((fun x i u => Host.scatterAdd scatter_S128x64_S100000x1_S100000x64_1_0_0_1 x i u)),
    StableHlo.nullary main_cst_36 (constant S_ .f32 0x3F800000#32),
    StableHlo.unary main_cst_36 main_v323 (broadcastInDim S100000 ![] bcast_S_S100000),
    StableHlo.nullary main_cst_37 (constant S_ .f32 0x00000000#32),
    StableHlo.unary main_cst_37 main_v324 (broadcastInDim S128 ![] bcast_S_S128),
    StableHlo.unary main_arg3 main_v325 (broadcastInDim S100000x1 ![0] bcast_S100000_S100000x1_0),
    StableHlo.ternary main_v324 main_v325 main_v323 main_v326 ((fun x i u => Host.scatterAdd scatter_S128_S100000x1_S100000_n_0_0_1 x i u)),
    StableHlo.nullary main_cst_38 (constant S_ .f32 0x3F800000#32),
    StableHlo.unary main_cst_38 main_v327 (broadcastInDim S128 ![] bcast_S_S128),
    StableHlo.binary main_v326 main_v327 main_v328 (maximumf),
    StableHlo.unary main_v328 main_v329 (broadcastInDim S128x1 ![0] bcast_S128_S128x1_0),
    StableHlo.unary main_v329 main_v330 (broadcastInDim S128x64 ![0, 1] bcast_S128x1_S128x64_0_1),
    StableHlo.binary main_v322 main_v330 main_v331 (Host.divf),
    StableHlo.binary main_v331 main_arg13 main_v332 ((fun l r => Host.dotGeneral dot_S128x64_S64x10_S128x10_1_0_0_1_n_n none l r)),
    StableHlo.unary main_arg14 main_v333 (broadcastInDim S1x10 ![1] bcast_S10_S1x10_1),
    StableHlo.unary main_v333 main_v334 (broadcastInDim S128x10 ![0, 1] bcast_S1x10_S128x10_0_1),
    StableHlo.binary main_v332 main_v334 main_v335 (addf) ]

end Cert.ReferenceIdeal.Ops

end
-- ==== Proof.RefRun.lean ====
import proofs.«408039_j61503931678734_1_alg».proof.Proof.RefChunks
import Idealize.ShloMosaic.Lib.StableHlo.Run
import Idealize.ShloMosaic.Lib.Pipeline.Frame

noncomputable section

namespace Cert.ReferenceIdeal.Run

open Idealize.ShloMosaic Idealize.ShloMosaic.TcCoe Idealize.ShloMosaic.StableHlo Idealize.SL.Sem
open Cert.ReferenceIdeal Cert.ReferenceIdeal.Ops

variable {F : FTy → Type} [FloatOps F] [Facts]
open Facts₀ Facts

/-- The reference's whole line of operations. -/
abbrev ops : List (HloOp τ sig (Elt F)) := chunkH ++ (chunkL0 ++ (chunkL1 ++ (chunkL2 ++ (chunkL3 ++ (chunkL4 ++ chunkT)))))

/-- Each printed window of @main, the called functions' bodies written out, runs its stretch of the line. -/
theorem part0_eq (c : Dev nD) : main_part0 (F := F) c = seq (chunkH ++ chunkL0.take 51) := by
  simp only [main_part0, fn_relu.body, fn_relu_0.body, fn_var.body, fn_where.body, bind_assoc, pure_bind]
  rfl

theorem part1_eq (c : Dev nD) : main_part1 (F := F) c = seq (chunkL0.drop 51 ++ chunkL1.take 42) := by
  simp only [main_part1, fn_relu.body, fn_relu_0.body, fn_var.body, fn_where.body, bind_assoc, pure_bind]
  rfl

theorem part2_eq (c : Dev nD) : main_part2 (F := F) c = seq (chunkL1.drop 42 ++ chunkL2.take 31) := by
  simp only [main_part2, fn_relu.body, fn_relu_0.body, fn_var.body, fn_where.body, bind_assoc, pure_bind]
  rfl

theorem part3_eq (c : Dev nD) : main_part3 (F := F) c = seq (chunkL2.drop 31 ++ chunkL3.take 22) := by
  simp only [main_part3, fn_relu.body, fn_relu_0.body, fn_var.body, fn_where.body, bind_assoc, pure_bind]
  rfl

theorem part4_eq (c : Dev nD) : main_part4 (F := F) c = seq (chunkL3.drop 22 ++ chunkL4.take 11) := by
  simp only [main_part4, fn_relu.body, fn_relu_0.body, fn_var.body, fn_where.body, bind_assoc, pure_bind]
  rfl

theorem part5_eq (c : Dev nD) : main_part5 (F := F) c = seq (chunkL4.drop 11 ++ chunkT.take 3) := by
  simp only [main_part5, fn_relu.body, fn_relu_0.body, fn_var.body, fn_where.body, bind_assoc, pure_bind]
  rfl

theorem part6_eq (c : Dev nD) : main_part6 (F := F) c = seq (chunkT.drop 3) := by
  simp only [main_part6, fn_relu.body, fn_relu_0.body, fn_var.body, fn_where.body, bind_assoc, pure_bind]
  rfl

theorem take_drop_append {α : Type _} (n : Nat) (l r : List α) : l.take n ++ (l.drop n ++ r) = l ++ r := by
  rw [← List.append_assoc, List.take_append_drop]

/-- The seven stretches in a row are the whole line. -/
theorem main_eq (c : Dev nD) : main (F := F) c = seq ops := by
  have e : (ops : List (HloOp τ sig (Elt F))) = (chunkH ++ chunkL0.take 51) ++ ((chunkL0.drop 51 ++ chunkL1.take 42) ++ ((chunkL1.drop 42 ++ chunkL2.take 31) ++ ((chunkL2.drop 31 ++ chunkL3.take 22) ++ ((chunkL3.drop 22 ++ chunkL4.take 11) ++ ((chunkL4.drop 11 ++ chunkT.take 3) ++ chunkT.drop 3))))) := by
    simp only [ops, List.append_assoc, take_drop_append, List.take_append_drop]
  rw [e]
  simp only [main, part0_eq, part1_eq, part2_eq, part3_eq, part4_eq, part5_eq, part6_eq, seq_append, bind_assoc]

theorem ops_sub : (ops : List (HloOp τ sig (Elt F))).Forall fun op => op.bufs ⊆ tcRefs τ sig := by
  simp only [ops, chunkH, chunkL0, chunkL1, chunkL2, chunkL3, chunkL4, chunkT, List.forall_append, List.Forall, nullary_bufs_sub,
    unary_bufs_sub, binary_bufs_sub, ternary_bufs_sub, reshape_bufs_sub, and_self]

theorem scopedRefs_eq : (Finset.univ.filter fun b : Ref sig .tc => b.isScoped) = ∅ := by decide
theorem scopedSems_eq : (Finset.univ.filter fun sm : SemLoc sig => sm.isScoped .tc) = ∅ := by decide

section Fresh
variable (x a b c y : Ref sig .tc)
theorem nullary_fresh (v : y.ty.Contents (Elt F)) (hy) : (nullary (τ := τ) y v hy).fresh = ∅ := rfl
theorem unary_fresh (f : x.ty.Contents (Elt F) → y.ty.Contents (Elt F)) (hx hy) : (unary (τ := τ) x y f hx hy).fresh = ∅ := rfl
theorem binary_fresh (f : a.ty.Contents (Elt F) → b.ty.Contents (Elt F) → y.ty.Contents (Elt F)) (ha hb hy) :
    (binary (τ := τ) a b y f ha hb hy).fresh = ∅ := rfl
theorem ternary_fresh (f : c.ty.Contents (Elt F) → a.ty.Contents (Elt F) → b.ty.Contents (Elt F) → y.ty.Contents (Elt F)) (hc ha hb hy) :
    (ternary (τ := τ) c a b y f hc ha hb hy).fresh = ∅ := rfl
theorem reshape_fresh (he hn hx hy) : (reshape (τ := τ) (Val := Elt F) x y he hn hx hy).fresh = ∅ := rfl
end Fresh

/-- No operation allocates: each determines its results. -/
theorem ops_fresh : ∀ op ∈ (ops : List (HloOp τ sig (Elt F))), op.fresh = ∅ :=
  List.forall_iff_forall_mem.mp (by
    simp only [ops, chunkH, chunkL0, chunkL1, chunkL2, chunkL3, chunkL4, chunkT, List.forall_append, List.Forall, nullary_fresh,
      unary_fresh, binary_fresh, ternary_fresh, reshape_fresh, and_self])

/-- The reference terminates, every buffer at the fold of its line of operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Folding the whole line is folding the layers in turn. -/
theorem after_ops (V : Valuation τ sig (Elt F)) :
    after (ops (F := F)) V = after chunkT (after chunkL4 (after chunkL3 (after chunkL2 (after chunkL1 (after chunkL0 (after chunkH V)))))) := by
  simp only [ops, StableHlo.after_append]

end Cert.ReferenceIdeal.Run

end
-- ==== Proof.RKeep.lean ====
import proofs.«408039_j61503931678734_1_alg».proof.Proof.RefRun

set_option maxRecDepth 16384

noncomputable section

namespace Cert.ReferenceIdeal.Keep

open Idealize.ShloMosaic Idealize.ShloMosaic.TcCoe Idealize.ShloMosaic.StableHlo Idealize.SL.Sem Cert.ReferenceIdeal Cert.ReferenceIdeal.Ops

variable {F : FTy → Type} [FloatOps F] [Facts]
open Facts₀ Facts

theorem keep_chunkH (V : Valuation τ sig (Elt F)) (b : Ref sig .tc) (hb : b.idx.val < 15) :
    StableHlo.after (chunkH (F := F)) V (Proc.devRef .tc b) = V (Proc.devRef .tc b) :=
  StableHlo.after_of_forall_not_mem (b := Proc.devRef .tc b) _ _ (List.forall_iff_forall_mem.mp (by
    simp only [chunkH, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

theorem keep_chunkL0 (V : Valuation τ sig (Elt F)) (b : Ref sig .tc) (hb : b.idx.val < 28) :
    StableHlo.after (chunkL0 (F := F)) V (Proc.devRef .tc b) = V (Proc.devRef .tc b) :=
  StableHlo.after_of_forall_not_mem (b := Proc.devRef .tc b) _ _ (List.forall_iff_forall_mem.mp (by
    simp only [chunkL0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

theorem keep_chunkL1 (V : Valuation τ sig (Elt F)) (b : Ref sig .tc) (hb : b.idx.val < 124) :
    StableHlo.after (chunkL1 (F := F)) V (Proc.devRef .tc b) = V (Proc.devRef .tc b) :=
  StableHlo.after_of_forall_not_mem (b := Proc.devRef .tc b) _ _ (List.forall_iff_forall_mem.mp (by
    simp only [chunkL1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

theorem keep_chunkL2 (V : Valuation τ sig (Elt F)) (b : Ref sig .tc) (hb : b.idx.val < 220) :
    StableHlo.after (chunkL2 (F := F)) V (Proc.devRef .tc b) = V (Proc.devRef .tc b) :=
  StableHlo.after_of_forall_not_mem (b := Proc.devRef .tc b) _ _ (List.forall_iff_forall_mem.mp (by
    simp only [chunkL2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

theorem keep_chunkL3 (V : Valuation τ sig (Elt F)) (b : Ref sig .tc) (hb : b.idx.val < 316) :
    StableHlo.after (chunkL3 (F := F)) V (Proc.devRef .tc b) = V (Proc.devRef .tc b) :=
  StableHlo.after_of_forall_not_mem (b := Proc.devRef .tc b) _ _ (List.forall_iff_forall_mem.mp (by
    simp only [chunkL3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

theorem keep_chunkL4 (V : Valuation τ sig (Elt F)) (b : Ref sig .tc) (hb : b.idx.val < 412) :
    StableHlo.after (chunkL4 (F := F)) V (Proc.devRef .tc b) = V (Proc.devRef .tc b) :=
  StableHlo.after_of_forall_not_mem (b := Proc.devRef .tc b) _ _ (List.forall_iff_forall_mem.mp (by
    simp only [chunkL4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

theorem keep_chunkT (V : Valuation τ sig (Elt F)) (b : Ref sig .tc) (hb : b.idx.val < 505) :
    StableHlo.after (chunkT (F := F)) V (Proc.devRef .tc b) = V (Proc.devRef .tc b) :=
  StableHlo.after_of_forall_not_mem (b := Proc.devRef .tc b) _ _ (List.forall_iff_forall_mem.mp (by
    simp only [chunkT, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

theorem arg_kept (V : Valuation τ sig (Elt F)) (b : Ref sig .tc) (hb : b.idx.val < 15) :
    StableHlo.after (Cert.ReferenceIdeal.Run.ops (F := F)) V (Proc.devRef .tc b) = V (Proc.devRef .tc b) := by
  rw [Cert.ReferenceIdeal.Run.after_ops, keep_chunkT _ b (by omega), keep_chunkL4 _ b (by omega), keep_chunkL3 _ b (by omega), keep_chunkL2 _ b (by omega),
    keep_chunkL1 _ b (by omega), keep_chunkL0 _ b (by omega), keep_chunkH _ b hb]

end Cert.ReferenceIdeal.Keep

end
-- ==== Proof.KKeep.lean ====
/-
  Every value of the kernel program has a buffer of its own, numbered in program order, and a host stretch writes only
  the buffers of its own operations: a buffer numbered below the stretch's first keeps its contents across it.
  One lemma per host stretch, all by the same argument; the table of stretches and first numbers is Launch.lean's.
-/
import proofs.«408039_j61503931678734_1_alg».proof.Proof.Gen.KernelIdeal.Launch
import Idealize.ShloMosaic.Lib.StableHlo.Run

set_option maxRecDepth 16384

noncomputable section

namespace Cert.KernelIdeal.Keep

open Idealize.ShloMosaic Idealize.ShloMosaic.TcCoe Idealize.SL.Sem Cert.KernelIdeal Cert.KernelIdeal.Gen

variable {F : FTy → Type} [FloatOps F]

/-- `hostOps0` writes buffers 15 to 18 only. -/
theorem keep_hostOps0 (V : Valuation τ sig (Elt F)) (b : Ref sig .tc) (hb : b.idx.val < 15) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps0_1` writes buffers 19 to 41 only. -/
theorem keep_hostOps0_1 (V : Valuation τ sig (Elt F)) (b : Ref sig .tc) (hb : b.idx.val < 19) :
    StableHlo.after (hostOps0_1 (F := F)) V (Proc.devRef .tc b) = V (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps0_2` writes buffers 42 to 64 only. -/
theorem keep_hostOps0_2 (V : Valuation τ sig (Elt F)) (b : Ref sig .tc) (hb : b.idx.val < 42) :
    StableHlo.after (hostOps0_2 (F := F)) V (Proc.devRef .tc b) = V (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps0_3` writes buffers 65 to 69 only. -/
theorem keep_hostOps0_3 (V : Valuation τ sig (Elt F)) (b : Ref sig .tc) (hb : b.idx.val < 65) :
    StableHlo.after (hostOps0_3 (F := F)) V (Proc.devRef .tc b) = V (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps1` writes buffers 71 to 84 only. -/
theorem keep_hostOps1 (V : Valuation τ sig (Elt F)) (b : Ref sig .tc) (hb : b.idx.val < 71) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps2` writes buffers 86 to 91 only. -/
theorem keep_hostOps2 (V : Valuation τ sig (Elt F)) (b : Ref sig .tc) (hb : b.idx.val < 86) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps2_1` writes buffers 92 to 113 only. -/
theorem keep_hostOps2_1 (V : Valuation τ sig (Elt F)) (b : Ref sig .tc) (hb : b.idx.val < 92) :
    StableHlo.after (hostOps2_1 (F := F)) V (Proc.devRef .tc b) = V (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps2_2` writes buffers 114 to 125 only. -/
theorem keep_hostOps2_2 (V : Valuation τ sig (Elt F)) (b : Ref sig .tc) (hb : b.idx.val < 114) :
    StableHlo.after (hostOps2_2 (F := F)) V (Proc.devRef .tc b) = V (Proc.devRef .tc b) :=
  StableHlo.after_of_forall_not_mem (b := Proc.devRef .tc b) _ _ (List.forall_iff_forall_mem.mp (by
    simp only [hostOps2_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps3` writes buffers 127 to 149 only. -/
theorem keep_hostOps3 (V : Valuation τ sig (Elt F)) (b : Ref sig .tc) (hb : b.idx.val < 127) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps3_1` writes buffers 150 to 154 only. -/
theorem keep_hostOps3_1 (V : Valuation τ sig (Elt F)) (b : Ref sig .tc) (hb : b.idx.val < 150) :
    StableHlo.after (hostOps3_1 (F := F)) V (Proc.devRef .tc b) = V (Proc.devRef .tc b) :=
  StableHlo.after_of_forall_not_mem (b := Proc.devRef .tc b) _ _ (List.forall_iff_forall_mem.mp (by
    simp only [hostOps3_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps4` writes buffers 156 to 169 only. -/
theorem keep_hostOps4 (V : Valuation τ sig (Elt F)) (b : Ref sig .tc) (hb : b.idx.val < 156) :
    StableHlo.after (hostOps4 (F := F)) V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps5` writes buffers 171 to 176 only. -/
theorem keep_hostOps5 (V : Valuation τ sig (Elt F)) (b : Ref sig .tc) (hb : b.idx.val < 171) :
    StableHlo.after (hostOps5 (F := F)) V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps5_1` writes buffers 177 to 198 only. -/
theorem keep_hostOps5_1 (V : Valuation τ sig (Elt F)) (b : Ref sig .tc) (hb : b.idx.val < 177) :
    StableHlo.after (hostOps5_1 (F := F)) V (Proc.devRef .tc b) = V (Proc.devRef .tc b) :=
  StableHlo.after_of_forall_not_mem (b := Proc.devRef .tc b) _ _ (List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps5_2` writes buffers 199 to 210 only. -/
theorem keep_hostOps5_2 (V : Valuation τ sig (Elt F)) (b : Ref sig .tc) (hb : b.idx.val < 199) :
    StableHlo.after (hostOps5_2 (F := F)) V (Proc.devRef .tc b) = V (Proc.devRef .tc b) :=
  StableHlo.after_of_forall_not_mem (b := Proc.devRef .tc b) _ _ (List.forall_iff_forall_mem.mp (by
    simp only [hostOps5_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps6` writes buffers 212 to 234 only. -/
theorem keep_hostOps6 (V : Valuation τ sig (Elt F)) (b : Ref sig .tc) (hb : b.idx.val < 212) :
    StableHlo.after (hostOps6 (F := F)) V (Proc.devRef .tc b) = V (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps6_1` writes buffers 235 to 239 only. -/
theorem keep_hostOps6_1 (V : Valuation τ sig (Elt F)) (b : Ref sig .tc) (hb : b.idx.val < 235) :
    StableHlo.after (hostOps6_1 (F := F)) V (Proc.devRef .tc b) = V (Proc.devRef .tc b) :=
  StableHlo.after_of_forall_not_mem (b := Proc.devRef .tc b) _ _ (List.forall_iff_forall_mem.mp (by
    simp only [hostOps6_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps7` writes buffers 241 to 254 only. -/
theorem keep_hostOps7 (V : Valuation τ sig (Elt F)) (b : Ref sig .tc) (hb : b.idx.val < 241) :
    StableHlo.after (hostOps7 (F := F)) V (Proc.devRef .tc b) = V (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps8` writes buffers 256 to 261 only. -/
theorem keep_hostOps8 (V : Valuation τ sig (Elt F)) (b : Ref sig .tc) (hb : b.idx.val < 256) :
    StableHlo.after (hostOps8 (F := F)) V (Proc.devRef .tc b) = V (Proc.devRef .tc b) :=
  StableHlo.after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps8_1` writes buffers 262 to 283 only. -/
theorem keep_hostOps8_1 (V : Valuation τ sig (Elt F)) (b : Ref sig .tc) (hb : b.idx.val < 262) :
    StableHlo.after (hostOps8_1 (F := F)) V (Proc.devRef .tc b) = V (Proc.devRef .tc b) :=
  StableHlo.after_of_forall_not_mem (b := Proc.devRef .tc b) _ _ (List.forall_iff_forall_mem.mp (by
    simp only [hostOps8_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps8_2` writes buffers 284 to 295 only. -/
theorem keep_hostOps8_2 (V : Valuation τ sig (Elt F)) (b : Ref sig .tc) (hb : b.idx.val < 284) :
    StableHlo.after (hostOps8_2 (F := F)) V (Proc.devRef .tc b) = V (Proc.devRef .tc b) :=
  StableHlo.after_of_forall_not_mem (b := Proc.devRef .tc b) _ _ (List.forall_iff_forall_mem.mp (by
    simp only [hostOps8_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps9` writes buffers 297 to 319 only. -/
theorem keep_hostOps9 (V : Valuation τ sig (Elt F)) (b : Ref sig .tc) (hb : b.idx.val < 297) :
    StableHlo.after (hostOps9 (F := F)) V (Proc.devRef .tc b) = V (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps9_1` writes buffers 320 to 324 only. -/
theorem keep_hostOps9_1 (V : Valuation τ sig (Elt F)) (b : Ref sig .tc) (hb : b.idx.val < 320) :
    StableHlo.after (hostOps9_1 (F := F)) V (Proc.devRef .tc b) = V (Proc.devRef .tc b) :=
  StableHlo.after_of_forall_not_mem (b := Proc.devRef .tc b) _ _ (List.forall_iff_forall_mem.mp (by
    simp only [hostOps9_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps10` writes buffers 326 to 339 only. -/
theorem keep_hostOps10 (V : Valuation τ sig (Elt F)) (b : Ref sig .tc) (hb : b.idx.val < 326) :
    StableHlo.after (hostOps10 (F := F)) V (Proc.devRef .tc b) = V (Proc.devRef .tc b) :=
  StableHlo.after_of_forall_not_mem (b := Proc.devRef .tc b) _ _ (List.forall_iff_forall_mem.mp (by
    simp only [hostOps10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps11` writes buffers 341 to 346 only. -/
theorem keep_hostOps11 (V : Valuation τ sig (Elt F)) (b : Ref sig .tc) (hb : b.idx.val < 341) :
    StableHlo.after (hostOps11 (F := F)) V (Proc.devRef .tc b) = V (Proc.devRef .tc b) :=
  StableHlo.after_of_forall_not_mem (b := Proc.devRef .tc b) _ _ (List.forall_iff_forall_mem.mp (by
    simp only [hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps11_1` writes buffers 347 to 368 only. -/
theorem keep_hostOps11_1 (V : Valuation τ sig (Elt F)) (b : Ref sig .tc) (hb : b.idx.val < 347) :
    StableHlo.after (hostOps11_1 (F := F)) V (Proc.devRef .tc b) = V (Proc.devRef .tc b) :=
  StableHlo.after_of_forall_not_mem (b := Proc.devRef .tc b) _ _ (List.forall_iff_forall_mem.mp (by
    simp only [hostOps11_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps11_2` writes buffers 369 to 380 only. -/
theorem keep_hostOps11_2 (V : Valuation τ sig (Elt F)) (b : Ref sig .tc) (hb : b.idx.val < 369) :
    StableHlo.after (hostOps11_2 (F := F)) V (Proc.devRef .tc b) = V (Proc.devRef .tc b) :=
  StableHlo.after_of_forall_not_mem (b := Proc.devRef .tc b) _ _ (List.forall_iff_forall_mem.mp (by
    simp only [hostOps11_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps12` writes buffers 382 to 404 only. -/
theorem keep_hostOps12 (V : Valuation τ sig (Elt F)) (b : Ref sig .tc) (hb : b.idx.val < 382) :
    StableHlo.after (hostOps12 (F := F)) V (Proc.devRef .tc b) = V (Proc.devRef .tc b) :=
  StableHlo.after_of_forall_not_mem (b := Proc.devRef .tc b) _ _ (List.forall_iff_forall_mem.mp (by
    simp only [hostOps12, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps12_1` writes buffers 405 to 409 only. -/
theorem keep_hostOps12_1 (V : Valuation τ sig (Elt F)) (b : Ref sig .tc) (hb : b.idx.val < 405) :
    StableHlo.after (hostOps12_1 (F := F)) V (Proc.devRef .tc b) = V (Proc.devRef .tc b) :=
  StableHlo.after_of_forall_not_mem (b := Proc.devRef .tc b) _ _ (List.forall_iff_forall_mem.mp (by
    simp only [hostOps12_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps13` writes buffers 411 to 424 only. -/
theorem keep_hostOps13 (V : Valuation τ sig (Elt F)) (b : Ref sig .tc) (hb : b.idx.val < 411) :
    StableHlo.after (hostOps13 (F := F)) V (Proc.devRef .tc b) = V (Proc.devRef .tc b) :=
  StableHlo.after_of_forall_not_mem (b := Proc.devRef .tc b) _ _ (List.forall_iff_forall_mem.mp (by
    simp only [hostOps13, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps14` writes buffers 426 to 431 only. -/
theorem keep_hostOps14 (V : Valuation τ sig (Elt F)) (b : Ref sig .tc) (hb : b.idx.val < 426) :
    StableHlo.after (hostOps14 (F := F)) V (Proc.devRef .tc b) = V (Proc.devRef .tc b) :=
  StableHlo.after_of_forall_not_mem (b := Proc.devRef .tc b) _ _ (List.forall_iff_forall_mem.mp (by
    simp only [hostOps14, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps14_1` writes buffers 432 to 453 only. -/
theorem keep_hostOps14_1 (V : Valuation τ sig (Elt F)) (b : Ref sig .tc) (hb : b.idx.val < 432) :
    StableHlo.after (hostOps14_1 (F := F)) V (Proc.devRef .tc b) = V (Proc.devRef .tc b) :=
  StableHlo.after_of_forall_not_mem (b := Proc.devRef .tc b) _ _ (List.forall_iff_forall_mem.mp (by
    simp only [hostOps14_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps14_2` writes buffers 454 to 465 only. -/
theorem keep_hostOps14_2 (V : Valuation τ sig (Elt F)) (b : Ref sig .tc) (hb : b.idx.val < 454) :
    StableHlo.after (hostOps14_2 (F := F)) V (Proc.devRef .tc b) = V (Proc.devRef .tc b) :=
  StableHlo.after_of_forall_not_mem (b := Proc.devRef .tc b) _ _ (List.forall_iff_forall_mem.mp (by
    simp only [hostOps14_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- `hostOps15` writes buffers 467 to 486 only. -/
theorem keep_hostOps15 (V : Valuation τ sig (Elt F)) (b : Ref sig .tc) (hb : b.idx.val < 467) :
    StableHlo.after (hostOps15 (F := F)) V (Proc.devRef .tc b) = V (Proc.devRef .tc b) :=
  StableHlo.after_of_forall_not_mem (b := Proc.devRef .tc b) _ _ (List.forall_iff_forall_mem.mp (by
    simp only [hostOps15, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

end Cert.KernelIdeal.Keep

end
-- ==== Proof.KArgs.lean ====
import proofs.«408039_j61503931678734_1_alg».proof.Proof.Gen.KernelIdeal.Frame
import proofs.«408039_j61503931678734_1_alg».proof.Proof.KKeep

noncomputable section

namespace Cert.KernelIdeal.Keep

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD) (b : Ref sig .tc)

/-- The first host stretch writes no argument. -/
theorem W1_arg (hb : b.idx.val < 15) : W1 m ρ c (Proc.devRef .tc b) = m ((c : Thread nD τ).loc b) :=
  keep_hostOps0 _ b hb

/-- A buffer numbered below 19, other than the edge attributes, is none of a region's arrays. -/
theorem not_window {n : Nat} (r : Fin n → Ref sig .tc) (hr : ∀ w, (r w).idx.val < 19 → r w = main_arg2) (hb : b.idx.val < 19)
    (h : b ≠ main_arg2) (w : Fin n) : r w ≠ b :=
  fun e => h (e.symm.trans (hr w (e.symm ▸ hb)))

/-- No host stretch after the first and no region writes a buffer numbered below 19: every boundary keeps it. -/
theorem W2_kept (hb : b.idx.val < 19) : W2 m ρ c (Proc.devRef .tc b) = W1 m ρ c (Proc.devRef .tc b) :=
  keep_hostOps0_1 _ b hb
theorem W3_kept (hb : b.idx.val < 19) : W3 m ρ c (Proc.devRef .tc b) = W1 m ρ c (Proc.devRef .tc b) :=
  (keep_hostOps0_2 _ b (hb.trans (by decide))).trans (W2_kept m ρ c b hb)
theorem W4_kept (hb : b.idx.val < 19) : W4 m ρ c (Proc.devRef .tc b) = W1 m ρ c (Proc.devRef .tc b) :=
  (keep_hostOps0_3 _ b (hb.trans (by decide))).trans (W3_kept m ρ c b hb)
theorem W5_kept (hb : b.idx.val < 19) : W5 m ρ c (Proc.devRef .tc b) = W1 m ρ c (Proc.devRef .tc b) := by
  refine Eq.trans ?_ (W4_kept m ρ c b hb)
  by_cases h : b = main_arg2
  · subst h; exact (W5_arr m ρ c 1).trans (((dat0 (V4 m ρ) c).arrAt_in 1 rfl _).trans (A_eq0 (V4 m ρ) c 1))
  · exact W5_of_ne m ρ c b (not_window b _ (by decide) hb h)
theorem W6_kept (hb : b.idx.val < 19) : W6 m ρ c (Proc.devRef .tc b) = W1 m ρ c (Proc.devRef .tc b) :=
  (keep_hostOps1 _ b (hb.trans (by decide))).trans (W5_kept m ρ c b hb)
theorem W7_kept (hb : b.idx.val < 19) : W7 m ρ c (Proc.devRef .tc b) = W1 m ρ c (Proc.devRef .tc b) :=
  (W7_of_ne m ρ c b fun w e => (by decide : ∀ w, ¬ (Pipeline.arrRef spec1 w).idx.val < 19) w (e.symm ▸ hb)).trans (W6_kept m ρ c b hb)
theorem W8_kept (hb : b.idx.val < 19) : W8 m ρ c (Proc.devRef .tc b) = W1 m ρ c (Proc.devRef .tc b) :=
  (keep_hostOps2 _ b (hb.trans (by decide))).trans (W7_kept m ρ c b hb)
theorem W9_kept (hb : b.idx.val < 19) : W9 m ρ c (Proc.devRef .tc b) = W1 m ρ c (Proc.devRef .tc b) :=
  (keep_hostOps2_1 _ b (hb.trans (by decide))).trans (W8_kept m ρ c b hb)
theorem W10_kept (hb : b.idx.val < 19) : W10 m ρ c (Proc.devRef .tc b) = W1 m ρ c (Proc.devRef .tc b) :=
  (keep_hostOps2_2 _ b (hb.trans (by decide))).trans (W9_kept m ρ c b hb)
theorem W11_kept (hb : b.idx.val < 19) : W11 m ρ c (Proc.devRef .tc b) = W1 m ρ c (Proc.devRef .tc b) :=
  (W11_of_ne m ρ c b fun w e => (by decide : ∀ w, ¬ (Pipeline.arrRef spec2 w).idx.val < 19) w (e.symm ▸ hb)).trans (W10_kept m ρ c b hb)
theorem W12_kept (hb : b.idx.val < 19) : W12 m ρ c (Proc.devRef .tc b) = W1 m ρ c (Proc.devRef .tc b) :=
  (keep_hostOps3 _ b (hb.trans (by decide))).trans (W11_kept m ρ c b hb)
theorem W13_kept (hb : b.idx.val < 19) : W13 m ρ c (Proc.devRef .tc b) = W1 m ρ c (Proc.devRef .tc b) :=
  (keep_hostOps3_1 _ b (hb.trans (by decide))).trans (W12_kept m ρ c b hb)
theorem W14_kept (hb : b.idx.val < 19) : W14 m ρ c (Proc.devRef .tc b) = W1 m ρ c (Proc.devRef .tc b) := by
  refine Eq.trans ?_ (W13_kept m ρ c b hb)
  by_cases h : b = main_arg2
  · subst h; exact (W14_arr m ρ c 1).trans (((dat3 (V13 m ρ) c).arrAt_in 1 rfl _).trans (A_eq3 (V13 m ρ) c 1))
  · exact W14_of_ne m ρ c b (not_window b _ (by decide) hb h)
theorem W15_kept (hb : b.idx.val < 19) : W15 m ρ c (Proc.devRef .tc b) = W1 m ρ c (Proc.devRef .tc b) :=
  (keep_hostOps4 _ b (hb.trans (by decide))).trans (W14_kept m ρ c b hb)
theorem W16_kept (hb : b.idx.val < 19) : W16 m ρ c (Proc.devRef .tc b) = W1 m ρ c (Proc.devRef .tc b) :=
  (W16_of_ne m ρ c b fun w e => (by decide : ∀ w, ¬ (Pipeline.arrRef spec4 w).idx.val < 19) w (e.symm ▸ hb)).trans (W15_kept m ρ c b hb)
theorem W17_kept (hb : b.idx.val < 19) : W17 m ρ c (Proc.devRef .tc b) = W1 m ρ c (Proc.devRef .tc b) :=
  (keep_hostOps5 _ b (hb.trans (by decide))).trans (W16_kept m ρ c b hb)
theorem W18_kept (hb : b.idx.val < 19) : W18 m ρ c (Proc.devRef .tc b) = W1 m ρ c (Proc.devRef .tc b) :=
  (keep_hostOps5_1 _ b (hb.trans (by decide))).trans (W17_kept m ρ c b hb)
theorem W19_kept (hb : b.idx.val < 19) : W19 m ρ c (Proc.devRef .tc b) = W1 m ρ c (Proc.devRef .tc b) :=
  (keep_hostOps5_2 _ b (hb.trans (by decide))).trans (W18_kept m ρ c b hb)
theorem W20_kept (hb : b.idx.val < 19) : W20 m ρ c (Proc.devRef .tc b) = W1 m ρ c (Proc.devRef .tc b) :=
  (W20_of_ne m ρ c b fun w e => (by decide : ∀ w, ¬ (Pipeline.arrRef spec5 w).idx.val < 19) w (e.symm ▸ hb)).trans (W19_kept m ρ c b hb)
theorem W21_kept (hb : b.idx.val < 19) : W21 m ρ c (Proc.devRef .tc b) = W1 m ρ c (Proc.devRef .tc b) :=
  (keep_hostOps6 _ b (hb.trans (by decide))).trans (W20_kept m ρ c b hb)
theorem W22_kept (hb : b.idx.val < 19) : W22 m ρ c (Proc.devRef .tc b) = W1 m ρ c (Proc.devRef .tc b) :=
  (keep_hostOps6_1 _ b (hb.trans (by decide))).trans (W21_kept m ρ c b hb)
theorem W23_kept (hb : b.idx.val < 19) : W23 m ρ c (Proc.devRef .tc b) = W1 m ρ c (Proc.devRef .tc b) := by
  refine Eq.trans ?_ (W22_kept m ρ c b hb)
  by_cases h : b = main_arg2
  · subst h; exact (W23_arr m ρ c 1).trans (((dat6 (V22 m ρ) c).arrAt_in 1 rfl _).trans (A_eq6 (V22 m ρ) c 1))
  · exact W23_of_ne m ρ c b (not_window b _ (by decide) hb h)
theorem W24_kept (hb : b.idx.val < 19) : W24 m ρ c (Proc.devRef .tc b) = W1 m ρ c (Proc.devRef .tc b) :=
  (keep_hostOps7 _ b (hb.trans (by decide))).trans (W23_kept m ρ c b hb)
theorem W25_kept (hb : b.idx.val < 19) : W25 m ρ c (Proc.devRef .tc b) = W1 m ρ c (Proc.devRef .tc b) :=
  (W25_of_ne m ρ c b fun w e => (by decide : ∀ w, ¬ (Pipeline.arrRef spec7 w).idx.val < 19) w (e.symm ▸ hb)).trans (W24_kept m ρ c b hb)
theorem W26_kept (hb : b.idx.val < 19) : W26 m ρ c (Proc.devRef .tc b) = W1 m ρ c (Proc.devRef .tc b) :=
  (keep_hostOps8 _ b (hb.trans (by decide))).trans (W25_kept m ρ c b hb)
theorem W27_kept (hb : b.idx.val < 19) : W27 m ρ c (Proc.devRef .tc b) = W1 m ρ c (Proc.devRef .tc b) :=
  (keep_hostOps8_1 _ b (hb.trans (by decide))).trans (W26_kept m ρ c b hb)
theorem W28_kept (hb : b.idx.val < 19) : W28 m ρ c (Proc.devRef .tc b) = W1 m ρ c (Proc.devRef .tc b) :=
  (keep_hostOps8_2 _ b (hb.trans (by decide))).trans (W27_kept m ρ c b hb)
theorem W29_kept (hb : b.idx.val < 19) : W29 m ρ c (Proc.devRef .tc b) = W1 m ρ c (Proc.devRef .tc b) :=
  (W29_of_ne m ρ c b fun w e => (by decide : ∀ w, ¬ (Pipeline.arrRef spec8 w).idx.val < 19) w (e.symm ▸ hb)).trans (W28_kept m ρ c b hb)
theorem W30_kept (hb : b.idx.val < 19) : W30 m ρ c (Proc.devRef .tc b) = W1 m ρ c (Proc.devRef .tc b) :=
  (keep_hostOps9 _ b (hb.trans (by decide))).trans (W29_kept m ρ c b hb)
theorem W31_kept (hb : b.idx.val < 19) : W31 m ρ c (Proc.devRef .tc b) = W1 m ρ c (Proc.devRef .tc b) :=
  (keep_hostOps9_1 _ b (hb.trans (by decide))).trans (W30_kept m ρ c b hb)
theorem W32_kept (hb : b.idx.val < 19) : W32 m ρ c (Proc.devRef .tc b) = W1 m ρ c (Proc.devRef .tc b) := by
  refine Eq.trans ?_ (W31_kept m ρ c b hb)
  by_cases h : b = main_arg2
  · subst h; exact (W32_arr m ρ c 1).trans (((dat9 (V31 m ρ) c).arrAt_in 1 rfl _).trans (A_eq9 (V31 m ρ) c 1))
  · exact W32_of_ne m ρ c b (not_window b _ (by decide) hb h)
theorem W33_kept (hb : b.idx.val < 19) : W33 m ρ c (Proc.devRef .tc b) = W1 m ρ c (Proc.devRef .tc b) :=
  (keep_hostOps10 _ b (hb.trans (by decide))).trans (W32_kept m ρ c b hb)
theorem W34_kept (hb : b.idx.val < 19) : W34 m ρ c (Proc.devRef .tc b) = W1 m ρ c (Proc.devRef .tc b) :=
  (W34_of_ne m ρ c b fun w e => (by decide : ∀ w, ¬ (Pipeline.arrRef spec10 w).idx.val < 19) w (e.symm ▸ hb)).trans (W33_kept m ρ c b hb)
theorem W35_kept (hb : b.idx.val < 19) : W35 m ρ c (Proc.devRef .tc b) = W1 m ρ c (Proc.devRef .tc b) :=
  (keep_hostOps11 _ b (hb.trans (by decide))).trans (W34_kept m ρ c b hb)
theorem W36_kept (hb : b.idx.val < 19) : W36 m ρ c (Proc.devRef .tc b) = W1 m ρ c (Proc.devRef .tc b) :=
  (keep_hostOps11_1 _ b (hb.trans (by decide))).trans (W35_kept m ρ c b hb)
theorem W37_kept (hb : b.idx.val < 19) : W37 m ρ c (Proc.devRef .tc b) = W1 m ρ c (Proc.devRef .tc b) :=
  (keep_hostOps11_2 _ b (hb.trans (by decide))).trans (W36_kept m ρ c b hb)
theorem W38_kept (hb : b.idx.val < 19) : W38 m ρ c (Proc.devRef .tc b) = W1 m ρ c (Proc.devRef .tc b) :=
  (W38_of_ne m ρ c b fun w e => (by decide : ∀ w, ¬ (Pipeline.arrRef spec11 w).idx.val < 19) w (e.symm ▸ hb)).trans (W37_kept m ρ c b hb)
theorem W39_kept (hb : b.idx.val < 19) : W39 m ρ c (Proc.devRef .tc b) = W1 m ρ c (Proc.devRef .tc b) :=
  (keep_hostOps12 _ b (hb.trans (by decide))).trans (W38_kept m ρ c b hb)
theorem W40_kept (hb : b.idx.val < 19) : W40 m ρ c (Proc.devRef .tc b) = W1 m ρ c (Proc.devRef .tc b) :=
  (keep_hostOps12_1 _ b (hb.trans (by decide))).trans (W39_kept m ρ c b hb)
theorem W41_kept (hb : b.idx.val < 19) : W41 m ρ c (Proc.devRef .tc b) = W1 m ρ c (Proc.devRef .tc b) := by
  refine Eq.trans ?_ (W40_kept m ρ c b hb)
  by_cases h : b = main_arg2
  · subst h; exact (W41_arr m ρ c 1).trans (((dat12 (V40 m ρ) c).arrAt_in 1 rfl _).trans (A_eq12 (V40 m ρ) c 1))
  · exact W41_of_ne m ρ c b (not_window b _ (by decide) hb h)
theorem W42_kept (hb : b.idx.val < 19) : W42 m ρ c (Proc.devRef .tc b) = W1 m ρ c (Proc.devRef .tc b) :=
  (keep_hostOps13 _ b (hb.trans (by decide))).trans (W41_kept m ρ c b hb)
theorem W43_kept (hb : b.idx.val < 19) : W43 m ρ c (Proc.devRef .tc b) = W1 m ρ c (Proc.devRef .tc b) :=
  (W43_of_ne m ρ c b fun w e => (by decide : ∀ w, ¬ (Pipeline.arrRef spec13 w).idx.val < 19) w (e.symm ▸ hb)).trans (W42_kept m ρ c b hb)
theorem W44_kept (hb : b.idx.val < 19) : W44 m ρ c (Proc.devRef .tc b) = W1 m ρ c (Proc.devRef .tc b) :=
  (keep_hostOps14 _ b (hb.trans (by decide))).trans (W43_kept m ρ c b hb)
theorem W45_kept (hb : b.idx.val < 19) : W45 m ρ c (Proc.devRef .tc b) = W1 m ρ c (Proc.devRef .tc b) :=
  (keep_hostOps14_1 _ b (hb.trans (by decide))).trans (W44_kept m ρ c b hb)
theorem W46_kept (hb : b.idx.val < 19) : W46 m ρ c (Proc.devRef .tc b) = W1 m ρ c (Proc.devRef .tc b) :=
  (keep_hostOps14_2 _ b (hb.trans (by decide))).trans (W45_kept m ρ c b hb)
theorem W47_kept (hb : b.idx.val < 19) : W47 m ρ c (Proc.devRef .tc b) = W1 m ρ c (Proc.devRef .tc b) :=
  (W47_of_ne m ρ c b fun w e => (by decide : ∀ w, ¬ (Pipeline.arrRef spec14 w).idx.val < 19) w (e.symm ▸ hb)).trans (W46_kept m ρ c b hb)
theorem W48_kept (hb : b.idx.val < 19) : W48 m ρ c (Proc.devRef .tc b) = W1 m ρ c (Proc.devRef .tc b) :=
  (keep_hostOps15 _ b (hb.trans (by decide))).trans (W47_kept m ρ c b hb)

end Cert.KernelIdeal.Keep

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev E64 : Shape := ⟨2, ![1000000, 64]⟩

abbrev E7 : Shape := ⟨2, ![1000000, 7]⟩

abbrev N64 : Shape := ⟨2, ![100000, 64]⟩

abbrev W7x64 : Shape := ⟨2, ![7, 64]⟩

abbrev W64x64 : Shape := ⟨2, ![64, 64]⟩

abbrev R64 : Shape := ⟨2, ![1, 64]⟩

def edgeG (hs : E64.Idx → EReal) (ea : E7.Idx → EReal) (ew : W7x64.Idx → EReal) (eb : R64.Idx → EReal) : E64.Idx → EReal :=
  fun i => max (hs i + ((∑ k : Fin 7, ea (ix2 (i 0) k) * ew (ix2 k (i 1))) + eb (ix2 0 (i 1)))) 0

def mlpG (h agg : N64.Idx → EReal) (w1 : W64x64.Idx → EReal) (b1 : R64.Idx → EReal) (w2 : W64x64.Idx → EReal)
    (b2 : R64.Idx → EReal) : N64.Idx → EReal :=
  fun i => (∑ k : Fin 64, max ((∑ k' : Fin 64, (h (ix2 (i 0) k') + agg (ix2 (i 0) k')) * w1 (ix2 k' k)) + b1 (ix2 0 k)) 0
    * w2 (ix2 k (i 1))) + b2 (ix2 0 (i 1))

def bnG (z : N64.Idx → EReal) (mu s ga be : R64.Idx → EReal) : N64.Idx → EReal :=
  fun i => (z i - mu (ix2 0 (i 1))) * s (ix2 0 (i 1)) * ga (ix2 0 (i 1)) + be (ix2 0 (i 1))

def bnReluG (z : N64.Idx → EReal) (mu s ga be : R64.Idx → EReal) : N64.Idx → EReal :=
  fun i => max (bnG z mu s ga be i) 0

end Cert.Spec

end
-- ==== Proof.Sim.lean ====
import proofs.«408039_j61503931678734_1_alg».proof.Proof.KRun
import proofs.«408039_j61503931678734_1_alg».proof.Proof.RefRun
import proofs.«408039_j61503931678734_1_alg».proof.Proof.RefRun
import proofs.«408039_j61503931678734_1_alg».proof.Proof.RKeep
import proofs.«408039_j61503931678734_1_alg».proof.Proof.KArgs
import proofs.«408039_j61503931678734_1_alg».proof.Proof.Gen.ReferenceIdeal
import proofs.«408039_j61503931678734_1_alg».proof.Proof.Spec

noncomputable section

namespace Cert.Sim

open Idealize.ShloMosaic Idealize.ShloMosaic.TcCoe Idealize.ShloMosaic.StableHlo Idealize.SL.Sem

abbrev U0 (m' : (ℓ : Loc Cert.ReferenceIdeal.nD Cert.ReferenceIdeal.τ Cert.ReferenceIdeal.sig) → Buf (Elt Ideal) ℓ)
    (c : Dev Cert.ReferenceIdeal.nD) : Valuation Cert.ReferenceIdeal.τ Cert.ReferenceIdeal.sig (Elt Ideal) :=
  launchContents m' c

variable (m' : (ℓ : Loc Cert.ReferenceIdeal.nD Cert.ReferenceIdeal.τ Cert.ReferenceIdeal.sig) → Buf (Elt Ideal) ℓ)

abbrev UH (c : Dev Cert.ReferenceIdeal.nD) := after (Cert.ReferenceIdeal.Ops.chunkH (F := Ideal)) (U0 m' c)

abbrev UL0 (c : Dev Cert.ReferenceIdeal.nD) := after (Cert.ReferenceIdeal.Ops.chunkL0 (F := Ideal)) (UH m' c)

abbrev UL1 (c : Dev Cert.ReferenceIdeal.nD) := after (Cert.ReferenceIdeal.Ops.chunkL1 (F := Ideal)) (UL0 m' c)

abbrev UL2 (c : Dev Cert.ReferenceIdeal.nD) := after (Cert.ReferenceIdeal.Ops.chunkL2 (F := Ideal)) (UL1 m' c)

abbrev UL3 (c : Dev Cert.ReferenceIdeal.nD) := after (Cert.ReferenceIdeal.Ops.chunkL3 (F := Ideal)) (UL2 m' c)

abbrev UL4 (c : Dev Cert.ReferenceIdeal.nD) := after (Cert.ReferenceIdeal.Ops.chunkL4 (F := Ideal)) (UL3 m' c)

abbrev UT (c : Dev Cert.ReferenceIdeal.nD) := after (Cert.ReferenceIdeal.Ops.chunkT (F := Ideal)) (UL4 m' c)

theorem UT_eq (c : Dev Cert.ReferenceIdeal.nD) :
    after (Cert.ReferenceIdeal.Run.ops (F := Ideal)) (launchContents m' c) = UT m' c :=
  Cert.ReferenceIdeal.Run.after_ops _

variable (m : (ℓ : Loc Cert.KernelIdeal.nD Cert.KernelIdeal.τ Cert.KernelIdeal.sig) → Buf (Elt Ideal) ℓ)
  (ρ : Dev Cert.KernelIdeal.nD → PrngReg)

def Agree : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

def XInRange : Prop :=
  ∀ (c : Dev Cert.KernelIdeal.nD) (j : Cert.KernelIdeal.S100000.Idx),
    (m ((c.tc : Thread Cert.KernelIdeal.nD Cert.KernelIdeal.τ).loc Cert.KernelIdeal.main_arg0) j).toInt = 0

def SrcInRange : Prop :=
  ∀ (c : Dev Cert.KernelIdeal.nD) (j : Fin 1000000),
    0 ≤ (m ((c.tc : Thread Cert.KernelIdeal.nD Cert.KernelIdeal.τ).loc Cert.KernelIdeal.main_arg1) (ValueIdx.ix2 (0 : Fin 2) j)).toInt
    ∧ (m ((c.tc : Thread Cert.KernelIdeal.nD Cert.KernelIdeal.τ).loc Cert.KernelIdeal.main_arg1) (ValueIdx.ix2 (0 : Fin 2) j)).toInt < 100000

def Inv0 (c : Dev Cert.KernelIdeal.nD) : Prop :=
  (Cert.KernelIdeal.Gen.W11 m ρ c (Proc.devRef .tc Cert.KernelIdeal.main_v41) : Cert.Spec.N64.Idx → EReal)
    = (UL0 m' c (Proc.devRef .tc Cert.ReferenceIdeal.main_v72) : Cert.Spec.N64.Idx → EReal)

def Inv1 (c : Dev Cert.KernelIdeal.nD) : Prop :=
  (Cert.KernelIdeal.Gen.W20 m ρ c (Proc.devRef .tc Cert.KernelIdeal.main_v78) : Cert.Spec.N64.Idx → EReal)
    = (UL1 m' c (Proc.devRef .tc Cert.ReferenceIdeal.main_v134) : Cert.Spec.N64.Idx → EReal)

def Inv2 (c : Dev Cert.KernelIdeal.nD) : Prop :=
  (Cert.KernelIdeal.Gen.W29 m ρ c (Proc.devRef .tc Cert.KernelIdeal.main_v115) : Cert.Spec.N64.Idx → EReal)
    = (UL2 m' c (Proc.devRef .tc Cert.ReferenceIdeal.main_v196) : Cert.Spec.N64.Idx → EReal)

def Inv3 (c : Dev Cert.KernelIdeal.nD) : Prop :=
  (Cert.KernelIdeal.Gen.W38 m ρ c (Proc.devRef .tc Cert.KernelIdeal.main_v152) : Cert.Spec.N64.Idx → EReal)
    = (UL3 m' c (Proc.devRef .tc Cert.ReferenceIdeal.main_v258) : Cert.Spec.N64.Idx → EReal)

def Inv4 (c : Dev Cert.KernelIdeal.nD) : Prop :=
  (Cert.KernelIdeal.Gen.W47 m ρ c (Proc.devRef .tc Cert.KernelIdeal.main_v189) : Cert.Spec.N64.Idx → EReal)
    = (UL4 m' c (Proc.devRef .tc Cert.ReferenceIdeal.main_v319) : Cert.Spec.N64.Idx → EReal)

def Final (c : Dev Cert.KernelIdeal.nD) : Prop :=
  (Cert.KernelIdeal.Gen.W48 m ρ c (Proc.devRef .tc Cert.KernelIdeal.main_v205) : (⟨2, ![128, 10]⟩ : Shape).Idx → EReal)
    = (UT m' c (Proc.devRef .tc Cert.ReferenceIdeal.main_v335) : (⟨2, ![128, 10]⟩ : Shape).Idx → EReal)

end Cert.Sim

end
-- ==== Proof.PreDecode.lean ====
import proofs.«408039_j61503931678734_1_alg».proof.Defs
import proofs.«408039_j61503931678734_1_alg».proof.Proof.Gen.Pre_finite_inputs
import proofs.«408039_j61503931678734_1_alg».proof.Proof.Sim
import Idealize.ShloMosaic.Lib.ReduceAll
import Idealize.ShloMosaic.Lib.StableHlo.Predicate
import Idealize.ShloMosaic.Lib.ValueIdx
import Idealize.ShloMosaic.Lib.Pipeline.Value

noncomputable section

namespace Cert.Sim

open Idealize.ShloMosaic Idealize.ShloMosaic.TcCoe Idealize.SL.Sem

theorem toInt_eq_zero_of_test (w : BitVec 32)
    (h : IntOp.andi (IntOp.cmpi .sge w 0#32) (IntOp.cmpi .slt w 1#32) = 1#1) : w.toInt = 0 := by
  obtain ⟨h0, h1⟩ := IntOp.andi_eq_one.1 h
  have a0 := IntOp.cmpi_sge.1 h0
  have a1 := IntOp.cmpi_slt.1 h1
  have e0 : (0#32 : BitVec 32).toInt = 0 := by decide
  have e1 : (1#32 : BitVec 32).toInt = 1 := by decide
  omega

theorem toInt_range_of_test (w : BitVec 32)
    (h : IntOp.andi (IntOp.cmpi .sge w 0#32) (IntOp.cmpi .slt w 100000#32) = 1#1) : 0 ≤ w.toInt ∧ w.toInt < 100000 := by
  obtain ⟨h0, h1⟩ := IntOp.andi_eq_one.1 h
  have a0 := IntOp.cmpi_sge.1 h0
  have a1 := IntOp.cmpi_slt.1 h1
  have e0 : (0#32 : BitVec 32).toInt = 0 := by decide
  have e1 : (100000#32 : BitVec 32).toInt = 100000 := by decide
  omega

section Decode
open Cert.Pre_finite_inputs

theorem part3_decode {F : FTy → Type} [FloatOps F] (a0 : IVec S100000 32) (a14 : FVec F S10 .f32) (v1 : IVec S1000000 32)
    (v50 : IVec S_ 1) (v51 : FVec F S64x10 .f32)
    (e : fn_part3 (F := F) a0 a14 v1 v50 v51 ValueIdx.ix0 = 1#1) :
    (∀ j, (a0 j).toInt = 0) ∧ (∀ j, 0 ≤ (v1 j).toInt ∧ (v1 j).toInt < 100000) := by
  haveI : Subsingleton S_.Idx := ⟨fun a b => funext fun d => d.elim0⟩
  dsimp only [fn_part3, fn_part4] at e
  obtain ⟨e67, hS⟩ := IntOp.andi_eq_one.1 e
  obtain ⟨-, hX⟩ := IntOp.andi_eq_one.1 e67
  refine ⟨fun j => ?_, fun j => ?_⟩
  · exact toInt_eq_zero_of_test _ (Host.reduce_andi_all _ _ _ _ _ hX j)
  · exact toInt_range_of_test _ (Host.reduce_andi_all _ _ _ _ _ hS j)

end Decode

section Decode2
open Cert.Pre_finite_inputs Cert.Pre_finite_inputs.Facts

theorem row0_apply (a1 : IVec S2x1000000 32) (j : Fin 1000000) :
    shapeCast S1000000 (extractStridedSlice S1x1000000 ![0, 0] a1 slices_S2x1000000_S1x1000000_0_0)
        shapeCasts_S1x1000000_S1000000 (ValueIdx.ix1 (n := 1000000) j)
      = a1 (ValueIdx.ix2 (0 : Fin 2) j) := by
  refine (shapeCast_apply _ _ _ (ValueIdx.ix2 (0 : Fin 1) j) ?_).trans ?_
  · rw [Shape.rowMajor_val_two, Shape.rowMajor_val_one]
    show (0 : Nat) * 1000000 + j.val = j.val
    omega
  · exact extractStridedSlice_apply _ _ _ _ (ValueIdx.ix2 (0 : Fin 2) j)
      (fun a => match a with
        | ⟨0, _⟩ => by show (0 : Nat) = 0 + 0; omega
        | ⟨1, _⟩ => by show j.val = 0 + j.val; omega)

theorem fn_decode {F : FTy → Type} [FloatOps F] (a0 : IVec S100000 32) (a1 : IVec S2x1000000 32)
    (a2 : FVec F S1000000x7 .f32) (a3 : IVec S100000 32) (a4 : FVec F S1x64 .f32) (a5 : FVec F S5x7x64 .f32)
    (a6 : FVec F S5x64 .f32) (a7 : FVec F S5x64x64 .f32) (a8 : FVec F S5x64 .f32) (a9 : FVec F S5x64x64 .f32)
    (a10 : FVec F S5x64 .f32) (a11 : FVec F S5x64 .f32) (a12 : FVec F S5x64 .f32) (a13 : FVec F S64x10 .f32)
    (a14 : FVec F S10 .f32)
    (e : fn (F := F) a0 a1 a2 a3 a4 a5 a6 a7 a8 a9 a10 a11 a12 a13 a14 ValueIdx.ix0 = 1#1) :
    (∀ j : S100000.Idx, (a0 j).toInt = 0)
      ∧ ∀ j : Fin 1000000, 0 ≤ (a1 (ValueIdx.ix2 (0 : Fin 2) j)).toInt ∧ (a1 (ValueIdx.ix2 (0 : Fin 2) j)).toInt < 100000 := by
  dsimp only [fn, fn_part1, fn_part2] at e
  obtain ⟨hx, hs⟩ := part3_decode _ _ _ _ _ e
  refine ⟨hx, fun j => ?_⟩
  rw [← row0_apply a1 j]
  exact hs (ValueIdx.ix1 (n := 1000000) j)

end Decode2

variable (m : (ℓ : Loc Cert.KernelIdeal.nD Cert.KernelIdeal.τ Cert.KernelIdeal.sig) → Buf (Elt Ideal) ℓ)

theorem pre_x (h : Cert.Pre_KernelIdeal m) : XInRange m := by
  intro c j
  exact (fn_decode _ _ _ _ _ _ _ _ _ _ _ _ _ _ _ (congrFun (h c) ValueIdx.ix0)).1 j

theorem pre_src (h : Cert.Pre_KernelIdeal m) : SrcInRange m := by
  intro c j
  exact (fn_decode _ _ _ _ _ _ _ _ _ _ _ _ _ _ _ (congrFun (h c) ValueIdx.ix0)).2 j

end Cert.Sim

end
-- ==== Proof.Region0.lean ====
import proofs.«408039_j61503931678734_1_alg».proof.Proof.Gen.KernelIdeal.Frame
import proofs.«408039_j61503931678734_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem lhs_dot_S8000x7_S7x64_S8000x64_1_0_0_1_n_n_0 (j : S8000x64.Idx) (k : dot_S8000x7_S7x64_S8000x64_1_0_0_1_n_n.contr.Idx) :
    (dot_S8000x7_S7x64_S8000x64_1_0_0_1_n_n.lhsIdx j k 0).val = (j 0).val := by
  unfold DotDims.lhsIdx
  rw [dif_neg (show ¬(0 : Fin S8000x7.rank) ∈ dot_S8000x7_S7x64_S8000x64_1_0_0_1_n_n.lhsBatch from List.not_mem_nil),
    dif_pos (show (0 : Fin S8000x7.rank) ∈ dot_S8000x7_S7x64_S8000x64_1_0_0_1_n_n.lhsNonContracting from List.mem_singleton.mpr rfl)]
  rfl

private theorem lhs_dot_S8000x7_S7x64_S8000x64_1_0_0_1_n_n_1 (j : S8000x64.Idx) (k : dot_S8000x7_S7x64_S8000x64_1_0_0_1_n_n.contr.Idx) :
    (dot_S8000x7_S7x64_S8000x64_1_0_0_1_n_n.lhsIdx j k 1).val = (k ⟨0, Nat.one_pos⟩).val :=
  dot_S8000x7_S7x64_S8000x64_1_0_0_1_n_n.lhsIdx_val_of_single (cl := 1) rfl j k

private theorem rhs_dot_S8000x7_S7x64_S8000x64_1_0_0_1_n_n_0 (j : S8000x64.Idx) (k : dot_S8000x7_S7x64_S8000x64_1_0_0_1_n_n.contr.Idx) :
    (dot_S8000x7_S7x64_S8000x64_1_0_0_1_n_n.rhsIdx j k 0).val = (k ⟨0, Nat.one_pos⟩).val :=
  dot_S8000x7_S7x64_S8000x64_1_0_0_1_n_n.rhsIdx_val_of_single (cr := 0) rfl j k

private theorem rhs_dot_S8000x7_S7x64_S8000x64_1_0_0_1_n_n_1 (j : S8000x64.Idx) (k : dot_S8000x7_S7x64_S8000x64_1_0_0_1_n_n.contr.Idx) :
    (dot_S8000x7_S7x64_S8000x64_1_0_0_1_n_n.rhsIdx j k 1).val = (j 1).val := by
  unfold DotDims.rhsIdx
  rw [dif_neg (show ¬(1 : Fin S7x64.rank) ∈ dot_S8000x7_S7x64_S8000x64_1_0_0_1_n_n.rhsBatch from List.not_mem_nil),
    dif_pos (show (1 : Fin S7x64.rank) ∈ dot_S8000x7_S7x64_S8000x64_1_0_0_1_n_n.rhsNonContracting from List.mem_singleton.mpr rfl)]
  rfl

private theorem block_product_apply (a : FVec Ideal S8000x7 .bf16) (b : FVec Ideal S7x64 .bf16) (r : Fin 8000) (q : Fin 64) :
    matmul (F := Ideal) dot_S8000x7_S7x64_S8000x64_1_0_0_1_n_n none a b (constant (F := Ideal) S8000x64 .f32 0x00000000#32) (ix2 r q)
      = ∑ k : Fin 7, a (ix2 r k) * b (ix2 k q) := by
  simp only [matmul]
  rw [Ideal.matmul_constant_zero_apply, ← Equiv.sum_comp (contrEquiv1 dot_S8000x7_S7x64_S8000x64_1_0_0_1_n_n 7 rfl rfl).symm]
  refine Finset.sum_congr rfl fun c _ => ?_
  have hc := contrEquiv1_symm_val dot_S8000x7_S7x64_S8000x64_1_0_0_1_n_n 7 rfl rfl c
  have hl : dot_S8000x7_S7x64_S8000x64_1_0_0_1_n_n.lhsIdx (ix2 r q) ((contrEquiv1 dot_S8000x7_S7x64_S8000x64_1_0_0_1_n_n 7 rfl rfl).symm c) = ix2 r c := by
    funext ax; apply Fin.ext
    match ax with
    | ⟨0, _⟩ => exact lhs_dot_S8000x7_S7x64_S8000x64_1_0_0_1_n_n_0 _ _
    | ⟨1, _⟩ => exact (lhs_dot_S8000x7_S7x64_S8000x64_1_0_0_1_n_n_1 _ _).trans hc
  have hr : dot_S8000x7_S7x64_S8000x64_1_0_0_1_n_n.rhsIdx (ix2 r q) ((contrEquiv1 dot_S8000x7_S7x64_S8000x64_1_0_0_1_n_n 7 rfl rfl).symm c) = ix2 c q := by
    funext ax; apply Fin.ext
    match ax with
    | ⟨0, _⟩ => exact (rhs_dot_S8000x7_S7x64_S8000x64_1_0_0_1_n_n_0 _ _).trans hc
    | ⟨1, _⟩ => exact rhs_dot_S8000x7_S7x64_S8000x64_1_0_0_1_n_n_1 _ _
  rw [hl, hr]

private theorem row_over_block_apply (v : FVec Ideal S1x64 .f32) (r : Fin 8000) (q : Fin 64) :
    broadcastTo S8000x64 v broadcasts_S1x64_S8000x64 (ix2 r q) = v (ix2 (0 : Fin 1) q) :=
  broadcastTo_apply v _ _ (ix2 (0 : Fin 1) q) fun a => by
    match a with
    | ⟨0, _⟩ => rfl
    | ⟨1, _⟩ => rfl

private theorem message_block_apply (x0 : Vec Ideal S8000x64 .f32) (x1 : Vec Ideal S8000x7 .f32) (x2 : Vec Ideal S7x64 .f32)
    (x3 : Vec Ideal S1x64 .f32) (r : Fin 8000) (q : Fin 64) :
    k0_pay1 (F := Ideal) x1 x2 x3 x0 (ix2 r q)
      = max (x0 (ix2 r q) + ((∑ k : Fin 7, x1 (ix2 r k) * x2 (ix2 k q)) + x3 (ix2 (0 : Fin 1) q))) 0 := by
  unfold k0_pay1
  simp only [shapeCast_self]
  rw [maximumf_apply, addf_apply, addf_apply, block_product_apply, row_over_block_apply, broadcast_apply]
  show max _ (Ideal.ofBits .f32 0x00000000#32) = _
  rw [Ideal.ofBits_zero_f32]
  rfl

private theorem idx_facts : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

private theorem mem_blk (t : Fin cfg0.N) (i : S1000000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole (Pipeline.arrRef spec0 4)).slice (win0_4.rect t)).set ↔ _
  rw [View.set_slice_whole, Rect.mem_set_unit]
  exact Iff.rfl

private theorem cover (i : S1000000x64.Idx) :
    ∃ t : Fin cfg0.N, (cfg0.win 4).flush t = true ∧ i ∈ ((cfg0.win 4).blk t).view.set := by
  have hi0 : (i 0).val < 1000000 := (i 0).isLt
  have hi1 : (i 1).val < 64 := (i 1).isLt
  have hN : cfg0.N = 125 := N_0
  refine ⟨⟨(i 0).val / 8000, by rw [hN]; omega⟩, flush0_4 _, ?_⟩
  rw [mem_blk]
  obtain ⟨e0, e1, -⟩ := idx_facts ⟨(i 0).val / 8000, by rw [hN]; omega⟩
  intro a
  match a with
  | ⟨0, _⟩ =>
    show win0_4.index ⟨(i 0).val / 8000, _⟩ (0 : Fin 2) * 8000 ≤ (i 0).val ∧ (i 0).val < win0_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win0_4.index ⟨(i 0).val / 8000, _⟩ (1 : Fin 2) * 64 ≤ (i 1).val ∧ (i 1).val < win0_4.index ⟨(i 0).val / 8000, _⟩ (1 : Fin 2) * 64 + 64
    rw [e1]; omega

theorem message_block_eq_spec (A : S1000000x64.Idx → EReal) (B : S1000000x7.Idx → EReal) (C : S7x64.Idx → EReal)
    (D : S1x64.Idx → EReal) (x0 : Vec Ideal S8000x64 .f32) (x1 : Vec Ideal S8000x7 .f32) (x2 : Vec Ideal S7x64 .f32)
    (x3 : Vec Ideal S1x64 .f32) (j : S8000x64.Idx) (i : S1000000x64.Idx)
    (h0 : x0 j = A i) (h1 : ∀ k : Fin 7, x1 (ix2 (j 0) k) = B (ix2 (i 0) k))
    (h2 : ∀ k : Fin 7, x2 (ix2 k (j 1)) = C (ix2 k (i 1))) (h3 : x3 (ix2 (0 : Fin 1) (j 1)) = D (ix2 (0 : Fin 1) (i 1))) :
    k0_pay1 (F := Ideal) x1 x2 x3 x0 j = Cert.Spec.edgeG A B C D i := by
  obtain ⟨r, q, rfl⟩ : ∃ (r : Fin 8000) (q : Fin 64), j = ix2 r q := ⟨j 0, j 1, eq_ix2 j⟩
  have h1' : ∀ k : Fin 7, x1 (ix2 r k) = B (ix2 (i 0) k) := h1
  have h2' : ∀ k : Fin 7, x2 (ix2 k q) = C (ix2 k (i 1)) := h2
  have h3' : x3 (ix2 (0 : Fin 1) q) = D (ix2 (0 : Fin 1) (i 1)) := h3
  rw [message_block_apply, h0, h3']
  simp only [h1', h2']
  rfl

private theorem rows_emb (t : Fin cfg0.N) (j : S8000x64.Idx) :
    ((cfg0.win 0).blk t).view.emb j = ((cfg0.win 4).blk t).view.emb j := by
  obtain ⟨e40, e41, e00, e01, -⟩ := idx_facts t
  funext a; apply Fin.ext
  match a with
  | ⟨0, _⟩ => show win0_0.index t (0 : Fin 2) * 8000 + 1 * (j 0).val = win0_4.index t (0 : Fin 2) * 8000 + 1 * (j 0).val; omega
  | ⟨1, _⟩ => show win0_0.index t (1 : Fin 2) * 64 + 1 * (j 1).val = win0_4.index t (1 : Fin 2) * 64 + 1 * (j 1).val; omega

private theorem attr_emb (t : Fin cfg0.N) (j : S8000x64.Idx) (k : Fin 7) :
    ((cfg0.win 1).blk t).view.emb (ix2 (j 0) k) = (ix2 ((((cfg0.win 4).blk t).view.emb j) 0) k : S1000000x7.Idx) := by
  obtain ⟨e40, e41, e00, e01, e10, e11, -⟩ := idx_facts t
  funext a; apply Fin.ext
  match a with
  | ⟨0, _⟩ => show win0_1.index t (0 : Fin 2) * 8000 + 1 * (j 0).val = win0_4.index t (0 : Fin 2) * 8000 + 1 * (j 0).val; omega
  | ⟨1, _⟩ => show win0_1.index t (1 : Fin 2) * 7 + 1 * k.val = k.val; omega

private theorem weight_emb (t : Fin cfg0.N) (j : S8000x64.Idx) (k : Fin 7) :
    ((cfg0.win 2).blk t).view.emb (ix2 k (j 1)) = (ix2 k ((((cfg0.win 4).blk t).view.emb j) 1) : S7x64.Idx) := by
  obtain ⟨e40, e41, e00, e01, e10, e11, e20, e21, -⟩ := idx_facts t
  funext a; apply Fin.ext
  match a with
  | ⟨0, _⟩ => show win0_2.index t (0 : Fin 2) * 7 + 1 * k.val = k.val; omega
  | ⟨1, _⟩ => show win0_2.index t (1 : Fin 2) * 64 + 1 * (j 1).val = win0_4.index t (1 : Fin 2) * 64 + 1 * (j 1).val; omega

private theorem bias_emb (t : Fin cfg0.N) (j : S8000x64.Idx) :
    ((cfg0.win 3).blk t).view.emb (ix2 (0 : Fin 1) (j 1)) = (ix2 (0 : Fin 1) ((((cfg0.win 4).blk t).view.emb j) 1) : S1x64.Idx) := by
  obtain ⟨e40, e41, e00, e01, e10, e11, e20, e21, e30, e31⟩ := idx_facts t
  funext a; apply Fin.ext
  match a with
  | ⟨0, _⟩ => show win0_3.index t (0 : Fin 2) * 1 + 1 * 0 = 0; omega
  | ⟨1, _⟩ => show win0_3.index t (1 : Fin 2) * 64 + 1 * (j 1).val = win0_4.index t (1 : Fin 2) * 64 + 1 * (j 1).val; omega

theorem zero_offsets : (![0, 0] : Fin 2 → Nat) = fun _ => 0 :=
  funext fun a => match a with | ⟨0, _⟩ => rfl | ⟨1, _⟩ => rfl

private theorem flushed_eq (c : Dev nD) (t : Fin cfg0.N) :
    (dat0 (F := Ideal) V c).flushed 4 t
      = ((cfg0.win 4).blk t).view.read (Elt Ideal)
          (Cert.Spec.edgeG (V c main_v5) (V c main_arg2) (V c main_v7) (V c main_v10)) := by
  show (cfg0.win 4).cut (grid0.coords t) ((dat0 (F := Ideal) V c).after 4 t) = _
  rw [after0_4]
  unfold out0_4
  rw [View.canon_unit_zero zero_offsets]
  simp only [View.ld_unit_zero (S := S8000x7) zero_offsets, View.ld_unit_zero (S := S7x64) zero_offsets,
    View.ld_unit_zero (S := S1x64) zero_offsets, View.ld_unit_zero (S := S8000x64) zero_offsets]
  refine funext fun (j : S8000x64.Idx) => ?_
  show k0_pay1 (F := Ideal) (iblk0 V c 1 t) (iblk0 V c 2 t) (iblk0 V c 3 t) (iblk0 V c 0 t) j
    = Cert.Spec.edgeG (V c main_v5) (V c main_arg2) (V c main_v7) (V c main_v10) (((cfg0.win 4).blk t).view.emb j)
  refine message_block_eq_spec (V c main_v5) (V c main_arg2) (V c main_v7) (V c main_v10)
    (iblk0 V c 0 t) (iblk0 V c 1 t) (iblk0 V c 2 t) (iblk0 V c 3 t) j (((cfg0.win 4).blk t).view.emb j)
    ?_ (fun k => ?_) (fun k => ?_) ?_
  · show V c main_v5 (((cfg0.win 0).blk t).view.emb j) = V c main_v5 (((cfg0.win 4).blk t).view.emb j)
    exact congrArg (V c main_v5) (rows_emb t j)
  · show V c main_arg2 (((cfg0.win 1).blk t).view.emb (ix2 (j 0) k))
      = V c main_arg2 (ix2 ((((cfg0.win 4).blk t).view.emb j) 0) k : S1000000x7.Idx)
    exact congrArg (V c main_arg2) (attr_emb t j k)
  · show V c main_v7 (((cfg0.win 2).blk t).view.emb (ix2 k (j 1)))
      = V c main_v7 (ix2 k ((((cfg0.win 4).blk t).view.emb j) 1) : S7x64.Idx)
    exact congrArg (V c main_v7) (weight_emb t j k)
  · show V c main_v10 (((cfg0.win 3).blk t).view.emb (ix2 (0 : Fin 1) (j 1)))
      = V c main_v10 (ix2 (0 : Fin 1) ((((cfg0.win 4).blk t).view.emb j) 1) : S1x64.Idx)
    exact congrArg (V c main_v10) (bias_emb t j)

theorem region0 (c : Dev nD) :
    (dat0 (F := Ideal) V c).arrAt 4 cfg0.N
      = Cert.Spec.edgeG (V c main_v5) (V c main_arg2) (V c main_v7) (V c main_v10) := by
  exact (dat0 (F := Ideal) V c).arrAt_eq_of_cover 4 _ (fun t _ => flushed_eq V c t) cover

end Cert.KernelIdeal.RegionValue

end
-- ==== Proof.Region1.lean ====
import proofs.«408039_j61503931678734_1_alg».proof.Proof.Gen.KernelIdeal.Frame
import proofs.«408039_j61503931678734_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem mm1_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch from List.not_mem_nil),
    dif_pos (show (0 : Fin S5000x64.rank) ∈ dot_S5000x64_S64x64_S5000x64_1_0_0_1_n_n.lhsNonContracting from List.mem_singleton.mpr rfl)]
  rfl

private theorem mm1_lhs_1 (i : S5000x64.Idx) (q : dot_S5000x64_S64x64_S5000x64_1_0_0_1_n_n.contr.Idx) :
    (dot_S5000x64_S64x64_S5000x64_1_0_0_1_n_n.lhsIdx i q 1).val = (q ⟨0, Nat.one_pos⟩).val :=
  dot_S5000x64_S64x64_S5000x64_1_0_0_1_n_n.lhsIdx_val_of_single rfl i q

private theorem mm1_rhs_0 (i : S5000x64.Idx) (q : dot_S5000x64_S64x64_S5000x64_1_0_0_1_n_n.contr.Idx) :
    (dot_S5000x64_S64x64_S5000x64_1_0_0_1_n_n.rhsIdx i q 0).val = (q ⟨0, Nat.one_pos⟩).val :=
  dot_S5000x64_S64x64_S5000x64_1_0_0_1_n_n.rhsIdx_val_of_single rfl i q

private theorem mm1_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch from List.not_mem_nil),
    dif_pos (show (1 : Fin S64x64.rank) ∈ dot_S5000x64_S64x64_S5000x64_1_0_0_1_n_n.rhsNonContracting from List.mem_singleton.mpr rfl)]
  rfl

private theorem mm1_apply {φ₁ φ₂ : FTy} (l : FVec Ideal S5000x64 φ₁) (r : FVec Ideal S64x64 φ₂) (p : Fin 5000) (q : Fin 64) :
    matmul (F := Ideal) dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm1_lhs_0 _ _
    | ⟨1, _⟩ => exact (mm1_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (mm1_rhs_0 _ _).trans hk
    | ⟨1, _⟩ => exact mm1_rhs_1 _ _)
  rw [el, er]

private theorem bias1_apply (u : FVec Ideal S1x64 .f32) (p : Fin 5000) (q : Fin 64) :
    broadcastTo S5000x64 u broadcasts_S1x64_S5000x64 (ix2 p q) = u (ix2 0 q) :=
  broadcastTo_apply u broadcasts_S1x64_S5000x64 (ix2 p q) (ix2 0 q) fun a => by
    match a with
    | ⟨0, _⟩ => rfl
    | ⟨1, _⟩ => rfl

private theorem pay1_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k1_pay1 x0 x1 x2 x3 x4 x5 (ix2 p q)
      = (∑ k : Fin 64, max ((∑ k' : Fin 64, (x0 (ix2 p k') + x1 (ix2 p k')) * x2 (ix2 k' k)) + x3 (ix2 0 k)) 0 * x4 (ix2 k q))
        + x5 (ix2 0 q) := by
  unfold k1_pay1
  simp only [shapeCast_self]
  rw [addf_apply, mm1_apply, bias1_apply]
  refine congrArg₂ (· + ·) (Finset.sum_congr rfl fun k _ => ?_) rfl
  rw [truncf_apply, maximumf_apply, addf_apply, mm1_apply, bias1_apply, broadcast_apply]
  have hzero : (FloatOps.ofBits (F := Ideal) FTy.f32 0x00000000#32 : EReal) = 0 := Ideal.ofBits_zero_f32
  rw [hzero]
  rfl

private theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

private theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v25).slice (win1_6.rect t)).set ↔ _
  rw [View.set_slice_whole, Rect.mem_set_unit]
  exact Iff.rfl

private theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨-, -, -, -, -, -, -, -, -, -, -, -, e0, e1⟩ := idx_facts1 t
  have ht : t.val = (i 0).val / 5000 := rfl
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

theorem hz1 : (![0, 0] : Fin 2 → Nat) = fun _ => 0 := funext fun a => by fin_cases a <;> rfl

def row1 (b : Nat) (hb : b < 20) (p : Fin 5000) : Fin 100000 := ⟨b * 5000 + p.val, by have := p.isLt; omega⟩

theorem pay1_eq_spec (A0 A1 : Cert.Spec.N64.Idx → EReal) (x0 x1 : Vec Ideal S5000x64 .f32) (x2 : Vec Ideal S64x64 .f32)
    (x3 : Vec Ideal S1x64 .f32) (x4 : Vec Ideal S64x64 .f32) (x5 : Vec Ideal S1x64 .f32) (row : Fin 5000 → Fin 100000)
    (h0 : ∀ p k, x0 (ix2 p k) = A0 (ix2 (row p) k)) (h1 : ∀ p k, x1 (ix2 p k) = A1 (ix2 (row p) k)) (p : Fin 5000) (q : Fin 64) :
    k1_pay1 x0 x1 x2 x3 x4 x5 (ix2 p q) = Cert.Spec.mlpG A0 A1 x2 x3 x4 x5 (ix2 (row p) q) := by
  rw [pay1_apply]
  simp only [h0, h1]
  rfl

private theorem flushed1_eq (c : Dev nD) (t : Fin cfg1.N) :
    (dat1 (F := Ideal) V c).flushed 6 t = ((cfg1.win 6).blk t).view.read (Elt Ideal)
      (Cert.Spec.mlpG (V c main_v4) (V c main_v14) (V c main_v16) (V c main_v23) (V c main_v20) (V c main_v24)) := by
  show (cfg1.win 6).cut (grid1.coords t) ((dat1 V c).after 6 t) = _
  rw [after1_6]
  unfold out1_6
  rw [View.canon_unit_zero hz1]
  simp only [View.ld_unit_zero (S := S5000x64) hz1, View.ld_unit_zero (S := S64x64) hz1, View.ld_unit_zero (S := S1x64) hz1]
  obtain ⟨a0, b0, a1, b1, a2, b2, a3, b3, a4, b4, a5, b5, e0, e1⟩ := idx_facts1 t
  have hN : cfg1.N = 20 := N_1
  have ht : t.val < 20 := by have := t.isLt; omega

  have w2 : (iblk1 V c 2 t : S64x64.Idx → EReal) = V c main_v16 := funext fun y => by
    show V c main_v16 (((cfg1.win 2).blk t).view.emb y) = V c main_v16 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have w3 : (iblk1 V c 3 t : S1x64.Idx → EReal) = V c main_v23 := funext fun y => by
    show V c main_v23 (((cfg1.win 3).blk t).view.emb y) = V c main_v23 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  have w4 : (iblk1 V c 4 t : S64x64.Idx → EReal) = V c main_v20 := funext fun y => by
    show V c main_v20 (((cfg1.win 4).blk t).view.emb y) = V c main_v20 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  have w5 : (iblk1 V c 5 t : S1x64.Idx → EReal) = V c main_v24 := funext fun y => by
    show V c main_v24 (((cfg1.win 5).blk t).view.emb y) = V c main_v24 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega

  have h0 : ∀ (p : Fin 5000) (k : Fin 64), (iblk1 V c 0 t : S5000x64.Idx → EReal) (ix2 p k)
      = V c main_v4 (ix2 (row1 t.val ht p) k) := fun p k => by
    show V c main_v4 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : ∀ (p : Fin 5000) (k : Fin 64), (iblk1 V c 1 t : S5000x64.Idx → EReal) (ix2 p k)
      = V c main_v14 (ix2 (row1 t.val ht p) k) := fun p k => by
    show V c main_v14 (((cfg1.win 1).blk t).view.emb (ix2 p k)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  funext j

  have hemb : (((cfg1.win 6).blk t).view.emb j : S100000x64.Idx) = ix2 (row1 t.val ht (j 0)) (j 1) :=
    funext fun a => Fin.ext (by
      match a with
      | ⟨0, _⟩ => show win1_6.index t (0 : Fin 2) * 5000 + 1 * (j 0).val = t.val * 5000 + (j 0).val; omega
      | ⟨1, _⟩ => show win1_6.index t (1 : Fin 2) * 64 + 1 * (j 1).val = (j 1).val; omega)
  show k1_pay1 (iblk1 V c 0 t) (iblk1 V c 1 t) (iblk1 V c 2 t) (iblk1 V c 3 t) (iblk1 V c 4 t) (iblk1 V c 5 t) j
    = Cert.Spec.mlpG (V c main_v4) (V c main_v14) (V c main_v16) (V c main_v23) (V c main_v20) (V c main_v24)
        (((cfg1.win 6).blk t).view.emb j)
  rw [hemb, ← w2, ← w3, ← w4, ← w5]
  exact (congrArg (k1_pay1 (iblk1 V c 0 t) (iblk1 V c 1 t) (iblk1 V c 2 t) (iblk1 V c 3 t) (iblk1 V c 4 t) (iblk1 V c 5 t))
      (eq_ix2 j)).trans
    (pay1_eq_spec (V c main_v4) (V c main_v14) _ _ _ _ _ _ (row1 t.val ht) h0 h1 (j 0) (j 1))

theorem region1 (c : Dev nD) :
    (dat1 (F := Ideal) V c).arrAt 6 cfg1.N
      = Cert.Spec.mlpG (V c main_v4) (V c main_v14) (V c main_v16) (V c main_v23) (V c main_v20) (V c main_v24) :=
  (dat1 (F := Ideal) V c).arrAt_eq_of_cover 6
    (Cert.Spec.mlpG (V c main_v4) (V c main_v14) (V c main_v16) (V c main_v23) (V c main_v20) (V c main_v24))
    (fun t _ => flushed1_eq V c t) cover1

end Cert.KernelIdeal.RegionValue

end
-- ==== Proof.Region2.lean ====
import proofs.«408039_j61503931678734_1_alg».proof.Proof.Gen.KernelIdeal.Frame
import proofs.«408039_j61503931678734_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem region2_zeros : (![0, 0] : Fin 2 → Nat) = fun _ => 0 :=
  funext fun a => match a with | ⟨0, _⟩ => rfl | ⟨1, _⟩ => rfl

theorem region2_row (v : Vec Ideal S1x64 .f32) (hc : S1x64.ShapeCasts S1x64) (hb : S1x64.Broadcasts S5000x64)
    (p : Fin 5000) (q : Fin 64) :
    broadcastTo S5000x64 (shapeCast S1x64 v hc) hb (ix2 p q) = v (ix2 (0 : Fin 1) q) :=
  (broadcastTo_1b_ab_apply _ hb p q).trans (congrFun (shapeCast_self v hc) _)

theorem region2_pay (x0 : Vec Ideal S5000x64 .f32) (x1 x2 x3 x4 : Vec Ideal S1x64 .f32) (p : Fin 5000) (q : Fin 64) :
    k2_pay1 x0 x1 x2 x3 x4 (ix2 p q)
      = max ((x0 (ix2 p q) - x1 (ix2 (0 : Fin 1) q)) * x2 (ix2 (0 : Fin 1) q) * x3 (ix2 (0 : Fin 1) q)
          + x4 (ix2 (0 : Fin 1) q)) 0 := by
  unfold k2_pay1
  rw [maximumf_apply, addf_apply, mulf_apply, mulf_apply, subf_apply, region2_row, region2_row, region2_row, region2_row,
    shapeCast_self, broadcast_apply]
  exact congrArg (max _) Ideal.ofBits_zero_f32

theorem region2_block (x0 : Vec Ideal S5000x64 .f32) (x1 x2 x3 x4 : Vec Ideal S1x64 .f32)
    (z : Vec Ideal S100000x64 .f32) (mu s ga be : Vec Ideal S1x64 .f32) (r : Fin 5000 → Fin 100000)
    (h0 : ∀ p q, x0 (ix2 p q) = z (ix2 (r p) q))
    (h1 : ∀ q, x1 (ix2 (0 : Fin 1) q) = mu (ix2 (0 : Fin 1) q))
    (h2 : ∀ q, x2 (ix2 (0 : Fin 1) q) = s (ix2 (0 : Fin 1) q))
    (h3 : ∀ q, x3 (ix2 (0 : Fin 1) q) = ga (ix2 (0 : Fin 1) q))
    (h4 : ∀ q, x4 (ix2 (0 : Fin 1) q) = be (ix2 (0 : Fin 1) q)) (p : Fin 5000) (q : Fin 64) :
    k2_pay1 x0 x1 x2 x3 x4 (ix2 p q) = Cert.Spec.bnReluG z mu s ga be (ix2 (r p) q) := by
  rw [region2_pay, h0, h1, h2, h3, h4]
  rfl

theorem region2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem region2_flushed (c : Dev nD) (t : Fin cfg2.N) :
    (dat2 (F := Ideal) V c).flushed 5 t
      = ((cfg2.win 5).blk t).view.read (Elt Ideal)
          (Cert.Spec.bnReluG (V c main_v25) (V c main_v34) (V c main_v38) (V c main_v39) (V c main_v40)) := by
  show (cfg2.win 5).cut (grid2.coords t) ((dat2 V c).after 5 t) = _
  rw [after2_5]
  unfold out2_5
  rw [View.canon_unit_zero region2_zeros]
  simp only [View.ld_unit_zero (S := S5000x64) region2_zeros, View.ld_unit_zero (S := S1x64) region2_zeros]
  obtain ⟨a0, a1, b0, b1, c0, c1, d0, d1, g0, g1, e0, e1⟩ := region2_idx t
  have hN : cfg2.N = 20 := N_2
  have ht : t.val < 20 := hN ▸ t.isLt
  funext j
  obtain ⟨p, q, rfl⟩ : ∃ (p : Fin 5000) (q : Fin 64), j = ix2 p q := ⟨j 0, j 1, eq_ix2 j⟩

  refine (region2_block (iblk2 V c 0 t) (iblk2 V c 1 t) (iblk2 V c 2 t) (iblk2 V c 3 t) (iblk2 V c 4 t)
    (V c main_v25) (V c main_v34) (V c main_v38) (V c main_v39) (V c main_v40)
    (fun p => ⟨t.val * 5000 + p.val, by have := p.isLt; omega⟩) ?_ ?_ ?_ ?_ ?_ p q).trans ?_
  · intro p q
    show V c main_v25 (((cfg2.win 0).blk t).view.emb (ix2 p q)) = V c main_v25 (ix2 ⟨t.val * 5000 + p.val, _⟩ q)
    refine congrArg (V c main_v25) (funext fun a => Fin.ext ?_)
    match a with
    | ⟨0, _⟩ => show win2_0.index t (0 : Fin 2) * 5000 + 1 * p.val = t.val * 5000 + p.val; rw [a0]; omega
    | ⟨1, _⟩ => show win2_0.index t (1 : Fin 2) * 64 + 1 * q.val = q.val; rw [a1]; omega
  · intro q
    show V c main_v34 (((cfg2.win 1).blk t).view.emb (ix2 (0 : Fin 1) q)) = V c main_v34 (ix2 (0 : Fin 1) q)
    refine congrArg (V c main_v34) (funext fun a => Fin.ext ?_)
    match a with
    | ⟨0, _⟩ => show win2_1.index t (0 : Fin 2) * 1 + 1 * 0 = 0; rw [b0]
    | ⟨1, _⟩ => show win2_1.index t (1 : Fin 2) * 64 + 1 * q.val = q.val; rw [b1]; omega
  · intro q
    show V c main_v38 (((cfg2.win 2).blk t).view.emb (ix2 (0 : Fin 1) q)) = V c main_v38 (ix2 (0 : Fin 1) q)
    refine congrArg (V c main_v38) (funext fun a => Fin.ext ?_)
    match a with
    | ⟨0, _⟩ => show win2_2.index t (0 : Fin 2) * 1 + 1 * 0 = 0; rw [c0]
    | ⟨1, _⟩ => show win2_2.index t (1 : Fin 2) * 64 + 1 * q.val = q.val; rw [c1]; omega
  · intro q
    show V c main_v39 (((cfg2.win 3).blk t).view.emb (ix2 (0 : Fin 1) q)) = V c main_v39 (ix2 (0 : Fin 1) q)
    refine congrArg (V c main_v39) (funext fun a => Fin.ext ?_)
    match a with
    | ⟨0, _⟩ => show win2_3.index t (0 : Fin 2) * 1 + 1 * 0 = 0; rw [d0]
    | ⟨1, _⟩ => show win2_3.index t (1 : Fin 2) * 64 + 1 * q.val = q.val; rw [d1]; omega
  · intro q
    show V c main_v40 (((cfg2.win 4).blk t).view.emb (ix2 (0 : Fin 1) q)) = V c main_v40 (ix2 (0 : Fin 1) q)
    refine congrArg (V c main_v40) (funext fun a => Fin.ext ?_)
    match a with
    | ⟨0, _⟩ => show win2_4.index t (0 : Fin 2) * 1 + 1 * 0 = 0; rw [g0]
    | ⟨1, _⟩ => show win2_4.index t (1 : Fin 2) * 64 + 1 * q.val = q.val; rw [g1]; omega
  · show Cert.Spec.bnReluG (V c main_v25) (V c main_v34) (V c main_v38) (V c main_v39) (V c main_v40) (ix2 ⟨t.val * 5000 + p.val, _⟩ q)
      = Cert.Spec.bnReluG (V c main_v25) (V c main_v34) (V c main_v38) (V c main_v39) (V c main_v40)
          (((cfg2.win 5).blk t).view.emb (ix2 p q))
    refine congrArg _ (funext fun a => Fin.ext ?_)
    match a with
    | ⟨0, _⟩ => show t.val * 5000 + p.val = win2_5.index t (0 : Fin 2) * 5000 + 1 * p.val; rw [e0]; omega
    | ⟨1, _⟩ => show q.val = win2_5.index t (1 : Fin 2) * 64 + 1 * q.val; rw [e1]; omega

theorem region2_mem (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole (Pipeline.arrRef spec2 5)).slice (win2_5.rect t)).set ↔ _
  rw [View.set_slice_whole, Rect.mem_set_unit]
  exact Iff.rfl

theorem region2_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, -, -, -, -, e0, e1⟩ := region2_idx ⟨(i 0).val / 5000, ht⟩
  refine ⟨⟨(i 0).val / 5000, ht⟩, flush2_5 _, ?_⟩
  rw [region2_mem]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e1]; omega

theorem region2 (c : Dev nD) :
    (dat2 (F := Ideal) V c).arrAt 5 cfg2.N
      = Cert.Spec.bnReluG (V c main_v25) (V c main_v34) (V c main_v38) (V c main_v39) (V c main_v40) := by
  exact (dat2 (F := Ideal) V c).arrAt_eq_of_cover 5 _ (fun t _ => region2_flushed V c t) (region2_cover)

end Cert.KernelIdeal.RegionValue

end
-- ==== Proof.RefEdge.lean ====
import proofs.«408039_j61503931678734_1_alg».proof.ReferenceIdeal
import proofs.«408039_j61503931678734_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.Kinds

open Idealize.ShloMosaic Idealize.ShloMosaic.TcCoe Idealize.ShloMosaic.ValueIdx Cert.ReferenceIdeal

variable [Facts]
open Facts₀ Facts

abbrev row (v : FVec Ideal S64 .f32) : FVec Ideal S1x64 .f32 := broadcastInDim S1x64 ![1] bcast_S64_S1x64_1 v

theorem lhs_dot_S1000000x7_S7x64_S1000000x64_1_0_0_1_n_n_0 (j : S1000000x64.Idx)
    (k : dot_S1000000x7_S7x64_S1000000x64_1_0_0_1_n_n.contr.Idx) :
    (dot_S1000000x7_S7x64_S1000000x64_1_0_0_1_n_n.lhsIdx j k 0).val = (j 0).val := by
  unfold DotDims.lhsIdx
  rw [dif_neg (show ¬(0 : Fin S1000000x7.rank) ∈ dot_S1000000x7_S7x64_S1000000x64_1_0_0_1_n_n.lhsBatch from List.not_mem_nil),
    dif_pos (show (0 : Fin S1000000x7.rank) ∈ dot_S1000000x7_S7x64_S1000000x64_1_0_0_1_n_n.lhsNonContracting from List.mem_singleton.mpr rfl)]
  rfl

theorem lhs_dot_S1000000x7_S7x64_S1000000x64_1_0_0_1_n_n_1 (j : S1000000x64.Idx)
    (k : dot_S1000000x7_S7x64_S1000000x64_1_0_0_1_n_n.contr.Idx) :
    (dot_S1000000x7_S7x64_S1000000x64_1_0_0_1_n_n.lhsIdx j k 1).val = (k ⟨0, Nat.one_pos⟩).val :=
  dot_S1000000x7_S7x64_S1000000x64_1_0_0_1_n_n.lhsIdx_val_of_single (cl := 1) rfl j k

theorem rhs_dot_S1000000x7_S7x64_S1000000x64_1_0_0_1_n_n_0 (j : S1000000x64.Idx)
    (k : dot_S1000000x7_S7x64_S1000000x64_1_0_0_1_n_n.contr.Idx) :
    (dot_S1000000x7_S7x64_S1000000x64_1_0_0_1_n_n.rhsIdx j k 0).val = (k ⟨0, Nat.one_pos⟩).val :=
  dot_S1000000x7_S7x64_S1000000x64_1_0_0_1_n_n.rhsIdx_val_of_single (cr := 0) rfl j k

theorem rhs_dot_S1000000x7_S7x64_S1000000x64_1_0_0_1_n_n_1 (j : S1000000x64.Idx)
    (k : dot_S1000000x7_S7x64_S1000000x64_1_0_0_1_n_n.contr.Idx) :
    (dot_S1000000x7_S7x64_S1000000x64_1_0_0_1_n_n.rhsIdx j k 1).val = (j 1).val := by
  unfold DotDims.rhsIdx
  rw [dif_neg (show ¬(1 : Fin S7x64.rank) ∈ dot_S1000000x7_S7x64_S1000000x64_1_0_0_1_n_n.rhsBatch from List.not_mem_nil),
    dif_pos (show (1 : Fin S7x64.rank) ∈ dot_S1000000x7_S7x64_S1000000x64_1_0_0_1_n_n.rhsNonContracting from List.mem_singleton.mpr rfl)]
  rfl

theorem attr_product_apply (ea : FVec Ideal S1000000x7 .f32) (ew : FVec Ideal S7x64 .f32) (p : Fin 1000000) (q : Fin 64) :
    Host.dotGeneral (F := Ideal) dot_S1000000x7_S7x64_S1000000x64_1_0_0_1_n_n none ea ew (ix2 p q)
      = ∑ k : Fin 7, ea (ix2 p k) * ew (ix2 k q) := by
  simp only [Host.dotGeneral]
  rw [Ideal.dotGeneral_apply,
    ← Equiv.sum_comp (contrEquiv1 dot_S1000000x7_S7x64_S1000000x64_1_0_0_1_n_n 7 rfl rfl).symm]
  refine Finset.sum_congr rfl fun c _ => ?_
  have hc := contrEquiv1_symm_val dot_S1000000x7_S7x64_S1000000x64_1_0_0_1_n_n 7 rfl rfl c
  have hl : dot_S1000000x7_S7x64_S1000000x64_1_0_0_1_n_n.lhsIdx (ix2 p q)
      ((contrEquiv1 dot_S1000000x7_S7x64_S1000000x64_1_0_0_1_n_n 7 rfl rfl).symm c) = ix2 p c := by
    funext a; apply Fin.ext
    match a with
    | ⟨0, _⟩ => exact lhs_dot_S1000000x7_S7x64_S1000000x64_1_0_0_1_n_n_0 _ _
    | ⟨1, _⟩ => exact (lhs_dot_S1000000x7_S7x64_S1000000x64_1_0_0_1_n_n_1 _ _).trans hc
  have hr : dot_S1000000x7_S7x64_S1000000x64_1_0_0_1_n_n.rhsIdx (ix2 p q)
      ((contrEquiv1 dot_S1000000x7_S7x64_S1000000x64_1_0_0_1_n_n 7 rfl rfl).symm c) = ix2 c q := by
    funext a; apply Fin.ext
    match a with
    | ⟨0, _⟩ => exact (rhs_dot_S1000000x7_S7x64_S1000000x64_1_0_0_1_n_n_0 _ _).trans hc
    | ⟨1, _⟩ => exact rhs_dot_S1000000x7_S7x64_S1000000x64_1_0_0_1_n_n_1 _ _
  rw [hl, hr]

theorem row_apply (v : FVec Ideal S64 .f32) (z : Fin 1) (q : Fin 64) :
    broadcastInDim S1x64 ![1] bcast_S64_S1x64_1 v (ix2 z q) = v (ix1 q) :=
  broadcastInDim_apply _ _ v _ (ix1 q) fun a => by
    match a with
    | ⟨0, _⟩ => rfl

theorem over_edges_apply (r : FVec Ideal S1x64 .f32) (p : Fin 1000000) (q : Fin 64) :
    broadcastInDim S1000000x64 ![0, 1] bcast_S1x64_S1000000x64_0_1 r (ix2 p q) = r (ix2 (0 : Fin 1) q) :=
  broadcastInDim_apply _ _ r _ (ix2 (0 : Fin 1) q) fun a => by
    match a with
    | ⟨0, _⟩ => rfl
    | ⟨1, _⟩ => rfl

theorem scalar_over_edges_apply (x : FVec Ideal S_ .f32) (j : S1000000x64.Idx) :
    broadcastInDim S1000000x64 ![] bcast_S_S1000000x64 x j = x ix0 :=
  broadcastInDim_apply _ _ x _ ix0 fun a => a.elim0

theorem ref_edge (hs : FVec Ideal S1000000x64 .f32) (ea : FVec Ideal S1000000x7 .f32) (ew : FVec Ideal S7x64 .f32)
    (eb : FVec Ideal S64 .f32) :
    maximumf (addf hs (addf (Host.dotGeneral dot_S1000000x7_S7x64_S1000000x64_1_0_0_1_n_n none ea ew)
        (broadcastInDim S1000000x64 ![0, 1] bcast_S1x64_S1000000x64_0_1 (broadcastInDim S1x64 ![1] bcast_S64_S1x64_1 eb))))
      (broadcastInDim S1000000x64 ![] bcast_S_S1000000x64 (constant S_ .f32 0x00000000#32))
    = Cert.Spec.edgeG hs ea ew (row eb) := by
  funext i
  obtain ⟨p, q, rfl⟩ : ∃ (p : Fin 1000000) (q : Fin 64), i = ix2 p q := ⟨i 0, i 1, eq_ix2 i⟩
  show _ = max (hs (ix2 p q) + ((∑ k : Fin 7, ea (ix2 p k) * ew (ix2 k q)) + row eb (ix2 (0 : Fin 1) q))) 0
  rw [maximumf_apply, addf_apply, addf_apply, attr_product_apply, over_edges_apply, scalar_over_edges_apply,
    constant_apply, Ideal.ofBits_zero_f32]

end Cert.ReferenceIdeal.Kinds

end
-- ==== Proof.RefMlp.lean ====
import proofs.«408039_j61503931678734_1_alg».proof.ReferenceIdeal
import proofs.«408039_j61503931678734_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.Kinds

open Idealize.ShloMosaic Idealize.ShloMosaic.TcCoe Idealize.ShloMosaic.ValueIdx Cert.ReferenceIdeal

variable [Facts]
open Facts₀ Facts

abbrev rowN (v : FVec Ideal S64 .f32) : FVec Ideal S1x64 .f32 := broadcastInDim S1x64 ![1] bcast_S64_S1x64_1 v

private theorem lhs_mm_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil),
    dif_pos (show (0 : Fin S100000x64.rank) ∈ dot_S100000x64_S64x64_S100000x64_1_0_0_1_n_n.lhsNonContracting from List.mem_singleton.mpr rfl)]
  rfl

private theorem lhs_mm_1 (i : S100000x64.Idx) (q : dot_S100000x64_S64x64_S100000x64_1_0_0_1_n_n.contr.Idx) :
    (dot_S100000x64_S64x64_S100000x64_1_0_0_1_n_n.lhsIdx i q 1).val = (q ⟨0, Nat.one_pos⟩).val :=
  dot_S100000x64_S64x64_S100000x64_1_0_0_1_n_n.lhsIdx_val_of_single rfl i q

private theorem rhs_mm_0 (i : S100000x64.Idx) (q : dot_S100000x64_S64x64_S100000x64_1_0_0_1_n_n.contr.Idx) :
    (dot_S100000x64_S64x64_S100000x64_1_0_0_1_n_n.rhsIdx i q 0).val = (q ⟨0, Nat.one_pos⟩).val :=
  dot_S100000x64_S64x64_S100000x64_1_0_0_1_n_n.rhsIdx_val_of_single rfl i q

private theorem rhs_mm_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil),
    dif_pos (show (1 : Fin S64x64.rank) ∈ dot_S100000x64_S64x64_S100000x64_1_0_0_1_n_n.rhsNonContracting from List.mem_singleton.mpr rfl)]
  rfl

private theorem mm_apply (l : FVec Ideal S100000x64 .f32) (r : FVec Ideal S64x64 .f32) (p : Fin 100000) (q : Fin 64) :
    Host.dotGeneral (F := Ideal) dot_S100000x64_S64x64_S100000x64_1_0_0_1_n_n none l r (ix2 p q)
      = ∑ k : Fin 64, l (ix2 p k) * r (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q)
      ((contrEquiv1 dot_S100000x64_S64x64_S100000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S100000x64_S64x64_S100000x64_1_0_0_1_n_n.rhsIdx (ix2 p q)
      ((contrEquiv1 dot_S100000x64_S64x64_S100000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

private theorem rowN_apply (v : FVec Ideal S64 .f32) (q : Fin 64) : rowN v (ix2 0 q) = v (ix1 q) :=
  broadcastInDim_apply _ _ v (ix2 0 q) (ix1 q) fun a => by
    match a with
    | ⟨0, _⟩ => rfl

private theorem rows_apply (u : FVec Ideal S1x64 .f32) (p : Fin 100000) (q : Fin 64) :
    broadcastInDim S100000x64 ![0, 1] bcast_S1x64_S100000x64_0_1 u (ix2 p q) = u (ix2 0 q) :=
  broadcastInDim_apply _ _ u (ix2 p q) (ix2 0 q) fun a => by
    match a with
    | ⟨0, _⟩ => rfl
    | ⟨1, _⟩ => rfl

private theorem splat_apply (z : FVec Ideal S_ .f32) (j : S100000x64.Idx) :
    broadcastInDim S100000x64 ![] bcast_S_S100000x64 z j = z ix0 :=
  broadcastInDim_apply _ _ z j ix0 fun a => a.elim0

theorem ref_mlp (h agg : FVec Ideal S100000x64 .f32) (w1 w2 : FVec Ideal S64x64 .f32) (b1 b2 : FVec Ideal S64 .f32) :
    addf (Host.dotGeneral dot_S100000x64_S64x64_S100000x64_1_0_0_1_n_n none
        (maximumf (addf (Host.dotGeneral dot_S100000x64_S64x64_S100000x64_1_0_0_1_n_n none (addf h agg) w1)
            (broadcastInDim S100000x64 ![0, 1] bcast_S1x64_S100000x64_0_1 (broadcastInDim S1x64 ![1] bcast_S64_S1x64_1 b1)))
          (broadcastInDim S100000x64 ![] bcast_S_S100000x64 (constant S_ .f32 0x00000000#32)))
        w2)
      (broadcastInDim S100000x64 ![0, 1] bcast_S1x64_S100000x64_0_1 (broadcastInDim S1x64 ![1] bcast_S64_S1x64_1 b2))
    = Cert.Spec.mlpG h agg w1 (rowN b1) w2 (rowN b2) := by
  funext i
  obtain ⟨p, q, rfl⟩ : ∃ (p : Fin 100000) (q : Fin 64), i = ix2 p q := ⟨i 0, i 1, eq_ix2 i⟩
  unfold Cert.Spec.mlpG
  rw [addf_apply, mm_apply, rows_apply]
  refine congrArg₂ (· + ·) (Finset.sum_congr rfl fun k _ => ?_) rfl
  rw [maximumf_apply, addf_apply, mm_apply, rows_apply, splat_apply, constant_apply, Ideal.ofBits_zero_f32]
  rfl

end Cert.ReferenceIdeal.Kinds

end
-- ==== Proof.RefBn.lean ====
import proofs.«408039_j61503931678734_1_alg».proof.ReferenceIdeal
import proofs.«408039_j61503931678734_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost

noncomputable section

open scoped BigOperators

namespace Cert.ReferenceIdeal.Kinds

open Idealize.ShloMosaic Idealize.ShloMosaic.TcCoe Idealize.ShloMosaic.ValueIdx Cert.ReferenceIdeal

variable [Facts]
open Facts₀ Facts

abbrev rowB (v : FVec Ideal S64 .f32) : FVec Ideal S1x64 .f32 := broadcastInDim S1x64 ![1] bcast_S64_S1x64_1 v

abbrev overNodes (v : FVec Ideal S64 .f32) : FVec Ideal S100000x64 .f32 :=
  broadcastInDim S100000x64 ![0, 1] bcast_S1x64_S100000x64_0_1 (broadcastInDim S1x64 ![1] bcast_S64_S1x64_1 v)

theorem broadcastInDim_b_1b_apply {α : Type} {b : ℕ} (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

theorem rowB_apply (v : FVec Ideal S64 .f32) (u : Fin 1) (q : Fin 64) : rowB v (ix2 u q) = v (ix1 q) :=
  broadcastInDim_b_1b_apply _ v u q

theorem overNodes_apply (v : FVec Ideal S64 .f32) (p : Fin 100000) (q : Fin 64) :
    overNodes v (ix2 p q) = rowB v (ix2 (0 : Fin 1) q) :=
  broadcastInDim_oneRow_apply _ _ p q

theorem ref_bn (z : FVec Ideal S100000x64 .f32) (mu s ga be : FVec Ideal S64 .f32) :
    addf (mulf (mulf (subf z (overNodes mu)) (overNodes s)) (overNodes ga)) (overNodes be)
    = Cert.Spec.bnG z (rowB mu) (rowB s) (rowB ga) (rowB be) := by
  funext i
  obtain ⟨p, q, rfl⟩ : ∃ (p : Fin 100000) (q : Fin 64), i = ix2 p q := ⟨i 0, i 1, eq_ix2 i⟩

  rw [addf_apply, mulf_apply, mulf_apply, subf_apply, overNodes_apply, overNodes_apply, overNodes_apply, overNodes_apply]
  rfl

theorem ref_bn_relu (z : FVec Ideal S100000x64 .f32) (mu s ga be : FVec Ideal S64 .f32) :
    maximumf (addf (mulf (mulf (subf z (overNodes mu)) (overNodes s)) (overNodes ga)) (overNodes be))
      (broadcastInDim S100000x64 ![] bcast_S_S100000x64 (constant S_ .f32 0x00000000#32))
    = Cert.Spec.bnReluG z (rowB mu) (rowB s) (rowB ga) (rowB be) := by
  funext i

  rw [maximumf_apply, ref_bn, broadcastInDim_scalar_apply, constant_apply, Ideal.ofBits_zero_f32]
  rfl

end Cert.ReferenceIdeal.Kinds

end
-- ==== Proof.TakeMask.lean ====
import proofs.«408039_j61503931678734_1_alg».proof.KernelIdeal
import Idealize.ShloMosaic.PureOps.Ideal.Laws
import Idealize.ShloMosaic.Lib.ValueIdx
import Idealize.ShloMosaic.Lib.ReduceAll
import Idealize.ShloMosaic.Lib.StableHlo.Predicate
import Idealize.ShloMosaic.Lib.Pipeline.Value
import Idealize.ShloMosaic.Lib.ValueLayout

noncomputable section

namespace Cert.KernelIdeal.Take

open Idealize.ShloMosaic Idealize.ShloMosaic.TcCoe Idealize.ShloMosaic.ValueIdx Cert.KernelIdeal

variable [Facts]
open Facts₀ Facts

theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x hx _

theorem select_of_mask {α : Type} {s : Shape} (c : IVec s 1) (a b : s.Idx → α) (hc : ∀ i, c i = 1#1) :
    select c a b = a := by
  funext i
  rw [select_apply, hc i, select_one]

abbrev srcOf (a1 : IVec S2x1000000 32) : IVec S1000000 32 :=
  shapeCast S1000000 (extractStridedSlice S1x1000000 ![0, 0] a1 slices_S2x1000000_S1x1000000_0_0) shapeCasts_S1x1000000_S1000000

theorem srcOf_range (a1 : IVec S2x1000000 32)
    (h : ∀ j : Fin 1000000, 0 ≤ (a1 (ix2 (0 : Fin 2) j)).toInt ∧ (a1 (ix2 (0 : Fin 2) j)).toInt < 100000) :
    ∀ j : S1000000.Idx, 0 ≤ (srcOf a1 j).toInt ∧ (srcOf a1 j).toInt < 100000 := by
  intro j
  have e : srcOf a1 j = a1 (ix2 (0 : Fin 2) (j 0 : Fin 1000000)) := by
    refine (shapeCast_apply _ _ j (ix2 (0 : Fin 1) (j 0 : Fin 1000000)) ?_).trans ?_
    · rw [Shape.rowMajor_val_two, Shape.rowMajor_val_one]
      show (0 : Nat) * 1000000 + (j 0).val = (j 0).val
      omega
    · exact extractStridedSlice_apply _ _ _ _ (ix2 (0 : Fin 2) (j 0 : Fin 1000000))
        (fun a => match a with
          | ⟨0, _⟩ => by show (0 : Nat) = 0 + 0; omega
          | ⟨1, _⟩ => by show (j 0).val = 0 + (j 0).val; omega)
  rw [e]
  exact h (j 0)

abbrev srcIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

theorem srcIdx_apply (src : IVec S1000000 32) (q : S1000000x1.Idx)
    (hq : 0 ≤ (src (ix1 (n := 1000000) (q 0))).toInt) : srcIdx src q = src (ix1 (n := 1000000) (q 0)) := by
  refine (broadcastInDim_apply _ _ _ q (ix1 (n := 1000000) (q 0)) (fun a => match a with | ⟨0, _⟩ => rfl)).trans ?_
  rw [select_apply]
  have hc : cmpi .slt src (broadcastInDim S1000000 ![] bcast_S_S1000000 (constantI S_ 32 0#32)) (ix1 (n := 1000000) (q 0)) = 0#1 := by
    apply eq_zero_of_ne_one
    intro hc
    change IntOp.cmpi .slt (src (ix1 (n := 1000000) (q 0))) 0#32 = 1#1 at hc
    have h1 := IntOp.cmpi_slt.1 hc
    have h0 : (0#32 : BitVec 32).toInt = 0 := by decide
    omega
  rw [hc, select_zero]

theorem take_src (src : IVec S1000000 32) (hsrc : ∀ j : S1000000.Idx, 0 ≤ (src j).toInt ∧ (src j).toInt < 100000)
    (h : FVec Ideal S100000x64 .f32) :
    select (broadcastInDim S1000000x64 ![0] bcast_S1000000_S1000000x64_0
        (Host.reduce IntOp.andi
          (andi (cmpi .sge (srcIdx src) (broadcastInDim S1000000x1 ![] bcast_S_S1000000x1 (constantI S_ 32 0#32)))
            (cmpi .sle (srcIdx src) (broadcastInDim S1000000x1 ![0, 1] bcast_S1x1_S1000000x1_0_1
              (broadcastInDim S1x1 ![1] bcast_S1_S1x1_1 (constantI S1 32 99999#32)))))
          (constantI S_ 1 1#1) reducesTo_S1000000x1_S1000000_d1 h_S_))
      (Host.gather gather_S100000x64_S1000000x1_S1000000x64_1_0_n_n_0_1_164 h (srcIdx src))
      (broadcastInDim S1000000x64 ![] bcast_S_S1000000x64 (constant (F := Ideal) S_ .f32 0x7FC00000#32))
    = Host.gather gather_S100000x64_S1000000x1_S1000000x64_1_0_n_n_0_1_164 h (srcIdx src) := by
  refine select_of_mask _ _ _ (fun i => ?_)
  refine (broadcastInDim_apply _ _ _ i (ix1 (n := 1000000) (i 0)) (fun a => match a with | ⟨0, _⟩ => rfl)).trans ?_
  refine reduce_andi_of_all _ _ _ _ _ rfl (fun q => ?_)
  have hq := hsrc (ix1 (n := 1000000) (q 0))
  show IntOp.andi (IntOp.cmpi .sge (srcIdx src q) 0#32) (IntOp.cmpi .sle (srcIdx src q) 99999#32) = 1#1
  rw [srcIdx_apply src q hq.1]
  have h0 : (0#32 : BitVec 32).toInt = 0 := by decide
  have h9 : (99999#32 : BitVec 32).toInt = 99999 := by decide
  exact IntOp.andi_eq_one.2 ⟨IntOp.cmpi_sge.2 (by omega), IntOp.cmpi_sle.2 (by omega)⟩

abbrev xIdx (x : IVec S100000 32) : IVec S100000x1 32 :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 1#32))) x)

theorem xIdx_apply (x : IVec S100000 32) (q : S100000x1.Idx)
    (hq : 0 ≤ (x (ix1 (n := 100000) (q 0))).toInt) : xIdx x q = x (ix1 (n := 100000) (q 0)) := by
  refine (broadcastInDim_apply _ _ _ q (ix1 (n := 100000) (q 0)) (fun a => match a with | ⟨0, _⟩ => rfl)).trans ?_
  rw [select_apply]
  have hc : cmpi .slt x (broadcastInDim S100000 ![] bcast_S_S100000 (constantI S_ 32 0#32)) (ix1 (n := 100000) (q 0)) = 0#1 := by
    apply eq_zero_of_ne_one
    intro hc
    change IntOp.cmpi .slt (x (ix1 (n := 100000) (q 0))) 0#32 = 1#1 at hc
    have h1 := IntOp.cmpi_slt.1 hc
    have h0 : (0#32 : BitVec 32).toInt = 0 := by decide
    omega
  rw [hc, select_zero]

theorem take_x (x : IVec S100000 32) (hx : ∀ j : S100000.Idx, (x j).toInt = 0) (t : FVec Ideal S1x64 .f32) :
    select (broadcastInDim S100000x64 ![0] bcast_S100000_S100000x64_0
        (Host.reduce IntOp.andi
          (andi (cmpi .sge (xIdx x) (broadcastInDim S100000x1 ![] bcast_S_S100000x1 (constantI S_ 32 0#32)))
            (cmpi .sle (xIdx x) (broadcastInDim S100000x1 ![0, 1] bcast_S1x1_S100000x1_0_1
              (broadcastInDim S1x1 ![1] bcast_S1_S1x1_1 (constantI S1 32 0#32)))))
          (constantI S_ 1 1#1) reducesTo_S100000x1_S100000_d1 h_S_))
      (Host.gather gather_S1x64_S100000x1_S100000x64_1_0_n_n_0_1_164 t (xIdx x))
      (broadcastInDim S100000x64 ![] bcast_S_S100000x64 (constant (F := Ideal) S_ .f32 0x7FC00000#32))
    = Host.gather gather_S1x64_S100000x1_S100000x64_1_0_n_n_0_1_164 t (xIdx x) := by
  refine select_of_mask _ _ _ (fun i => ?_)
  refine (broadcastInDim_apply _ _ _ i (ix1 (n := 100000) (i 0)) (fun a => match a with | ⟨0, _⟩ => rfl)).trans ?_
  refine reduce_andi_of_all _ _ _ _ _ rfl (fun q => ?_)
  have hq := hx (ix1 (n := 100000) (q 0))
  show IntOp.andi (IntOp.cmpi .sge (xIdx x q) 0#32) (IntOp.cmpi .sle (xIdx x q) 0#32) = 1#1
  rw [xIdx_apply x q (by omega)]
  have h0 : (0#32 : BitVec 32).toInt = 0 := by decide
  exact IntOp.andi_eq_one.2 ⟨IntOp.cmpi_sge.2 (by omega), IntOp.cmpi_sle.2 (by omega)⟩

end Cert.KernelIdeal.Take

end
-- ==== Proof.Layer0.lean ====
import proofs.«408039_j61503931678734_1_alg».proof.Proof.Sim
import proofs.«408039_j61503931678734_1_alg».proof.Proof.Region0
import proofs.«408039_j61503931678734_1_alg».proof.Proof.Region1
import proofs.«408039_j61503931678734_1_alg».proof.Proof.Region2
import proofs.«408039_j61503931678734_1_alg».proof.Proof.RefEdge
import proofs.«408039_j61503931678734_1_alg».proof.Proof.RefMlp
import proofs.«408039_j61503931678734_1_alg».proof.Proof.RefBn
import proofs.«408039_j61503931678734_1_alg».proof.Proof.TakeMask
import Idealize.ShloMosaic.Lib.StableHlo.Run

set_option maxRecDepth 16384

noncomputable section

namespace Cert.Sim

open Idealize.ShloMosaic Idealize.ShloMosaic.TcCoe Idealize.ShloMosaic.StableHlo Idealize.SL.Sem

namespace Layer0

theorem ofBuf_toBuf {sg : RefSig} {Val : EltTy → Type} {T : BufTy} (x : StableHlo.TRef sg T) (v : T.Contents Val) :
    x.ofBuf (x.toBuf v) = v := by
  obtain ⟨r, rfl, _, _⟩ := x
  rfl

theorem rowCast_eq_rowBcast {α : Type} (v : (⟨1, ![64]⟩ : Shape).Idx → α)
    (hc : (⟨1, ![64]⟩ : Shape).ShapeCasts ⟨2, ![1, 64]⟩)
    (hb : (⟨1, ![64]⟩ : Shape).BroadcastsInDim ⟨2, ![1, 64]⟩ (![1] : Fin 1 → Fin 2)) :
    shapeCast ⟨2, ![1, 64]⟩ v hc = broadcastInDim ⟨2, ![1, 64]⟩ ![1] hb v := by
  funext j
  obtain ⟨u, i, rfl⟩ : ∃ u i, j = ValueIdx.ix2 u i := ⟨j 0, j 1, ValueIdx.eq_ix2 j⟩
  rw [ValueIdx.shapeCast_a_1a_apply]
  refine (broadcastInDim_apply ![1] hb v _ (ValueIdx.ix1 i) (fun a => ?_)).symm
  obtain rfl : a = 0 := Fin.fin_one_eq_zero a
  exact (if_neg (by decide)).symm

section Kernel

open Cert.KernelIdeal Cert.KernelIdeal.Keep Cert.KernelIdeal.Take
open Cert.KernelIdeal.Gen (hostOps0 hostOps0_1 hostOps0_2 hostOps0_3 hostOps1 hostOps2 hostOps2_1 hostOps2_2 W0 W1 W2 W3 W4 W5 W6 W7 W8 W9 W10 W11 V4 V6 V10 W5_arr W5_of_ne W7_arr W7_of_ne W11_arr W11_of_ne)
open Cert.KernelIdeal.Facts₀ Cert.KernelIdeal.Facts

variable {F : FTy → Type} [FloatOps F]

abbrev kDst (a1 : IVec S2x1000000 32) : IVec S1000000 32 :=
  shapeCast S1000000 (extractStridedSlice S1x1000000 ![1, 0] a1 slices_S2x1000000_S1x1000000_1_0) shapeCasts_S1x1000000_S1000000

def kW7 (a : FVec F S5x7x64 .f32) : FVec F S7x64 .f32 :=
  shapeCast S7x64 (extractStridedSlice S1x7x64 ![0, 0, 0] a slices_S5x7x64_S1x7x64_0_0_0) shapeCasts_S1x7x64_S7x64

def kW64 (a : FVec F S5x64x64 .f32) : FVec F S64x64 .f32 :=
  shapeCast S64x64 (extractStridedSlice S1x64x64 ![0, 0, 0] a slices_S5x64x64_S1x64x64_0_0_0) shapeCasts_S1x64x64_S64x64

def kVec (a : FVec F S5x64 .f32) : FVec F S64 .f32 :=
  shapeCast S64 (extractStridedSlice S1x64 ![0, 0] a slices_S5x64_S1x64_0_0) shapeCasts_S1x64_S64

def kRow (v : FVec F S64 .f32) : FVec F S1x64 .f32 := shapeCast S1x64 v shapeCasts_S64_S1x64

theorem k_src (V : Valuation τ sig (Elt F)) :
    after (hostOps0 (F := F)) V (Proc.devRef .tc main_v1) = srcOf (V (Proc.devRef .tc main_arg1)) := by
  after_results_simp
  first | done | rfl

theorem k_dst (V : Valuation τ sig (Elt F)) :
    after (hostOps0 (F := F)) V (Proc.devRef .tc main_v3) = kDst (V (Proc.devRef .tc main_arg1)) := by
  after_results_simp
  first | done | rfl

def kH0 (a4 : FVec F S1x64 .f32) (a0 : IVec S100000 32) : FVec F S100000x64 .f32 :=
  Host.gather gather_S1x64_S100000x1_S100000x64_1_0_n_n_0_1_164 a4 (xIdx a0)

def kGatherSrc (h : FVec F S100000x64 .f32) (src : IVec S1000000 32) : FVec F S1000000x64 .f32 :=
  Host.gather gather_S100000x64_S1000000x1_S1000000x64_1_0_n_n_0_1_164 h (srcIdx src)

def kScatter (dst : IVec S1000000 32) (u : FVec F S1000000x64 .f32) : FVec F S100000x64 .f32 :=
  Host.scatterAdd scatter_S100000x64_S1000000x1_S1000000x64_1_0_0_1
    (broadcastInDim S100000x64 ![] bcast_S_S100000x64 (constant (F := F) S_ .f32 0x00000000#32))
    (broadcastInDim S1000000x1 ![0] bcast_S1000000_S1000000x1_0 dst) u

section
attribute [local irreducible] Host.gather Host.reduce Host.reduceAdd Host.scatterAdd Host.rsqrt Host.divf broadcastInDim select cmpi cmpf addi andi constantI constant sitofp extractStridedSlice maximumf addf mulf subf

set_option maxHeartbeats 1000000 in
theorem k_h0_raw (V : Valuation τ sig (Elt Ideal)) :
    (after (hostOps0_1 (F := Ideal)) V (Proc.devRef .tc main_v4) : FVec Ideal S100000x64 .f32)
      = select (broadcastInDim S100000x64 ![0] bcast_S100000_S100000x64_0
          (Host.reduce IntOp.andi
            (andi (cmpi .sge (xIdx (V (Proc.devRef .tc main_arg0))) (broadcastInDim S100000x1 ![] bcast_S_S100000x1 (constantI S_ 32 0#32)))
              (cmpi .sle (xIdx (V (Proc.devRef .tc main_arg0))) (broadcastInDim S100000x1 ![0, 1] bcast_S1x1_S100000x1_0_1
                (broadcastInDim S1x1 ![1] bcast_S1_S1x1_1 (constantI S1 32 0#32)))))
            (constantI S_ 1 1#1) reducesTo_S100000x1_S100000_d1 h_S_))
        (Host.gather gather_S1x64_S100000x1_S100000x64_1_0_n_n_0_1_164 (V (Proc.devRef .tc main_arg4))
          (xIdx (V (Proc.devRef .tc main_arg0))))
        (broadcastInDim S100000x64 ![] bcast_S_S100000x64 (constant (F := Ideal) S_ .f32 0x7FC00000#32)) := by
  after_results_simp
  try simp only [ofBuf_toBuf]
  first | done | rfl

set_option maxHeartbeats 1000000 in
theorem k_v5_raw (V : Valuation τ sig (Elt Ideal)) :
    (after (hostOps0_2 (F := Ideal)) V (Proc.devRef .tc main_v5) : FVec Ideal S1000000x64 .f32)
      = select (broadcastInDim S1000000x64 ![0] bcast_S1000000_S1000000x64_0
          (Host.reduce IntOp.andi
            (andi (cmpi .sge (srcIdx (V (Proc.devRef .tc main_v1))) (broadcastInDim S1000000x1 ![] bcast_S_S1000000x1 (constantI S_ 32 0#32)))
              (cmpi .sle (srcIdx (V (Proc.devRef .tc main_v1))) (broadcastInDim S1000000x1 ![0, 1] bcast_S1x1_S1000000x1_0_1
                (broadcastInDim S1x1 ![1] bcast_S1_S1x1_1 (constantI S1 32 99999#32)))))
            (constantI S_ 1 1#1) reducesTo_S1000000x1_S1000000_d1 h_S_))
        (Host.gather gather_S100000x64_S1000000x1_S1000000x64_1_0_n_n_0_1_164 (V (Proc.devRef .tc main_v4))
          (srcIdx (V (Proc.devRef .tc main_v1))))
        (broadcastInDim S1000000x64 ![] bcast_S_S1000000x64 (constant (F := Ideal) S_ .f32 0x7FC00000#32)) := by
  after_results_simp
  try simp only [ofBuf_toBuf]
  first | done | rfl

theorem k_h0 (V : Valuation τ sig (Elt Ideal))
    (hx : ∀ j : S100000.Idx, ((V (Proc.devRef .tc main_arg0) : IVec S100000 32) j).toInt = 0) :
    (after (hostOps0_1 (F := Ideal)) V (Proc.devRef .tc main_v4) : FVec Ideal S100000x64 .f32)
      = kH0 (F := Ideal) (V (Proc.devRef .tc main_arg4)) (V (Proc.devRef .tc main_arg0)) :=
  (k_h0_raw V).trans (take_x (V (Proc.devRef .tc main_arg0)) hx (V (Proc.devRef .tc main_arg4)))

theorem k_v5 (V : Valuation τ sig (Elt Ideal))
    (hsrc : ∀ j : S1000000.Idx, 0 ≤ ((V (Proc.devRef .tc main_v1) : IVec S1000000 32) j).toInt
      ∧ ((V (Proc.devRef .tc main_v1) : IVec S1000000 32) j).toInt < 100000) :
    (after (hostOps0_2 (F := Ideal)) V (Proc.devRef .tc main_v5) : FVec Ideal S1000000x64 .f32)
      = kGatherSrc (F := Ideal) (V (Proc.devRef .tc main_v4)) (V (Proc.devRef .tc main_v1)) :=
  (k_v5_raw V).trans (take_src (V (Proc.devRef .tc main_v1)) hsrc (V (Proc.devRef .tc main_v4)))

theorem k_v7 (V : Valuation τ sig (Elt F)) :
    after (hostOps0_3 (F := F)) V (Proc.devRef .tc main_v7) = kW7 (V (Proc.devRef .tc main_arg5)) := by
  after_results_simp
  first | done | rfl

theorem k_v10 (V : Valuation τ sig (Elt F)) :
    after (hostOps0_3 (F := F)) V (Proc.devRef .tc main_v10) = kRow (kVec (V (Proc.devRef .tc main_arg6))) := by
  after_results_simp
  first | done | rfl

theorem k_v14 (V : Valuation τ sig (Elt F)) :
    after (hostOps1 (F := F)) V (Proc.devRef .tc main_v14)
      = kScatter (V (Proc.devRef .tc main_v3)) (V (Proc.devRef .tc main_v11)) := by
  after_results_simp
  first | done | rfl

theorem k_v16 (V : Valuation τ sig (Elt F)) :
    after (hostOps1 (F := F)) V (Proc.devRef .tc main_v16) = kW64 (V (Proc.devRef .tc main_arg7)) := by
  after_results_simp
  first | done | rfl

theorem k_v23 (V : Valuation τ sig (Elt F)) :
    after (hostOps1 (F := F)) V (Proc.devRef .tc main_v23) = kRow (kVec (V (Proc.devRef .tc main_arg8))) := by
  after_results_simp
  first | done | rfl

theorem k_v20 (V : Valuation τ sig (Elt F)) :
    after (hostOps1 (F := F)) V (Proc.devRef .tc main_v20) = kW64 (V (Proc.devRef .tc main_arg9)) := by
  after_results_simp
  first | done | rfl

theorem k_v24 (V : Valuation τ sig (Elt F)) :
    after (hostOps1 (F := F)) V (Proc.devRef .tc main_v24) = kRow (kVec (V (Proc.devRef .tc main_arg10))) := by
  after_results_simp
  first | done | rfl

def kMean (z : FVec F S100000x64 .f32) : FVec F S64 .f32 :=
  Host.divf (Host.reduceAdd z (constant (F := F) S_ .f32 0x00000000#32) reducesTo_S100000x64_S64_d0 h_S_)
    (broadcastInDim S64 ![] bcast_S_S64 (constant (F := F) S_ .f32 0x47C35000#32))

theorem k_v28 (V : Valuation τ sig (Elt F)) :
    after (hostOps2 (F := F)) V (Proc.devRef .tc main_v28) = kMean (V (Proc.devRef .tc main_v25)) := by
  after_results_simp
  first | done | rfl

theorem k_c (V : Valuation τ sig (Elt F)) :
    after (hostOps2 (F := F)) V (Proc.devRef .tc main_c) = constantI S_ 32 0#32 := by
  after_results_simp
  first | done | rfl

def kCentred (z : FVec F S100000x64 .f32) : FVec F S100000x64 .f32 :=
  subf z (broadcastInDim S100000x64 ![0, 1] bcast_S1x64_S100000x64_0_1
    (Host.divf
      (broadcastInDim S1x64 ![1] bcast_S64_S1x64_1
        (Host.reduceAdd z (constant (F := F) S_ .f32 0x00000000#32) reducesTo_S100000x64_S64_d0 h_S_))
      (broadcastInDim S1x64 ![] bcast_S_S1x64 (constant (F := F) S_ .f32 0x47C35000#32))))

def kVar (z : FVec F S100000x64 .f32) (cnt : IVec S_ 32) : FVec F S64 .f32 :=
  select
    (broadcastInDim S64 ![] bcast_S_S64
      (cmpf .ogt (subf (constant (F := F) S_ .f32 0x47C35000#32) (sitofp .f32 cnt)) (constant (F := F) S_ .f32 0x00000000#32)))
    (Host.divf
      (Host.reduceAdd (mulf (kCentred z) (kCentred z)) (constant (F := F) S_ .f32 0x00000000#32) reducesTo_S100000x64_S64_d0 h_S_)
      (broadcastInDim S64 ![] bcast_S_S64 (subf (constant (F := F) S_ .f32 0x47C35000#32) (sitofp .f32 cnt))))
    (broadcastInDim S64 ![] bcast_S_S64 (id (constant (F := F) S_ .f32 0x7FC00000#32)))

def kRstd (v : FVec F S64 .f32) : FVec F S64 .f32 :=
  Host.rsqrt (addf v (broadcastInDim S64 ![] bcast_S_S64 (constant (F := F) S_ .f32 0x3727C5AC#32)))

theorem k_v29 (V : Valuation τ sig (Elt F)) :
    after (hostOps2_1 (F := F)) V (Proc.devRef .tc main_v29)
      = kVar (V (Proc.devRef .tc main_v25)) (V (Proc.devRef .tc main_c)) := by
  after_results_simp
  try simp only [ofBuf_toBuf]
  first | done | rfl

theorem k_v34 (V : Valuation τ sig (Elt F)) :
    after (hostOps2_2 (F := F)) V (Proc.devRef .tc main_v34) = kRow (V (Proc.devRef .tc main_v28)) := by
  after_results_simp
  first | done | rfl

theorem k_v38 (V : Valuation τ sig (Elt F)) :
    after (hostOps2_2 (F := F)) V (Proc.devRef .tc main_v38) = kRow (kRstd (V (Proc.devRef .tc main_v29))) := by
  after_results_simp
  first | done | rfl

theorem k_v39 (V : Valuation τ sig (Elt F)) :
    after (hostOps2_2 (F := F)) V (Proc.devRef .tc main_v39) = kRow (kVec (V (Proc.devRef .tc main_arg11))) := by
  after_results_simp
  first | done | rfl

theorem k_v40 (V : Valuation τ sig (Elt F)) :
    after (hostOps2_2 (F := F)) V (Proc.devRef .tc main_v40) = kRow (kVec (V (Proc.devRef .tc main_arg12))) := by
  after_results_simp
  first | done | rfl

end

variable (m : (ℓ : Loc nD τ sig) → Buf (Elt Ideal) ℓ) (ρ : Dev nD → PrngReg) (c : Dev nD)

theorem K_h0 (hx : ∀ j : S100000.Idx, (m ((c.tc : Thread nD τ).loc main_arg0) j).toInt = 0) :
    (W2 m ρ c (Proc.devRef .tc main_v4) : FVec Ideal S100000x64 .f32)
      = kH0 (F := Ideal) (m ((c.tc : Thread nD τ).loc main_arg4)) (m ((c.tc : Thread nD τ).loc main_arg0)) := by
  have e := k_h0 (W1 m ρ c) (by rw [(W1_arg m ρ c Cert.KernelIdeal.main_arg0 (by decide))]; exact hx)
  rw [(W1_arg m ρ c Cert.KernelIdeal.main_arg0 (by decide)), (W1_arg m ρ c Cert.KernelIdeal.main_arg4 (by decide))] at e
  exact e

theorem K_src : W1 m ρ c (Proc.devRef .tc main_v1) = srcOf (m ((c.tc : Thread nD τ).loc main_arg1)) :=
  k_src (W0 m ρ c)

theorem K_dst : W1 m ρ c (Proc.devRef .tc main_v3) = kDst (m ((c.tc : Thread nD τ).loc main_arg1)) :=
  k_dst (W0 m ρ c)

theorem K_v5 (hx : ∀ j : S100000.Idx, (m ((c.tc : Thread nD τ).loc main_arg0) j).toInt = 0)
    (hs : ∀ j : Fin 1000000, 0 ≤ (m ((c.tc : Thread nD τ).loc main_arg1) (ValueIdx.ix2 (0 : Fin 2) j)).toInt
      ∧ (m ((c.tc : Thread nD τ).loc main_arg1) (ValueIdx.ix2 (0 : Fin 2) j)).toInt < 100000) :
    (W4 m ρ c (Proc.devRef .tc main_v5) : FVec Ideal S1000000x64 .f32)
      = kGatherSrc (F := Ideal) (kH0 (F := Ideal) (m ((c.tc : Thread nD τ).loc main_arg4)) (m ((c.tc : Thread nD τ).loc main_arg0)))
          (srcOf (m ((c.tc : Thread nD τ).loc main_arg1))) := by
  have e1 : W2 m ρ c (Proc.devRef .tc main_v1) = srcOf (m ((c.tc : Thread nD τ).loc main_arg1)) :=
    ((W2_kept m ρ c Cert.KernelIdeal.main_v1 (by decide))).trans (K_src m ρ c)
  have e := k_v5 (W2 m ρ c) (by rw [e1]; exact srcOf_range _ hs)
  rw [e1, K_h0 m ρ c hx] at e
  exact (keep_hostOps0_3 (W3 m ρ c) main_v5 (by decide)).trans e

theorem K_v7 : W4 m ρ c (Proc.devRef .tc main_v7) = kW7 (F := Ideal) (m ((c.tc : Thread nD τ).loc main_arg5)) := by
  have e := k_v7 (W3 m ρ c)
  rw [((W3_kept m ρ c Cert.KernelIdeal.main_arg5 (by decide)).trans (W1_arg m ρ c Cert.KernelIdeal.main_arg5 (by decide)))] at e
  exact e

theorem K_v10 : W4 m ρ c (Proc.devRef .tc main_v10) = kRow (F := Ideal) (kVec (F := Ideal) (m ((c.tc : Thread nD τ).loc main_arg6))) := by
  have e := k_v10 (W3 m ρ c)
  rw [((W3_kept m ρ c Cert.KernelIdeal.main_arg6 (by decide)).trans (W1_arg m ρ c Cert.KernelIdeal.main_arg6 (by decide)))] at e
  exact e

theorem K_msg (hx : ∀ j : S100000.Idx, (m ((c.tc : Thread nD τ).loc main_arg0) j).toInt = 0)
    (hs : ∀ j : Fin 1000000, 0 ≤ (m ((c.tc : Thread nD τ).loc main_arg1) (ValueIdx.ix2 (0 : Fin 2) j)).toInt
      ∧ (m ((c.tc : Thread nD τ).loc main_arg1) (ValueIdx.ix2 (0 : Fin 2) j)).toInt < 100000) :
    (W5 m ρ c (Proc.devRef .tc main_v11) : Cert.Spec.E64.Idx → EReal)
      = Cert.Spec.edgeG
          (kGatherSrc (F := Ideal) (kH0 (F := Ideal) (m ((c.tc : Thread nD τ).loc main_arg4)) (m ((c.tc : Thread nD τ).loc main_arg0)))
            (srcOf (m ((c.tc : Thread nD τ).loc main_arg1))))
          (m ((c.tc : Thread nD τ).loc main_arg2)) (kW7 (F := Ideal) (m ((c.tc : Thread nD τ).loc main_arg5)))
          (kRow (F := Ideal) (kVec (F := Ideal) (m ((c.tc : Thread nD τ).loc main_arg6)))) := by
  have e : (W5 m ρ c (Proc.devRef .tc main_v11) : Cert.Spec.E64.Idx → EReal)
      = Cert.Spec.edgeG (W4 m ρ c (Proc.devRef .tc main_v5)) (W4 m ρ c (Proc.devRef .tc main_arg2))
          (W4 m ρ c (Proc.devRef .tc main_v7)) (W4 m ρ c (Proc.devRef .tc main_v10)) :=
    (W5_arr m ρ c 4).trans (Cert.KernelIdeal.RegionValue.region0 (V4 m ρ) c)
  rw [K_v5 m ρ c hx hs, ((W4_kept m ρ c Cert.KernelIdeal.main_arg2 (by decide)).trans (W1_arg m ρ c Cert.KernelIdeal.main_arg2 (by decide))), K_v7, K_v10] at e
  exact e

theorem K_agg : W6 m ρ c (Proc.devRef .tc main_v14)
    = kScatter (F := Ideal) (kDst (m ((c.tc : Thread nD τ).loc main_arg1))) (W5 m ρ c (Proc.devRef .tc main_v11)) := by
  have e := k_v14 (W5 m ρ c)
  rw [(W5_kept m ρ c Cert.KernelIdeal.main_v3 (by decide)), K_dst m ρ c] at e
  exact e

theorem W6_v4 : W6 m ρ c (Proc.devRef .tc main_v4) = W2 m ρ c (Proc.devRef .tc main_v4) :=
  (keep_hostOps1 _ main_v4 (by decide)).trans <| (W5_of_ne m ρ c main_v4 (by decide)).trans <|
    (keep_hostOps0_3 _ main_v4 (by decide)).trans (keep_hostOps0_2 _ main_v4 (by decide))

theorem K_z (hx : ∀ j : S100000.Idx, (m ((c.tc : Thread nD τ).loc main_arg0) j).toInt = 0) :
    (W7 m ρ c (Proc.devRef .tc main_v25) : Cert.Spec.N64.Idx → EReal)
      = Cert.Spec.mlpG (kH0 (F := Ideal) (m ((c.tc : Thread nD τ).loc main_arg4)) (m ((c.tc : Thread nD τ).loc main_arg0)))
          (W6 m ρ c (Proc.devRef .tc main_v14))
          (kW64 (F := Ideal) (m ((c.tc : Thread nD τ).loc main_arg7))) (kRow (F := Ideal) (kVec (F := Ideal) (m ((c.tc : Thread nD τ).loc main_arg8))))
          (kW64 (F := Ideal) (m ((c.tc : Thread nD τ).loc main_arg9))) (kRow (F := Ideal) (kVec (F := Ideal) (m ((c.tc : Thread nD τ).loc main_arg10)))) := by
  have e : (W7 m ρ c (Proc.devRef .tc main_v25) : Cert.Spec.N64.Idx → EReal)
      = Cert.Spec.mlpG (W6 m ρ c (Proc.devRef .tc main_v4)) (W6 m ρ c (Proc.devRef .tc main_v14))
          (W6 m ρ c (Proc.devRef .tc main_v16)) (W6 m ρ c (Proc.devRef .tc main_v23))
          (W6 m ρ c (Proc.devRef .tc main_v20)) (W6 m ρ c (Proc.devRef .tc main_v24)) :=
    (W7_arr m ρ c 6).trans (Cert.KernelIdeal.RegionValue.region1 (V6 m ρ) c)
  have e16 : W6 m ρ c (Proc.devRef .tc main_v16) = _ := k_v16 (W5 m ρ c)
  have e23 : W6 m ρ c (Proc.devRef .tc main_v23) = _ := k_v23 (W5 m ρ c)
  have e20 : W6 m ρ c (Proc.devRef .tc main_v20) = _ := k_v20 (W5 m ρ c)
  have e24 : W6 m ρ c (Proc.devRef .tc main_v24) = _ := k_v24 (W5 m ρ c)
  rw [((W5_kept m ρ c Cert.KernelIdeal.main_arg7 (by decide)).trans (W1_arg m ρ c Cert.KernelIdeal.main_arg7 (by decide)))] at e16
  rw [((W5_kept m ρ c Cert.KernelIdeal.main_arg8 (by decide)).trans (W1_arg m ρ c Cert.KernelIdeal.main_arg8 (by decide)))] at e23
  rw [((W5_kept m ρ c Cert.KernelIdeal.main_arg9 (by decide)).trans (W1_arg m ρ c Cert.KernelIdeal.main_arg9 (by decide)))] at e20
  rw [((W5_kept m ρ c Cert.KernelIdeal.main_arg10 (by decide)).trans (W1_arg m ρ c Cert.KernelIdeal.main_arg10 (by decide)))] at e24
  rw [W6_v4, K_h0 m ρ c hx, e16, e23, e20, e24] at e
  exact e

theorem W10_v25 : W10 m ρ c (Proc.devRef .tc main_v25) = W7 m ρ c (Proc.devRef .tc main_v25) :=
  (keep_hostOps2_2 _ main_v25 (by decide)).trans <| (keep_hostOps2_1 _ main_v25 (by decide)).trans
    (keep_hostOps2 _ main_v25 (by decide))

theorem K_mu : W10 m ρ c (Proc.devRef .tc main_v34) = kRow (F := Ideal) (kMean (F := Ideal) (W7 m ρ c (Proc.devRef .tc main_v25))) := by
  have e := k_v34 (W9 m ρ c)
  rw [show W9 m ρ c (Proc.devRef .tc main_v28) = kMean (F := Ideal) (W7 m ρ c (Proc.devRef .tc main_v25)) from
    (keep_hostOps2_1 (W8 m ρ c) main_v28 (by decide)).trans (k_v28 (W7 m ρ c))] at e
  exact e

theorem K_var : W9 m ρ c (Proc.devRef .tc main_v29)
    = kVar (F := Ideal) (W7 m ρ c (Proc.devRef .tc main_v25)) (constantI S_ 32 0#32) := by
  have e := k_v29 (W8 m ρ c)
  rw [show W8 m ρ c (Proc.devRef .tc main_v25) = W7 m ρ c (Proc.devRef .tc main_v25) from
      keep_hostOps2 (W7 m ρ c) main_v25 (by decide),
    show W8 m ρ c (Proc.devRef .tc main_c) = constantI S_ 32 0#32 from k_c (W7 m ρ c)] at e
  exact e

theorem K_rs : W10 m ρ c (Proc.devRef .tc main_v38)
    = kRow (F := Ideal) (kRstd (F := Ideal) (kVar (F := Ideal) (W7 m ρ c (Proc.devRef .tc main_v25)) (constantI S_ 32 0#32))) := by
  have e := k_v38 (W9 m ρ c)
  rw [K_var] at e
  exact e

theorem K_ga : W10 m ρ c (Proc.devRef .tc main_v39) = kRow (F := Ideal) (kVec (F := Ideal) (m ((c.tc : Thread nD τ).loc main_arg11))) := by
  have e := k_v39 (W9 m ρ c)
  rw [((W9_kept m ρ c Cert.KernelIdeal.main_arg11 (by decide)).trans (W1_arg m ρ c Cert.KernelIdeal.main_arg11 (by decide)))] at e
  exact e

theorem K_be : W10 m ρ c (Proc.devRef .tc main_v40) = kRow (F := Ideal) (kVec (F := Ideal) (m ((c.tc : Thread nD τ).loc main_arg12))) := by
  have e := k_v40 (W9 m ρ c)
  rw [((W9_kept m ρ c Cert.KernelIdeal.main_arg12 (by decide)).trans (W1_arg m ρ c Cert.KernelIdeal.main_arg12 (by decide)))] at e
  exact e

theorem K_out :
    (W11 m ρ c (Proc.devRef .tc main_v41) : Cert.Spec.N64.Idx → EReal)
      = Cert.Spec.bnReluG (W7 m ρ c (Proc.devRef .tc main_v25))
          (kRow (F := Ideal) (kMean (F := Ideal) (W7 m ρ c (Proc.devRef .tc main_v25))))
          (kRow (F := Ideal) (kRstd (F := Ideal) (kVar (F := Ideal) (W7 m ρ c (Proc.devRef .tc main_v25)) (constantI S_ 32 0#32))))
          (kRow (F := Ideal) (kVec (F := Ideal) (m ((c.tc : Thread nD τ).loc main_arg11))))
          (kRow (F := Ideal) (kVec (F := Ideal) (m ((c.tc : Thread nD τ).loc main_arg12)))) := by
  have e : (W11 m ρ c (Proc.devRef .tc main_v41) : Cert.Spec.N64.Idx → EReal)
      = Cert.Spec.bnReluG (W10 m ρ c (Proc.devRef .tc main_v25)) (W10 m ρ c (Proc.devRef .tc main_v34))
          (W10 m ρ c (Proc.devRef .tc main_v38)) (W10 m ρ c (Proc.devRef .tc main_v39))
          (W10 m ρ c (Proc.devRef .tc main_v40)) :=
    (W11_arr m ρ c 5).trans (Cert.KernelIdeal.RegionValue.region2 (V10 m ρ) c)
  rw [W10_v25, K_mu, K_rs, K_ga, K_be] at e
  exact e

end Kernel

section Reference

open Cert.ReferenceIdeal Cert.ReferenceIdeal.Ops Cert.ReferenceIdeal.Keep Cert.ReferenceIdeal.Kinds
open Cert.ReferenceIdeal.Facts₀ Cert.ReferenceIdeal.Facts

variable {F : FTy → Type} [FloatOps F]

def rW7 (a : FVec F S5x7x64 .f32) : FVec F S7x64 .f32 :=
  shapeCast S7x64 (extractStridedSlice S1x7x64 ![0, 0, 0] a slices_S5x7x64_S1x7x64_0_0_0) shapeCasts_S1x7x64_S7x64

def rW64 (a : FVec F S5x64x64 .f32) : FVec F S64x64 .f32 :=
  shapeCast S64x64 (extractStridedSlice S1x64x64 ![0, 0, 0] a slices_S5x64x64_S1x64x64_0_0_0) shapeCasts_S1x64x64_S64x64

def rVec (a : FVec F S5x64 .f32) : FVec F S64 .f32 :=
  shapeCast S64 (extractStridedSlice S1x64 ![0, 0] a slices_S5x64_S1x64_0_0) shapeCasts_S1x64_S64

abbrev rOver (v : FVec F S64 .f32) : FVec F S100000x64 .f32 :=
  broadcastInDim S100000x64 ![0, 1] bcast_S1x64_S100000x64_0_1 (broadcastInDim S1x64 ![1] bcast_S64_S1x64_1 v)

section
attribute [local irreducible] Host.gather Host.reduce Host.reduceAdd Host.scatterAdd Host.rsqrt Host.divf broadcastInDim select cmpi cmpf addi andi constantI constant sitofp extractStridedSlice maximumf addf mulf subf

theorem r_src (V : Valuation τ sig (Elt F)) :
    after (chunkH (F := F)) V (Proc.devRef .tc main_v1)
      = Cert.KernelIdeal.Take.srcOf (V (Proc.devRef .tc main_arg1)) := by
  after_results_simp
  first | done | rfl

theorem r_dst (V : Valuation τ sig (Elt F)) :
    after (chunkH (F := F)) V (Proc.devRef .tc main_v3) = kDst (V (Proc.devRef .tc main_arg1)) := by
  after_results_simp
  first | done | rfl

theorem r_h0 (V : Valuation τ sig (Elt F)) :
    after (chunkH (F := F)) V (Proc.devRef .tc main_v10)
      = kH0 (V (Proc.devRef .tc main_arg4)) (V (Proc.devRef .tc main_arg0)) := by
  after_results_simp
  first | done | rfl

set_option maxHeartbeats 4000000 in
theorem r_v25 (V : Valuation τ sig (Elt F)) :
    after (chunkL0 (F := F)) V (Proc.devRef .tc main_v25)
      = kGatherSrc (V (Proc.devRef .tc main_v10)) (V (Proc.devRef .tc main_v1)) := by
  after_results_simp
  try simp only [ofBuf_toBuf]
  first | done | rfl

set_option maxHeartbeats 4000000 in
theorem r_v27 (V : Valuation τ sig (Elt F)) :
    after (chunkL0 (F := F)) V (Proc.devRef .tc main_v27)
      = maximumf (addf (after (chunkL0 (F := F)) V (Proc.devRef .tc main_v25))
          (addf (Host.dotGeneral dot_S1000000x7_S7x64_S1000000x64_1_0_0_1_n_n none (V (Proc.devRef .tc main_arg2))
              (rW7 (V (Proc.devRef .tc main_arg5))))
            (broadcastInDim S1000000x64 ![0, 1] bcast_S1x64_S1000000x64_0_1
              (broadcastInDim S1x64 ![1] bcast_S64_S1x64_1 (rVec (V (Proc.devRef .tc main_arg6)))))))
        (broadcastInDim S1000000x64 ![] bcast_S_S1000000x64 (constant (F := F) S_ .f32 0x00000000#32)) := by
  after_results_simp
  try simp only [ofBuf_toBuf]
  first | done | rfl

set_option maxHeartbeats 4000000 in
theorem r_v30 (V : Valuation τ sig (Elt F)) :
    after (chunkL0 (F := F)) V (Proc.devRef .tc main_v30)
      = kScatter (V (Proc.devRef .tc main_v3)) (after (chunkL0 (F := F)) V (Proc.devRef .tc main_v27)) := by
  after_results_simp
  try simp only [ofBuf_toBuf]
  first | done | rfl

set_option maxHeartbeats 4000000 in
theorem r_v48 (V : Valuation τ sig (Elt F)) :
    after (chunkL0 (F := F)) V (Proc.devRef .tc main_v48)
      = addf (Host.dotGeneral dot_S100000x64_S64x64_S100000x64_1_0_0_1_n_n none
          (maximumf (addf (Host.dotGeneral dot_S100000x64_S64x64_S100000x64_1_0_0_1_n_n none
                (addf (V (Proc.devRef .tc main_v10)) (after (chunkL0 (F := F)) V (Proc.devRef .tc main_v30)))
                (rW64 (V (Proc.devRef .tc main_arg7))))
              (broadcastInDim S100000x64 ![0, 1] bcast_S1x64_S100000x64_0_1
                (broadcastInDim S1x64 ![1] bcast_S64_S1x64_1 (rVec (V (Proc.devRef .tc main_arg8))))))
            (broadcastInDim S100000x64 ![] bcast_S_S100000x64 (constant (F := F) S_ .f32 0x00000000#32)))
          (rW64 (V (Proc.devRef .tc main_arg9))))
        (broadcastInDim S100000x64 ![0, 1] bcast_S1x64_S100000x64_0_1
          (broadcastInDim S1x64 ![1] bcast_S64_S1x64_1 (rVec (V (Proc.devRef .tc main_arg10))))) := by
  after_results_simp
  try simp only [ofBuf_toBuf]
  first | done | rfl

set_option maxHeartbeats 4000000 in
theorem r_v51 (V : Valuation τ sig (Elt F)) :
    after (chunkL0 (F := F)) V (Proc.devRef .tc main_v51)
      = kMean (after (chunkL0 (F := F)) V (Proc.devRef .tc main_v48)) := by
  after_results_simp
  try simp only [ofBuf_toBuf]
  first | done | rfl

set_option maxHeartbeats 4000000 in
theorem r_v52 (V : Valuation τ sig (Elt F)) :
    after (chunkL0 (F := F)) V (Proc.devRef .tc main_v52)
      = kVar (after (chunkL0 (F := F)) V (Proc.devRef .tc main_v48)) (constantI Cert.KernelIdeal.S_ 32 0#32) := by
  after_results_simp
  try simp only [ofBuf_toBuf]
  first | done | rfl

set_option maxHeartbeats 4000000 in
theorem r_v58 (V : Valuation τ sig (Elt F)) :
    after (chunkL0 (F := F)) V (Proc.devRef .tc main_v58)
      = kRstd (after (chunkL0 (F := F)) V (Proc.devRef .tc main_v52)) := by
  after_results_simp
  try simp only [ofBuf_toBuf]
  first | done | rfl

set_option maxHeartbeats 4000000 in
theorem r_v72 (V : Valuation τ sig (Elt F)) :
    after (chunkL0 (F := F)) V (Proc.devRef .tc main_v72)
      = maximumf
          (addf (mulf (mulf (subf (after (chunkL0 (F := F)) V (Proc.devRef .tc main_v48))
                  (rOver (after (chunkL0 (F := F)) V (Proc.devRef .tc main_v51))))
                (rOver (after (chunkL0 (F := F)) V (Proc.devRef .tc main_v58))))
              (rOver (rVec (V (Proc.devRef .tc main_arg11)))))
            (rOver (rVec (V (Proc.devRef .tc main_arg12)))))
          (broadcastInDim S100000x64 ![] bcast_S_S100000x64 (constant (F := F) S_ .f32 0x00000000#32)) := by
  after_results_simp
  try simp only [ofBuf_toBuf]
  first | done | rfl

end

variable (m' : (ℓ : Loc nD τ sig) → Buf (Elt Ideal) ℓ) (c : Dev nD)

theorem R_arg (b : Ref sig .tc) (hb : b.idx.val < 15) :
    UH m' c (Proc.devRef .tc b) = m' ((c.tc : Thread nD τ).loc b) :=
  keep_chunkH _ b hb

theorem R_h0 : UH m' c (Proc.devRef .tc main_v10)
    = kH0 (F := Ideal) (m' ((c.tc : Thread nD τ).loc main_arg4)) (m' ((c.tc : Thread nD τ).loc main_arg0)) :=
  r_h0 (U0 m' c)

theorem R_src : UH m' c (Proc.devRef .tc main_v1)
    = Cert.KernelIdeal.Take.srcOf (m' ((c.tc : Thread nD τ).loc main_arg1)) :=
  r_src (U0 m' c)

theorem R_dst : UH m' c (Proc.devRef .tc main_v3) = kDst (m' ((c.tc : Thread nD τ).loc main_arg1)) :=
  r_dst (U0 m' c)

theorem R_v25 : UL0 m' c (Proc.devRef .tc main_v25)
    = kGatherSrc (F := Ideal) (kH0 (F := Ideal) (m' ((c.tc : Thread nD τ).loc main_arg4)) (m' ((c.tc : Thread nD τ).loc main_arg0)))
        (Cert.KernelIdeal.Take.srcOf (m' ((c.tc : Thread nD τ).loc main_arg1))) := by
  have e := r_v25 (UH m' c)
  rw [R_h0, R_src] at e
  exact e

theorem R_msg :
    (UL0 m' c (Proc.devRef .tc main_v27) : Cert.Spec.E64.Idx → EReal)
      = Cert.Spec.edgeG
          (kGatherSrc (F := Ideal) (kH0 (F := Ideal) (m' ((c.tc : Thread nD τ).loc main_arg4)) (m' ((c.tc : Thread nD τ).loc main_arg0)))
            (Cert.KernelIdeal.Take.srcOf (m' ((c.tc : Thread nD τ).loc main_arg1))))
          (m' ((c.tc : Thread nD τ).loc main_arg2)) (rW7 (F := Ideal) (m' ((c.tc : Thread nD τ).loc main_arg5)))
          (row (rVec (F := Ideal) (m' ((c.tc : Thread nD τ).loc main_arg6)))) := by
  have e := (r_v27 (UH m' c)).trans (ref_edge _ _ _ _)
  rw [show after (chunkL0 (F := Ideal)) (UH m' c) (Proc.devRef .tc main_v25) = _ from R_v25 m' c,
    R_arg m' c main_arg2 (by decide), R_arg m' c main_arg5 (by decide), R_arg m' c main_arg6 (by decide)] at e
  exact e

theorem R_agg : UL0 m' c (Proc.devRef .tc main_v30)
    = kScatter (F := Ideal) (kDst (m' ((c.tc : Thread nD τ).loc main_arg1))) (UL0 m' c (Proc.devRef .tc main_v27)) := by
  have e := r_v30 (UH m' c)
  rw [R_dst] at e
  exact e

theorem R_z :
    (UL0 m' c (Proc.devRef .tc main_v48) : Cert.Spec.N64.Idx → EReal)
      = Cert.Spec.mlpG (kH0 (F := Ideal) (m' ((c.tc : Thread nD τ).loc main_arg4)) (m' ((c.tc : Thread nD τ).loc main_arg0)))
          (UL0 m' c (Proc.devRef .tc main_v30))
          (rW64 (F := Ideal) (m' ((c.tc : Thread nD τ).loc main_arg7))) (rowN (rVec (F := Ideal) (m' ((c.tc : Thread nD τ).loc main_arg8))))
          (rW64 (F := Ideal) (m' ((c.tc : Thread nD τ).loc main_arg9))) (rowN (rVec (F := Ideal) (m' ((c.tc : Thread nD τ).loc main_arg10)))) := by
  have e := (r_v48 (UH m' c)).trans (ref_mlp _ _ _ _ _ _)
  rw [R_h0, R_arg m' c main_arg7 (by decide), R_arg m' c main_arg8 (by decide), R_arg m' c main_arg9 (by decide),
    R_arg m' c main_arg10 (by decide)] at e
  exact e

theorem R_out :
    (UL0 m' c (Proc.devRef .tc main_v72) : Cert.Spec.N64.Idx → EReal)
      = Cert.Spec.bnReluG (UL0 m' c (Proc.devRef .tc main_v48))
          (rowB (kMean (F := Ideal) (UL0 m' c (Proc.devRef .tc main_v48))))
          (rowB (kRstd (F := Ideal) (kVar (F := Ideal) (UL0 m' c (Proc.devRef .tc main_v48)) (constantI Cert.KernelIdeal.S_ 32 0#32))))
          (rowB (rVec (F := Ideal) (m' ((c.tc : Thread nD τ).loc main_arg11))))
          (rowB (rVec (F := Ideal) (m' ((c.tc : Thread nD τ).loc main_arg12)))) := by
  have e := (r_v72 (UH m' c)).trans (ref_bn_relu _ _ _ _ _)
  rw [r_v58 (UH m' c), r_v52 (UH m' c), r_v51 (UH m' c), R_arg m' c main_arg11 (by decide),
    R_arg m' c main_arg12 (by decide)] at e
  exact e

end Reference

theorem kRow_eq (v : FVec Ideal Cert.KernelIdeal.S64 .f32) :
    kRow (F := Ideal) v = Cert.ReferenceIdeal.Kinds.row v :=
  rowCast_eq_rowBcast v _ _

theorem kVec_eq (a : FVec Ideal Cert.KernelIdeal.S5x64 .f32) : kVec (F := Ideal) a = rVec (F := Ideal) a := rfl

theorem kW7_eq (a : FVec Ideal Cert.KernelIdeal.S5x7x64 .f32) : kW7 (F := Ideal) a = rW7 (F := Ideal) a := rfl

theorem kW64_eq (a : FVec Ideal Cert.KernelIdeal.S5x64x64 .f32) : kW64 (F := Ideal) a = rW64 (F := Ideal) a := rfl

end Layer0

open Layer0

variable (m' : (ℓ : Loc Cert.ReferenceIdeal.nD Cert.ReferenceIdeal.τ Cert.ReferenceIdeal.sig) → Buf (Elt Ideal) ℓ)
  (m : (ℓ : Loc Cert.KernelIdeal.nD Cert.KernelIdeal.τ Cert.KernelIdeal.sig) → Buf (Elt Ideal) ℓ)
  (ρ : Dev Cert.KernelIdeal.nD → PrngReg)

theorem layer0 (hA : Agree m' m) (hx : XInRange m) (hs : SrcInRange m) (c : Dev Cert.KernelIdeal.nD) : Inv0 m' m ρ c := by
  obtain ⟨a0, a1, a2, _, a4, a5, a6, a7, a8, a9, a10, a11, a12, _, _⟩ := hA c

  have hmsg : (Cert.KernelIdeal.Gen.W5 m ρ c (Proc.devRef .tc Cert.KernelIdeal.main_v11) : Cert.Spec.E64.Idx → EReal)
      = (UL0 m' c (Proc.devRef .tc Cert.ReferenceIdeal.main_v27) : Cert.Spec.E64.Idx → EReal) := by
    rw [K_msg m ρ c (hx c) (hs c), R_msg m' c, a0, a1, a2, a4, a5, a6, kRow_eq, kVec_eq, kW7_eq]

  have hagg : (Cert.KernelIdeal.Gen.W6 m ρ c (Proc.devRef .tc Cert.KernelIdeal.main_v14) : Cert.Spec.N64.Idx → EReal)
      = (UL0 m' c (Proc.devRef .tc Cert.ReferenceIdeal.main_v30) : Cert.Spec.N64.Idx → EReal) := by
    rw [K_agg m ρ c, R_agg m' c, hmsg, a1]

  have hz : (Cert.KernelIdeal.Gen.W7 m ρ c (Proc.devRef .tc Cert.KernelIdeal.main_v25) : Cert.Spec.N64.Idx → EReal)
      = (UL0 m' c (Proc.devRef .tc Cert.ReferenceIdeal.main_v48) : Cert.Spec.N64.Idx → EReal) := by
    rw [K_z m ρ c (hx c), R_z m' c, hagg, a0, a4, a7, a8, a9, a10]
    simp only [kRow_eq, kVec_eq, kW64_eq]

  show (Cert.KernelIdeal.Gen.W11 m ρ c (Proc.devRef .tc Cert.KernelIdeal.main_v41) : Cert.Spec.N64.Idx → EReal)
    = (UL0 m' c (Proc.devRef .tc Cert.ReferenceIdeal.main_v72) : Cert.Spec.N64.Idx → EReal)
  rw [K_out m ρ c, R_out m' c, hz, a11, a12]
  simp only [kRow_eq, kVec_eq]

end Cert.Sim

end
-- ==== Proof.Region3.lean ====
import proofs.«408039_j61503931678734_1_alg».proof.Proof.Region0

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts : ∀ t : Fin cfg3.N,
    win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

private theorem mem_blk (t : Fin cfg3.N) (i : S1000000x64.Idx) :
    i ∈ ((cfg3.win 4).blk t).view.set ↔ ∀ a : Fin 2, win3_4.index t a * S8000x64.size a ≤ (i a).val ∧ (i a).val < win3_4.index t a * S8000x64.size a + S8000x64.size a := by
  show i ∈ ((View.whole (Pipeline.arrRef spec3 4)).slice (win3_4.rect t)).set ↔ _
  rw [View.set_slice_whole, Rect.mem_set_unit]
  exact Iff.rfl

private theorem cover (i : S1000000x64.Idx) :
    ∃ t : Fin cfg3.N, (cfg3.win 4).flush t = true ∧ i ∈ ((cfg3.win 4).blk t).view.set := by
  have hi0 : (i 0).val < 1000000 := (i 0).isLt
  have hi1 : (i 1).val < 64 := (i 1).isLt
  have hN : cfg3.N = 125 := N_3
  refine ⟨⟨(i 0).val / 8000, by rw [hN]; omega⟩, flush3_4 _, ?_⟩
  rw [mem_blk]
  obtain ⟨e0, e1, -⟩ := idx_facts ⟨(i 0).val / 8000, by rw [hN]; omega⟩
  intro a
  match a with
  | ⟨0, _⟩ =>
    show win3_4.index ⟨(i 0).val / 8000, _⟩ (0 : Fin 2) * 8000 ≤ (i 0).val ∧ (i 0).val < win3_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win3_4.index ⟨(i 0).val / 8000, _⟩ (1 : Fin 2) * 64 ≤ (i 1).val ∧ (i 1).val < win3_4.index ⟨(i 0).val / 8000, _⟩ (1 : Fin 2) * 64 + 64
    rw [e1]; omega

private theorem rows_emb (t : Fin cfg3.N) (j : S8000x64.Idx) :
    ((cfg3.win 0).blk t).view.emb j = ((cfg3.win 4).blk t).view.emb j := by
  obtain ⟨e40, e41, e00, e01, -⟩ := idx_facts t
  funext a; apply Fin.ext
  match a with
  | ⟨0, _⟩ => show win3_0.index t (0 : Fin 2) * 8000 + 1 * (j 0).val = win3_4.index t (0 : Fin 2) * 8000 + 1 * (j 0).val; omega
  | ⟨1, _⟩ => show win3_0.index t (1 : Fin 2) * 64 + 1 * (j 1).val = win3_4.index t (1 : Fin 2) * 64 + 1 * (j 1).val; omega

private theorem attr_emb (t : Fin cfg3.N) (j : S8000x64.Idx) (k : Fin 7) :
    ((cfg3.win 1).blk t).view.emb (ix2 (j 0) k) = (ix2 ((((cfg3.win 4).blk t).view.emb j) 0) k : S1000000x7.Idx) := by
  obtain ⟨e40, e41, e00, e01, e10, e11, -⟩ := idx_facts t
  funext a; apply Fin.ext
  match a with
  | ⟨0, _⟩ => show win3_1.index t (0 : Fin 2) * 8000 + 1 * (j 0).val = win3_4.index t (0 : Fin 2) * 8000 + 1 * (j 0).val; omega
  | ⟨1, _⟩ => show win3_1.index t (1 : Fin 2) * 7 + 1 * k.val = k.val; omega

private theorem weight_emb (t : Fin cfg3.N) (j : S8000x64.Idx) (k : Fin 7) :
    ((cfg3.win 2).blk t).view.emb (ix2 k (j 1)) = (ix2 k ((((cfg3.win 4).blk t).view.emb j) 1) : S7x64.Idx) := by
  obtain ⟨e40, e41, e00, e01, e10, e11, e20, e21, -⟩ := idx_facts t
  funext a; apply Fin.ext
  match a with
  | ⟨0, _⟩ => show win3_2.index t (0 : Fin 2) * 7 + 1 * k.val = k.val; omega
  | ⟨1, _⟩ => show win3_2.index t (1 : Fin 2) * 64 + 1 * (j 1).val = win3_4.index t (1 : Fin 2) * 64 + 1 * (j 1).val; omega

private theorem bias_emb (t : Fin cfg3.N) (j : S8000x64.Idx) :
    ((cfg3.win 3).blk t).view.emb (ix2 (0 : Fin 1) (j 1)) = (ix2 (0 : Fin 1) ((((cfg3.win 4).blk t).view.emb j) 1) : S1x64.Idx) := by
  obtain ⟨e40, e41, e00, e01, e10, e11, e20, e21, e30, e31⟩ := idx_facts t
  funext a; apply Fin.ext
  match a with
  | ⟨0, _⟩ => show win3_3.index t (0 : Fin 2) * 1 + 1 * 0 = 0; omega
  | ⟨1, _⟩ => show win3_3.index t (1 : Fin 2) * 64 + 1 * (j 1).val = win3_4.index t (1 : Fin 2) * 64 + 1 * (j 1).val; omega

private theorem flushed_eq (c : Dev nD) (t : Fin cfg3.N) :
    (dat3 (F := Ideal) V c).flushed 4 t
      = ((cfg3.win 4).blk t).view.read (Elt Ideal)
          (Cert.Spec.edgeG (V c main_v42) (V c main_arg2) (V c main_v44) (V c main_v47)) := by
  show (cfg3.win 4).cut (grid3.coords t) ((dat3 (F := Ideal) V c).after 4 t) = _
  rw [after3_4]
  unfold out3_4
  rw [View.canon_unit_zero zero_offsets]
  simp only [View.ld_unit_zero (S := S8000x7) zero_offsets, View.ld_unit_zero (S := S7x64) zero_offsets,
    View.ld_unit_zero (S := S1x64) zero_offsets, View.ld_unit_zero (S := S8000x64) zero_offsets]
  refine funext fun (j : S8000x64.Idx) => ?_
  show k0_pay1 (F := Ideal) (iblk3 V c 1 t) (iblk3 V c 2 t) (iblk3 V c 3 t) (iblk3 V c 0 t) j
    = Cert.Spec.edgeG (V c main_v42) (V c main_arg2) (V c main_v44) (V c main_v47) (((cfg3.win 4).blk t).view.emb j)
  refine message_block_eq_spec (V c main_v42) (V c main_arg2) (V c main_v44) (V c main_v47)
    (iblk3 V c 0 t) (iblk3 V c 1 t) (iblk3 V c 2 t) (iblk3 V c 3 t) j (((cfg3.win 4).blk t).view.emb j)
    ?_ (fun k => ?_) (fun k => ?_) ?_
  · show V c main_v42 (((cfg3.win 0).blk t).view.emb j) = V c main_v42 (((cfg3.win 4).blk t).view.emb j)
    exact congrArg (V c main_v42) (rows_emb t j)
  · show V c main_arg2 (((cfg3.win 1).blk t).view.emb (ix2 (j 0) k))
      = V c main_arg2 (ix2 ((((cfg3.win 4).blk t).view.emb j) 0) k : S1000000x7.Idx)
    exact congrArg (V c main_arg2) (attr_emb t j k)
  · show V c main_v44 (((cfg3.win 2).blk t).view.emb (ix2 k (j 1)))
      = V c main_v44 (ix2 k ((((cfg3.win 4).blk t).view.emb j) 1) : S7x64.Idx)
    exact congrArg (V c main_v44) (weight_emb t j k)
  · show V c main_v47 (((cfg3.win 3).blk t).view.emb (ix2 (0 : Fin 1) (j 1)))
      = V c main_v47 (ix2 (0 : Fin 1) ((((cfg3.win 4).blk t).view.emb j) 1) : S1x64.Idx)
    exact congrArg (V c main_v47) (bias_emb t j)

theorem region3 (c : Dev nD) :
    (dat3 (F := Ideal) V c).arrAt 4 cfg3.N
      = Cert.Spec.edgeG (V c main_v42) (V c main_arg2) (V c main_v44) (V c main_v47) := by
  exact (dat3 (F := Ideal) V c).arrAt_eq_of_cover 4 _ (fun t _ => flushed_eq V c t) cover

end Cert.KernelIdeal.RegionValue

end
-- ==== Proof.Region4.lean ====
import proofs.«408039_j61503931678734_1_alg».proof.Proof.Region1

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts1 : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

private theorem mem_blk1 (t : Fin cfg4.N) (i : S100000x64.Idx) :
    i ∈ ((cfg4.win 6).blk t).view.set ↔ ∀ a : Fin 2, win4_6.index t a * S5000x64.size a ≤ (i a).val
      ∧ (i a).val < win4_6.index t a * S5000x64.size a + S5000x64.size a := by
  show i ∈ ((View.whole main_v62).slice (win4_6.rect t)).set ↔ _
  rw [View.set_slice_whole, Rect.mem_set_unit]
  exact Iff.rfl

private theorem cover1 (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 20 := N_4
  let t : Fin cfg4.N := ⟨(i 0).val / 5000, by omega⟩
  obtain ⟨-, -, -, -, -, -, -, -, -, -, -, -, e0, e1⟩ := idx_facts1 t
  have ht : t.val = (i 0).val / 5000 := rfl
  refine ⟨t, flush4_6 t, ?_⟩
  rw [mem_blk1]
  intro a
  match a with
  | ⟨0, _⟩ =>
    show win4_6.index t (0 : Fin 2) * 5000 ≤ (i 0).val ∧ (i 0).val < win4_6.index t (0 : Fin 2) * 5000 + 5000
    omega
  | ⟨1, _⟩ =>
    show win4_6.index t (1 : Fin 2) * 64 ≤ (i 1).val ∧ (i 1).val < win4_6.index t (1 : Fin 2) * 64 + 64
    omega

private theorem flushed1_eq (c : Dev nD) (t : Fin cfg4.N) :
    (dat4 (F := Ideal) V c).flushed 6 t = ((cfg4.win 6).blk t).view.read (Elt Ideal)
      (Cert.Spec.mlpG (V c main_v41) (V c main_v51) (V c main_v53) (V c main_v60) (V c main_v57) (V c main_v61)) := by
  show (cfg4.win 6).cut (grid4.coords t) ((dat4 V c).after 6 t) = _
  rw [after4_6]
  unfold out4_6
  rw [View.canon_unit_zero hz1]
  simp only [View.ld_unit_zero (S := S5000x64) hz1, View.ld_unit_zero (S := S64x64) hz1, View.ld_unit_zero (S := S1x64) hz1]
  obtain ⟨a0, b0, a1, b1, a2, b2, a3, b3, a4, b4, a5, b5, e0, e1⟩ := idx_facts1 t
  have hN : cfg4.N = 20 := N_4
  have ht : t.val < 20 := by have := t.isLt; omega

  have w2 : (iblk4 V c 2 t : S64x64.Idx → EReal) = V c main_v53 := funext fun y => by
    show V c main_v53 (((cfg4.win 2).blk t).view.emb y) = V c main_v53 y
    refine congrArg _ (funext fun a => Fin.ext ?_)
    match a with
    | ⟨0, _⟩ => show win4_2.index t (0 : Fin 2) * 64 + 1 * (y 0).val = (y 0).val; omega
    | ⟨1, _⟩ => show win4_2.index t (1 : Fin 2) * 64 + 1 * (y 1).val = (y 1).val; omega
  have w3 : (iblk4 V c 3 t : S1x64.Idx → EReal) = V c main_v60 := funext fun y => by
    show V c main_v60 (((cfg4.win 3).blk t).view.emb y) = V c main_v60 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 64 + 1 * (y 1).val = (y 1).val; omega
  have w4 : (iblk4 V c 4 t : S64x64.Idx → EReal) = V c main_v57 := funext fun y => by
    show V c main_v57 (((cfg4.win 4).blk t).view.emb y) = V c main_v57 y
    refine congrArg _ (funext fun a => Fin.ext ?_)
    match a with
    | ⟨0, _⟩ => show win4_4.index t (0 : Fin 2) * 64 + 1 * (y 0).val = (y 0).val; omega
    | ⟨1, _⟩ => show win4_4.index t (1 : Fin 2) * 64 + 1 * (y 1).val = (y 1).val; omega
  have w5 : (iblk4 V c 5 t : S1x64.Idx → EReal) = V c main_v61 := funext fun y => by
    show V c main_v61 (((cfg4.win 5).blk t).view.emb y) = V c main_v61 y
    refine congrArg _ (funext fun a => Fin.ext ?_)
    match a with
    | ⟨0, _⟩ => show win4_5.index t (0 : Fin 2) * 1 + 1 * (y 0).val = (y 0).val; omega
    | ⟨1, _⟩ => show win4_5.index t (1 : Fin 2) * 64 + 1 * (y 1).val = (y 1).val; omega

  have h0 : ∀ (p : Fin 5000) (k : Fin 64), (iblk4 V c 0 t : S5000x64.Idx → EReal) (ix2 p k)
      = V c main_v41 (ix2 (row1 t.val ht p) k) := fun p k => by
    show V c main_v41 (((cfg4.win 0).blk t).view.emb (ix2 p k)) = _
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  have h1 : ∀ (p : Fin 5000) (k : Fin 64), (iblk4 V c 1 t : S5000x64.Idx → EReal) (ix2 p k)
      = V c main_v51 (ix2 (row1 t.val ht p) k) := fun p k => by
    show V c main_v51 (((cfg4.win 1).blk t).view.emb (ix2 p k)) = _
    refine congrArg _ (funext fun a => Fin.ext ?_)
    match a with
    | ⟨0, _⟩ => show win4_1.index t (0 : Fin 2) * 5000 + 1 * p.val = t.val * 5000 + p.val; omega
    | ⟨1, _⟩ => show win4_1.index t (1 : Fin 2) * 64 + 1 * k.val = k.val; omega
  funext j

  have hemb : (((cfg4.win 6).blk t).view.emb j : S100000x64.Idx) = ix2 (row1 t.val ht (j 0)) (j 1) :=
    funext fun a => Fin.ext (by
      match a with
      | ⟨0, _⟩ => show win4_6.index t (0 : Fin 2) * 5000 + 1 * (j 0).val = t.val * 5000 + (j 0).val; omega
      | ⟨1, _⟩ => show win4_6.index t (1 : Fin 2) * 64 + 1 * (j 1).val = (j 1).val; omega)
  show k1_pay1 (iblk4 V c 0 t) (iblk4 V c 1 t) (iblk4 V c 2 t) (iblk4 V c 3 t) (iblk4 V c 4 t) (iblk4 V c 5 t) j
    = Cert.Spec.mlpG (V c main_v41) (V c main_v51) (V c main_v53) (V c main_v60) (V c main_v57) (V c main_v61)
        (((cfg4.win 6).blk t).view.emb j)
  rw [hemb, ← w2, ← w3, ← w4, ← w5]
  exact (congrArg (k1_pay1 (iblk4 V c 0 t) (iblk4 V c 1 t) (iblk4 V c 2 t) (iblk4 V c 3 t) (iblk4 V c 4 t) (iblk4 V c 5 t))
      (eq_ix2 j)).trans
    (pay1_eq_spec (V c main_v41) (V c main_v51) _ _ _ _ _ _ (row1 t.val ht) h0 h1 (j 0) (j 1))

theorem region4 (c : Dev nD) :
    (dat4 (F := Ideal) V c).arrAt 6 cfg4.N
      = Cert.Spec.mlpG (V c main_v41) (V c main_v51) (V c main_v53) (V c main_v60) (V c main_v57) (V c main_v61) :=
  (dat4 (F := Ideal) V c).arrAt_eq_of_cover 6
    (Cert.Spec.mlpG (V c main_v41) (V c main_v51) (V c main_v53) (V c main_v60) (V c main_v57) (V c main_v61))
    (fun t _ => flushed1_eq V c t) cover1

end Cert.KernelIdeal.RegionValue

end
-- ==== Proof.Region5.lean ====
import proofs.«408039_j61503931678734_1_alg».proof.Proof.Region2

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem region5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem region5_flushed (c : Dev nD) (t : Fin cfg5.N) :
    (dat5 (F := Ideal) V c).flushed 5 t
      = ((cfg5.win 5).blk t).view.read (Elt Ideal)
          (Cert.Spec.bnReluG (V c main_v62) (V c main_v71) (V c main_v75) (V c main_v76) (V c main_v77)) := by
  show (cfg5.win 5).cut (grid5.coords t) ((dat5 V c).after 5 t) = _
  rw [after5_5]
  unfold out5_5
  rw [View.canon_unit_zero region2_zeros]
  simp only [View.ld_unit_zero (S := S5000x64) region2_zeros, View.ld_unit_zero (S := S1x64) region2_zeros]
  obtain ⟨a0, a1, b0, b1, c0, c1, d0, d1, g0, g1, e0, e1⟩ := region5_idx t
  have hN : cfg5.N = 20 := N_5
  have ht : t.val < 20 := hN ▸ t.isLt
  funext j
  obtain ⟨p, q, rfl⟩ : ∃ (p : Fin 5000) (q : Fin 64), j = ix2 p q := ⟨j 0, j 1, eq_ix2 j⟩

  refine (region2_block (iblk5 V c 0 t) (iblk5 V c 1 t) (iblk5 V c 2 t) (iblk5 V c 3 t) (iblk5 V c 4 t)
    (V c main_v62) (V c main_v71) (V c main_v75) (V c main_v76) (V c main_v77)
    (fun p => ⟨t.val * 5000 + p.val, by have := p.isLt; omega⟩) ?_ ?_ ?_ ?_ ?_ p q).trans ?_
  · intro p q
    show V c main_v62 (((cfg5.win 0).blk t).view.emb (ix2 p q)) = V c main_v62 (ix2 ⟨t.val * 5000 + p.val, _⟩ q)
    refine congrArg (V c main_v62) (funext fun a => Fin.ext ?_)
    match a with
    | ⟨0, _⟩ => show win5_0.index t (0 : Fin 2) * 5000 + 1 * p.val = t.val * 5000 + p.val; rw [a0]; omega
    | ⟨1, _⟩ => show win5_0.index t (1 : Fin 2) * 64 + 1 * q.val = q.val; rw [a1]; omega
  · intro q
    show V c main_v71 (((cfg5.win 1).blk t).view.emb (ix2 (0 : Fin 1) q)) = V c main_v71 (ix2 (0 : Fin 1) q)
    refine congrArg (V c main_v71) (funext fun a => Fin.ext ?_)
    match a with
    | ⟨0, _⟩ => show win5_1.index t (0 : Fin 2) * 1 + 1 * 0 = 0; rw [b0]
    | ⟨1, _⟩ => show win5_1.index t (1 : Fin 2) * 64 + 1 * q.val = q.val; rw [b1]; omega
  · intro q
    show V c main_v75 (((cfg5.win 2).blk t).view.emb (ix2 (0 : Fin 1) q)) = V c main_v75 (ix2 (0 : Fin 1) q)
    refine congrArg (V c main_v75) (funext fun a => Fin.ext ?_)
    match a with
    | ⟨0, _⟩ => show win5_2.index t (0 : Fin 2) * 1 + 1 * 0 = 0; rw [c0]
    | ⟨1, _⟩ => show win5_2.index t (1 : Fin 2) * 64 + 1 * q.val = q.val; rw [c1]; omega
  · intro q
    show V c main_v76 (((cfg5.win 3).blk t).view.emb (ix2 (0 : Fin 1) q)) = V c main_v76 (ix2 (0 : Fin 1) q)
    refine congrArg (V c main_v76) (funext fun a => Fin.ext ?_)
    match a with
    | ⟨0, _⟩ => show win5_3.index t (0 : Fin 2) * 1 + 1 * 0 = 0; rw [d0]
    | ⟨1, _⟩ => show win5_3.index t (1 : Fin 2) * 64 + 1 * q.val = q.val; rw [d1]; omega
  · intro q
    show V c main_v77 (((cfg5.win 4).blk t).view.emb (ix2 (0 : Fin 1) q)) = V c main_v77 (ix2 (0 : Fin 1) q)
    refine congrArg (V c main_v77) (funext fun a => Fin.ext ?_)
    match a with
    | ⟨0, _⟩ => show win5_4.index t (0 : Fin 2) * 1 + 1 * 0 = 0; rw [g0]
    | ⟨1, _⟩ => show win5_4.index t (1 : Fin 2) * 64 + 1 * q.val = q.val; rw [g1]; omega
  · show Cert.Spec.bnReluG (V c main_v62) (V c main_v71) (V c main_v75) (V c main_v76) (V c main_v77) (ix2 ⟨t.val * 5000 + p.val, _⟩ q)
      = Cert.Spec.bnReluG (V c main_v62) (V c main_v71) (V c main_v75) (V c main_v76) (V c main_v77)
          (((cfg5.win 5).blk t).view.emb (ix2 p q))
    refine congrArg _ (funext fun a => Fin.ext ?_)
    match a with
    | ⟨0, _⟩ => show t.val * 5000 + p.val = win5_5.index t (0 : Fin 2) * 5000 + 1 * p.val; rw [e0]; omega
    | ⟨1, _⟩ => show q.val = win5_5.index t (1 : Fin 2) * 64 + 1 * q.val; rw [e1]; omega

theorem region5_mem (t : Fin cfg5.N) (i : S100000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole (Pipeline.arrRef spec5 5)).slice (win5_5.rect t)).set ↔ _
  rw [View.set_slice_whole, Rect.mem_set_unit]
  exact Iff.rfl

theorem region5_cover (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 20 := N_5
  have ht : (i 0).val / 5000 < cfg5.N := by rw [hN]; omega
  obtain ⟨-, -, -, -, -, -, -, -, -, -, e0, e1⟩ := region5_idx ⟨(i 0).val / 5000, ht⟩
  refine ⟨⟨(i 0).val / 5000, ht⟩, flush5_5 _, ?_⟩
  rw [region5_mem]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, ht⟩ (1 : Fin 2) * 64 ≤ (i 1).val
      ∧ (i 1).val < win5_5.index ⟨(i 0).val / 5000, ht⟩ (1 : Fin 2) * 64 + 64
    rw [e1]; omega

theorem region5 (c : Dev nD) :
    (dat5 (F := Ideal) V c).arrAt 5 cfg5.N
      = Cert.Spec.bnReluG (V c main_v62) (V c main_v71) (V c main_v75) (V c main_v76) (V c main_v77) := by
  exact (dat5 (F := Ideal) V c).arrAt_eq_of_cover 5 _ (fun t _ => region5_flushed V c t) (region5_cover)

end Cert.KernelIdeal.RegionValue

end
-- ==== Proof.Rows.lean ====
import Idealize.ShloMosaic.PureOps.Ideal
import Idealize.ShloMosaic.Lib.ValueIdx
import Idealize.ShloMosaic.Lib.Pipeline.Value

noncomputable section

namespace Cert.Rows

open Idealize.ShloMosaic Idealize.ShloMosaic.ValueIdx

theorem row_eq (v : FVec Ideal ⟨1, ![64]⟩ .f32) (hc : (⟨1, ![64]⟩ : Shape).ShapeCasts ⟨2, ![1, 64]⟩)
    (hb : (⟨1, ![64]⟩ : Shape).BroadcastsInDim ⟨2, ![1, 64]⟩ ![1]) :
    shapeCast ⟨2, ![1, 64]⟩ v hc = broadcastInDim ⟨2, ![1, 64]⟩ ![1] hb v := by
  funext j
  have h0 : (j 0).val < 1 := idx2_lt0 j
  have el : shapeCast ⟨2, ![1, 64]⟩ v hc j = v (ix1 (n := 64) (j 1)) := by
    refine shapeCast_apply v hc j (ix1 (n := 64) (j 1)) ?_
    rw [Shape.rowMajor_val_one, Shape.rowMajor_val_two]
    show (j 1).val = (j 0).val * 64 + (j 1).val
    omega
  have er : broadcastInDim ⟨2, ![1, 64]⟩ ![1] hb v j = v (ix1 (n := 64) (j 1)) :=
    broadcastInDim_apply _ hb v j (ix1 (n := 64) (j 1)) (fun a => match a with | ⟨0, _⟩ => rfl)
  rw [el, er]

end Cert.Rows

end
-- ==== Proof.Layer1.lean ====
import proofs.«408039_j61503931678734_1_alg».proof.Proof.Sim
import proofs.«408039_j61503931678734_1_alg».proof.Proof.Region3
import proofs.«408039_j61503931678734_1_alg».proof.Proof.Region4
import proofs.«408039_j61503931678734_1_alg».proof.Proof.Region5
import proofs.«408039_j61503931678734_1_alg».proof.Proof.RefEdge
import proofs.«408039_j61503931678734_1_alg».proof.Proof.RefMlp
import proofs.«408039_j61503931678734_1_alg».proof.Proof.RefBn
import proofs.«408039_j61503931678734_1_alg».proof.Proof.TakeMask
import proofs.«408039_j61503931678734_1_alg».proof.Proof.Rows
import Idealize.ShloMosaic.Lib.StableHlo.Run

set_option maxRecDepth 16384

noncomputable section

namespace Cert.Sim

open Idealize.ShloMosaic Idealize.ShloMosaic.TcCoe Idealize.ShloMosaic.StableHlo Idealize.SL.Sem Idealize.ShloMosaic.ValueIdx

attribute [local irreducible] Host.gather Host.scatterAdd Host.reduceAdd Host.rsqrt Host.divf Host.reduce

private theorem ofBuf_toBuf {sg : RefSig} {Val : EltTy → Type} {T : BufTy} (x : StableHlo.TRef sg T) (v : T.Contents Val) :
    x.ofBuf (x.toBuf v) = v := by
  obtain ⟨r, rfl, _, _⟩ := x
  rfl

section Shared
open Cert.ReferenceIdeal Cert.ReferenceIdeal.Facts₀ Cert.ReferenceIdeal.Facts

private abbrev rowOf (v : FVec Ideal S64 .f32) : FVec Ideal S1x64 .f32 := broadcastInDim S1x64 ![1] bcast_S64_S1x64_1 v

private def gatherRows (h : FVec Ideal S100000x64 .f32) (src : IVec S1000000 32) : FVec Ideal S1000000x64 .f32 :=
  Host.gather gather_S100000x64_S1000000x1_S1000000x64_1_0_n_n_0_1_164 h
    (broadcastInDim S1000000x1 ![0] bcast_S1000000_S1000000x1_0
      (select (cmpi .slt src (broadcastInDim S1000000 ![] bcast_S_S1000000 (constantI S_ 32 0#32)))
        (addi src (broadcastInDim S1000000 ![] bcast_S_S1000000 (constantI S_ 32 100000#32))) src))

private def sumInto (dst : IVec S1000000 32) (msg : FVec Ideal S1000000x64 .f32) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst) msg

private def meanOf (z : FVec Ideal S100000x64 .f32) : FVec Ideal S64 .f32 :=
  Host.divf (Host.reduceAdd z (constant S_ .f32 0x00000000#32) reducesTo_S100000x64_S64_d0 h_S_)
    (broadcastInDim S64 ![] bcast_S_S64 (constant S_ .f32 0x47C35000#32))

private def varOf (z : FVec Ideal S100000x64 .f32) : FVec Ideal S64 .f32 :=
  select
    (broadcastInDim S64 ![] bcast_S_S64
      (cmpf (F := Ideal) .ogt (subf (constant S_ .f32 0x47C35000#32) (sitofp .f32 (constantI S_ 32 0#32))) (constant S_ .f32 0x00000000#32)))
    (Host.divf
      (Host.reduceAdd
        (mulf
          (subf z (broadcastInDim S100000x64 ![0, 1] bcast_S1x64_S100000x64_0_1
            (Host.divf (broadcastInDim S1x64 ![1] bcast_S64_S1x64_1 (Host.reduceAdd z (constant S_ .f32 0x00000000#32) reducesTo_S100000x64_S64_d0 h_S_))
              (broadcastInDim S1x64 ![] bcast_S_S1x64 (constant S_ .f32 0x47C35000#32)))))
          (subf z (broadcastInDim S100000x64 ![0, 1] bcast_S1x64_S100000x64_0_1
            (Host.divf (broadcastInDim S1x64 ![1] bcast_S64_S1x64_1 (Host.reduceAdd z (constant S_ .f32 0x00000000#32) reducesTo_S100000x64_S64_d0 h_S_))
              (broadcastInDim S1x64 ![] bcast_S_S1x64 (constant S_ .f32 0x47C35000#32))))))
        (constant S_ .f32 0x00000000#32) reducesTo_S100000x64_S64_d0 h_S_)
      (broadcastInDim S64 ![] bcast_S_S64 (subf (constant S_ .f32 0x47C35000#32) (sitofp .f32 (constantI S_ 32 0#32)))))
    (broadcastInDim S64 ![] bcast_S_S64 (constant S_ .f32 0x7FC00000#32))

private def scaleOf (v : FVec Ideal S64 .f32) : FVec Ideal S64 .f32 :=
  Host.rsqrt (addf v (broadcastInDim S64 ![] bcast_S_S64 (constant S_ .f32 0x3727C5AC#32)))

end Shared

private theorem kernel_src (V : Valuation Cert.KernelIdeal.τ Cert.KernelIdeal.sig (Elt Ideal)) :
    (after (Cert.KernelIdeal.Gen.hostOps0 (F := Ideal)) V (Proc.devRef .tc Cert.KernelIdeal.main_v1) : IVec Cert.KernelIdeal.S1000000 32) = Cert.KernelIdeal.Take.srcOf (V (Proc.devRef .tc Cert.KernelIdeal.main_arg1)) := by
  after_results_simp <;> rfl

private theorem kernel_take (V : Valuation Cert.KernelIdeal.τ Cert.KernelIdeal.sig (Elt Ideal))
    (hsrc : ∀ j : Cert.KernelIdeal.S1000000.Idx, 0 ≤ ((V (Proc.devRef .tc Cert.KernelIdeal.main_v1) : IVec Cert.KernelIdeal.S1000000 32) j).toInt
      ∧ ((V (Proc.devRef .tc Cert.KernelIdeal.main_v1) : IVec Cert.KernelIdeal.S1000000 32) j).toInt < 100000) :
    (after (Cert.KernelIdeal.Gen.hostOps3 (F := Ideal)) V (Proc.devRef .tc Cert.KernelIdeal.main_v42) : Cert.ReferenceIdeal.S1000000x64.Idx → EReal)
      = gatherRows (V (Proc.devRef .tc Cert.KernelIdeal.main_v41)) (V (Proc.devRef .tc Cert.KernelIdeal.main_v1)) := by
  refine Eq.trans (Eq.trans ?_ (Cert.KernelIdeal.Take.take_src (V (Proc.devRef .tc Cert.KernelIdeal.main_v1)) hsrc (V (Proc.devRef .tc Cert.KernelIdeal.main_v41)))) ?_
  · after_results_simp
    simp only [ofBuf_toBuf] <;> rfl
  · rfl

private theorem kernel_sum (V : Valuation Cert.KernelIdeal.τ Cert.KernelIdeal.sig (Elt Ideal)) :
    (after (Cert.KernelIdeal.Gen.hostOps4 (F := Ideal)) V (Proc.devRef .tc Cert.KernelIdeal.main_v51) : Cert.ReferenceIdeal.S100000x64.Idx → EReal)
      = sumInto (V (Proc.devRef .tc Cert.KernelIdeal.main_v3)) (V (Proc.devRef .tc Cert.KernelIdeal.main_v48)) := by
  after_results_simp <;> rfl

private theorem kernel_mean (V : Valuation Cert.KernelIdeal.τ Cert.KernelIdeal.sig (Elt Ideal)) :
    (after (Cert.KernelIdeal.Gen.hostOps5 (F := Ideal)) V (Proc.devRef .tc Cert.KernelIdeal.main_v65) : Cert.ReferenceIdeal.S64.Idx → EReal)
      = meanOf (V (Proc.devRef .tc Cert.KernelIdeal.main_v62)) := by
  after_results_simp <;> rfl

private theorem kernel_zero (V : Valuation Cert.KernelIdeal.τ Cert.KernelIdeal.sig (Elt Ideal)) :
    (after (Cert.KernelIdeal.Gen.hostOps5 (F := Ideal)) V (Proc.devRef .tc Cert.KernelIdeal.main_c_6) : Cert.ReferenceIdeal.S_.Idx → BitVec 32) = constantI Cert.ReferenceIdeal.S_ 32 0#32 := by
  after_results_simp <;> rfl

private theorem kernel_var (V : Valuation Cert.KernelIdeal.τ Cert.KernelIdeal.sig (Elt Ideal))
    (hc : (V (Proc.devRef .tc Cert.KernelIdeal.main_c_6) : Cert.ReferenceIdeal.S_.Idx → BitVec 32) = constantI Cert.ReferenceIdeal.S_ 32 0#32) :
    (after (Cert.KernelIdeal.Gen.hostOps5_1 (F := Ideal)) V (Proc.devRef .tc Cert.KernelIdeal.main_v66) : Cert.ReferenceIdeal.S64.Idx → EReal)
      = varOf (V (Proc.devRef .tc Cert.KernelIdeal.main_v62)) := by
  after_results_simp
  simp only [ofBuf_toBuf]
  rw [hc] <;> rfl

private theorem kernel_mean_row (V : Valuation Cert.KernelIdeal.τ Cert.KernelIdeal.sig (Elt Ideal)) :
    (after (Cert.KernelIdeal.Gen.hostOps5_2 (F := Ideal)) V (Proc.devRef .tc Cert.KernelIdeal.main_v71) : Cert.ReferenceIdeal.S1x64.Idx → EReal)
      = rowOf (V (Proc.devRef .tc Cert.KernelIdeal.main_v65)) := by
  refine Eq.trans ?_ (Cert.Rows.row_eq (V (Proc.devRef .tc Cert.KernelIdeal.main_v65)) (by decide) _)
  after_results_simp <;> rfl

private theorem kernel_scale_row (V : Valuation Cert.KernelIdeal.τ Cert.KernelIdeal.sig (Elt Ideal)) :
    (after (Cert.KernelIdeal.Gen.hostOps5_2 (F := Ideal)) V (Proc.devRef .tc Cert.KernelIdeal.main_v75) : Cert.ReferenceIdeal.S1x64.Idx → EReal)
      = rowOf (scaleOf (V (Proc.devRef .tc Cert.KernelIdeal.main_v66))) := by
  refine Eq.trans ?_ (Cert.Rows.row_eq (scaleOf (V (Proc.devRef .tc Cert.KernelIdeal.main_v66))) (by decide) _)
  after_results_simp <;> rfl

private theorem ref_take (V' : Valuation Cert.ReferenceIdeal.τ Cert.ReferenceIdeal.sig (Elt Ideal)) :
    (after (Cert.ReferenceIdeal.Ops.chunkL1 (F := Ideal)) V' (Proc.devRef .tc Cert.ReferenceIdeal.main_v87) : Cert.ReferenceIdeal.S1000000x64.Idx → EReal)
      = gatherRows (V' (Proc.devRef .tc Cert.ReferenceIdeal.main_v72)) (V' (Proc.devRef .tc Cert.ReferenceIdeal.main_v1)) := by
  after_results_simp <;> rfl

private theorem ref_messages (V' : Valuation Cert.ReferenceIdeal.τ Cert.ReferenceIdeal.sig (Elt Ideal)) :
    (after (Cert.ReferenceIdeal.Ops.chunkL1 (F := Ideal)) V' (Proc.devRef .tc Cert.ReferenceIdeal.main_v89) : Cert.ReferenceIdeal.S1000000x64.Idx → EReal)
      = Cert.Spec.edgeG (after (Cert.ReferenceIdeal.Ops.chunkL1 (F := Ideal)) V' (Proc.devRef .tc Cert.ReferenceIdeal.main_v87)) (V' (Proc.devRef .tc Cert.ReferenceIdeal.main_arg2))
          (after (Cert.ReferenceIdeal.Ops.chunkL1 (F := Ideal)) V' (Proc.devRef .tc Cert.ReferenceIdeal.main_v74)) (rowOf (after (Cert.ReferenceIdeal.Ops.chunkL1 (F := Ideal)) V' (Proc.devRef .tc Cert.ReferenceIdeal.main_v77))) := by
  after_results_simp
  simp only [ofBuf_toBuf]
  exact Cert.ReferenceIdeal.Kinds.ref_edge _ _ _ _

private theorem ref_sums (V' : Valuation Cert.ReferenceIdeal.τ Cert.ReferenceIdeal.sig (Elt Ideal)) :
    (after (Cert.ReferenceIdeal.Ops.chunkL1 (F := Ideal)) V' (Proc.devRef .tc Cert.ReferenceIdeal.main_v92) : Cert.ReferenceIdeal.S100000x64.Idx → EReal)
      = sumInto (V' (Proc.devRef .tc Cert.ReferenceIdeal.main_v3)) (after (Cert.ReferenceIdeal.Ops.chunkL1 (F := Ideal)) V' (Proc.devRef .tc Cert.ReferenceIdeal.main_v89)) := by
  after_results_simp
  simp only [ofBuf_toBuf] <;> rfl

private theorem ref_perceptron (V' : Valuation Cert.ReferenceIdeal.τ Cert.ReferenceIdeal.sig (Elt Ideal)) :
    (after (Cert.ReferenceIdeal.Ops.chunkL1 (F := Ideal)) V' (Proc.devRef .tc Cert.ReferenceIdeal.main_v110) : Cert.ReferenceIdeal.S100000x64.Idx → EReal)
      = Cert.Spec.mlpG (V' (Proc.devRef .tc Cert.ReferenceIdeal.main_v72)) (after (Cert.ReferenceIdeal.Ops.chunkL1 (F := Ideal)) V' (Proc.devRef .tc Cert.ReferenceIdeal.main_v92))
          (after (Cert.ReferenceIdeal.Ops.chunkL1 (F := Ideal)) V' (Proc.devRef .tc Cert.ReferenceIdeal.main_v95)) (rowOf (after (Cert.ReferenceIdeal.Ops.chunkL1 (F := Ideal)) V' (Proc.devRef .tc Cert.ReferenceIdeal.main_v98)))
          (after (Cert.ReferenceIdeal.Ops.chunkL1 (F := Ideal)) V' (Proc.devRef .tc Cert.ReferenceIdeal.main_v104)) (rowOf (after (Cert.ReferenceIdeal.Ops.chunkL1 (F := Ideal)) V' (Proc.devRef .tc Cert.ReferenceIdeal.main_v107))) := by
  after_results_simp
  simp only [ofBuf_toBuf]
  exact Cert.ReferenceIdeal.Kinds.ref_mlp _ _ _ _ _ _

private theorem ref_mean (V' : Valuation Cert.ReferenceIdeal.τ Cert.ReferenceIdeal.sig (Elt Ideal)) :
    (after (Cert.ReferenceIdeal.Ops.chunkL1 (F := Ideal)) V' (Proc.devRef .tc Cert.ReferenceIdeal.main_v113) : Cert.ReferenceIdeal.S64.Idx → EReal)
      = meanOf (after (Cert.ReferenceIdeal.Ops.chunkL1 (F := Ideal)) V' (Proc.devRef .tc Cert.ReferenceIdeal.main_v110)) := by
  after_results_simp
  simp only [ofBuf_toBuf] <;> rfl

private theorem ref_var (V' : Valuation Cert.ReferenceIdeal.τ Cert.ReferenceIdeal.sig (Elt Ideal)) :
    (after (Cert.ReferenceIdeal.Ops.chunkL1 (F := Ideal)) V' (Proc.devRef .tc Cert.ReferenceIdeal.main_v114) : Cert.ReferenceIdeal.S64.Idx → EReal)
      = varOf (after (Cert.ReferenceIdeal.Ops.chunkL1 (F := Ideal)) V' (Proc.devRef .tc Cert.ReferenceIdeal.main_v110)) := by
  after_results_simp
  simp only [ofBuf_toBuf] <;> rfl

private theorem ref_scale (V' : Valuation Cert.ReferenceIdeal.τ Cert.ReferenceIdeal.sig (Elt Ideal)) :
    (after (Cert.ReferenceIdeal.Ops.chunkL1 (F := Ideal)) V' (Proc.devRef .tc Cert.ReferenceIdeal.main_v120) : Cert.ReferenceIdeal.S64.Idx → EReal)
      = scaleOf (after (Cert.ReferenceIdeal.Ops.chunkL1 (F := Ideal)) V' (Proc.devRef .tc Cert.ReferenceIdeal.main_v114)) := by
  after_results_simp
  simp only [ofBuf_toBuf] <;> rfl

private theorem ref_normalised (V' : Valuation Cert.ReferenceIdeal.τ Cert.ReferenceIdeal.sig (Elt Ideal)) :
    (after (Cert.ReferenceIdeal.Ops.chunkL1 (F := Ideal)) V' (Proc.devRef .tc Cert.ReferenceIdeal.main_v134) : Cert.ReferenceIdeal.S100000x64.Idx → EReal)
      = Cert.Spec.bnReluG (after (Cert.ReferenceIdeal.Ops.chunkL1 (F := Ideal)) V' (Proc.devRef .tc Cert.ReferenceIdeal.main_v110))
          (rowOf (after (Cert.ReferenceIdeal.Ops.chunkL1 (F := Ideal)) V' (Proc.devRef .tc Cert.ReferenceIdeal.main_v113))) (rowOf (after (Cert.ReferenceIdeal.Ops.chunkL1 (F := Ideal)) V' (Proc.devRef .tc Cert.ReferenceIdeal.main_v120)))
          (rowOf (after (Cert.ReferenceIdeal.Ops.chunkL1 (F := Ideal)) V' (Proc.devRef .tc Cert.ReferenceIdeal.main_v125))) (rowOf (after (Cert.ReferenceIdeal.Ops.chunkL1 (F := Ideal)) V' (Proc.devRef .tc Cert.ReferenceIdeal.main_v130))) := by
  after_results_simp
  simp only [ofBuf_toBuf]
  exact Cert.ReferenceIdeal.Kinds.ref_bn_relu _ _ _ _ _

private theorem src_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg1) : Cert.ReferenceIdeal.S2x1000000.Idx → BitVec 32) = V' (Proc.devRef .tc Cert.ReferenceIdeal.main_arg1)) :
    (after (Cert.KernelIdeal.Gen.hostOps0 (F := Ideal)) V (Proc.devRef .tc Cert.KernelIdeal.main_v1) : Cert.ReferenceIdeal.S1000000.Idx → BitVec 32) = after (Cert.ReferenceIdeal.Ops.chunkH (F := Ideal)) V' (Proc.devRef .tc Cert.ReferenceIdeal.main_v1) := by
  after_results_simp
  rw [ha] <;> rfl

private theorem dst_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg1) : Cert.ReferenceIdeal.S2x1000000.Idx → BitVec 32) = V' (Proc.devRef .tc Cert.ReferenceIdeal.main_arg1)) :
    (after (Cert.KernelIdeal.Gen.hostOps0 (F := Ideal)) V (Proc.devRef .tc Cert.KernelIdeal.main_v3) : Cert.ReferenceIdeal.S1000000.Idx → BitVec 32) = after (Cert.ReferenceIdeal.Ops.chunkH (F := Ideal)) V' (Proc.devRef .tc Cert.ReferenceIdeal.main_v3) := by
  after_results_simp
  rw [ha] <;> rfl

private theorem edge_weights_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg5) : Cert.ReferenceIdeal.S5x7x64.Idx → EReal) = V' (Proc.devRef .tc Cert.ReferenceIdeal.main_arg5)) :
    (after (Cert.KernelIdeal.Gen.hostOps3_1 (F := Ideal)) V (Proc.devRef .tc Cert.KernelIdeal.main_v44) : Cert.ReferenceIdeal.S7x64.Idx → EReal) = after (Cert.ReferenceIdeal.Ops.chunkL1 (F := Ideal)) V' (Proc.devRef .tc Cert.ReferenceIdeal.main_v74) := by
  after_results_simp
  rw [ha] <;> rfl

private theorem edge_bias_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg6) : Cert.ReferenceIdeal.S5x64.Idx → EReal) = V' (Proc.devRef .tc Cert.ReferenceIdeal.main_arg6)) :
    (after (Cert.KernelIdeal.Gen.hostOps3_1 (F := Ideal)) V (Proc.devRef .tc Cert.KernelIdeal.main_v47) : Cert.ReferenceIdeal.S1x64.Idx → EReal) = rowOf (after (Cert.ReferenceIdeal.Ops.chunkL1 (F := Ideal)) V' (Proc.devRef .tc Cert.ReferenceIdeal.main_v77)) := by
  refine Eq.trans ?_ (Cert.Rows.row_eq (after (Cert.ReferenceIdeal.Ops.chunkL1 (F := Ideal)) V' (Proc.devRef .tc Cert.ReferenceIdeal.main_v77)) (by decide) _)
  after_results_simp
  rw [ha] <;> rfl

private theorem w1_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg7) : Cert.ReferenceIdeal.S5x64x64.Idx → EReal) = V' (Proc.devRef .tc Cert.ReferenceIdeal.main_arg7)) :
    (after (Cert.KernelIdeal.Gen.hostOps4 (F := Ideal)) V (Proc.devRef .tc Cert.KernelIdeal.main_v53) : Cert.ReferenceIdeal.S64x64.Idx → EReal) = after (Cert.ReferenceIdeal.Ops.chunkL1 (F := Ideal)) V' (Proc.devRef .tc Cert.ReferenceIdeal.main_v95) := by
  after_results_simp
  rw [ha] <;> rfl

private theorem b1_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg8) : Cert.ReferenceIdeal.S5x64.Idx → EReal) = V' (Proc.devRef .tc Cert.ReferenceIdeal.main_arg8)) :
    (after (Cert.KernelIdeal.Gen.hostOps4 (F := Ideal)) V (Proc.devRef .tc Cert.KernelIdeal.main_v60) : Cert.ReferenceIdeal.S1x64.Idx → EReal) = rowOf (after (Cert.ReferenceIdeal.Ops.chunkL1 (F := Ideal)) V' (Proc.devRef .tc Cert.ReferenceIdeal.main_v98)) := by
  refine Eq.trans ?_ (Cert.Rows.row_eq (after (Cert.ReferenceIdeal.Ops.chunkL1 (F := Ideal)) V' (Proc.devRef .tc Cert.ReferenceIdeal.main_v98)) (by decide) _)
  after_results_simp
  rw [ha] <;> rfl

private theorem w2_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg9) : Cert.ReferenceIdeal.S5x64x64.Idx → EReal) = V' (Proc.devRef .tc Cert.ReferenceIdeal.main_arg9)) :
    (after (Cert.KernelIdeal.Gen.hostOps4 (F := Ideal)) V (Proc.devRef .tc Cert.KernelIdeal.main_v57) : Cert.ReferenceIdeal.S64x64.Idx → EReal) = after (Cert.ReferenceIdeal.Ops.chunkL1 (F := Ideal)) V' (Proc.devRef .tc Cert.ReferenceIdeal.main_v104) := by
  after_results_simp
  rw [ha] <;> rfl

private theorem b2_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg10) : Cert.ReferenceIdeal.S5x64.Idx → EReal) = V' (Proc.devRef .tc Cert.ReferenceIdeal.main_arg10)) :
    (after (Cert.KernelIdeal.Gen.hostOps4 (F := Ideal)) V (Proc.devRef .tc Cert.KernelIdeal.main_v61) : Cert.ReferenceIdeal.S1x64.Idx → EReal) = rowOf (after (Cert.ReferenceIdeal.Ops.chunkL1 (F := Ideal)) V' (Proc.devRef .tc Cert.ReferenceIdeal.main_v107)) := by
  refine Eq.trans ?_ (Cert.Rows.row_eq (after (Cert.ReferenceIdeal.Ops.chunkL1 (F := Ideal)) V' (Proc.devRef .tc Cert.ReferenceIdeal.main_v107)) (by decide) _)
  after_results_simp
  rw [ha] <;> rfl

private theorem gain_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg11) : Cert.ReferenceIdeal.S5x64.Idx → EReal) = V' (Proc.devRef .tc Cert.ReferenceIdeal.main_arg11)) :
    (after (Cert.KernelIdeal.Gen.hostOps5_2 (F := Ideal)) V (Proc.devRef .tc Cert.KernelIdeal.main_v76) : Cert.ReferenceIdeal.S1x64.Idx → EReal) = rowOf (after (Cert.ReferenceIdeal.Ops.chunkL1 (F := Ideal)) V' (Proc.devRef .tc Cert.ReferenceIdeal.main_v125)) := by
  refine Eq.trans ?_ (Cert.Rows.row_eq (after (Cert.ReferenceIdeal.Ops.chunkL1 (F := Ideal)) V' (Proc.devRef .tc Cert.ReferenceIdeal.main_v125)) (by decide) _)
  after_results_simp
  rw [ha] <;> rfl

private theorem offset_two (V : Valuation Cert.KernelIdeal.τ Cert.KernelIdeal.sig (Elt Ideal)) (V' : Valuation Cert.ReferenceIdeal.τ Cert.ReferenceIdeal.sig (Elt Ideal))
    (ha : (V (Proc.devRef .tc Cert.KernelIdeal.main_arg12) : Cert.ReferenceIdeal.S5x64.Idx → EReal) = V' (Proc.devRef .tc Cert.ReferenceIdeal.main_arg12)) :
    (after (Cert.KernelIdeal.Gen.hostOps5_2 (F := Ideal)) V (Proc.devRef .tc Cert.KernelIdeal.main_v77) : Cert.ReferenceIdeal.S1x64.Idx → EReal) = rowOf (after (Cert.ReferenceIdeal.Ops.chunkL1 (F := Ideal)) V' (Proc.devRef .tc Cert.ReferenceIdeal.main_v130)) := by
  refine Eq.trans ?_ (Cert.Rows.row_eq (after (Cert.ReferenceIdeal.Ops.chunkL1 (F := Ideal)) V' (Proc.devRef .tc Cert.ReferenceIdeal.main_v130)) (by decide) _)
  after_results_simp
  rw [ha] <;> rfl

variable (m' : (ℓ : Loc Cert.ReferenceIdeal.nD Cert.ReferenceIdeal.τ Cert.ReferenceIdeal.sig) → Buf (Elt Ideal) ℓ)
  (m : (ℓ : Loc Cert.KernelIdeal.nD Cert.KernelIdeal.τ Cert.KernelIdeal.sig) → Buf (Elt Ideal) ℓ)
  (ρ : Dev Cert.KernelIdeal.nD → PrngReg)

private theorem UL0_arg (c : Dev Cert.KernelIdeal.nD) (b : Ref Cert.ReferenceIdeal.sig .tc) (hb : b.idx.val < 15) :
    UL0 m' c (Proc.devRef .tc b) = m' ((c.tc : Thread Cert.ReferenceIdeal.nD Cert.ReferenceIdeal.τ).loc b) :=
  (Cert.ReferenceIdeal.Keep.keep_chunkL0 _ b (by omega)).trans (Cert.ReferenceIdeal.Keep.keep_chunkH _ b hb)

private theorem edge_attr_eq (c : Dev Cert.KernelIdeal.nD) (e2 : (m' ((c.tc : Thread Cert.ReferenceIdeal.nD Cert.ReferenceIdeal.τ).loc Cert.ReferenceIdeal.main_arg2) : Cert.ReferenceIdeal.S1000000x7.Idx → EReal) = m ((c.tc : Thread Cert.KernelIdeal.nD Cert.KernelIdeal.τ).loc Cert.KernelIdeal.main_arg2)) :
    (Cert.KernelIdeal.Gen.W13 m ρ c (Proc.devRef .tc Cert.KernelIdeal.main_arg2) : Cert.ReferenceIdeal.S1000000x7.Idx → EReal) = UL0 m' c (Proc.devRef .tc Cert.ReferenceIdeal.main_arg2) :=
  ((((Cert.KernelIdeal.Keep.W13_kept m ρ c Cert.KernelIdeal.main_arg2 (by decide)).trans (Cert.KernelIdeal.Keep.W1_arg m ρ c Cert.KernelIdeal.main_arg2 (by decide)))).trans (e2.symm.trans (UL0_arg m' c Cert.ReferenceIdeal.main_arg2 (by decide)).symm))

private theorem src_value (c : Dev Cert.KernelIdeal.nD) :
    (Cert.KernelIdeal.Gen.W11 m ρ c (Proc.devRef .tc Cert.KernelIdeal.main_v1) : IVec Cert.KernelIdeal.S1000000 32)
      = Cert.KernelIdeal.Take.srcOf (m ((c.tc : Thread Cert.KernelIdeal.nD Cert.KernelIdeal.τ).loc Cert.KernelIdeal.main_arg1)) :=
  ((Cert.KernelIdeal.Keep.W11_kept m ρ c Cert.KernelIdeal.main_v1 (by decide))).trans (kernel_src (Cert.KernelIdeal.Gen.W0 m ρ c))

private theorem src_in_range (hs : SrcInRange m) (c : Dev Cert.KernelIdeal.nD) :
    ∀ j : Cert.KernelIdeal.S1000000.Idx, 0 ≤ ((Cert.KernelIdeal.Gen.W11 m ρ c (Proc.devRef .tc Cert.KernelIdeal.main_v1) : IVec Cert.KernelIdeal.S1000000 32) j).toInt
      ∧ ((Cert.KernelIdeal.Gen.W11 m ρ c (Proc.devRef .tc Cert.KernelIdeal.main_v1) : IVec Cert.KernelIdeal.S1000000 32) j).toInt < 100000 := by
  rw [src_value m ρ c]
  exact Cert.KernelIdeal.Take.srcOf_range _ (hs c)

private theorem src_eq (c : Dev Cert.KernelIdeal.nD) (e1 : (m' ((c.tc : Thread Cert.ReferenceIdeal.nD Cert.ReferenceIdeal.τ).loc Cert.ReferenceIdeal.main_arg1) : Cert.ReferenceIdeal.S2x1000000.Idx → BitVec 32) = m ((c.tc : Thread Cert.KernelIdeal.nD Cert.KernelIdeal.τ).loc Cert.KernelIdeal.main_arg1)) :
    (Cert.KernelIdeal.Gen.W11 m ρ c (Proc.devRef .tc Cert.KernelIdeal.main_v1) : Cert.ReferenceIdeal.S1000000.Idx → BitVec 32) = UL0 m' c (Proc.devRef .tc Cert.ReferenceIdeal.main_v1) :=
  ((Cert.KernelIdeal.Keep.W11_kept m ρ c Cert.KernelIdeal.main_v1 (by decide))).trans
    ((src_two (Cert.KernelIdeal.Gen.W0 m ρ c) (U0 m' c) e1.symm).trans
      (Cert.ReferenceIdeal.Keep.keep_chunkL0 _ Cert.ReferenceIdeal.main_v1 (by decide)).symm)

private theorem dst_eq (c : Dev Cert.KernelIdeal.nD) (e1 : (m' ((c.tc : Thread Cert.ReferenceIdeal.nD Cert.ReferenceIdeal.τ).loc Cert.ReferenceIdeal.main_arg1) : Cert.ReferenceIdeal.S2x1000000.Idx → BitVec 32) = m ((c.tc : Thread Cert.KernelIdeal.nD Cert.KernelIdeal.τ).loc Cert.KernelIdeal.main_arg1)) :
    (Cert.KernelIdeal.Gen.W14 m ρ c (Proc.devRef .tc Cert.KernelIdeal.main_v3) : Cert.ReferenceIdeal.S1000000.Idx → BitVec 32) = UL0 m' c (Proc.devRef .tc Cert.ReferenceIdeal.main_v3) :=
  ((Cert.KernelIdeal.Keep.W14_kept m ρ c Cert.KernelIdeal.main_v3 (by decide))).trans
    ((dst_two (Cert.KernelIdeal.Gen.W0 m ρ c) (U0 m' c) e1.symm).trans
      (Cert.ReferenceIdeal.Keep.keep_chunkL0 _ Cert.ReferenceIdeal.main_v3 (by decide)).symm)

private theorem edge_weights_eq (c : Dev Cert.KernelIdeal.nD) (e5 : (m' ((c.tc : Thread Cert.ReferenceIdeal.nD Cert.ReferenceIdeal.τ).loc Cert.ReferenceIdeal.main_arg5) : Cert.ReferenceIdeal.S5x7x64.Idx → EReal) = m ((c.tc : Thread Cert.KernelIdeal.nD Cert.KernelIdeal.τ).loc Cert.KernelIdeal.main_arg5)) :
    (Cert.KernelIdeal.Gen.W13 m ρ c (Proc.devRef .tc Cert.KernelIdeal.main_v44) : Cert.ReferenceIdeal.S7x64.Idx → EReal) = UL1 m' c (Proc.devRef .tc Cert.ReferenceIdeal.main_v74) :=
  edge_weights_two (Cert.KernelIdeal.Gen.W12 m ρ c) (UL0 m' c) ((((Cert.KernelIdeal.Keep.W12_kept m ρ c Cert.KernelIdeal.main_arg5 (by decide)).trans (Cert.KernelIdeal.Keep.W1_arg m ρ c Cert.KernelIdeal.main_arg5 (by decide)))).trans (e5.symm.trans (UL0_arg m' c Cert.ReferenceIdeal.main_arg5 (by decide)).symm))

private theorem edge_bias_eq (c : Dev Cert.KernelIdeal.nD) (e6 : (m' ((c.tc : Thread Cert.ReferenceIdeal.nD Cert.ReferenceIdeal.τ).loc Cert.ReferenceIdeal.main_arg6) : Cert.ReferenceIdeal.S5x64.Idx → EReal) = m ((c.tc : Thread Cert.KernelIdeal.nD Cert.KernelIdeal.τ).loc Cert.KernelIdeal.main_arg6)) :
    (Cert.KernelIdeal.Gen.W13 m ρ c (Proc.devRef .tc Cert.KernelIdeal.main_v47) : Cert.ReferenceIdeal.S1x64.Idx → EReal) = rowOf (UL1 m' c (Proc.devRef .tc Cert.ReferenceIdeal.main_v77)) :=
  edge_bias_two (Cert.KernelIdeal.Gen.W12 m ρ c) (UL0 m' c) ((((Cert.KernelIdeal.Keep.W12_kept m ρ c Cert.KernelIdeal.main_arg6 (by decide)).trans (Cert.KernelIdeal.Keep.W1_arg m ρ c Cert.KernelIdeal.main_arg6 (by decide)))).trans (e6.symm.trans (UL0_arg m' c Cert.ReferenceIdeal.main_arg6 (by decide)).symm))

private theorem w1_eq (c : Dev Cert.KernelIdeal.nD) (e7 : (m' ((c.tc : Thread Cert.ReferenceIdeal.nD Cert.ReferenceIdeal.τ).loc Cert.ReferenceIdeal.main_arg7) : Cert.ReferenceIdeal.S5x64x64.Idx → EReal) = m ((c.tc : Thread Cert.KernelIdeal.nD Cert.KernelIdeal.τ).loc Cert.KernelIdeal.main_arg7)) :
    (Cert.KernelIdeal.Gen.W15 m ρ c (Proc.devRef .tc Cert.KernelIdeal.main_v53) : Cert.ReferenceIdeal.S64x64.Idx → EReal) = UL1 m' c (Proc.devRef .tc Cert.ReferenceIdeal.main_v95) :=
  w1_two (Cert.KernelIdeal.Gen.W14 m ρ c) (UL0 m' c) ((((Cert.KernelIdeal.Keep.W14_kept m ρ c Cert.KernelIdeal.main_arg7 (by decide)).trans (Cert.KernelIdeal.Keep.W1_arg m ρ c Cert.KernelIdeal.main_arg7 (by decide)))).trans (e7.symm.trans (UL0_arg m' c Cert.ReferenceIdeal.main_arg7 (by decide)).symm))

private theorem b1_eq (c : Dev Cert.KernelIdeal.nD) (e8 : (m' ((c.tc : Thread Cert.ReferenceIdeal.nD Cert.ReferenceIdeal.τ).loc Cert.ReferenceIdeal.main_arg8) : Cert.ReferenceIdeal.S5x64.Idx → EReal) = m ((c.tc : Thread Cert.KernelIdeal.nD Cert.KernelIdeal.τ).loc Cert.KernelIdeal.main_arg8)) :
    (Cert.KernelIdeal.Gen.W15 m ρ c (Proc.devRef .tc Cert.KernelIdeal.main_v60) : Cert.ReferenceIdeal.S1x64.Idx → EReal) = rowOf (UL1 m' c (Proc.devRef .tc Cert.ReferenceIdeal.main_v98)) :=
  b1_two (Cert.KernelIdeal.Gen.W14 m ρ c) (UL0 m' c) ((((Cert.KernelIdeal.Keep.W14_kept m ρ c Cert.KernelIdeal.main_arg8 (by decide)).trans (Cert.KernelIdeal.Keep.W1_arg m ρ c Cert.KernelIdeal.main_arg8 (by decide)))).trans (e8.symm.trans (UL0_arg m' c Cert.ReferenceIdeal.main_arg8 (by decide)).symm))

private theorem w2_eq (c : Dev Cert.KernelIdeal.nD) (e9 : (m' ((c.tc : Thread Cert.ReferenceIdeal.nD Cert.ReferenceIdeal.τ).loc Cert.ReferenceIdeal.main_arg9) : Cert.ReferenceIdeal.S5x64x64.Idx → EReal) = m ((c.tc : Thread Cert.KernelIdeal.nD Cert.KernelIdeal.τ).loc Cert.KernelIdeal.main_arg9)) :
    (Cert.KernelIdeal.Gen.W15 m ρ c (Proc.devRef .tc Cert.KernelIdeal.main_v57) : Cert.ReferenceIdeal.S64x64.Idx → EReal) = UL1 m' c (Proc.devRef .tc Cert.ReferenceIdeal.main_v104) :=
  w2_two (Cert.KernelIdeal.Gen.W14 m ρ c) (UL0 m' c) ((((Cert.KernelIdeal.Keep.W14_kept m ρ c Cert.KernelIdeal.main_arg9 (by decide)).trans (Cert.KernelIdeal.Keep.W1_arg m ρ c Cert.KernelIdeal.main_arg9 (by decide)))).trans (e9.symm.trans (UL0_arg m' c Cert.ReferenceIdeal.main_arg9 (by decide)).symm))

private theorem b2_eq (c : Dev Cert.KernelIdeal.nD) (e10 : (m' ((c.tc : Thread Cert.ReferenceIdeal.nD Cert.ReferenceIdeal.τ).loc Cert.ReferenceIdeal.main_arg10) : Cert.ReferenceIdeal.S5x64.Idx → EReal) = m ((c.tc : Thread Cert.KernelIdeal.nD Cert.KernelIdeal.τ).loc Cert.KernelIdeal.main_arg10)) :
    (Cert.KernelIdeal.Gen.W15 m ρ c (Proc.devRef .tc Cert.KernelIdeal.main_v61) : Cert.ReferenceIdeal.S1x64.Idx → EReal) = rowOf (UL1 m' c (Proc.devRef .tc Cert.ReferenceIdeal.main_v107)) :=
  b2_two (Cert.KernelIdeal.Gen.W14 m ρ c) (UL0 m' c) ((((Cert.KernelIdeal.Keep.W14_kept m ρ c Cert.KernelIdeal.main_arg10 (by decide)).trans (Cert.KernelIdeal.Keep.W1_arg m ρ c Cert.KernelIdeal.main_arg10 (by decide)))).trans (e10.symm.trans (UL0_arg m' c Cert.ReferenceIdeal.main_arg10 (by decide)).symm))

private theorem gain_eq (c : Dev Cert.KernelIdeal.nD) (e11 : (m' ((c.tc : Thread Cert.ReferenceIdeal.nD Cert.ReferenceIdeal.τ).loc Cert.ReferenceIdeal.main_arg11) : Cert.ReferenceIdeal.S5x64.Idx → EReal) = m ((c.tc : Thread Cert.KernelIdeal.nD Cert.KernelIdeal.τ).loc Cert.KernelIdeal.main_arg11)) :
    (Cert.KernelIdeal.Gen.W19 m ρ c (Proc.devRef .tc Cert.KernelIdeal.main_v76) : Cert.ReferenceIdeal.S1x64.Idx → EReal) = rowOf (UL1 m' c (Proc.devRef .tc Cert.ReferenceIdeal.main_v125)) :=
  gain_two (Cert.KernelIdeal.Gen.W18 m ρ c) (UL0 m' c) ((((Cert.KernelIdeal.Keep.W18_kept m ρ c Cert.KernelIdeal.main_arg11 (by decide)).trans (Cert.KernelIdeal.Keep.W1_arg m ρ c Cert.KernelIdeal.main_arg11 (by decide)))).trans (e11.symm.trans (UL0_arg m' c Cert.ReferenceIdeal.main_arg11 (by decide)).symm))

private theorem offset_eq (c : Dev Cert.KernelIdeal.nD) (e12 : (m' ((c.tc : Thread Cert.ReferenceIdeal.nD Cert.ReferenceIdeal.τ).loc Cert.ReferenceIdeal.main_arg12) : Cert.ReferenceIdeal.S5x64.Idx → EReal) = m ((c.tc : Thread Cert.KernelIdeal.nD Cert.KernelIdeal.τ).loc Cert.KernelIdeal.main_arg12)) :
    (Cert.KernelIdeal.Gen.W19 m ρ c (Proc.devRef .tc Cert.KernelIdeal.main_v77) : Cert.ReferenceIdeal.S1x64.Idx → EReal) = rowOf (UL1 m' c (Proc.devRef .tc Cert.ReferenceIdeal.main_v130)) :=
  offset_two (Cert.KernelIdeal.Gen.W18 m ρ c) (UL0 m' c) ((((Cert.KernelIdeal.Keep.W18_kept m ρ c Cert.KernelIdeal.main_arg12 (by decide)).trans (Cert.KernelIdeal.Keep.W1_arg m ρ c Cert.KernelIdeal.main_arg12 (by decide)))).trans (e12.symm.trans (UL0_arg m' c Cert.ReferenceIdeal.main_arg12 (by decide)).symm))

private theorem gathered (hs : SrcInRange m) (c : Dev Cert.KernelIdeal.nD) (e1 : (m' ((c.tc : Thread Cert.ReferenceIdeal.nD Cert.ReferenceIdeal.τ).loc Cert.ReferenceIdeal.main_arg1) : Cert.ReferenceIdeal.S2x1000000.Idx → BitVec 32) = m ((c.tc : Thread Cert.KernelIdeal.nD Cert.KernelIdeal.τ).loc Cert.KernelIdeal.main_arg1))
    (h : (Cert.KernelIdeal.Gen.W11 m ρ c (Proc.devRef .tc Cert.KernelIdeal.main_v41) : Cert.ReferenceIdeal.S100000x64.Idx → EReal) = UL0 m' c (Proc.devRef .tc Cert.ReferenceIdeal.main_v72)) :
    (Cert.KernelIdeal.Gen.W13 m ρ c (Proc.devRef .tc Cert.KernelIdeal.main_v42) : Cert.ReferenceIdeal.S1000000x64.Idx → EReal) = UL1 m' c (Proc.devRef .tc Cert.ReferenceIdeal.main_v87) := by
  calc (Cert.KernelIdeal.Gen.W13 m ρ c (Proc.devRef .tc Cert.KernelIdeal.main_v42) : Cert.ReferenceIdeal.S1000000x64.Idx → EReal)
      = Cert.KernelIdeal.Gen.W12 m ρ c (Proc.devRef .tc Cert.KernelIdeal.main_v42) := Cert.KernelIdeal.Keep.keep_hostOps3_1 _ Cert.KernelIdeal.main_v42 (by decide)
    _ = gatherRows (Cert.KernelIdeal.Gen.W11 m ρ c (Proc.devRef .tc Cert.KernelIdeal.main_v41)) (Cert.KernelIdeal.Gen.W11 m ρ c (Proc.devRef .tc Cert.KernelIdeal.main_v1)) :=
        kernel_take (Cert.KernelIdeal.Gen.W11 m ρ c) (src_in_range m ρ hs c)
    _ = gatherRows (UL0 m' c (Proc.devRef .tc Cert.ReferenceIdeal.main_v72)) (UL0 m' c (Proc.devRef .tc Cert.ReferenceIdeal.main_v1)) := by
        rw [h, src_eq m' m ρ c e1]
    _ = UL1 m' c (Proc.devRef .tc Cert.ReferenceIdeal.main_v87) := (ref_take (UL0 m' c)).symm

private theorem messages (c : Dev Cert.KernelIdeal.nD) (e2 : (m' ((c.tc : Thread Cert.ReferenceIdeal.nD Cert.ReferenceIdeal.τ).loc Cert.ReferenceIdeal.main_arg2) : Cert.ReferenceIdeal.S1000000x7.Idx → EReal) = m ((c.tc : Thread Cert.KernelIdeal.nD Cert.KernelIdeal.τ).loc Cert.KernelIdeal.main_arg2))
    (e5 : (m' ((c.tc : Thread Cert.ReferenceIdeal.nD Cert.ReferenceIdeal.τ).loc Cert.ReferenceIdeal.main_arg5) : Cert.ReferenceIdeal.S5x7x64.Idx → EReal) = m ((c.tc : Thread Cert.KernelIdeal.nD Cert.KernelIdeal.τ).loc Cert.KernelIdeal.main_arg5))
    (e6 : (m' ((c.tc : Thread Cert.ReferenceIdeal.nD Cert.ReferenceIdeal.τ).loc Cert.ReferenceIdeal.main_arg6) : Cert.ReferenceIdeal.S5x64.Idx → EReal) = m ((c.tc : Thread Cert.KernelIdeal.nD Cert.KernelIdeal.τ).loc Cert.KernelIdeal.main_arg6))
    (hg : (Cert.KernelIdeal.Gen.W13 m ρ c (Proc.devRef .tc Cert.KernelIdeal.main_v42) : Cert.ReferenceIdeal.S1000000x64.Idx → EReal) = UL1 m' c (Proc.devRef .tc Cert.ReferenceIdeal.main_v87)) :
    (Cert.KernelIdeal.Gen.W14 m ρ c (Proc.devRef .tc Cert.KernelIdeal.main_v48) : Cert.ReferenceIdeal.S1000000x64.Idx → EReal) = UL1 m' c (Proc.devRef .tc Cert.ReferenceIdeal.main_v89) := by
  calc (Cert.KernelIdeal.Gen.W14 m ρ c (Proc.devRef .tc Cert.KernelIdeal.main_v48) : Cert.ReferenceIdeal.S1000000x64.Idx → EReal)
      = (Cert.KernelIdeal.Gen.dat3 (F := Ideal) (Cert.KernelIdeal.Gen.V13 m ρ) c).arrAt 4 Cert.KernelIdeal.cfg3.N :=
        Cert.KernelIdeal.Gen.W14_arr m ρ c 4
    _ = Cert.Spec.edgeG (Cert.KernelIdeal.Gen.W13 m ρ c (Proc.devRef .tc Cert.KernelIdeal.main_v42)) (Cert.KernelIdeal.Gen.W13 m ρ c (Proc.devRef .tc Cert.KernelIdeal.main_arg2))
          (Cert.KernelIdeal.Gen.W13 m ρ c (Proc.devRef .tc Cert.KernelIdeal.main_v44)) (Cert.KernelIdeal.Gen.W13 m ρ c (Proc.devRef .tc Cert.KernelIdeal.main_v47)) :=
        Cert.KernelIdeal.RegionValue.region3 (Cert.KernelIdeal.Gen.V13 m ρ) c
    _ = Cert.Spec.edgeG (UL1 m' c (Proc.devRef .tc Cert.ReferenceIdeal.main_v87)) (UL0 m' c (Proc.devRef .tc Cert.ReferenceIdeal.main_arg2))
          (UL1 m' c (Proc.devRef .tc Cert.ReferenceIdeal.main_v74)) (rowOf (UL1 m' c (Proc.devRef .tc Cert.ReferenceIdeal.main_v77))) := by
        rw [hg, edge_attr_eq m' m ρ c e2, edge_weights_eq m' m ρ c e5, edge_bias_eq m' m ρ c e6]
    _ = UL1 m' c (Proc.devRef .tc Cert.ReferenceIdeal.main_v89) := (ref_messages (UL0 m' c)).symm

private theorem sums (c : Dev Cert.KernelIdeal.nD) (e1 : (m' ((c.tc : Thread Cert.ReferenceIdeal.nD Cert.ReferenceIdeal.τ).loc Cert.ReferenceIdeal.main_arg1) : Cert.ReferenceIdeal.S2x1000000.Idx → BitVec 32) = m ((c.tc : Thread Cert.KernelIdeal.nD Cert.KernelIdeal.τ).loc Cert.KernelIdeal.main_arg1))
    (hm : (Cert.KernelIdeal.Gen.W14 m ρ c (Proc.devRef .tc Cert.KernelIdeal.main_v48) : Cert.ReferenceIdeal.S1000000x64.Idx → EReal) = UL1 m' c (Proc.devRef .tc Cert.ReferenceIdeal.main_v89)) :
    (Cert.KernelIdeal.Gen.W15 m ρ c (Proc.devRef .tc Cert.KernelIdeal.main_v51) : Cert.ReferenceIdeal.S100000x64.Idx → EReal) = UL1 m' c (Proc.devRef .tc Cert.ReferenceIdeal.main_v92) := by
  calc (Cert.KernelIdeal.Gen.W15 m ρ c (Proc.devRef .tc Cert.KernelIdeal.main_v51) : Cert.ReferenceIdeal.S100000x64.Idx → EReal)
      = sumInto (Cert.KernelIdeal.Gen.W14 m ρ c (Proc.devRef .tc Cert.KernelIdeal.main_v3)) (Cert.KernelIdeal.Gen.W14 m ρ c (Proc.devRef .tc Cert.KernelIdeal.main_v48)) := kernel_sum (Cert.KernelIdeal.Gen.W14 m ρ c)
    _ = sumInto (UL0 m' c (Proc.devRef .tc Cert.ReferenceIdeal.main_v3)) (UL1 m' c (Proc.devRef .tc Cert.ReferenceIdeal.main_v89)) := by
        rw [dst_eq m' m ρ c e1, hm]
    _ = UL1 m' c (Proc.devRef .tc Cert.ReferenceIdeal.main_v92) := (ref_sums (UL0 m' c)).symm

private theorem h_kept (c : Dev Cert.KernelIdeal.nD) :
    Cert.KernelIdeal.Gen.W15 m ρ c (Proc.devRef .tc Cert.KernelIdeal.main_v41) = Cert.KernelIdeal.Gen.W11 m ρ c (Proc.devRef .tc Cert.KernelIdeal.main_v41) :=
  (Cert.KernelIdeal.Keep.keep_hostOps4 _ Cert.KernelIdeal.main_v41 (by decide)).trans
    ((Cert.KernelIdeal.Gen.W14_of_ne m ρ c Cert.KernelIdeal.main_v41 (by decide)).trans
      ((Cert.KernelIdeal.Keep.keep_hostOps3_1 _ Cert.KernelIdeal.main_v41 (by decide)).trans
        (Cert.KernelIdeal.Keep.keep_hostOps3 _ Cert.KernelIdeal.main_v41 (by decide))))

private theorem perceptron (c : Dev Cert.KernelIdeal.nD) (e7 : (m' ((c.tc : Thread Cert.ReferenceIdeal.nD Cert.ReferenceIdeal.τ).loc Cert.ReferenceIdeal.main_arg7) : Cert.ReferenceIdeal.S5x64x64.Idx → EReal) = m ((c.tc : Thread Cert.KernelIdeal.nD Cert.KernelIdeal.τ).loc Cert.KernelIdeal.main_arg7))
    (e8 : (m' ((c.tc : Thread Cert.ReferenceIdeal.nD Cert.ReferenceIdeal.τ).loc Cert.ReferenceIdeal.main_arg8) : Cert.ReferenceIdeal.S5x64.Idx → EReal) = m ((c.tc : Thread Cert.KernelIdeal.nD Cert.KernelIdeal.τ).loc Cert.KernelIdeal.main_arg8))
    (e9 : (m' ((c.tc : Thread Cert.ReferenceIdeal.nD Cert.ReferenceIdeal.τ).loc Cert.ReferenceIdeal.main_arg9) : Cert.ReferenceIdeal.S5x64x64.Idx → EReal) = m ((c.tc : Thread Cert.KernelIdeal.nD Cert.KernelIdeal.τ).loc Cert.KernelIdeal.main_arg9))
    (e10 : (m' ((c.tc : Thread Cert.ReferenceIdeal.nD Cert.ReferenceIdeal.τ).loc Cert.ReferenceIdeal.main_arg10) : Cert.ReferenceIdeal.S5x64.Idx → EReal) = m ((c.tc : Thread Cert.KernelIdeal.nD Cert.KernelIdeal.τ).loc Cert.KernelIdeal.main_arg10))
    (h : (Cert.KernelIdeal.Gen.W11 m ρ c (Proc.devRef .tc Cert.KernelIdeal.main_v41) : Cert.ReferenceIdeal.S100000x64.Idx → EReal) = UL0 m' c (Proc.devRef .tc Cert.ReferenceIdeal.main_v72))
    (hsum : (Cert.KernelIdeal.Gen.W15 m ρ c (Proc.devRef .tc Cert.KernelIdeal.main_v51) : Cert.ReferenceIdeal.S100000x64.Idx → EReal) = UL1 m' c (Proc.devRef .tc Cert.ReferenceIdeal.main_v92)) :
    (Cert.KernelIdeal.Gen.W16 m ρ c (Proc.devRef .tc Cert.KernelIdeal.main_v62) : Cert.ReferenceIdeal.S100000x64.Idx → EReal) = UL1 m' c (Proc.devRef .tc Cert.ReferenceIdeal.main_v110) := by
  have hk : (Cert.KernelIdeal.Gen.W15 m ρ c (Proc.devRef .tc Cert.KernelIdeal.main_v41) : Cert.ReferenceIdeal.S100000x64.Idx → EReal) = UL0 m' c (Proc.devRef .tc Cert.ReferenceIdeal.main_v72) := (h_kept m ρ c).trans h
  calc (Cert.KernelIdeal.Gen.W16 m ρ c (Proc.devRef .tc Cert.KernelIdeal.main_v62) : Cert.ReferenceIdeal.S100000x64.Idx → EReal)
      = (Cert.KernelIdeal.Gen.dat4 (F := Ideal) (Cert.KernelIdeal.Gen.V15 m ρ) c).arrAt 6 Cert.KernelIdeal.cfg4.N :=
        Cert.KernelIdeal.Gen.W16_arr m ρ c 6
    _ = Cert.Spec.mlpG (Cert.KernelIdeal.Gen.W15 m ρ c (Proc.devRef .tc Cert.KernelIdeal.main_v41)) (Cert.KernelIdeal.Gen.W15 m ρ c (Proc.devRef .tc Cert.KernelIdeal.main_v51))
          (Cert.KernelIdeal.Gen.W15 m ρ c (Proc.devRef .tc Cert.KernelIdeal.main_v53)) (Cert.KernelIdeal.Gen.W15 m ρ c (Proc.devRef .tc Cert.KernelIdeal.main_v60))
          (Cert.KernelIdeal.Gen.W15 m ρ c (Proc.devRef .tc Cert.KernelIdeal.main_v57)) (Cert.KernelIdeal.Gen.W15 m ρ c (Proc.devRef .tc Cert.KernelIdeal.main_v61)) :=
        Cert.KernelIdeal.RegionValue.region4 (Cert.KernelIdeal.Gen.V15 m ρ) c
    _ = Cert.Spec.mlpG (UL0 m' c (Proc.devRef .tc Cert.ReferenceIdeal.main_v72)) (UL1 m' c (Proc.devRef .tc Cert.ReferenceIdeal.main_v92))
          (UL1 m' c (Proc.devRef .tc Cert.ReferenceIdeal.main_v95)) (rowOf (UL1 m' c (Proc.devRef .tc Cert.ReferenceIdeal.main_v98)))
          (UL1 m' c (Proc.devRef .tc Cert.ReferenceIdeal.main_v104)) (rowOf (UL1 m' c (Proc.devRef .tc Cert.ReferenceIdeal.main_v107))) := by
        rw [hk, hsum, w1_eq m' m ρ c e7, b1_eq m' m ρ c e8, w2_eq m' m ρ c e9, b2_eq m' m ρ c e10]
    _ = UL1 m' c (Proc.devRef .tc Cert.ReferenceIdeal.main_v110) := (ref_perceptron (UL0 m' c)).symm

private theorem mean_row_eq (c : Dev Cert.KernelIdeal.nD)
    (hz : (Cert.KernelIdeal.Gen.W16 m ρ c (Proc.devRef .tc Cert.KernelIdeal.main_v62) : Cert.ReferenceIdeal.S100000x64.Idx → EReal) = UL1 m' c (Proc.devRef .tc Cert.ReferenceIdeal.main_v110)) :
    (Cert.KernelIdeal.Gen.W19 m ρ c (Proc.devRef .tc Cert.KernelIdeal.main_v71) : Cert.ReferenceIdeal.S1x64.Idx → EReal) = rowOf (UL1 m' c (Proc.devRef .tc Cert.ReferenceIdeal.main_v113)) := by
  calc (Cert.KernelIdeal.Gen.W19 m ρ c (Proc.devRef .tc Cert.KernelIdeal.main_v71) : Cert.ReferenceIdeal.S1x64.Idx → EReal)
      = rowOf (Cert.KernelIdeal.Gen.W18 m ρ c (Proc.devRef .tc Cert.KernelIdeal.main_v65)) := kernel_mean_row (Cert.KernelIdeal.Gen.W18 m ρ c)
    _ = rowOf (Cert.KernelIdeal.Gen.W17 m ρ c (Proc.devRef .tc Cert.KernelIdeal.main_v65)) := by
        rw [show Cert.KernelIdeal.Gen.W18 m ρ c (Proc.devRef .tc Cert.KernelIdeal.main_v65) = Cert.KernelIdeal.Gen.W17 m ρ c (Proc.devRef .tc Cert.KernelIdeal.main_v65) from Cert.KernelIdeal.Keep.keep_hostOps5_1 _ Cert.KernelIdeal.main_v65 (by decide)]
    _ = rowOf (meanOf (Cert.KernelIdeal.Gen.W16 m ρ c (Proc.devRef .tc Cert.KernelIdeal.main_v62))) := congrArg rowOf (kernel_mean (Cert.KernelIdeal.Gen.W16 m ρ c))
    _ = rowOf (meanOf (UL1 m' c (Proc.devRef .tc Cert.ReferenceIdeal.main_v110))) := by rw [hz]
    _ = rowOf (UL1 m' c (Proc.devRef .tc Cert.ReferenceIdeal.main_v113)) := congrArg rowOf (ref_mean (UL0 m' c)).symm

private theorem var_eq (c : Dev Cert.KernelIdeal.nD)
    (hz : (Cert.KernelIdeal.Gen.W16 m ρ c (Proc.devRef .tc Cert.KernelIdeal.main_v62) : Cert.ReferenceIdeal.S100000x64.Idx → EReal) = UL1 m' c (Proc.devRef .tc Cert.ReferenceIdeal.main_v110)) :
    (Cert.KernelIdeal.Gen.W18 m ρ c (Proc.devRef .tc Cert.KernelIdeal.main_v66) : Cert.ReferenceIdeal.S64.Idx → EReal) = UL1 m' c (Proc.devRef .tc Cert.ReferenceIdeal.main_v114) := by
  calc (Cert.KernelIdeal.Gen.W18 m ρ c (Proc.devRef .tc Cert.KernelIdeal.main_v66) : Cert.ReferenceIdeal.S64.Idx → EReal)
      = varOf (Cert.KernelIdeal.Gen.W17 m ρ c (Proc.devRef .tc Cert.KernelIdeal.main_v62)) :=
        kernel_var (Cert.KernelIdeal.Gen.W17 m ρ c) (kernel_zero (Cert.KernelIdeal.Gen.W16 m ρ c))
    _ = varOf (Cert.KernelIdeal.Gen.W16 m ρ c (Proc.devRef .tc Cert.KernelIdeal.main_v62)) := by
        rw [show Cert.KernelIdeal.Gen.W17 m ρ c (Proc.devRef .tc Cert.KernelIdeal.main_v62) = Cert.KernelIdeal.Gen.W16 m ρ c (Proc.devRef .tc Cert.KernelIdeal.main_v62) from Cert.KernelIdeal.Keep.keep_hostOps5 _ Cert.KernelIdeal.main_v62 (by decide)]
    _ = varOf (UL1 m' c (Proc.devRef .tc Cert.ReferenceIdeal.main_v110)) := by rw [hz]
    _ = UL1 m' c (Proc.devRef .tc Cert.ReferenceIdeal.main_v114) := (ref_var (UL0 m' c)).symm

private theorem scale_row_eq (c : Dev Cert.KernelIdeal.nD)
    (hz : (Cert.KernelIdeal.Gen.W16 m ρ c (Proc.devRef .tc Cert.KernelIdeal.main_v62) : Cert.ReferenceIdeal.S100000x64.Idx → EReal) = UL1 m' c (Proc.devRef .tc Cert.ReferenceIdeal.main_v110)) :
    (Cert.KernelIdeal.Gen.W19 m ρ c (Proc.devRef .tc Cert.KernelIdeal.main_v75) : Cert.ReferenceIdeal.S1x64.Idx → EReal) = rowOf (UL1 m' c (Proc.devRef .tc Cert.ReferenceIdeal.main_v120)) := by
  calc (Cert.KernelIdeal.Gen.W19 m ρ c (Proc.devRef .tc Cert.KernelIdeal.main_v75) : Cert.ReferenceIdeal.S1x64.Idx → EReal)
      = rowOf (scaleOf (Cert.KernelIdeal.Gen.W18 m ρ c (Proc.devRef .tc Cert.KernelIdeal.main_v66))) := kernel_scale_row (Cert.KernelIdeal.Gen.W18 m ρ c)
    _ = rowOf (scaleOf (UL1 m' c (Proc.devRef .tc Cert.ReferenceIdeal.main_v114))) := by rw [var_eq m' m ρ c hz]
    _ = rowOf (UL1 m' c (Proc.devRef .tc Cert.ReferenceIdeal.main_v120)) := congrArg rowOf (ref_scale (UL0 m' c)).symm

private theorem z_kept (c : Dev Cert.KernelIdeal.nD) :
    Cert.KernelIdeal.Gen.W19 m ρ c (Proc.devRef .tc Cert.KernelIdeal.main_v62) = Cert.KernelIdeal.Gen.W16 m ρ c (Proc.devRef .tc Cert.KernelIdeal.main_v62) :=
  (Cert.KernelIdeal.Keep.keep_hostOps5_2 _ Cert.KernelIdeal.main_v62 (by decide)).trans
    ((Cert.KernelIdeal.Keep.keep_hostOps5_1 _ Cert.KernelIdeal.main_v62 (by decide)).trans
      (Cert.KernelIdeal.Keep.keep_hostOps5 _ Cert.KernelIdeal.main_v62 (by decide)))

private theorem normalised (c : Dev Cert.KernelIdeal.nD) (e11 : (m' ((c.tc : Thread Cert.ReferenceIdeal.nD Cert.ReferenceIdeal.τ).loc Cert.ReferenceIdeal.main_arg11) : Cert.ReferenceIdeal.S5x64.Idx → EReal) = m ((c.tc : Thread Cert.KernelIdeal.nD Cert.KernelIdeal.τ).loc Cert.KernelIdeal.main_arg11))
    (e12 : (m' ((c.tc : Thread Cert.ReferenceIdeal.nD Cert.ReferenceIdeal.τ).loc Cert.ReferenceIdeal.main_arg12) : Cert.ReferenceIdeal.S5x64.Idx → EReal) = m ((c.tc : Thread Cert.KernelIdeal.nD Cert.KernelIdeal.τ).loc Cert.KernelIdeal.main_arg12))
    (hz : (Cert.KernelIdeal.Gen.W16 m ρ c (Proc.devRef .tc Cert.KernelIdeal.main_v62) : Cert.ReferenceIdeal.S100000x64.Idx → EReal) = UL1 m' c (Proc.devRef .tc Cert.ReferenceIdeal.main_v110)) :
    (Cert.KernelIdeal.Gen.W20 m ρ c (Proc.devRef .tc Cert.KernelIdeal.main_v78) : Cert.ReferenceIdeal.S100000x64.Idx → EReal) = UL1 m' c (Proc.devRef .tc Cert.ReferenceIdeal.main_v134) := by
  have hz19 : (Cert.KernelIdeal.Gen.W19 m ρ c (Proc.devRef .tc Cert.KernelIdeal.main_v62) : Cert.ReferenceIdeal.S100000x64.Idx → EReal) = UL1 m' c (Proc.devRef .tc Cert.ReferenceIdeal.main_v110) := (z_kept m ρ c).trans hz
  calc (Cert.KernelIdeal.Gen.W20 m ρ c (Proc.devRef .tc Cert.KernelIdeal.main_v78) : Cert.ReferenceIdeal.S100000x64.Idx → EReal)
      = (Cert.KernelIdeal.Gen.dat5 (F := Ideal) (Cert.KernelIdeal.Gen.V19 m ρ) c).arrAt 5 Cert.KernelIdeal.cfg5.N :=
        Cert.KernelIdeal.Gen.W20_arr m ρ c 5
    _ = Cert.Spec.bnReluG (Cert.KernelIdeal.Gen.W19 m ρ c (Proc.devRef .tc Cert.KernelIdeal.main_v62)) (Cert.KernelIdeal.Gen.W19 m ρ c (Proc.devRef .tc Cert.KernelIdeal.main_v71))
          (Cert.KernelIdeal.Gen.W19 m ρ c (Proc.devRef .tc Cert.KernelIdeal.main_v75)) (Cert.KernelIdeal.Gen.W19 m ρ c (Proc.devRef .tc Cert.KernelIdeal.main_v76))
          (Cert.KernelIdeal.Gen.W19 m ρ c (Proc.devRef .tc Cert.KernelIdeal.main_v77)) :=
        Cert.KernelIdeal.RegionValue.region5 (Cert.KernelIdeal.Gen.V19 m ρ) c
    _ = Cert.Spec.bnReluG (UL1 m' c (Proc.devRef .tc Cert.ReferenceIdeal.main_v110)) (rowOf (UL1 m' c (Proc.devRef .tc Cert.ReferenceIdeal.main_v113)))
          (rowOf (UL1 m' c (Proc.devRef .tc Cert.ReferenceIdeal.main_v120))) (rowOf (UL1 m' c (Proc.devRef .tc Cert.ReferenceIdeal.main_v125)))
          (rowOf (UL1 m' c (Proc.devRef .tc Cert.ReferenceIdeal.main_v130))) := by
        rw [hz19, mean_row_eq m' m ρ c hz, scale_row_eq m' m ρ c hz, gain_eq m' m ρ c e11, offset_eq m' m ρ c e12]
    _ = UL1 m' c (Proc.devRef .tc Cert.ReferenceIdeal.main_v134) := (ref_normalised (UL0 m' c)).symm

theorem layer1 (hA : Agree m' m) (hs : SrcInRange m) (c : Dev Cert.KernelIdeal.nD) (h : Inv0 m' m ρ c) : Inv1 m' m ρ c := by
  obtain ⟨-, e1, e2, -, -, e5, e6, e7, e8, e9, e10, e11, e12, -, -⟩ := hA c
  have hg := gathered m' m ρ hs c e1 h
  have hm := messages m' m ρ c e2 e5 e6 hg
  have hsum := sums m' m ρ c e1 hm
  have hz := perceptron m' m ρ c e7 e8 e9 e10 h hsum
  exact normalised m' m ρ c e11 e12 hz

end Cert.Sim

end
-- ==== Proof.Region6.lean ====
import proofs.«408039_j61503931678734_1_alg».proof.Proof.Region0

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts : ∀ t : Fin cfg6.N,
    win6_4.index t (0 : Fin 2) = t.val ∧ win6_4.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

private theorem mem_blk (t : Fin cfg6.N) (i : S1000000x64.Idx) :
    i ∈ ((cfg6.win 4).blk t).view.set ↔ ∀ a : Fin 2, win6_4.index t a * S8000x64.size a ≤ (i a).val ∧ (i a).val < win6_4.index t a * S8000x64.size a + S8000x64.size a := by
  show i ∈ ((View.whole (Pipeline.arrRef spec6 4)).slice (win6_4.rect t)).set ↔ _
  rw [View.set_slice_whole, Rect.mem_set_unit]
  exact Iff.rfl

private theorem cover (i : S1000000x64.Idx) :
    ∃ t : Fin cfg6.N, (cfg6.win 4).flush t = true ∧ i ∈ ((cfg6.win 4).blk t).view.set := by
  have hi0 : (i 0).val < 1000000 := (i 0).isLt
  have hi1 : (i 1).val < 64 := (i 1).isLt
  have hN : cfg6.N = 125 := N_6
  refine ⟨⟨(i 0).val / 8000, by rw [hN]; omega⟩, flush6_4 _, ?_⟩
  rw [mem_blk]
  obtain ⟨e0, e1, -⟩ := idx_facts ⟨(i 0).val / 8000, by rw [hN]; omega⟩
  intro a
  match a with
  | ⟨0, _⟩ =>
    show win6_4.index ⟨(i 0).val / 8000, _⟩ (0 : Fin 2) * 8000 ≤ (i 0).val ∧ (i 0).val < win6_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win6_4.index ⟨(i 0).val / 8000, _⟩ (1 : Fin 2) * 64 ≤ (i 1).val ∧ (i 1).val < win6_4.index ⟨(i 0).val / 8000, _⟩ (1 : Fin 2) * 64 + 64
    rw [e1]; omega

private theorem rows_emb (t : Fin cfg6.N) (j : S8000x64.Idx) :
    ((cfg6.win 0).blk t).view.emb j = ((cfg6.win 4).blk t).view.emb j := by
  obtain ⟨e40, e41, e00, e01, -⟩ := idx_facts t
  funext a; apply Fin.ext
  match a with
  | ⟨0, _⟩ => show win6_0.index t (0 : Fin 2) * 8000 + 1 * (j 0).val = win6_4.index t (0 : Fin 2) * 8000 + 1 * (j 0).val; omega
  | ⟨1, _⟩ => show win6_0.index t (1 : Fin 2) * 64 + 1 * (j 1).val = win6_4.index t (1 : Fin 2) * 64 + 1 * (j 1).val; omega

private theorem attr_emb (t : Fin cfg6.N) (j : S8000x64.Idx) (k : Fin 7) :
    ((cfg6.win 1).blk t).view.emb (ix2 (j 0) k) = (ix2 ((((cfg6.win 4).blk t).view.emb j) 0) k : S1000000x7.Idx) := by
  obtain ⟨e40, e41, e00, e01, e10, e11, -⟩ := idx_facts t
  funext a; apply Fin.ext
  match a with
  | ⟨0, _⟩ => show win6_1.index t (0 : Fin 2) * 8000 + 1 * (j 0).val = win6_4.index t (0 : Fin 2) * 8000 + 1 * (j 0).val; omega
  | ⟨1, _⟩ => show win6_1.index t (1 : Fin 2) * 7 + 1 * k.val = k.val; omega

private theorem weight_emb (t : Fin cfg6.N) (j : S8000x64.Idx) (k : Fin 7) :
    ((cfg6.win 2).blk t).view.emb (ix2 k (j 1)) = (ix2 k ((((cfg6.win 4).blk t).view.emb j) 1) : S7x64.Idx) := by
  obtain ⟨e40, e41, e00, e01, e10, e11, e20, e21, -⟩ := idx_facts t
  funext a; apply Fin.ext
  match a with
  | ⟨0, _⟩ => show win6_2.index t (0 : Fin 2) * 7 + 1 * k.val = k.val; omega
  | ⟨1, _⟩ => show win6_2.index t (1 : Fin 2) * 64 + 1 * (j 1).val = win6_4.index t (1 : Fin 2) * 64 + 1 * (j 1).val; omega

private theorem bias_emb (t : Fin cfg6.N) (j : S8000x64.Idx) :
    ((cfg6.win 3).blk t).view.emb (ix2 (0 : Fin 1) (j 1)) = (ix2 (0 : Fin 1) ((((cfg6.win 4).blk t).view.emb j) 1) : S1x64.Idx) := by
  obtain ⟨e40, e41, e00, e01, e10, e11, e20, e21, e30, e31⟩ := idx_facts t
  funext a; apply Fin.ext
  match a with
  | ⟨0, _⟩ => show win6_3.index t (0 : Fin 2) * 1 + 1 * 0 = 0; omega
  | ⟨1, _⟩ => show win6_3.index t (1 : Fin 2) * 64 + 1 * (j 1).val = win6_4.index t (1 : Fin 2) * 64 + 1 * (j 1).val; omega

private theorem flushed_eq (c : Dev nD) (t : Fin cfg6.N) :
    (dat6 (F := Ideal) V c).flushed 4 t
      = ((cfg6.win 4).blk t).view.read (Elt Ideal)
          (Cert.Spec.edgeG (V c main_v79) (V c main_arg2) (V c main_v81) (V c main_v84)) := by
  show (cfg6.win 4).cut (grid6.coords t) ((dat6 (F := Ideal) V c).after 4 t) = _
  rw [after6_4]
  unfold out6_4
  rw [View.canon_unit_zero zero_offsets]
  simp only [View.ld_unit_zero (S := S8000x7) zero_offsets, View.ld_unit_zero (S := S7x64) zero_offsets,
    View.ld_unit_zero (S := S1x64) zero_offsets, View.ld_unit_zero (S := S8000x64) zero_offsets]
  refine funext fun (j : S8000x64.Idx) => ?_
  show k0_pay1 (F := Ideal) (iblk6 V c 1 t) (iblk6 V c 2 t) (iblk6 V c 3 t) (iblk6 V c 0 t) j
    = Cert.Spec.edgeG (V c main_v79) (V c main_arg2) (V c main_v81) (V c main_v84) (((cfg6.win 4).blk t).view.emb j)
  refine message_block_eq_spec (V c main_v79) (V c main_arg2) (V c main_v81) (V c main_v84)
    (iblk6 V c 0 t) (iblk6 V c 1 t) (iblk6 V c 2 t) (iblk6 V c 3 t) j (((cfg6.win 4).blk t).view.emb j)
    ?_ (fun k => ?_) (fun k => ?_) ?_
  · show V c main_v79 (((cfg6.win 0).blk t).view.emb j) = V c main_v79 (((cfg6.win 4).blk t).view.emb j)
    exact congrArg (V c main_v79) (rows_emb t j)
  · show V c main_arg2 (((cfg6.win 1).blk t).view.emb (ix2 (j 0) k))
      = V c main_arg2 (ix2 ((((cfg6.win 4).blk t).view.emb j) 0) k : S1000000x7.Idx)
    exact congrArg (V c main_arg2) (attr_emb t j k)
  · show V c main_v81 (((cfg6.win 2).blk t).view.emb (ix2 k (j 1)))
      = V c main_v81 (ix2 k ((((cfg6.win 4).blk t).view.emb j) 1) : S7x64.Idx)
    exact congrArg (V c main_v81) (weight_emb t j k)
  · show V c main_v84 (((cfg6.win 3).blk t).view.emb (ix2 (0 : Fin 1) (j 1)))
      = V c main_v84 (ix2 (0 : Fin 1) ((((cfg6.win 4).blk t).view.emb j) 1) : S1x64.Idx)
    exact congrArg (V c main_v84) (bias_emb t j)

theorem region6 (c : Dev nD) :
    (dat6 (F := Ideal) V c).arrAt 4 cfg6.N
      = Cert.Spec.edgeG (V c main_v79) (V c main_arg2) (V c main_v81) (V c main_v84) := by
  exact (dat6 (F := Ideal) V c).arrAt_eq_of_cover 4 _ (fun t _ => flushed_eq V c t) cover

end Cert.KernelIdeal.RegionValue

end
-- ==== Proof.Region7.lean ====
import proofs.«408039_j61503931678734_1_alg».proof.Proof.Region1

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts1 : ∀ t : Fin cfg7.N,
    win7_0.index t (0 : Fin 2) = win7_6.index t (0 : Fin 2) ∧ win7_0.index t (1 : Fin 2) = 0
    ∧ win7_1.index t (0 : Fin 2) = win7_6.index t (0 : Fin 2) ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

private theorem mem_blk1 (t : Fin cfg7.N) (i : S100000x64.Idx) :
    i ∈ ((cfg7.win 6).blk t).view.set ↔ ∀ a : Fin 2, win7_6.index t a * S5000x64.size a ≤ (i a).val
      ∧ (i a).val < win7_6.index t a * S5000x64.size a + S5000x64.size a := by
  show i ∈ ((View.whole main_v99).slice (win7_6.rect t)).set ↔ _
  rw [View.set_slice_whole, Rect.mem_set_unit]
  exact Iff.rfl

private theorem cover1 (i : S100000x64.Idx) :
    ∃ t : Fin cfg7.N, (cfg7.win 6).flush t = true ∧ i ∈ ((cfg7.win 6).blk t).view.set := by
  have hi0 : (i 0).val < 100000 := (i 0).isLt
  have hi1 : (i 1).val < 64 := (i 1).isLt
  have hN : cfg7.N = 20 := N_7
  let t : Fin cfg7.N := ⟨(i 0).val / 5000, by omega⟩
  obtain ⟨-, -, -, -, -, -, -, -, -, -, -, -, e0, e1⟩ := idx_facts1 t
  have ht : t.val = (i 0).val / 5000 := rfl
  refine ⟨t, flush7_6 t, ?_⟩
  rw [mem_blk1]
  intro a
  match a with
  | ⟨0, _⟩ =>
    show win7_6.index t (0 : Fin 2) * 5000 ≤ (i 0).val ∧ (i 0).val < win7_6.index t (0 : Fin 2) * 5000 + 5000
    omega
  | ⟨1, _⟩ =>
    show win7_6.index t (1 : Fin 2) * 64 ≤ (i 1).val ∧ (i 1).val < win7_6.index t (1 : Fin 2) * 64 + 64
    omega

private theorem flushed1_eq (c : Dev nD) (t : Fin cfg7.N) :
    (dat7 (F := Ideal) V c).flushed 6 t = ((cfg7.win 6).blk t).view.read (Elt Ideal)
      (Cert.Spec.mlpG (V c main_v78) (V c main_v88) (V c main_v90) (V c main_v97) (V c main_v94) (V c main_v98)) := by
  show (cfg7.win 6).cut (grid7.coords t) ((dat7 V c).after 6 t) = _
  rw [after7_6]
  unfold out7_6
  rw [View.canon_unit_zero hz1]
  simp only [View.ld_unit_zero (S := S5000x64) hz1, View.ld_unit_zero (S := S64x64) hz1, View.ld_unit_zero (S := S1x64) hz1]
  obtain ⟨a0, b0, a1, b1, a2, b2, a3, b3, a4, b4, a5, b5, e0, e1⟩ := idx_facts1 t
  have hN : cfg7.N = 20 := N_7
  have ht : t.val < 20 := by have := t.isLt; omega

  have w2 : (iblk7 V c 2 t : S64x64.Idx → EReal) = V c main_v90 := funext fun y => by
    show V c main_v90 (((cfg7.win 2).blk t).view.emb y) = V c main_v90 y
    refine congrArg _ (funext fun a => Fin.ext ?_)
    match a with
    | ⟨0, _⟩ => show win7_2.index t (0 : Fin 2) * 64 + 1 * (y 0).val = (y 0).val; omega
    | ⟨1, _⟩ => show win7_2.index t (1 : Fin 2) * 64 + 1 * (y 1).val = (y 1).val; omega
  have w3 : (iblk7 V c 3 t : S1x64.Idx → EReal) = V c main_v97 := funext fun y => by
    show V c main_v97 (((cfg7.win 3).blk t).view.emb y) = V c main_v97 y
    refine congrArg _ (funext fun a => Fin.ext ?_)
    match a with
    | ⟨0, _⟩ => show win7_3.index t (0 : Fin 2) * 1 + 1 * (y 0).val = (y 0).val; omega
    | ⟨1, _⟩ => show win7_3.index t (1 : Fin 2) * 64 + 1 * (y 1).val = (y 1).val; omega
  have w4 : (iblk7 V c 4 t : S64x64.Idx → EReal) = V c main_v94 := funext fun y => by
    show V c main_v94 (((cfg7.win 4).blk t).view.emb y) = V c main_v94 y
    refine congrArg _ (funext fun a => Fin.ext ?_)
    match a with
    | ⟨0, _⟩ => show win7_4.index t (0 : Fin 2) * 64 + 1 * (y 0).val = (y 0).val; omega
    | ⟨1, _⟩ => show win7_4.index t (1 : Fin 2) * 64 + 1 * (y 1).val = (y 1).val; omega
  have w5 : (iblk7 V c 5 t : S1x64.Idx → EReal) = V c main_v98 := funext fun y => by
    show V c main_v98 (((cfg7.win 5).blk t).view.emb y) = V c main_v98 y
    refine congrArg _ (funext fun a => Fin.ext ?_)
    match a with
    | ⟨0, _⟩ => show win7_5.index t (0 : Fin 2) * 1 + 1 * (y 0).val = (y 0).val; omega
    | ⟨1, _⟩ => show win7_5.index t (1 : Fin 2) * 64 + 1 * (y 1).val = (y 1).val; omega

  have h0 : ∀ (p : Fin 5000) (k : Fin 64), (iblk7 V c 0 t : S5000x64.Idx → EReal) (ix2 p k)
      = V c main_v78 (ix2 (row1 t.val ht p) k) := fun p k => by
    show V c main_v78 (((cfg7.win 0).blk t).view.emb (ix2 p k)) = _
    refine congrArg _ (funext fun a => Fin.ext ?_)
    match a with
    | ⟨0, _⟩ => show win7_0.index t (0 : Fin 2) * 5000 + 1 * p.val = t.val * 5000 + p.val; omega
    | ⟨1, _⟩ => show win7_0.index t (1 : Fin 2) * 64 + 1 * k.val = k.val; omega
  have h1 : ∀ (p : Fin 5000) (k : Fin 64), (iblk7 V c 1 t : S5000x64.Idx → EReal) (ix2 p k)
      = V c main_v88 (ix2 (row1 t.val ht p) k) := fun p k => by
    show V c main_v88 (((cfg7.win 1).blk t).view.emb (ix2 p k)) = _
    refine congrArg _ (funext fun a => Fin.ext ?_)
    match a with
    | ⟨0, _⟩ => show win7_1.index t (0 : Fin 2) * 5000 + 1 * p.val = t.val * 5000 + p.val; omega
    | ⟨1, _⟩ => show win7_1.index t (1 : Fin 2) * 64 + 1 * k.val = k.val; omega
  funext j

  have hemb : (((cfg7.win 6).blk t).view.emb j : S100000x64.Idx) = ix2 (row1 t.val ht (j 0)) (j 1) :=
    funext fun a => Fin.ext (by
      match a with
      | ⟨0, _⟩ => show win7_6.index t (0 : Fin 2) * 5000 + 1 * (j 0).val = t.val * 5000 + (j 0).val; omega
      | ⟨1, _⟩ => show win7_6.index t (1 : Fin 2) * 64 + 1 * (j 1).val = (j 1).val; omega)
  show k1_pay1 (iblk7 V c 0 t) (iblk7 V c 1 t) (iblk7 V c 2 t) (iblk7 V c 3 t) (iblk7 V c 4 t) (iblk7 V c 5 t) j
    = Cert.Spec.mlpG (V c main_v78) (V c main_v88) (V c main_v90) (V c main_v97) (V c main_v94) (V c main_v98)
        (((cfg7.win 6).blk t).view.emb j)
  rw [hemb, ← w2, ← w3, ← w4, ← w5]
  exact (congrArg (k1_pay1 (iblk7 V c 0 t) (iblk7 V c 1 t) (iblk7 V c 2 t) (iblk7 V c 3 t) (iblk7 V c 4 t) (iblk7 V c 5 t))
      (eq_ix2 j)).trans
    (pay1_eq_spec (V c main_v78) (V c main_v88) _ _ _ _ _ _ (row1 t.val ht) h0 h1 (j 0) (j 1))

theorem region7 (c : Dev nD) :
    (dat7 (F := Ideal) V c).arrAt 6 cfg7.N
      = Cert.Spec.mlpG (V c main_v78) (V c main_v88) (V c main_v90) (V c main_v97) (V c main_v94) (V c main_v98) :=
  (dat7 (F := Ideal) V c).arrAt_eq_of_cover 6
    (Cert.Spec.mlpG (V c main_v78) (V c main_v88) (V c main_v90) (V c main_v97) (V c main_v94) (V c main_v98))
    (fun t _ => flushed1_eq V c t) cover1

end Cert.KernelIdeal.RegionValue

end
-- ==== Proof.Region8.lean ====
import proofs.«408039_j61503931678734_1_alg».proof.Proof.Region2

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem region8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

theorem region8_flushed (c : Dev nD) (t : Fin cfg8.N) :
    (dat8 (F := Ideal) V c).flushed 5 t
      = ((cfg8.win 5).blk t).view.read (Elt Ideal)
          (Cert.Spec.bnReluG (V c main_v99) (V c main_v108) (V c main_v112) (V c main_v113) (V c main_v114)) := by
  show (cfg8.win 5).cut (grid8.coords t) ((dat8 V c).after 5 t) = _
  rw [after8_5]
  unfold out8_5
  rw [View.canon_unit_zero region2_zeros]
  simp only [View.ld_unit_zero (S := S5000x64) region2_zeros, View.ld_unit_zero (S := S1x64) region2_zeros]
  obtain ⟨a0, a1, b0, b1, c0, c1, d0, d1, g0, g1, e0, e1⟩ := region8_idx t
  have hN : cfg8.N = 20 := N_8
  have ht : t.val < 20 := hN ▸ t.isLt
  funext j
  obtain ⟨p, q, rfl⟩ : ∃ (p : Fin 5000) (q : Fin 64), j = ix2 p q := ⟨j 0, j 1, eq_ix2 j⟩

  refine (region2_block (iblk8 V c 0 t) (iblk8 V c 1 t) (iblk8 V c 2 t) (iblk8 V c 3 t) (iblk8 V c 4 t)
    (V c main_v99) (V c main_v108) (V c main_v112) (V c main_v113) (V c main_v114)
    (fun p => ⟨t.val * 5000 + p.val, by have := p.isLt; omega⟩) ?_ ?_ ?_ ?_ ?_ p q).trans ?_
  · intro p q
    show V c main_v99 (((cfg8.win 0).blk t).view.emb (ix2 p q)) = V c main_v99 (ix2 ⟨t.val * 5000 + p.val, _⟩ q)
    refine congrArg (V c main_v99) (funext fun a => Fin.ext ?_)
    match a with
    | ⟨0, _⟩ => show win8_0.index t (0 : Fin 2) * 5000 + 1 * p.val = t.val * 5000 + p.val; rw [a0]; omega
    | ⟨1, _⟩ => show win8_0.index t (1 : Fin 2) * 64 + 1 * q.val = q.val; rw [a1]; omega
  · intro q
    show V c main_v108 (((cfg8.win 1).blk t).view.emb (ix2 (0 : Fin 1) q)) = V c main_v108 (ix2 (0 : Fin 1) q)
    refine congrArg (V c main_v108) (funext fun a => Fin.ext ?_)
    match a with
    | ⟨0, _⟩ => show win8_1.index t (0 : Fin 2) * 1 + 1 * 0 = 0; rw [b0]
    | ⟨1, _⟩ => show win8_1.index t (1 : Fin 2) * 64 + 1 * q.val = q.val; rw [b1]; omega
  · intro q
    show V c main_v112 (((cfg8.win 2).blk t).view.emb (ix2 (0 : Fin 1) q)) = V c main_v112 (ix2 (0 : Fin 1) q)
    refine congrArg (V c main_v112) (funext fun a => Fin.ext ?_)
    match a with
    | ⟨0, _⟩ => show win8_2.index t (0 : Fin 2) * 1 + 1 * 0 = 0; rw [c0]
    | ⟨1, _⟩ => show win8_2.index t (1 : Fin 2) * 64 + 1 * q.val = q.val; rw [c1]; omega
  · intro q
    show V c main_v113 (((cfg8.win 3).blk t).view.emb (ix2 (0 : Fin 1) q)) = V c main_v113 (ix2 (0 : Fin 1) q)
    refine congrArg (V c main_v113) (funext fun a => Fin.ext ?_)
    match a with
    | ⟨0, _⟩ => show win8_3.index t (0 : Fin 2) * 1 + 1 * 0 = 0; rw [d0]
    | ⟨1, _⟩ => show win8_3.index t (1 : Fin 2) * 64 + 1 * q.val = q.val; rw [d1]; omega
  · intro q
    show V c main_v114 (((cfg8.win 4).blk t).view.emb (ix2 (0 : Fin 1) q)) = V c main_v114 (ix2 (0 : Fin 1) q)
    refine congrArg (V c main_v114) (funext fun a => Fin.ext ?_)
    match a with
    | ⟨0, _⟩ => show win8_4.index t (0 : Fin 2) * 1 + 1 * 0 = 0; rw [g0]
    | ⟨1, _⟩ => show win8_4.index t (1 : Fin 2) * 64 + 1 * q.val = q.val; rw [g1]; omega
  · show Cert.Spec.bnReluG (V c main_v99) (V c main_v108) (V c main_v112) (V c main_v113) (V c main_v114) (ix2 ⟨t.val * 5000 + p.val, _⟩ q)
      = Cert.Spec.bnReluG (V c main_v99) (V c main_v108) (V c main_v112) (V c main_v113) (V c main_v114)
          (((cfg8.win 5).blk t).view.emb (ix2 p q))
    refine congrArg _ (funext fun a => Fin.ext ?_)
    match a with
    | ⟨0, _⟩ => show t.val * 5000 + p.val = win8_5.index t (0 : Fin 2) * 5000 + 1 * p.val; rw [e0]; omega
    | ⟨1, _⟩ => show q.val = win8_5.index t (1 : Fin 2) * 64 + 1 * q.val; rw [e1]; omega

theorem region8_mem (t : Fin cfg8.N) (i : S100000x64.Idx) :
    i ∈ ((cfg8.win 5).blk t).view.set ↔ ∀ a : Fin 2, win8_5.index t a * S5000x64.size a ≤ (i a).val
      ∧ (i a).val < win8_5.index t a * S5000x64.size a + S5000x64.size a := by
  show i ∈ ((View.whole (Pipeline.arrRef spec8 5)).slice (win8_5.rect t)).set ↔ _
  rw [View.set_slice_whole, Rect.mem_set_unit]
  exact Iff.rfl

theorem region8_cover (i : S100000x64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  have hN : cfg8.N = 20 := N_8
  have ht : (i 0).val / 5000 < cfg8.N := by rw [hN]; omega
  obtain ⟨-, -, -, -, -, -, -, -, -, -, e0, e1⟩ := region8_idx ⟨(i 0).val / 5000, ht⟩
  refine ⟨⟨(i 0).val / 5000, ht⟩, flush8_5 _, ?_⟩
  rw [region8_mem]
  intro a
  match a with
  | ⟨0, _⟩ =>
    show win8_5.index ⟨(i 0).val / 5000, ht⟩ (0 : Fin 2) * 5000 ≤ (i 0).val
      ∧ (i 0).val < win8_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win8_5.index ⟨(i 0).val / 5000, ht⟩ (1 : Fin 2) * 64 ≤ (i 1).val
      ∧ (i 1).val < win8_5.index ⟨(i 0).val / 5000, ht⟩ (1 : Fin 2) * 64 + 64
    rw [e1]; omega

theorem region8 (c : Dev nD) :
    (dat8 (F := Ideal) V c).arrAt 5 cfg8.N
      = Cert.Spec.bnReluG (V c main_v99) (V c main_v108) (V c main_v112) (V c main_v113) (V c main_v114) := by
  exact (dat8 (F := Ideal) V c).arrAt_eq_of_cover 5 _ (fun t _ => region8_flushed V c t) (region8_cover)

end Cert.KernelIdeal.RegionValue

end
-- ==== Proof.Layer2.lean ====
import proofs.«408039_j61503931678734_1_alg».proof.Proof.Sim
import proofs.«408039_j61503931678734_1_alg».proof.Proof.Region6
import proofs.«408039_j61503931678734_1_alg».proof.Proof.Region7
import proofs.«408039_j61503931678734_1_alg».proof.Proof.Region8
import proofs.«408039_j61503931678734_1_alg».proof.Proof.RefEdge
import proofs.«408039_j61503931678734_1_alg».proof.Proof.RefMlp
import proofs.«408039_j61503931678734_1_alg».proof.Proof.RefBn
import proofs.«408039_j61503931678734_1_alg».proof.Proof.TakeMask
import proofs.«408039_j61503931678734_1_alg».proof.Proof.Rows
import Idealize.ShloMosaic.Lib.StableHlo.Run

set_option maxRecDepth 16384

noncomputable section

namespace Cert.Sim

open Idealize.ShloMosaic Idealize.ShloMosaic.TcCoe Idealize.ShloMosaic.StableHlo Idealize.SL.Sem

variable (m' : (ℓ : Loc Cert.ReferenceIdeal.nD Cert.ReferenceIdeal.τ Cert.ReferenceIdeal.sig) → Buf (Elt Ideal) ℓ)
  (m : (ℓ : Loc Cert.KernelIdeal.nD Cert.KernelIdeal.τ Cert.KernelIdeal.sig) → Buf (Elt Ideal) ℓ)
  (ρ : Dev Cert.KernelIdeal.nD → PrngReg)

namespace Layer2

theorem ofBuf_toBuf {sg : RefSig} {T : BufTy} {Val : EltTy → Type} (x : StableHlo.TRef sg T) (v : T.Contents Val) :
    x.ofBuf (x.toBuf v) = v := by
  rcases x with ⟨r, rfl, h1, h2⟩
  rfl

section Kernel
open Cert.KernelIdeal
open Cert.KernelIdeal.Facts₀ Cert.KernelIdeal.Facts

theorem kernel_src (V : Valuation τ sig (Elt Ideal)) :
    (after (Gen.hostOps0 (F := Ideal)) V (Proc.devRef .tc main_v1) : S1000000.Idx → BitVec 32) = (Take.srcOf (V (Proc.devRef .tc main_arg1)) : S1000000.Idx → BitVec 32) := by
  after_results_simp
  all_goals try simp only [↓ofBuf_toBuf]
  all_goals try simp only [TRef.ofBuf, TRef.toBuf, cast_eq]
  all_goals try rfl

theorem kernel_dst (V : Valuation τ sig (Elt Ideal)) :
    (after (Gen.hostOps0 (F := Ideal)) V (Proc.devRef .tc main_v3) : S1000000.Idx → BitVec 32)
      = (shapeCast S1000000 (extractStridedSlice S1x1000000 ![1, 0] (V (Proc.devRef .tc main_arg1)) slices_S2x1000000_S1x1000000_1_0) shapeCasts_S1x1000000_S1000000 : S1000000.Idx → BitVec 32) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem kernel_sources (V : Valuation τ sig (Elt Ideal)) :
    (after (Gen.hostOps6 (F := Ideal)) V (Proc.devRef .tc main_v79) : S1000000x64.Idx → EReal)
      = (select (broadcastInDim S1000000x64 ![0] bcast_S1000000_S1000000x64_0
          (Host.reduce IntOp.andi
            (andi (cmpi .sge (Take.srcIdx (V (Proc.devRef .tc main_v1))) (broadcastInDim S1000000x1 ![] bcast_S_S1000000x1 (constantI S_ 32 0#32)))
              (cmpi .sle (Take.srcIdx (V (Proc.devRef .tc main_v1))) (broadcastInDim S1000000x1 ![0, 1] bcast_S1x1_S1000000x1_0_1
                (broadcastInDim S1x1 ![1] bcast_S1_S1x1_1 (constantI S1 32 99999#32)))))
            (constantI S_ 1 1#1) reducesTo_S1000000x1_S1000000_d1 h_S_))
        (Host.gather gather_S100000x64_S1000000x1_S1000000x64_1_0_n_n_0_1_164 (V (Proc.devRef .tc main_v78)) (Take.srcIdx (V (Proc.devRef .tc main_v1))))
        (broadcastInDim S1000000x64 ![] bcast_S_S1000000x64 (constant (F := Ideal) S_ .f32 0x7FC00000#32)) : S1000000x64.Idx → EReal) := by
  after_results_simp
  all_goals try simp only [↓ofBuf_toBuf]
  all_goals try simp only [TRef.ofBuf, TRef.toBuf, cast_eq]
  all_goals try rfl

theorem kernel_edge_weights (V : Valuation τ sig (Elt Ideal)) :
    (after (Gen.hostOps6_1 (F := Ideal)) V (Proc.devRef .tc main_v81) : S7x64.Idx → EReal)
      = (shapeCast S7x64 (extractStridedSlice S1x7x64 ![2, 0, 0] (V (Proc.devRef .tc main_arg5)) slices_S5x7x64_S1x7x64_2_0_0) shapeCasts_S1x7x64_S7x64 : S7x64.Idx → EReal) := by
  after_results_simp
  all_goals try simp only [↓ofBuf_toBuf]
  all_goals try simp only [TRef.ofBuf, TRef.toBuf, cast_eq]
  all_goals try rfl

theorem kernel_edge_bias (V : Valuation τ sig (Elt Ideal)) :
    (after (Gen.hostOps6_1 (F := Ideal)) V (Proc.devRef .tc main_v84) : S1x64.Idx → EReal)
      = (shapeCast S1x64 (shapeCast S64 (extractStridedSlice S1x64 ![2, 0] (V (Proc.devRef .tc main_arg6)) slices_S5x64_S1x64_2_0) shapeCasts_S1x64_S64) shapeCasts_S64_S1x64 : S1x64.Idx → EReal) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem kernel_sums (V : Valuation τ sig (Elt Ideal)) :
    (after (Gen.hostOps7 (F := Ideal)) V (Proc.devRef .tc main_v88) : S100000x64.Idx → EReal)
      = (Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (V (Proc.devRef .tc main_v3)))
          (V (Proc.devRef .tc main_v85)) : S100000x64.Idx → EReal) := by
  after_results_simp
  all_goals try simp only [↓ofBuf_toBuf]
  all_goals try simp only [TRef.ofBuf, TRef.toBuf, cast_eq]
  all_goals try rfl

theorem kernel_w1 (V : Valuation τ sig (Elt Ideal)) :
    (after (Gen.hostOps7 (F := Ideal)) V (Proc.devRef .tc main_v90) : S64x64.Idx → EReal)
      = (shapeCast S64x64 (extractStridedSlice S1x64x64 ![2, 0, 0] (V (Proc.devRef .tc main_arg7)) slices_S5x64x64_S1x64x64_2_0_0) shapeCasts_S1x64x64_S64x64 : S64x64.Idx → EReal) := by
  after_results_simp
  all_goals try simp only [↓ofBuf_toBuf]
  all_goals try simp only [TRef.ofBuf, TRef.toBuf, cast_eq]
  all_goals try rfl

theorem kernel_w2 (V : Valuation τ sig (Elt Ideal)) :
    (after (Gen.hostOps7 (F := Ideal)) V (Proc.devRef .tc main_v94) : S64x64.Idx → EReal)
      = (shapeCast S64x64 (extractStridedSlice S1x64x64 ![2, 0, 0] (V (Proc.devRef .tc main_arg9)) slices_S5x64x64_S1x64x64_2_0_0) shapeCasts_S1x64x64_S64x64 : S64x64.Idx → EReal) := by
  after_results_simp
  all_goals try simp only [↓ofBuf_toBuf]
  all_goals try simp only [TRef.ofBuf, TRef.toBuf, cast_eq]
  all_goals try rfl

theorem kernel_b1 (V : Valuation τ sig (Elt Ideal)) :
    (after (Gen.hostOps7 (F := Ideal)) V (Proc.devRef .tc main_v97) : S1x64.Idx → EReal)
      = (shapeCast S1x64 (shapeCast S64 (extractStridedSlice S1x64 ![2, 0] (V (Proc.devRef .tc main_arg8)) slices_S5x64_S1x64_2_0) shapeCasts_S1x64_S64) shapeCasts_S64_S1x64 : S1x64.Idx → EReal) := by
  after_results_simp
  all_goals try simp only [↓ofBuf_toBuf]
  all_goals try simp only [TRef.ofBuf, TRef.toBuf, cast_eq]
  all_goals try rfl

theorem kernel_b2 (V : Valuation τ sig (Elt Ideal)) :
    (after (Gen.hostOps7 (F := Ideal)) V (Proc.devRef .tc main_v98) : S1x64.Idx → EReal)
      = (shapeCast S1x64 (shapeCast S64 (extractStridedSlice S1x64 ![2, 0] (V (Proc.devRef .tc main_arg10)) slices_S5x64_S1x64_2_0) shapeCasts_S1x64_S64) shapeCasts_S64_S1x64 : S1x64.Idx → EReal) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem kernel_mean (V : Valuation τ sig (Elt Ideal)) :
    (after (Gen.hostOps8 (F := Ideal)) V (Proc.devRef .tc main_v102) : S64.Idx → EReal)
      = (Host.divf (Host.reduceAdd (V (Proc.devRef .tc main_v99)) (constant (F := Ideal) S_ .f32 0x00000000#32) reducesTo_S100000x64_S64_d0 h_S_)
          (broadcastInDim S64 ![] bcast_S_S64 (constant (F := Ideal) S_ .f32 0x47C35000#32)) : S64.Idx → EReal) := by
  after_results_simp
  all_goals try simp only [↓ofBuf_toBuf]
  all_goals try simp only [TRef.ofBuf, TRef.toBuf, cast_eq]
  all_goals try rfl

theorem kernel_ddof (V : Valuation τ sig (Elt Ideal)) :
    (after (Gen.hostOps8 (F := Ideal)) V (Proc.devRef .tc main_c_11) : S_.Idx → BitVec 32) = (constantI S_ 32 0#32 : S_.Idx → BitVec 32) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem kernel_var (V : Valuation τ sig (Elt Ideal)) :
    (after (Gen.hostOps8_1 (F := Ideal)) V (Proc.devRef .tc main_v103) : S64.Idx → EReal)
      = (select (broadcastInDim S64 ![] bcast_S_S64
          (cmpf .ogt (subf (constant (F := Ideal) S_ .f32 0x47C35000#32) (sitofp .f32 (V (Proc.devRef .tc main_c_11)))) (constant (F := Ideal) S_ .f32 0x00000000#32)))
        (Host.divf
          (Host.reduceAdd
            (mulf
              (subf (V (Proc.devRef .tc main_v99)) (broadcastInDim S100000x64 ![0, 1] bcast_S1x64_S100000x64_0_1
                (Host.divf (broadcastInDim S1x64 ![1] bcast_S64_S1x64_1
                    (Host.reduceAdd (V (Proc.devRef .tc main_v99)) (constant (F := Ideal) S_ .f32 0x00000000#32) reducesTo_S100000x64_S64_d0 h_S_))
                  (broadcastInDim S1x64 ![] bcast_S_S1x64 (constant (F := Ideal) S_ .f32 0x47C35000#32)))))
              (subf (V (Proc.devRef .tc main_v99)) (broadcastInDim S100000x64 ![0, 1] bcast_S1x64_S100000x64_0_1
                (Host.divf (broadcastInDim S1x64 ![1] bcast_S64_S1x64_1
                    (Host.reduceAdd (V (Proc.devRef .tc main_v99)) (constant (F := Ideal) S_ .f32 0x00000000#32) reducesTo_S100000x64_S64_d0 h_S_))
                  (broadcastInDim S1x64 ![] bcast_S_S1x64 (constant (F := Ideal) S_ .f32 0x47C35000#32))))))
            (constant (F := Ideal) S_ .f32 0x00000000#32) reducesTo_S100000x64_S64_d0 h_S_)
          (broadcastInDim S64 ![] bcast_S_S64 (subf (constant (F := Ideal) S_ .f32 0x47C35000#32) (sitofp .f32 (V (Proc.devRef .tc main_c_11))))))
        (broadcastInDim S64 ![] bcast_S_S64 (id (constant (F := Ideal) S_ .f32 0x7FC00000#32))) : S64.Idx → EReal) := by
  after_results_simp
  all_goals try simp only [↓ofBuf_toBuf]
  all_goals try simp only [TRef.ofBuf, TRef.toBuf, cast_eq]
  all_goals try rfl

theorem kernel_mean_row (V : Valuation τ sig (Elt Ideal)) :
    (after (Gen.hostOps8_2 (F := Ideal)) V (Proc.devRef .tc main_v108) : S1x64.Idx → EReal)
      = (shapeCast S1x64 (V (Proc.devRef .tc main_v102)) shapeCasts_S64_S1x64 : S1x64.Idx → EReal) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem kernel_rstd_row (V : Valuation τ sig (Elt Ideal)) :
    (after (Gen.hostOps8_2 (F := Ideal)) V (Proc.devRef .tc main_v112) : S1x64.Idx → EReal)
      = (shapeCast S1x64 (Host.rsqrt (addf (V (Proc.devRef .tc main_v103)) (broadcastInDim S64 ![] bcast_S_S64 (constant (F := Ideal) S_ .f32 0x3727C5AC#32)))) shapeCasts_S64_S1x64 : S1x64.Idx → EReal) := by
  after_results_simp
  all_goals try simp only [↓ofBuf_toBuf]
  all_goals try simp only [TRef.ofBuf, TRef.toBuf, cast_eq]
  all_goals try rfl

theorem kernel_gain_row (V : Valuation τ sig (Elt Ideal)) :
    (after (Gen.hostOps8_2 (F := Ideal)) V (Proc.devRef .tc main_v113) : S1x64.Idx → EReal)
      = (shapeCast S1x64 (shapeCast S64 (extractStridedSlice S1x64 ![2, 0] (V (Proc.devRef .tc main_arg11)) slices_S5x64_S1x64_2_0) shapeCasts_S1x64_S64) shapeCasts_S64_S1x64 : S1x64.Idx → EReal) := by
  after_results_simp
  all_goals try simp only [↓ofBuf_toBuf]
  all_goals try simp only [TRef.ofBuf, TRef.toBuf, cast_eq]
  all_goals try rfl

theorem kernel_offset_row (V : Valuation τ sig (Elt Ideal)) :
    (after (Gen.hostOps8_2 (F := Ideal)) V (Proc.devRef .tc main_v114) : S1x64.Idx → EReal)
      = (shapeCast S1x64 (shapeCast S64 (extractStridedSlice S1x64 ![2, 0] (V (Proc.devRef .tc main_arg12)) slices_S5x64_S1x64_2_0) shapeCasts_S1x64_S64) shapeCasts_S64_S1x64 : S1x64.Idx → EReal) := by
  after_results_simp
  all_goals try simp only [↓ofBuf_toBuf]
  all_goals try simp only [TRef.ofBuf, TRef.toBuf, cast_eq]
  all_goals try rfl

end Kernel

section Reference
open Cert.ReferenceIdeal Cert.ReferenceIdeal.Ops
open Cert.ReferenceIdeal.Facts₀ Cert.ReferenceIdeal.Facts

theorem ref_src (V : Valuation τ sig (Elt Ideal)) :
    (after (chunkH (F := Ideal)) V (Proc.devRef .tc main_v1) : S1000000.Idx → BitVec 32)
      = (shapeCast S1000000 (extractStridedSlice S1x1000000 ![0, 0] (V (Proc.devRef .tc main_arg1)) slices_S2x1000000_S1x1000000_0_0) shapeCasts_S1x1000000_S1000000 : S1000000.Idx → BitVec 32) := by
  after_results_simp
  all_goals try simp only [↓ofBuf_toBuf]
  all_goals try simp only [TRef.ofBuf, TRef.toBuf, cast_eq]
  all_goals try rfl

theorem ref_dst (V : Valuation τ sig (Elt Ideal)) :
    (after (chunkH (F := Ideal)) V (Proc.devRef .tc main_v3) : S1000000.Idx → BitVec 32)
      = (shapeCast S1000000 (extractStridedSlice S1x1000000 ![1, 0] (V (Proc.devRef .tc main_arg1)) slices_S2x1000000_S1x1000000_1_0) shapeCasts_S1x1000000_S1000000 : S1000000.Idx → BitVec 32) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem ref_messages (V : Valuation τ sig (Elt Ideal)) :
    ((after (chunkL2 (F := Ideal)) V (Proc.devRef .tc main_v151)) : S1000000x64.Idx → EReal)
      = (maximumf (F := Ideal)
          (addf (Host.gather gather_S100000x64_S1000000x1_S1000000x64_1_0_n_n_0_1_164 (V (Proc.devRef .tc main_v134)) (broadcastInDim S1000000x1 ![0] bcast_S1000000_S1000000x1_0
            (select (cmpi .slt (V (Proc.devRef .tc main_v1)) (broadcastInDim S1000000 ![] bcast_S_S1000000 (constantI S_ 32 0#32)))
              (addi (V (Proc.devRef .tc main_v1)) (broadcastInDim S1000000 ![] bcast_S_S1000000 (constantI S_ 32 100000#32))) (V (Proc.devRef .tc main_v1)))))
            (addf (Host.dotGeneral (φ₁ := .f32) (φ₂ := .f32) dot_S1000000x7_S7x64_S1000000x64_1_0_0_1_n_n none (V (Proc.devRef .tc main_arg2))
                (shapeCast S7x64 (extractStridedSlice S1x7x64 ![2, 0, 0] (V (Proc.devRef .tc main_arg5)) slices_S5x7x64_S1x7x64_2_0_0) shapeCasts_S1x7x64_S7x64))
              (broadcastInDim S1000000x64 ![0, 1] bcast_S1x64_S1000000x64_0_1 (broadcastInDim S1x64 ![1] bcast_S64_S1x64_1 (shapeCast S64 (extractStridedSlice S1x64 ![2, 0] (V (Proc.devRef .tc main_arg6)) slices_S5x64_S1x64_2_0) shapeCasts_S1x64_S64)))))
          (broadcastInDim S1000000x64 ![] bcast_S_S1000000x64 (constant (F := Ideal) S_ .f32 0x00000000#32)) : S1000000x64.Idx → EReal) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem ref_sums (V : Valuation τ sig (Elt Ideal)) :
    ((after (chunkL2 (F := Ideal)) V (Proc.devRef .tc main_v154)) : S100000x64.Idx → EReal)
      = (Host.scatterAdd scatter_S100000x64_S1000000x1_S1000000x64_1_0_0_1 (broadcastInDim S100000x64 ![] bcast_S_S100000x64 (constant (F := Ideal) S_ .f32 0x00000000#32))
          (broadcastInDim S1000000x1 ![0] bcast_S1000000_S1000000x1_0 (V (Proc.devRef .tc main_v3))) (after (chunkL2 (F := Ideal)) V (Proc.devRef .tc main_v151)) : S100000x64.Idx → EReal) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem ref_perceptron (V : Valuation τ sig (Elt Ideal)) :
    ((after (chunkL2 (F := Ideal)) V (Proc.devRef .tc main_v172)) : S100000x64.Idx → EReal)
      = (addf (F := Ideal)
          (Host.dotGeneral (φ₁ := .f32) (φ₂ := .f32) dot_S100000x64_S64x64_S100000x64_1_0_0_1_n_n none (maximumf (addf (Host.dotGeneral (φ₁ := .f32) (φ₂ := .f32) dot_S100000x64_S64x64_S100000x64_1_0_0_1_n_n none (addf (V (Proc.devRef .tc main_v134)) (after (chunkL2 (F := Ideal)) V (Proc.devRef .tc main_v154))) (shapeCast S64x64 (extractStridedSlice S1x64x64 ![2, 0, 0] (V (Proc.devRef .tc main_arg7)) slices_S5x64x64_S1x64x64_2_0_0) shapeCasts_S1x64x64_S64x64)) (broadcastInDim S100000x64 ![0, 1] bcast_S1x64_S100000x64_0_1 (broadcastInDim S1x64 ![1] bcast_S64_S1x64_1 (shapeCast S64 (extractStridedSlice S1x64 ![2, 0] (V (Proc.devRef .tc main_arg8)) slices_S5x64_S1x64_2_0) shapeCasts_S1x64_S64)))) (broadcastInDim S100000x64 ![] bcast_S_S100000x64 (constant (F := Ideal) S_ .f32 0x00000000#32))) (shapeCast S64x64 (extractStridedSlice S1x64x64 ![2, 0, 0] (V (Proc.devRef .tc main_arg9)) slices_S5x64x64_S1x64x64_2_0_0) shapeCasts_S1x64x64_S64x64))
          (broadcastInDim S100000x64 ![0, 1] bcast_S1x64_S100000x64_0_1 (broadcastInDim S1x64 ![1] bcast_S64_S1x64_1 (shapeCast S64 (extractStridedSlice S1x64 ![2, 0] (V (Proc.devRef .tc main_arg10)) slices_S5x64_S1x64_2_0) shapeCasts_S1x64_S64))) : S100000x64.Idx → EReal) := by
  after_results_simp
  all_goals try simp only [↓ofBuf_toBuf]
  all_goals try simp only [TRef.ofBuf, TRef.toBuf, cast_eq]
  all_goals try rfl

attribute [local irreducible] Host.gather Host.reduce Host.reduceAdd Host.scatterAdd broadcastInDim select cmpi cmpf addi andi constantI constant in

theorem ref_normalised (V : Valuation τ sig (Elt Ideal)) :
    ((after (chunkL2 (F := Ideal)) V (Proc.devRef .tc main_v196)) : S100000x64.Idx → EReal)
      = (maximumf (F := Ideal)
          (addf (mulf (mulf (subf (after (chunkL2 (F := Ideal)) V (Proc.devRef .tc main_v172)) (broadcastInDim S100000x64 ![0, 1] bcast_S1x64_S100000x64_0_1 (broadcastInDim S1x64 ![1] bcast_S64_S1x64_1 (Host.divf (Host.reduceAdd (after (chunkL2 (F := Ideal)) V (Proc.devRef .tc main_v172)) (constant (F := Ideal) S_ .f32 0x00000000#32) reducesTo_S100000x64_S64_d0 h_S_) (broadcastInDim S64 ![] bcast_S_S64 (constant (F := Ideal) S_ .f32 0x47C35000#32)))))) (broadcastInDim S100000x64 ![0, 1] bcast_S1x64_S100000x64_0_1 (broadcastInDim S1x64 ![1] bcast_S64_S1x64_1 (Host.rsqrt (addf (select (broadcastInDim S64 ![] bcast_S_S64
          (cmpf .ogt (subf (constant (F := Ideal) S_ .f32 0x47C35000#32) (sitofp .f32 (constantI S_ 32 0#32))) (constant (F := Ideal) S_ .f32 0x00000000#32)))
        (Host.divf
          (Host.reduceAdd
            (mulf
              (subf (after (chunkL2 (F := Ideal)) V (Proc.devRef .tc main_v172)) (broadcastInDim S100000x64 ![0, 1] bcast_S1x64_S100000x64_0_1
                (Host.divf (broadcastInDim S1x64 ![1] bcast_S64_S1x64_1
                    (Host.reduceAdd (after (chunkL2 (F := Ideal)) V (Proc.devRef .tc main_v172)) (constant (F := Ideal) S_ .f32 0x00000000#32) reducesTo_S100000x64_S64_d0 h_S_))
                  (broadcastInDim S1x64 ![] bcast_S_S1x64 (constant (F := Ideal) S_ .f32 0x47C35000#32)))))
              (subf (after (chunkL2 (F := Ideal)) V (Proc.devRef .tc main_v172)) (broadcastInDim S100000x64 ![0, 1] bcast_S1x64_S100000x64_0_1
                (Host.divf (broadcastInDim S1x64 ![1] bcast_S64_S1x64_1
                    (Host.reduceAdd (after (chunkL2 (F := Ideal)) V (Proc.devRef .tc main_v172)) (constant (F := Ideal) S_ .f32 0x00000000#32) reducesTo_S100000x64_S64_d0 h_S_))
                  (broadcastInDim S1x64 ![] bcast_S_S1x64 (constant (F := Ideal) S_ .f32 0x47C35000#32))))))
            (constant (F := Ideal) S_ .f32 0x00000000#32) reducesTo_S100000x64_S64_d0 h_S_)
          (broadcastInDim S64 ![] bcast_S_S64 (subf (constant (F := Ideal) S_ .f32 0x47C35000#32) (sitofp .f32 (constantI S_ 32 0#32)))))
        (broadcastInDim S64 ![] bcast_S_S64 (id (constant (F := Ideal) S_ .f32 0x7FC00000#32)))) (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 (shapeCast S64 (extractStridedSlice S1x64 ![2, 0] (V (Proc.devRef .tc main_arg11)) slices_S5x64_S1x64_2_0) shapeCasts_S1x64_S64)))) (broadcastInDim S100000x64 ![0, 1] bcast_S1x64_S100000x64_0_1 (broadcastInDim S1x64 ![1] bcast_S64_S1x64_1 (shapeCast S64 (extractStridedSlice S1x64 ![2, 0] (V (Proc.devRef .tc main_arg12)) slices_S5x64_S1x64_2_0) shapeCasts_S1x64_S64))))
          (broadcastInDim S100000x64 ![] bcast_S_S100000x64 (constant (F := Ideal) S_ .f32 0x00000000#32)) : S100000x64.Idx → EReal) := by
  after_results_simp
  all_goals try simp only [↓ofBuf_toBuf]
  all_goals try simp only [TRef.ofBuf, TRef.toBuf, cast_eq]
  all_goals try rfl

end Reference

section Walk
open Cert.KernelIdeal.Keep Cert.ReferenceIdeal.Keep

abbrev dstOf (a1 : IVec Cert.KernelIdeal.S2x1000000 32) : IVec Cert.KernelIdeal.S1000000 32 :=
  shapeCast Cert.KernelIdeal.S1000000 (extractStridedSlice Cert.KernelIdeal.S1x1000000 ![1, 0] a1 Cert.KernelIdeal.Facts₀.slices_S2x1000000_S1x1000000_1_0) Cert.KernelIdeal.Facts₀.shapeCasts_S1x1000000_S1000000

theorem ref_arg_L1 (c : Dev Cert.ReferenceIdeal.nD) (b : Ref Cert.ReferenceIdeal.sig .tc) (hb : b.idx.val < 15) :
    UL1 m' c (Proc.devRef .tc b) = m' ((c.tc : Thread Cert.ReferenceIdeal.nD Cert.ReferenceIdeal.τ).loc b) :=
  (keep_chunkL1 _ b (by omega)).trans ((keep_chunkL0 _ b (by omega)).trans (keep_chunkH _ b hb))

theorem kernel_src_L1 (c : Dev Cert.KernelIdeal.nD) :
    ((Cert.KernelIdeal.Gen.W20 m ρ c (Proc.devRef .tc Cert.KernelIdeal.main_v1)) : Cert.KernelIdeal.S1000000.Idx → BitVec 32) = (Cert.KernelIdeal.Take.srcOf (m ((c.tc : Thread Cert.KernelIdeal.nD Cert.KernelIdeal.τ).loc Cert.KernelIdeal.main_arg1))) :=
  ((W20_kept m ρ c Cert.KernelIdeal.main_v1 (by decide))).trans (kernel_src (Cert.KernelIdeal.Gen.W0 m ρ c))

theorem ref_src_L1 (hA : Agree m' m) (c : Dev Cert.KernelIdeal.nD) :
    ((UL1 m' c (Proc.devRef .tc Cert.ReferenceIdeal.main_v1)) : Cert.KernelIdeal.S1000000.Idx → BitVec 32) = (Cert.KernelIdeal.Take.srcOf (m ((c.tc : Thread Cert.KernelIdeal.nD Cert.KernelIdeal.τ).loc Cert.KernelIdeal.main_arg1))) := by
  refine (keep_chunkL1 _ Cert.ReferenceIdeal.main_v1 (by decide)).trans ((keep_chunkL0 _ Cert.ReferenceIdeal.main_v1 (by decide)).trans ((ref_src (U0 m' c)).trans ?_))
  show shapeCast Cert.ReferenceIdeal.S1000000 (extractStridedSlice Cert.ReferenceIdeal.S1x1000000 ![0, 0] (m' ((c.tc : Thread Cert.ReferenceIdeal.nD Cert.ReferenceIdeal.τ).loc Cert.ReferenceIdeal.main_arg1)) _) _ = _
  rw [(hA c).2.1]

theorem kernel_dst_L2 (c : Dev Cert.KernelIdeal.nD) :
    ((Cert.KernelIdeal.Gen.W23 m ρ c (Proc.devRef .tc Cert.KernelIdeal.main_v3)) : Cert.KernelIdeal.S1000000.Idx → BitVec 32) = dstOf (m ((c.tc : Thread Cert.KernelIdeal.nD Cert.KernelIdeal.τ).loc Cert.KernelIdeal.main_arg1)) :=
  ((W23_kept m ρ c Cert.KernelIdeal.main_v3 (by decide))).trans (kernel_dst (Cert.KernelIdeal.Gen.W0 m ρ c))

theorem ref_dst_L1 (hA : Agree m' m) (c : Dev Cert.KernelIdeal.nD) :
    ((UL1 m' c (Proc.devRef .tc Cert.ReferenceIdeal.main_v3)) : Cert.KernelIdeal.S1000000.Idx → BitVec 32) = dstOf (m ((c.tc : Thread Cert.KernelIdeal.nD Cert.KernelIdeal.τ).loc Cert.KernelIdeal.main_arg1)) := by
  refine (keep_chunkL1 _ Cert.ReferenceIdeal.main_v3 (by decide)).trans ((keep_chunkL0 _ Cert.ReferenceIdeal.main_v3 (by decide)).trans ((ref_dst (U0 m' c)).trans ?_))
  show shapeCast Cert.ReferenceIdeal.S1000000 (extractStridedSlice Cert.ReferenceIdeal.S1x1000000 ![1, 0] (m' ((c.tc : Thread Cert.ReferenceIdeal.nD Cert.ReferenceIdeal.τ).loc Cert.ReferenceIdeal.main_arg1)) _) _ = _
  rw [(hA c).2.1]

attribute [local irreducible] Host.gather Host.reduce in

theorem sources_eq (hA : Agree m' m) (hs : SrcInRange m) (c : Dev Cert.KernelIdeal.nD) (h : Inv1 m' m ρ c) :
    ((Cert.KernelIdeal.Gen.W22 m ρ c (Proc.devRef .tc Cert.KernelIdeal.main_v79)) : Cert.Spec.E64.Idx → EReal)
      = (Host.gather Cert.ReferenceIdeal.gather_S100000x64_S1000000x1_S1000000x64_1_0_n_n_0_1_164 (UL1 m' c (Proc.devRef .tc Cert.ReferenceIdeal.main_v134)) (broadcastInDim Cert.ReferenceIdeal.S1000000x1 ![0] Cert.ReferenceIdeal.Facts₀.bcast_S1000000_S1000000x1_0
            (select (cmpi .slt (UL1 m' c (Proc.devRef .tc Cert.ReferenceIdeal.main_v1)) (broadcastInDim Cert.ReferenceIdeal.S1000000 ![] Cert.ReferenceIdeal.Facts₀.bcast_S_S1000000 (constantI Cert.ReferenceIdeal.S_ 32 0#32)))
              (addi (UL1 m' c (Proc.devRef .tc Cert.ReferenceIdeal.main_v1)) (broadcastInDim Cert.ReferenceIdeal.S1000000 ![] Cert.ReferenceIdeal.Facts₀.bcast_S_S1000000 (constantI Cert.ReferenceIdeal.S_ 32 100000#32))) (UL1 m' c (Proc.devRef .tc Cert.ReferenceIdeal.main_v1))))) := by
  have hr := Cert.KernelIdeal.Take.srcOf_range (m ((c.tc : Thread Cert.KernelIdeal.nD Cert.KernelIdeal.τ).loc Cert.KernelIdeal.main_arg1)) (hs c)
  have h' : ((Cert.KernelIdeal.Gen.W20 m ρ c (Proc.devRef .tc Cert.KernelIdeal.main_v78)) : Cert.Spec.N64.Idx → EReal) = (UL1 m' c (Proc.devRef .tc Cert.ReferenceIdeal.main_v134)) := h
  refine (keep_hostOps6_1 _ Cert.KernelIdeal.main_v79 (by decide)).trans ((kernel_sources (Cert.KernelIdeal.Gen.W20 m ρ c)).trans ?_)
  rw [kernel_src_L1 m ρ c, Cert.KernelIdeal.Take.take_src _ hr, ref_src_L1 m' m hA c, h']
  rfl

theorem messages_eq (hA : Agree m' m) (hs : SrcInRange m) (c : Dev Cert.KernelIdeal.nD) (h : Inv1 m' m ρ c) :
    ((Cert.KernelIdeal.Gen.W23 m ρ c (Proc.devRef .tc Cert.KernelIdeal.main_v85)) : Cert.Spec.E64.Idx → EReal) = ((UL2 m' c (Proc.devRef .tc Cert.ReferenceIdeal.main_v151)) : Cert.Spec.E64.Idx → EReal) := by
  obtain ⟨a0, a1, a2, a3, a4, a5, a6, a7, a8, a9, a10, a11, a12, a13, a14⟩ := hA c
  have i1 := sources_eq m' m ρ hA hs c h
  have i2 : ((Cert.KernelIdeal.Gen.W22 m ρ c (Proc.devRef .tc Cert.KernelIdeal.main_arg2)) : Cert.Spec.E7.Idx → EReal) = (UL1 m' c (Proc.devRef .tc Cert.ReferenceIdeal.main_arg2)) :=
    (((W22_kept m ρ c Cert.KernelIdeal.main_arg2 (by decide)).trans (W1_arg m ρ c Cert.KernelIdeal.main_arg2 (by decide)))).trans (a2.symm.trans (ref_arg_L1 m' c Cert.ReferenceIdeal.main_arg2 (by decide)).symm)
  have i3 : ((Cert.KernelIdeal.Gen.W22 m ρ c (Proc.devRef .tc Cert.KernelIdeal.main_v81)) : Cert.Spec.W7x64.Idx → EReal) = (shapeCast Cert.ReferenceIdeal.S7x64 (extractStridedSlice Cert.ReferenceIdeal.S1x7x64 ![2, 0, 0] (UL1 m' c (Proc.devRef .tc Cert.ReferenceIdeal.main_arg5)) Cert.ReferenceIdeal.Facts₀.slices_S5x7x64_S1x7x64_2_0_0) Cert.ReferenceIdeal.Facts₀.shapeCasts_S1x7x64_S7x64) := by
    refine (kernel_edge_weights (Cert.KernelIdeal.Gen.W21 m ρ c)).trans ?_
    rw [((W21_kept m ρ c Cert.KernelIdeal.main_arg5 (by decide)).trans (W1_arg m ρ c Cert.KernelIdeal.main_arg5 (by decide))), ref_arg_L1 m' c Cert.ReferenceIdeal.main_arg5 (by decide), a5]
  have i4 : ((Cert.KernelIdeal.Gen.W22 m ρ c (Proc.devRef .tc Cert.KernelIdeal.main_v84)) : Cert.Spec.R64.Idx → EReal) = (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg6)) Cert.ReferenceIdeal.Facts₀.slices_S5x64_S1x64_2_0) Cert.ReferenceIdeal.Facts₀.shapeCasts_S1x64_S64)) := by
    refine (kernel_edge_bias (Cert.KernelIdeal.Gen.W21 m ρ c)).trans ?_
    rw [((W21_kept m ρ c Cert.KernelIdeal.main_arg6 (by decide)).trans (W1_arg m ρ c Cert.KernelIdeal.main_arg6 (by decide))), ref_arg_L1 m' c Cert.ReferenceIdeal.main_arg6 (by decide), a6]
    exact Cert.Rows.row_eq _ _ _
  have e : Cert.Spec.edgeG (Cert.KernelIdeal.Gen.W22 m ρ c (Proc.devRef .tc Cert.KernelIdeal.main_v79)) (Cert.KernelIdeal.Gen.W22 m ρ c (Proc.devRef .tc Cert.KernelIdeal.main_arg2)) (Cert.KernelIdeal.Gen.W22 m ρ c (Proc.devRef .tc Cert.KernelIdeal.main_v81)) (Cert.KernelIdeal.Gen.W22 m ρ c (Proc.devRef .tc Cert.KernelIdeal.main_v84))
      = Cert.Spec.edgeG (Host.gather Cert.ReferenceIdeal.gather_S100000x64_S1000000x1_S1000000x64_1_0_n_n_0_1_164 (UL1 m' c (Proc.devRef .tc Cert.ReferenceIdeal.main_v134)) (broadcastInDim Cert.ReferenceIdeal.S1000000x1 ![0] Cert.ReferenceIdeal.Facts₀.bcast_S1000000_S1000000x1_0
            (select (cmpi .slt (UL1 m' c (Proc.devRef .tc Cert.ReferenceIdeal.main_v1)) (broadcastInDim Cert.ReferenceIdeal.S1000000 ![] Cert.ReferenceIdeal.Facts₀.bcast_S_S1000000 (constantI Cert.ReferenceIdeal.S_ 32 0#32)))
              (addi (UL1 m' c (Proc.devRef .tc Cert.ReferenceIdeal.main_v1)) (broadcastInDim Cert.ReferenceIdeal.S1000000 ![] Cert.ReferenceIdeal.Facts₀.bcast_S_S1000000 (constantI Cert.ReferenceIdeal.S_ 32 100000#32))) (UL1 m' c (Proc.devRef .tc Cert.ReferenceIdeal.main_v1))))) (UL1 m' c (Proc.devRef .tc Cert.ReferenceIdeal.main_arg2)) (shapeCast Cert.ReferenceIdeal.S7x64 (extractStridedSlice Cert.ReferenceIdeal.S1x7x64 ![2, 0, 0] (UL1 m' c (Proc.devRef .tc Cert.ReferenceIdeal.main_arg5)) Cert.ReferenceIdeal.Facts₀.slices_S5x7x64_S1x7x64_2_0_0) Cert.ReferenceIdeal.Facts₀.shapeCasts_S1x7x64_S7x64) (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg6)) Cert.ReferenceIdeal.Facts₀.slices_S5x64_S1x64_2_0) Cert.ReferenceIdeal.Facts₀.shapeCasts_S1x64_S64)) := by
    rw [i1, i2, i3, i4]
  exact (Cert.KernelIdeal.Gen.W23_arr m ρ c 4).trans ((Cert.KernelIdeal.RegionValue.region6 (Cert.KernelIdeal.Gen.V22 m ρ) c).trans
    (e.trans ((Cert.ReferenceIdeal.Kinds.ref_edge _ _ _ _).symm.trans (ref_messages (UL1 m' c)).symm)))

attribute [local irreducible] Host.scatterAdd in

theorem sums_eq (hA : Agree m' m) (hs : SrcInRange m) (c : Dev Cert.KernelIdeal.nD) (h : Inv1 m' m ρ c) :
    ((Cert.KernelIdeal.Gen.W24 m ρ c (Proc.devRef .tc Cert.KernelIdeal.main_v88)) : Cert.Spec.N64.Idx → EReal) = ((UL2 m' c (Proc.devRef .tc Cert.ReferenceIdeal.main_v154)) : Cert.Spec.N64.Idx → EReal) := by
  refine (kernel_sums (Cert.KernelIdeal.Gen.W23 m ρ c)).trans (Eq.trans ?_ (ref_sums (UL1 m' c)).symm)
  rw [kernel_dst_L2 m ρ c, ref_dst_L1 m' m hA c, messages_eq m' m ρ hA hs c h]
  rfl

theorem perceptron_eq (hA : Agree m' m) (hs : SrcInRange m) (c : Dev Cert.KernelIdeal.nD) (h : Inv1 m' m ρ c) :
    ((Cert.KernelIdeal.Gen.W25 m ρ c (Proc.devRef .tc Cert.KernelIdeal.main_v99)) : Cert.Spec.N64.Idx → EReal) = ((UL2 m' c (Proc.devRef .tc Cert.ReferenceIdeal.main_v172)) : Cert.Spec.N64.Idx → EReal) := by
  obtain ⟨a0, a1, a2, a3, a4, a5, a6, a7, a8, a9, a10, a11, a12, a13, a14⟩ := hA c
  have j1 : ((Cert.KernelIdeal.Gen.W24 m ρ c (Proc.devRef .tc Cert.KernelIdeal.main_v78)) : Cert.Spec.N64.Idx → EReal) = (UL1 m' c (Proc.devRef .tc Cert.ReferenceIdeal.main_v134)) :=
    (keep_hostOps7 _ Cert.KernelIdeal.main_v78 (by decide)).trans ((Cert.KernelIdeal.Gen.W23_of_ne m ρ c Cert.KernelIdeal.main_v78 (by decide)).trans
      ((keep_hostOps6_1 _ Cert.KernelIdeal.main_v78 (by decide)).trans ((keep_hostOps6 _ Cert.KernelIdeal.main_v78 (by decide)).trans h)))
  have j2 := sums_eq m' m ρ hA hs c h
  have j3 : ((Cert.KernelIdeal.Gen.W24 m ρ c (Proc.devRef .tc Cert.KernelIdeal.main_v90)) : Cert.Spec.W64x64.Idx → EReal) = (shapeCast Cert.ReferenceIdeal.S64x64 (extractStridedSlice Cert.ReferenceIdeal.S1x64x64 ![2, 0, 0] (UL1 m' c (Proc.devRef .tc Cert.ReferenceIdeal.main_arg7)) Cert.ReferenceIdeal.Facts₀.slices_S5x64x64_S1x64x64_2_0_0) Cert.ReferenceIdeal.Facts₀.shapeCasts_S1x64x64_S64x64) := by
    refine (kernel_w1 (Cert.KernelIdeal.Gen.W23 m ρ c)).trans ?_
    rw [((W23_kept m ρ c Cert.KernelIdeal.main_arg7 (by decide)).trans (W1_arg m ρ c Cert.KernelIdeal.main_arg7 (by decide))), ref_arg_L1 m' c Cert.ReferenceIdeal.main_arg7 (by decide), a7]
  have j4 : ((Cert.KernelIdeal.Gen.W24 m ρ c (Proc.devRef .tc Cert.KernelIdeal.main_v97)) : Cert.Spec.R64.Idx → EReal) = (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg8)) Cert.ReferenceIdeal.Facts₀.slices_S5x64_S1x64_2_0) Cert.ReferenceIdeal.Facts₀.shapeCasts_S1x64_S64)) := by
    refine (kernel_b1 (Cert.KernelIdeal.Gen.W23 m ρ c)).trans ?_
    rw [((W23_kept m ρ c Cert.KernelIdeal.main_arg8 (by decide)).trans (W1_arg m ρ c Cert.KernelIdeal.main_arg8 (by decide))), ref_arg_L1 m' c Cert.ReferenceIdeal.main_arg8 (by decide), a8]
    exact Cert.Rows.row_eq _ _ _
  have j5 : ((Cert.KernelIdeal.Gen.W24 m ρ c (Proc.devRef .tc Cert.KernelIdeal.main_v94)) : Cert.Spec.W64x64.Idx → EReal) = (shapeCast Cert.ReferenceIdeal.S64x64 (extractStridedSlice Cert.ReferenceIdeal.S1x64x64 ![2, 0, 0] (UL1 m' c (Proc.devRef .tc Cert.ReferenceIdeal.main_arg9)) Cert.ReferenceIdeal.Facts₀.slices_S5x64x64_S1x64x64_2_0_0) Cert.ReferenceIdeal.Facts₀.shapeCasts_S1x64x64_S64x64) := by
    refine (kernel_w2 (Cert.KernelIdeal.Gen.W23 m ρ c)).trans ?_
    rw [((W23_kept m ρ c Cert.KernelIdeal.main_arg9 (by decide)).trans (W1_arg m ρ c Cert.KernelIdeal.main_arg9 (by decide))), ref_arg_L1 m' c Cert.ReferenceIdeal.main_arg9 (by decide), a9]
  have j6 : ((Cert.KernelIdeal.Gen.W24 m ρ c (Proc.devRef .tc Cert.KernelIdeal.main_v98)) : Cert.Spec.R64.Idx → EReal) = (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg10)) Cert.ReferenceIdeal.Facts₀.slices_S5x64_S1x64_2_0) Cert.ReferenceIdeal.Facts₀.shapeCasts_S1x64_S64)) := by
    refine (kernel_b2 (Cert.KernelIdeal.Gen.W23 m ρ c)).trans ?_
    rw [((W23_kept m ρ c Cert.KernelIdeal.main_arg10 (by decide)).trans (W1_arg m ρ c Cert.KernelIdeal.main_arg10 (by decide))), ref_arg_L1 m' c Cert.ReferenceIdeal.main_arg10 (by decide), a10]
    exact Cert.Rows.row_eq _ _ _
  have e : Cert.Spec.mlpG (Cert.KernelIdeal.Gen.W24 m ρ c (Proc.devRef .tc Cert.KernelIdeal.main_v78)) (Cert.KernelIdeal.Gen.W24 m ρ c (Proc.devRef .tc Cert.KernelIdeal.main_v88)) (Cert.KernelIdeal.Gen.W24 m ρ c (Proc.devRef .tc Cert.KernelIdeal.main_v90)) (Cert.KernelIdeal.Gen.W24 m ρ c (Proc.devRef .tc Cert.KernelIdeal.main_v97)) (Cert.KernelIdeal.Gen.W24 m ρ c (Proc.devRef .tc Cert.KernelIdeal.main_v94)) (Cert.KernelIdeal.Gen.W24 m ρ c (Proc.devRef .tc Cert.KernelIdeal.main_v98))
      = Cert.Spec.mlpG (UL1 m' c (Proc.devRef .tc Cert.ReferenceIdeal.main_v134)) (UL2 m' c (Proc.devRef .tc Cert.ReferenceIdeal.main_v154)) (shapeCast Cert.ReferenceIdeal.S64x64 (extractStridedSlice Cert.ReferenceIdeal.S1x64x64 ![2, 0, 0] (UL1 m' c (Proc.devRef .tc Cert.ReferenceIdeal.main_arg7)) Cert.ReferenceIdeal.Facts₀.slices_S5x64x64_S1x64x64_2_0_0) Cert.ReferenceIdeal.Facts₀.shapeCasts_S1x64x64_S64x64) (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg8)) Cert.ReferenceIdeal.Facts₀.slices_S5x64_S1x64_2_0) Cert.ReferenceIdeal.Facts₀.shapeCasts_S1x64_S64))
          (shapeCast Cert.ReferenceIdeal.S64x64 (extractStridedSlice Cert.ReferenceIdeal.S1x64x64 ![2, 0, 0] (UL1 m' c (Proc.devRef .tc Cert.ReferenceIdeal.main_arg9)) Cert.ReferenceIdeal.Facts₀.slices_S5x64x64_S1x64x64_2_0_0) Cert.ReferenceIdeal.Facts₀.shapeCasts_S1x64x64_S64x64) (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg10)) Cert.ReferenceIdeal.Facts₀.slices_S5x64_S1x64_2_0) Cert.ReferenceIdeal.Facts₀.shapeCasts_S1x64_S64)) := by
    rw [j1, j2, j3, j4, j5, j6]
  exact (Cert.KernelIdeal.Gen.W25_arr m ρ c 6).trans ((Cert.KernelIdeal.RegionValue.region7 (Cert.KernelIdeal.Gen.V24 m ρ) c).trans
    (e.trans ((Cert.ReferenceIdeal.Kinds.ref_mlp _ _ _ _ _ _).symm.trans (ref_perceptron (UL1 m' c)).symm)))

attribute [local irreducible] Host.reduceAdd Host.gather Host.scatterAdd in

theorem normalised_eq (hA : Agree m' m) (hs : SrcInRange m) (c : Dev Cert.KernelIdeal.nD) (h : Inv1 m' m ρ c) :
    ((Cert.KernelIdeal.Gen.W29 m ρ c (Proc.devRef .tc Cert.KernelIdeal.main_v115)) : Cert.Spec.N64.Idx → EReal) = ((UL2 m' c (Proc.devRef .tc Cert.ReferenceIdeal.main_v196)) : Cert.Spec.N64.Idx → EReal) := by
  obtain ⟨a0, a1, a2, a3, a4, a5, a6, a7, a8, a9, a10, a11, a12, a13, a14⟩ := hA c
  have z25 := perceptron_eq m' m ρ hA hs c h
  have n1 : ((Cert.KernelIdeal.Gen.W28 m ρ c (Proc.devRef .tc Cert.KernelIdeal.main_v99)) : Cert.Spec.N64.Idx → EReal) = (UL2 m' c (Proc.devRef .tc Cert.ReferenceIdeal.main_v172)) :=
    (keep_hostOps8_2 _ Cert.KernelIdeal.main_v99 (by decide)).trans ((keep_hostOps8_1 _ Cert.KernelIdeal.main_v99 (by decide)).trans
      ((keep_hostOps8 _ Cert.KernelIdeal.main_v99 (by decide)).trans z25))
  have z26 : ((Cert.KernelIdeal.Gen.W26 m ρ c (Proc.devRef .tc Cert.KernelIdeal.main_v99)) : Cert.Spec.N64.Idx → EReal) = (UL2 m' c (Proc.devRef .tc Cert.ReferenceIdeal.main_v172)) :=
    (keep_hostOps8 _ Cert.KernelIdeal.main_v99 (by decide)).trans z25
  have n2 : ((Cert.KernelIdeal.Gen.W28 m ρ c (Proc.devRef .tc Cert.KernelIdeal.main_v108)) : Cert.Spec.R64.Idx → EReal) = (broadcastInDim Cert.ReferenceIdeal.S1x64 ![1] Cert.ReferenceIdeal.Facts₀.bcast_S64_S1x64_1 (Host.divf (Host.reduceAdd (UL2 m' c (Proc.devRef .tc Cert.ReferenceIdeal.main_v172)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)))) := by
    refine (kernel_mean_row (Cert.KernelIdeal.Gen.W27 m ρ c)).trans ?_
    rw [show (Cert.KernelIdeal.Gen.W27 m ρ c (Proc.devRef .tc Cert.KernelIdeal.main_v102)) = (Cert.KernelIdeal.Gen.W26 m ρ c (Proc.devRef .tc Cert.KernelIdeal.main_v102)) from keep_hostOps8_1 _ Cert.KernelIdeal.main_v102 (by decide),
      show (Cert.KernelIdeal.Gen.W26 m ρ c (Proc.devRef .tc Cert.KernelIdeal.main_v102)) = _ from kernel_mean (Cert.KernelIdeal.Gen.W25 m ρ c), z25]
    exact Cert.Rows.row_eq _ _ _
  have n3 : ((Cert.KernelIdeal.Gen.W28 m ρ c (Proc.devRef .tc Cert.KernelIdeal.main_v112)) : Cert.Spec.R64.Idx → EReal) = (broadcastInDim Cert.ReferenceIdeal.S1x64 ![1] Cert.ReferenceIdeal.Facts₀.bcast_S64_S1x64_1 (Host.rsqrt (addf (select (broadcastInDim Cert.ReferenceIdeal.S64 ![] Cert.ReferenceIdeal.Facts₀.bcast_S_S64
          (cmpf .ogt (subf (constant (F := Ideal) Cert.ReferenceIdeal.S_ .f32 0x47C35000#32) (sitofp .f32 (constantI Cert.ReferenceIdeal.S_ 32 0#32))) (constant (F := Ideal) Cert.ReferenceIdeal.S_ .f32 0x00000000#32)))
        (Host.divf
          (Host.reduceAdd
            (mulf
              (subf (UL2 m' c (Proc.devRef .tc Cert.ReferenceIdeal.main_v172)) (broadcastInDim Cert.ReferenceIdeal.S100000x64 ![0, 1] Cert.ReferenceIdeal.Facts₀.bcast_S1x64_S100000x64_0_1
                (Host.divf (broadcastInDim Cert.ReferenceIdeal.S1x64 ![1] Cert.ReferenceIdeal.Facts₀.bcast_S64_S1x64_1
                    (Host.reduceAdd (UL2 m' c (Proc.devRef .tc Cert.ReferenceIdeal.main_v172)) (constant (F := Ideal) Cert.ReferenceIdeal.S_ .f32 0x00000000#32) Cert.ReferenceIdeal.Facts₀.reducesTo_S100000x64_S64_d0 Cert.ReferenceIdeal.Facts₀.h_S_))
                  (broadcastInDim Cert.ReferenceIdeal.S1x64 ![] Cert.ReferenceIdeal.Facts₀.bcast_S_S1x64 (constant (F := Ideal) Cert.ReferenceIdeal.S_ .f32 0x47C35000#32)))))
              (subf (UL2 m' c (Proc.devRef .tc Cert.ReferenceIdeal.main_v172)) (broadcastInDim Cert.ReferenceIdeal.S100000x64 ![0, 1] Cert.ReferenceIdeal.Facts₀.bcast_S1x64_S100000x64_0_1
                (Host.divf (broadcastInDim Cert.ReferenceIdeal.S1x64 ![1] Cert.ReferenceIdeal.Facts₀.bcast_S64_S1x64_1
                    (Host.reduceAdd (UL2 m' c (Proc.devRef .tc Cert.ReferenceIdeal.main_v172)) (constant (F := Ideal) Cert.ReferenceIdeal.S_ .f32 0x00000000#32) Cert.ReferenceIdeal.Facts₀.reducesTo_S100000x64_S64_d0 Cert.ReferenceIdeal.Facts₀.h_S_))
                  (broadcastInDim Cert.ReferenceIdeal.S1x64 ![] Cert.ReferenceIdeal.Facts₀.bcast_S_S1x64 (constant (F := Ideal) Cert.ReferenceIdeal.S_ .f32 0x47C35000#32))))))
            (constant (F := Ideal) Cert.ReferenceIdeal.S_ .f32 0x00000000#32) Cert.ReferenceIdeal.Facts₀.reducesTo_S100000x64_S64_d0 Cert.ReferenceIdeal.Facts₀.h_S_)
          (broadcastInDim Cert.ReferenceIdeal.S64 ![] Cert.ReferenceIdeal.Facts₀.bcast_S_S64 (subf (constant (F := Ideal) Cert.ReferenceIdeal.S_ .f32 0x47C35000#32) (sitofp .f32 (constantI Cert.ReferenceIdeal.S_ 32 0#32)))))
        (broadcastInDim Cert.ReferenceIdeal.S64 ![] Cert.ReferenceIdeal.Facts₀.bcast_S_S64 (id (constant (F := Ideal) Cert.ReferenceIdeal.S_ .f32 0x7FC00000#32)))) (broadcastInDim Cert.ReferenceIdeal.S64 ![] Cert.ReferenceIdeal.Facts₀.bcast_S_S64 (constant (F := Ideal) Cert.ReferenceIdeal.S_ .f32 0x3727C5AC#32))))) := by
    refine (kernel_rstd_row (Cert.KernelIdeal.Gen.W27 m ρ c)).trans ?_
    rw [show (Cert.KernelIdeal.Gen.W27 m ρ c (Proc.devRef .tc Cert.KernelIdeal.main_v103)) = _ from kernel_var (Cert.KernelIdeal.Gen.W26 m ρ c), z26,
      show (Cert.KernelIdeal.Gen.W26 m ρ c (Proc.devRef .tc Cert.KernelIdeal.main_c_11)) = _ from kernel_ddof (Cert.KernelIdeal.Gen.W25 m ρ c)]
    exact Cert.Rows.row_eq _ _ _
  have n4 : ((Cert.KernelIdeal.Gen.W28 m ρ c (Proc.devRef .tc Cert.KernelIdeal.main_v113)) : Cert.Spec.R64.Idx → EReal) = (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg11)) Cert.ReferenceIdeal.Facts₀.slices_S5x64_S1x64_2_0) Cert.ReferenceIdeal.Facts₀.shapeCasts_S1x64_S64)) := by
    refine (kernel_gain_row (Cert.KernelIdeal.Gen.W27 m ρ c)).trans ?_
    rw [((W27_kept m ρ c Cert.KernelIdeal.main_arg11 (by decide)).trans (W1_arg m ρ c Cert.KernelIdeal.main_arg11 (by decide))), ref_arg_L1 m' c Cert.ReferenceIdeal.main_arg11 (by decide), a11]
    exact Cert.Rows.row_eq _ _ _
  have n5 : ((Cert.KernelIdeal.Gen.W28 m ρ c (Proc.devRef .tc Cert.KernelIdeal.main_v114)) : Cert.Spec.R64.Idx → EReal) = (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg12)) Cert.ReferenceIdeal.Facts₀.slices_S5x64_S1x64_2_0) Cert.ReferenceIdeal.Facts₀.shapeCasts_S1x64_S64)) := by
    refine (kernel_offset_row (Cert.KernelIdeal.Gen.W27 m ρ c)).trans ?_
    rw [((W27_kept m ρ c Cert.KernelIdeal.main_arg12 (by decide)).trans (W1_arg m ρ c Cert.KernelIdeal.main_arg12 (by decide))), ref_arg_L1 m' c Cert.ReferenceIdeal.main_arg12 (by decide), a12]
    exact Cert.Rows.row_eq _ _ _
  have e : Cert.Spec.bnReluG (Cert.KernelIdeal.Gen.W28 m ρ c (Proc.devRef .tc Cert.KernelIdeal.main_v99)) (Cert.KernelIdeal.Gen.W28 m ρ c (Proc.devRef .tc Cert.KernelIdeal.main_v108)) (Cert.KernelIdeal.Gen.W28 m ρ c (Proc.devRef .tc Cert.KernelIdeal.main_v112)) (Cert.KernelIdeal.Gen.W28 m ρ c (Proc.devRef .tc Cert.KernelIdeal.main_v113)) (Cert.KernelIdeal.Gen.W28 m ρ c (Proc.devRef .tc Cert.KernelIdeal.main_v114))
      = Cert.Spec.bnReluG (UL2 m' c (Proc.devRef .tc Cert.ReferenceIdeal.main_v172)) (broadcastInDim Cert.ReferenceIdeal.S1x64 ![1] Cert.ReferenceIdeal.Facts₀.bcast_S64_S1x64_1 (Host.divf (Host.reduceAdd (UL2 m' c (Proc.devRef .tc Cert.ReferenceIdeal.main_v172)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)))) (broadcastInDim Cert.ReferenceIdeal.S1x64 ![1] Cert.ReferenceIdeal.Facts₀.bcast_S64_S1x64_1 (Host.rsqrt (addf (select (broadcastInDim Cert.ReferenceIdeal.S64 ![] Cert.ReferenceIdeal.Facts₀.bcast_S_S64
          (cmpf .ogt (subf (constant (F := Ideal) Cert.ReferenceIdeal.S_ .f32 0x47C35000#32) (sitofp .f32 (constantI Cert.ReferenceIdeal.S_ 32 0#32))) (constant (F := Ideal) Cert.ReferenceIdeal.S_ .f32 0x00000000#32)))
        (Host.divf
          (Host.reduceAdd
            (mulf
              (subf (UL2 m' c (Proc.devRef .tc Cert.ReferenceIdeal.main_v172)) (broadcastInDim Cert.ReferenceIdeal.S100000x64 ![0, 1] Cert.ReferenceIdeal.Facts₀.bcast_S1x64_S100000x64_0_1
                (Host.divf (broadcastInDim Cert.ReferenceIdeal.S1x64 ![1] Cert.ReferenceIdeal.Facts₀.bcast_S64_S1x64_1
                    (Host.reduceAdd (UL2 m' c (Proc.devRef .tc Cert.ReferenceIdeal.main_v172)) (constant (F := Ideal) Cert.ReferenceIdeal.S_ .f32 0x00000000#32) Cert.ReferenceIdeal.Facts₀.reducesTo_S100000x64_S64_d0 Cert.ReferenceIdeal.Facts₀.h_S_))
                  (broadcastInDim Cert.ReferenceIdeal.S1x64 ![] Cert.ReferenceIdeal.Facts₀.bcast_S_S1x64 (constant (F := Ideal) Cert.ReferenceIdeal.S_ .f32 0x47C35000#32)))))
              (subf (UL2 m' c (Proc.devRef .tc Cert.ReferenceIdeal.main_v172)) (broadcastInDim Cert.ReferenceIdeal.S100000x64 ![0, 1] Cert.ReferenceIdeal.Facts₀.bcast_S1x64_S100000x64_0_1
                (Host.divf (broadcastInDim Cert.ReferenceIdeal.S1x64 ![1] Cert.ReferenceIdeal.Facts₀.bcast_S64_S1x64_1
                    (Host.reduceAdd (UL2 m' c (Proc.devRef .tc Cert.ReferenceIdeal.main_v172)) (constant (F := Ideal) Cert.ReferenceIdeal.S_ .f32 0x00000000#32) Cert.ReferenceIdeal.Facts₀.reducesTo_S100000x64_S64_d0 Cert.ReferenceIdeal.Facts₀.h_S_))
                  (broadcastInDim Cert.ReferenceIdeal.S1x64 ![] Cert.ReferenceIdeal.Facts₀.bcast_S_S1x64 (constant (F := Ideal) Cert.ReferenceIdeal.S_ .f32 0x47C35000#32))))))
            (constant (F := Ideal) Cert.ReferenceIdeal.S_ .f32 0x00000000#32) Cert.ReferenceIdeal.Facts₀.reducesTo_S100000x64_S64_d0 Cert.ReferenceIdeal.Facts₀.h_S_)
          (broadcastInDim Cert.ReferenceIdeal.S64 ![] Cert.ReferenceIdeal.Facts₀.bcast_S_S64 (subf (constant (F := Ideal) Cert.ReferenceIdeal.S_ .f32 0x47C35000#32) (sitofp .f32 (constantI Cert.ReferenceIdeal.S_ 32 0#32)))))
        (broadcastInDim Cert.ReferenceIdeal.S64 ![] Cert.ReferenceIdeal.Facts₀.bcast_S_S64 (id (constant (F := Ideal) Cert.ReferenceIdeal.S_ .f32 0x7FC00000#32)))) (broadcastInDim Cert.ReferenceIdeal.S64 ![] Cert.ReferenceIdeal.Facts₀.bcast_S_S64 (constant (F := Ideal) Cert.ReferenceIdeal.S_ .f32 0x3727C5AC#32))))) (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg11)) Cert.ReferenceIdeal.Facts₀.slices_S5x64_S1x64_2_0) Cert.ReferenceIdeal.Facts₀.shapeCasts_S1x64_S64)) (broadcastInDim Cert.ReferenceIdeal.S1x64 ![1] Cert.ReferenceIdeal.Facts₀.bcast_S64_S1x64_1 (shapeCast Cert.ReferenceIdeal.S64 (extractStridedSlice Cert.ReferenceIdeal.S1x64 ![2, 0] (UL1 m' c (Proc.devRef .tc Cert.ReferenceIdeal.main_arg12)) Cert.ReferenceIdeal.Facts₀.slices_S5x64_S1x64_2_0) Cert.ReferenceIdeal.Facts₀.shapeCasts_S1x64_S64)) := by
    rw [n1, n2, n3, n4, n5]
  exact (Cert.KernelIdeal.Gen.W29_arr m ρ c 5).trans ((Cert.KernelIdeal.RegionValue.region8 (Cert.KernelIdeal.Gen.V28 m ρ) c).trans
    (e.trans ((Cert.ReferenceIdeal.Kinds.ref_bn_relu _ _ _ _ _).symm.trans (ref_normalised (UL1 m' c)).symm)))

end Walk

end Layer2

theorem layer2 (hA : Agree m' m) (hs : SrcInRange m) (c : Dev Cert.KernelIdeal.nD) (h : Inv1 m' m ρ c) : Inv2 m' m ρ c := by
  exact Layer2.normalised_eq m' m ρ hA hs c h

end Cert.Sim

end
-- ==== Proof.Region9.lean ====
import proofs.«408039_j61503931678734_1_alg».proof.Proof.Region0

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts : ∀ t : Fin cfg9.N,
    win9_4.index t (0 : Fin 2) = t.val ∧ win9_4.index t (1 : Fin 2) = 0
    ∧ win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

private theorem mem_blk (t : Fin cfg9.N) (i : S1000000x64.Idx) :
    i ∈ ((cfg9.win 4).blk t).view.set ↔ ∀ a : Fin 2, win9_4.index t a * S8000x64.size a ≤ (i a).val ∧ (i a).val < win9_4.index t a * S8000x64.size a + S8000x64.size a := by
  show i ∈ ((View.whole (Pipeline.arrRef spec9 4)).slice (win9_4.rect t)).set ↔ _
  rw [View.set_slice_whole, Rect.mem_set_unit]
  exact Iff.rfl

private theorem cover (i : S1000000x64.Idx) :
    ∃ t : Fin cfg9.N, (cfg9.win 4).flush t = true ∧ i ∈ ((cfg9.win 4).blk t).view.set := by
  have hi0 : (i 0).val < 1000000 := (i 0).isLt
  have hi1 : (i 1).val < 64 := (i 1).isLt
  have hN : cfg9.N = 125 := N_9
  refine ⟨⟨(i 0).val / 8000, by rw [hN]; omega⟩, flush9_4 _, ?_⟩
  rw [mem_blk]
  obtain ⟨e0, e1, -⟩ := idx_facts ⟨(i 0).val / 8000, by rw [hN]; omega⟩
  intro a
  match a with
  | ⟨0, _⟩ =>
    show win9_4.index ⟨(i 0).val / 8000, _⟩ (0 : Fin 2) * 8000 ≤ (i 0).val ∧ (i 0).val < win9_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win9_4.index ⟨(i 0).val / 8000, _⟩ (1 : Fin 2) * 64 ≤ (i 1).val ∧ (i 1).val < win9_4.index ⟨(i 0).val / 8000, _⟩ (1 : Fin 2) * 64 + 64
    rw [e1]; omega

private theorem rows_emb (t : Fin cfg9.N) (j : S8000x64.Idx) :
    ((cfg9.win 0).blk t).view.emb j = ((cfg9.win 4).blk t).view.emb j := by
  obtain ⟨e40, e41, e00, e01, -⟩ := idx_facts t
  funext a; apply Fin.ext
  match a with
  | ⟨0, _⟩ => show win9_0.index t (0 : Fin 2) * 8000 + 1 * (j 0).val = win9_4.index t (0 : Fin 2) * 8000 + 1 * (j 0).val; omega
  | ⟨1, _⟩ => show win9_0.index t (1 : Fin 2) * 64 + 1 * (j 1).val = win9_4.index t (1 : Fin 2) * 64 + 1 * (j 1).val; omega

private theorem attr_emb (t : Fin cfg9.N) (j : S8000x64.Idx) (k : Fin 7) :
    ((cfg9.win 1).blk t).view.emb (ix2 (j 0) k) = (ix2 ((((cfg9.win 4).blk t).view.emb j) 0) k : S1000000x7.Idx) := by
  obtain ⟨e40, e41, e00, e01, e10, e11, -⟩ := idx_facts t
  funext a; apply Fin.ext
  match a with
  | ⟨0, _⟩ => show win9_1.index t (0 : Fin 2) * 8000 + 1 * (j 0).val = win9_4.index t (0 : Fin 2) * 8000 + 1 * (j 0).val; omega
  | ⟨1, _⟩ => show win9_1.index t (1 : Fin 2) * 7 + 1 * k.val = k.val; omega

private theorem weight_emb (t : Fin cfg9.N) (j : S8000x64.Idx) (k : Fin 7) :
    ((cfg9.win 2).blk t).view.emb (ix2 k (j 1)) = (ix2 k ((((cfg9.win 4).blk t).view.emb j) 1) : S7x64.Idx) := by
  obtain ⟨e40, e41, e00, e01, e10, e11, e20, e21, -⟩ := idx_facts t
  funext a; apply Fin.ext
  match a with
  | ⟨0, _⟩ => show win9_2.index t (0 : Fin 2) * 7 + 1 * k.val = k.val; omega
  | ⟨1, _⟩ => show win9_2.index t (1 : Fin 2) * 64 + 1 * (j 1).val = win9_4.index t (1 : Fin 2) * 64 + 1 * (j 1).val; omega

private theorem bias_emb (t : Fin cfg9.N) (j : S8000x64.Idx) :
    ((cfg9.win 3).blk t).view.emb (ix2 (0 : Fin 1) (j 1)) = (ix2 (0 : Fin 1) ((((cfg9.win 4).blk t).view.emb j) 1) : S1x64.Idx) := by
  obtain ⟨e40, e41, e00, e01, e10, e11, e20, e21, e30, e31⟩ := idx_facts t
  funext a; apply Fin.ext
  match a with
  | ⟨0, _⟩ => show win9_3.index t (0 : Fin 2) * 1 + 1 * 0 = 0; omega
  | ⟨1, _⟩ => show win9_3.index t (1 : Fin 2) * 64 + 1 * (j 1).val = win9_4.index t (1 : Fin 2) * 64 + 1 * (j 1).val; omega

private theorem flushed_eq (c : Dev nD) (t : Fin cfg9.N) :
    (dat9 (F := Ideal) V c).flushed 4 t
      = ((cfg9.win 4).blk t).view.read (Elt Ideal)
          (Cert.Spec.edgeG (V c main_v116) (V c main_arg2) (V c main_v118) (V c main_v121)) := by
  show (cfg9.win 4).cut (grid9.coords t) ((dat9 (F := Ideal) V c).after 4 t) = _
  rw [after9_4]
  unfold out9_4
  rw [View.canon_unit_zero zero_offsets]
  simp only [View.ld_unit_zero (S := S8000x7) zero_offsets, View.ld_unit_zero (S := S7x64) zero_offsets,
    View.ld_unit_zero (S := S1x64) zero_offsets, View.ld_unit_zero (S := S8000x64) zero_offsets]
  refine funext fun (j : S8000x64.Idx) => ?_
  show k0_pay1 (F := Ideal) (iblk9 V c 1 t) (iblk9 V c 2 t) (iblk9 V c 3 t) (iblk9 V c 0 t) j
    = Cert.Spec.edgeG (V c main_v116) (V c main_arg2) (V c main_v118) (V c main_v121) (((cfg9.win 4).blk t).view.emb j)
  refine message_block_eq_spec (V c main_v116) (V c main_arg2) (V c main_v118) (V c main_v121)
    (iblk9 V c 0 t) (iblk9 V c 1 t) (iblk9 V c 2 t) (iblk9 V c 3 t) j (((cfg9.win 4).blk t).view.emb j)
    ?_ (fun k => ?_) (fun k => ?_) ?_
  · show V c main_v116 (((cfg9.win 0).blk t).view.emb j) = V c main_v116 (((cfg9.win 4).blk t).view.emb j)
    exact congrArg (V c main_v116) (rows_emb t j)
  · show V c main_arg2 (((cfg9.win 1).blk t).view.emb (ix2 (j 0) k))
      = V c main_arg2 (ix2 ((((cfg9.win 4).blk t).view.emb j) 0) k : S1000000x7.Idx)
    exact congrArg (V c main_arg2) (attr_emb t j k)
  · show V c main_v118 (((cfg9.win 2).blk t).view.emb (ix2 k (j 1)))
      = V c main_v118 (ix2 k ((((cfg9.win 4).blk t).view.emb j) 1) : S7x64.Idx)
    exact congrArg (V c main_v118) (weight_emb t j k)
  · show V c main_v121 (((cfg9.win 3).blk t).view.emb (ix2 (0 : Fin 1) (j 1)))
      = V c main_v121 (ix2 (0 : Fin 1) ((((cfg9.win 4).blk t).view.emb j) 1) : S1x64.Idx)
    exact congrArg (V c main_v121) (bias_emb t j)

theorem region9 (c : Dev nD) :
    (dat9 (F := Ideal) V c).arrAt 4 cfg9.N
      = Cert.Spec.edgeG (V c main_v116) (V c main_arg2) (V c main_v118) (V c main_v121) := by
  exact (dat9 (F := Ideal) V c).arrAt_eq_of_cover 4 _ (fun t _ => flushed_eq V c t) cover

end Cert.KernelIdeal.RegionValue

end
-- ==== Proof.Region10.lean ====
import proofs.«408039_j61503931678734_1_alg».proof.Proof.Region1

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts1 : ∀ t : Fin cfg10.N,
    win10_0.index t (0 : Fin 2) = win10_6.index t (0 : Fin 2) ∧ win10_0.index t (1 : Fin 2) = 0
    ∧ win10_1.index t (0 : Fin 2) = win10_6.index t (0 : Fin 2) ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

private theorem mem_blk1 (t : Fin cfg10.N) (i : S100000x64.Idx) :
    i ∈ ((cfg10.win 6).blk t).view.set ↔ ∀ a : Fin 2, win10_6.index t a * S5000x64.size a ≤ (i a).val
      ∧ (i a).val < win10_6.index t a * S5000x64.size a + S5000x64.size a := by
  show i ∈ ((View.whole main_v136).slice (win10_6.rect t)).set ↔ _
  rw [View.set_slice_whole, Rect.mem_set_unit]
  exact Iff.rfl

private theorem cover1 (i : S100000x64.Idx) :
    ∃ t : Fin cfg10.N, (cfg10.win 6).flush t = true ∧ i ∈ ((cfg10.win 6).blk t).view.set := by
  have hi0 : (i 0).val < 100000 := (i 0).isLt
  have hi1 : (i 1).val < 64 := (i 1).isLt
  have hN : cfg10.N = 20 := N_10
  let t : Fin cfg10.N := ⟨(i 0).val / 5000, by omega⟩
  obtain ⟨-, -, -, -, -, -, -, -, -, -, -, -, e0, e1⟩ := idx_facts1 t
  have ht : t.val = (i 0).val / 5000 := rfl
  refine ⟨t, flush10_6 t, ?_⟩
  rw [mem_blk1]
  intro a
  match a with
  | ⟨0, _⟩ =>
    show win10_6.index t (0 : Fin 2) * 5000 ≤ (i 0).val ∧ (i 0).val < win10_6.index t (0 : Fin 2) * 5000 + 5000
    omega
  | ⟨1, _⟩ =>
    show win10_6.index t (1 : Fin 2) * 64 ≤ (i 1).val ∧ (i 1).val < win10_6.index t (1 : Fin 2) * 64 + 64
    omega

private theorem flushed1_eq (c : Dev nD) (t : Fin cfg10.N) :
    (dat10 (F := Ideal) V c).flushed 6 t = ((cfg10.win 6).blk t).view.read (Elt Ideal)
      (Cert.Spec.mlpG (V c main_v115) (V c main_v125) (V c main_v127) (V c main_v134) (V c main_v131) (V c main_v135)) := by
  show (cfg10.win 6).cut (grid10.coords t) ((dat10 V c).after 6 t) = _
  rw [after10_6]
  unfold out10_6
  rw [View.canon_unit_zero hz1]
  simp only [View.ld_unit_zero (S := S5000x64) hz1, View.ld_unit_zero (S := S64x64) hz1, View.ld_unit_zero (S := S1x64) hz1]
  obtain ⟨a0, b0, a1, b1, a2, b2, a3, b3, a4, b4, a5, b5, e0, e1⟩ := idx_facts1 t
  have hN : cfg10.N = 20 := N_10
  have ht : t.val < 20 := by have := t.isLt; omega

  have w2 : (iblk10 V c 2 t : S64x64.Idx → EReal) = V c main_v127 := funext fun y => by
    show V c main_v127 (((cfg10.win 2).blk t).view.emb y) = V c main_v127 y
    refine congrArg _ (funext fun a => Fin.ext ?_)
    match a with
    | ⟨0, _⟩ => show win10_2.index t (0 : Fin 2) * 64 + 1 * (y 0).val = (y 0).val; omega
    | ⟨1, _⟩ => show win10_2.index t (1 : Fin 2) * 64 + 1 * (y 1).val = (y 1).val; omega
  have w3 : (iblk10 V c 3 t : S1x64.Idx → EReal) = V c main_v134 := funext fun y => by
    show V c main_v134 (((cfg10.win 3).blk t).view.emb y) = V c main_v134 y
    refine congrArg _ (funext fun a => Fin.ext ?_)
    match a with
    | ⟨0, _⟩ => show win10_3.index t (0 : Fin 2) * 1 + 1 * (y 0).val = (y 0).val; omega
    | ⟨1, _⟩ => show win10_3.index t (1 : Fin 2) * 64 + 1 * (y 1).val = (y 1).val; omega
  have w4 : (iblk10 V c 4 t : S64x64.Idx → EReal) = V c main_v131 := funext fun y => by
    show V c main_v131 (((cfg10.win 4).blk t).view.emb y) = V c main_v131 y
    refine congrArg _ (funext fun a => Fin.ext ?_)
    match a with
    | ⟨0, _⟩ => show win10_4.index t (0 : Fin 2) * 64 + 1 * (y 0).val = (y 0).val; omega
    | ⟨1, _⟩ => show win10_4.index t (1 : Fin 2) * 64 + 1 * (y 1).val = (y 1).val; omega
  have w5 : (iblk10 V c 5 t : S1x64.Idx → EReal) = V c main_v135 := funext fun y => by
    show V c main_v135 (((cfg10.win 5).blk t).view.emb y) = V c main_v135 y
    refine congrArg _ (funext fun a => Fin.ext ?_)
    match a with
    | ⟨0, _⟩ => show win10_5.index t (0 : Fin 2) * 1 + 1 * (y 0).val = (y 0).val; omega
    | ⟨1, _⟩ => show win10_5.index t (1 : Fin 2) * 64 + 1 * (y 1).val = (y 1).val; omega

  have h0 : ∀ (p : Fin 5000) (k : Fin 64), (iblk10 V c 0 t : S5000x64.Idx → EReal) (ix2 p k)
      = V c main_v115 (ix2 (row1 t.val ht p) k) := fun p k => by
    show V c main_v115 (((cfg10.win 0).blk t).view.emb (ix2 p k)) = _
    refine congrArg _ (funext fun a => Fin.ext ?_)
    match a with
    | ⟨0, _⟩ => show win10_0.index t (0 : Fin 2) * 5000 + 1 * p.val = t.val * 5000 + p.val; omega
    | ⟨1, _⟩ => show win10_0.index t (1 : Fin 2) * 64 + 1 * k.val = k.val; omega
  have h1 : ∀ (p : Fin 5000) (k : Fin 64), (iblk10 V c 1 t : S5000x64.Idx → EReal) (ix2 p k)
      = V c main_v125 (ix2 (row1 t.val ht p) k) := fun p k => by
    show V c main_v125 (((cfg10.win 1).blk t).view.emb (ix2 p k)) = _
    refine congrArg _ (funext fun a => Fin.ext ?_)
    match a with
    | ⟨0, _⟩ => show win10_1.index t (0 : Fin 2) * 5000 + 1 * p.val = t.val * 5000 + p.val; omega
    | ⟨1, _⟩ => show win10_1.index t (1 : Fin 2) * 64 + 1 * k.val = k.val; omega
  funext j

  have hemb : (((cfg10.win 6).blk t).view.emb j : S100000x64.Idx) = ix2 (row1 t.val ht (j 0)) (j 1) :=
    funext fun a => Fin.ext (by
      match a with
      | ⟨0, _⟩ => show win10_6.index t (0 : Fin 2) * 5000 + 1 * (j 0).val = t.val * 5000 + (j 0).val; omega
      | ⟨1, _⟩ => show win10_6.index t (1 : Fin 2) * 64 + 1 * (j 1).val = (j 1).val; omega)
  show k1_pay1 (iblk10 V c 0 t) (iblk10 V c 1 t) (iblk10 V c 2 t) (iblk10 V c 3 t) (iblk10 V c 4 t) (iblk10 V c 5 t) j
    = Cert.Spec.mlpG (V c main_v115) (V c main_v125) (V c main_v127) (V c main_v134) (V c main_v131) (V c main_v135)
        (((cfg10.win 6).blk t).view.emb j)
  rw [hemb, ← w2, ← w3, ← w4, ← w5]
  exact (congrArg (k1_pay1 (iblk10 V c 0 t) (iblk10 V c 1 t) (iblk10 V c 2 t) (iblk10 V c 3 t) (iblk10 V c 4 t) (iblk10 V c 5 t))
      (eq_ix2 j)).trans
    (pay1_eq_spec (V c main_v115) (V c main_v125) _ _ _ _ _ _ (row1 t.val ht) h0 h1 (j 0) (j 1))

theorem region10 (c : Dev nD) :
    (dat10 (F := Ideal) V c).arrAt 6 cfg10.N
      = Cert.Spec.mlpG (V c main_v115) (V c main_v125) (V c main_v127) (V c main_v134) (V c main_v131) (V c main_v135) :=
  (dat10 (F := Ideal) V c).arrAt_eq_of_cover 6
    (Cert.Spec.mlpG (V c main_v115) (V c main_v125) (V c main_v127) (V c main_v134) (V c main_v131) (V c main_v135))
    (fun t _ => flushed1_eq V c t) cover1

end Cert.KernelIdeal.RegionValue

end
-- ==== Proof.Region11.lean ====
import proofs.«408039_j61503931678734_1_alg».proof.Proof.Region2

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem region11_idx : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem region11_flushed (c : Dev nD) (t : Fin cfg11.N) :
    (dat11 (F := Ideal) V c).flushed 5 t
      = ((cfg11.win 5).blk t).view.read (Elt Ideal)
          (Cert.Spec.bnReluG (V c main_v136) (V c main_v145) (V c main_v149) (V c main_v150) (V c main_v151)) := by
  show (cfg11.win 5).cut (grid11.coords t) ((dat11 V c).after 5 t) = _
  rw [after11_5]
  unfold out11_5
  rw [View.canon_unit_zero region2_zeros]
  simp only [View.ld_unit_zero (S := S5000x64) region2_zeros, View.ld_unit_zero (S := S1x64) region2_zeros]
  obtain ⟨a0, a1, b0, b1, c0, c1, d0, d1, g0, g1, e0, e1⟩ := region11_idx t
  have hN : cfg11.N = 20 := N_11
  have ht : t.val < 20 := hN ▸ t.isLt
  funext j
  obtain ⟨p, q, rfl⟩ : ∃ (p : Fin 5000) (q : Fin 64), j = ix2 p q := ⟨j 0, j 1, eq_ix2 j⟩

  refine (region2_block (iblk11 V c 0 t) (iblk11 V c 1 t) (iblk11 V c 2 t) (iblk11 V c 3 t) (iblk11 V c 4 t)
    (V c main_v136) (V c main_v145) (V c main_v149) (V c main_v150) (V c main_v151)
    (fun p => ⟨t.val * 5000 + p.val, by have := p.isLt; omega⟩) ?_ ?_ ?_ ?_ ?_ p q).trans ?_
  · intro p q
    show V c main_v136 (((cfg11.win 0).blk t).view.emb (ix2 p q)) = V c main_v136 (ix2 ⟨t.val * 5000 + p.val, _⟩ q)
    refine congrArg (V c main_v136) (funext fun a => Fin.ext ?_)
    match a with
    | ⟨0, _⟩ => show win11_0.index t (0 : Fin 2) * 5000 + 1 * p.val = t.val * 5000 + p.val; rw [a0]; omega
    | ⟨1, _⟩ => show win11_0.index t (1 : Fin 2) * 64 + 1 * q.val = q.val; rw [a1]; omega
  · intro q
    show V c main_v145 (((cfg11.win 1).blk t).view.emb (ix2 (0 : Fin 1) q)) = V c main_v145 (ix2 (0 : Fin 1) q)
    refine congrArg (V c main_v145) (funext fun a => Fin.ext ?_)
    match a with
    | ⟨0, _⟩ => show win11_1.index t (0 : Fin 2) * 1 + 1 * 0 = 0; rw [b0]
    | ⟨1, _⟩ => show win11_1.index t (1 : Fin 2) * 64 + 1 * q.val = q.val; rw [b1]; omega
  · intro q
    show V c main_v149 (((cfg11.win 2).blk t).view.emb (ix2 (0 : Fin 1) q)) = V c main_v149 (ix2 (0 : Fin 1) q)
    refine congrArg (V c main_v149) (funext fun a => Fin.ext ?_)
    match a with
    | ⟨0, _⟩ => show win11_2.index t (0 : Fin 2) * 1 + 1 * 0 = 0; rw [c0]
    | ⟨1, _⟩ => show win11_2.index t (1 : Fin 2) * 64 + 1 * q.val = q.val; rw [c1]; omega
  · intro q
    show V c main_v150 (((cfg11.win 3).blk t).view.emb (ix2 (0 : Fin 1) q)) = V c main_v150 (ix2 (0 : Fin 1) q)
    refine congrArg (V c main_v150) (funext fun a => Fin.ext ?_)
    match a with
    | ⟨0, _⟩ => show win11_3.index t (0 : Fin 2) * 1 + 1 * 0 = 0; rw [d0]
    | ⟨1, _⟩ => show win11_3.index t (1 : Fin 2) * 64 + 1 * q.val = q.val; rw [d1]; omega
  · intro q
    show V c main_v151 (((cfg11.win 4).blk t).view.emb (ix2 (0 : Fin 1) q)) = V c main_v151 (ix2 (0 : Fin 1) q)
    refine congrArg (V c main_v151) (funext fun a => Fin.ext ?_)
    match a with
    | ⟨0, _⟩ => show win11_4.index t (0 : Fin 2) * 1 + 1 * 0 = 0; rw [g0]
    | ⟨1, _⟩ => show win11_4.index t (1 : Fin 2) * 64 + 1 * q.val = q.val; rw [g1]; omega
  · show Cert.Spec.bnReluG (V c main_v136) (V c main_v145) (V c main_v149) (V c main_v150) (V c main_v151) (ix2 ⟨t.val * 5000 + p.val, _⟩ q)
      = Cert.Spec.bnReluG (V c main_v136) (V c main_v145) (V c main_v149) (V c main_v150) (V c main_v151)
          (((cfg11.win 5).blk t).view.emb (ix2 p q))
    refine congrArg _ (funext fun a => Fin.ext ?_)
    match a with
    | ⟨0, _⟩ => show t.val * 5000 + p.val = win11_5.index t (0 : Fin 2) * 5000 + 1 * p.val; rw [e0]; omega
    | ⟨1, _⟩ => show q.val = win11_5.index t (1 : Fin 2) * 64 + 1 * q.val; rw [e1]; omega

theorem region11_mem (t : Fin cfg11.N) (i : S100000x64.Idx) :
    i ∈ ((cfg11.win 5).blk t).view.set ↔ ∀ a : Fin 2, win11_5.index t a * S5000x64.size a ≤ (i a).val
      ∧ (i a).val < win11_5.index t a * S5000x64.size a + S5000x64.size a := by
  show i ∈ ((View.whole (Pipeline.arrRef spec11 5)).slice (win11_5.rect t)).set ↔ _
  rw [View.set_slice_whole, Rect.mem_set_unit]
  exact Iff.rfl

theorem region11_cover (i : S100000x64.Idx) :
    ∃ t : Fin cfg11.N, (cfg11.win 5).flush t = true ∧ i ∈ ((cfg11.win 5).blk t).view.set := by
  have hi0 : (i 0).val < 100000 := (i 0).isLt
  have hi1 : (i 1).val < 64 := (i 1).isLt
  have hN : cfg11.N = 20 := N_11
  have ht : (i 0).val / 5000 < cfg11.N := by rw [hN]; omega
  obtain ⟨-, -, -, -, -, -, -, -, -, -, e0, e1⟩ := region11_idx ⟨(i 0).val / 5000, ht⟩
  refine ⟨⟨(i 0).val / 5000, ht⟩, flush11_5 _, ?_⟩
  rw [region11_mem]
  intro a
  match a with
  | ⟨0, _⟩ =>
    show win11_5.index ⟨(i 0).val / 5000, ht⟩ (0 : Fin 2) * 5000 ≤ (i 0).val
      ∧ (i 0).val < win11_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win11_5.index ⟨(i 0).val / 5000, ht⟩ (1 : Fin 2) * 64 ≤ (i 1).val
      ∧ (i 1).val < win11_5.index ⟨(i 0).val / 5000, ht⟩ (1 : Fin 2) * 64 + 64
    rw [e1]; omega

theorem region11 (c : Dev nD) :
    (dat11 (F := Ideal) V c).arrAt 5 cfg11.N
      = Cert.Spec.bnReluG (V c main_v136) (V c main_v145) (V c main_v149) (V c main_v150) (V c main_v151) := by
  exact (dat11 (F := Ideal) V c).arrAt_eq_of_cover 5 _ (fun t _ => region11_flushed V c t) (region11_cover)

end Cert.KernelIdeal.RegionValue

end
-- ==== Proof.Layer3.lean ====
import proofs.«408039_j61503931678734_1_alg».proof.Proof.Sim
import proofs.«408039_j61503931678734_1_alg».proof.Proof.Region9
import proofs.«408039_j61503931678734_1_alg».proof.Proof.Region10
import proofs.«408039_j61503931678734_1_alg».proof.Proof.Region11
import proofs.«408039_j61503931678734_1_alg».proof.Proof.RefEdge
import proofs.«408039_j61503931678734_1_alg».proof.Proof.RefMlp
import proofs.«408039_j61503931678734_1_alg».proof.Proof.RefBn
import proofs.«408039_j61503931678734_1_alg».proof.Proof.TakeMask
import proofs.«408039_j61503931678734_1_alg».proof.Proof.Rows
import Idealize.ShloMosaic.Lib.StableHlo.Run

set_option maxRecDepth 16384

noncomputable section

namespace Cert.Sim

open Idealize.ShloMosaic Idealize.ShloMosaic.TcCoe Idealize.ShloMosaic.StableHlo Idealize.SL.Sem

variable (m' : (ℓ : Loc Cert.ReferenceIdeal.nD Cert.ReferenceIdeal.τ Cert.ReferenceIdeal.sig) → Buf (Elt Ideal) ℓ)
  (m : (ℓ : Loc Cert.KernelIdeal.nD Cert.KernelIdeal.τ Cert.KernelIdeal.sig) → Buf (Elt Ideal) ℓ)
  (ρ : Dev Cert.KernelIdeal.nD → PrngReg)

private theorem ofBuf_toBuf {sg : RefSig} {Val : EltTy → Type} {T : BufTy} (x : StableHlo.TRef sg T) (v : T.Contents Val) :
    x.ofBuf (x.toBuf v) = v := by
  obtain ⟨r, rfl, _, _⟩ := x
  rfl

section KernelSide
open Cert.KernelIdeal Cert.KernelIdeal.Gen Cert.KernelIdeal.Take Cert.KernelIdeal.Keep

abbrev kVec3 (a : FVec Ideal S5x64 .f32) : FVec Ideal S64 .f32 :=
  shapeCast S64 (extractStridedSlice S1x64 ![3, 0] a slices_S5x64_S1x64_3_0) shapeCasts_S1x64_S64

abbrev kMat3 (a : FVec Ideal S5x64x64 .f32) : FVec Ideal S64x64 .f32 :=
  shapeCast S64x64 (extractStridedSlice S1x64x64 ![3, 0, 0] a slices_S5x64x64_S1x64x64_3_0_0) shapeCasts_S1x64x64_S64x64

abbrev kEw3 (a : FVec Ideal S5x7x64 .f32) : FVec Ideal S7x64 .f32 :=
  shapeCast S7x64 (extractStridedSlice S1x7x64 ![3, 0, 0] a slices_S5x7x64_S1x7x64_3_0_0) shapeCasts_S1x7x64_S7x64

abbrev kZero : FVec Ideal S100000x64 .f32 :=
  broadcastInDim S100000x64 ![] bcast_S_S100000x64 (constant (F := Ideal) S_ .f32 0x00000000#32)

abbrev kMean (z : FVec Ideal S100000x64 .f32) : FVec Ideal S64 .f32 :=
  Host.divf (Host.reduceAdd z (constant (F := Ideal) S_ .f32 0x00000000#32) reducesTo_S100000x64_S64_d0 h_S_)
    (broadcastInDim S64 ![] bcast_S_S64 (constant (F := Ideal) S_ .f32 0x47C35000#32))

abbrev kDev (z : FVec Ideal S100000x64 .f32) : FVec Ideal S100000x64 .f32 :=
  subf z (broadcastInDim S100000x64 ![0, 1] bcast_S1x64_S100000x64_0_1
    (Host.divf (broadcastInDim S1x64 ![1] bcast_S64_S1x64_1
        (Host.reduceAdd z (constant (F := Ideal) S_ .f32 0x00000000#32) reducesTo_S100000x64_S64_d0 h_S_))
      (broadcastInDim S1x64 ![] bcast_S_S1x64 (constant (F := Ideal) S_ .f32 0x47C35000#32))))

abbrev kVar (z : FVec Ideal S100000x64 .f32) (c0 : IVec S_ 32) : FVec Ideal S64 .f32 :=
  select (broadcastInDim S64 ![] bcast_S_S64
      (cmpf .ogt (subf (constant (F := Ideal) S_ .f32 0x47C35000#32) (sitofp .f32 c0)) (constant (F := Ideal) S_ .f32 0x00000000#32)))
    (Host.divf (Host.reduceAdd (mulf (kDev z) (kDev z)) (constant (F := Ideal) S_ .f32 0x00000000#32) reducesTo_S100000x64_S64_d0 h_S_)
      (broadcastInDim S64 ![] bcast_S_S64 (subf (constant (F := Ideal) S_ .f32 0x47C35000#32) (sitofp .f32 c0))))
    (broadcastInDim S64 ![] bcast_S_S64 (id (constant (F := Ideal) S_ .f32 0x7FC00000#32)))

abbrev kRs (v : FVec Ideal S64 .f32) : FVec Ideal S64 .f32 :=
  Host.rsqrt (addf v (broadcastInDim S64 ![] bcast_S_S64 (constant (F := Ideal) S_ .f32 0x3727C5AC#32)))

abbrev kDstOf (a1 : IVec S2x1000000 32) : IVec S1000000 32 :=
  shapeCast S1000000 (extractStridedSlice S1x1000000 ![1, 0] a1 slices_S2x1000000_S1x1000000_1_0) shapeCasts_S1x1000000_S1000000

abbrev kSrcOf (a1 : IVec S2x1000000 32) : IVec S1000000 32 :=
  shapeCast S1000000 (extractStridedSlice S1x1000000 ![0, 0] a1 slices_S2x1000000_S1x1000000_0_0) shapeCasts_S1x1000000_S1000000

abbrev kCol (v : IVec S1000000 32) : IVec S1000000x1 32 := broadcastInDim S1000000x1 ![0] bcast_S1000000_S1000000x1_0 v

abbrev kMsgD (h : FVec Ideal S100000x64 .f32) (a1 : IVec S2x1000000 32) (a2 : FVec Ideal S1000000x7 .f32) (a5 : FVec Ideal S5x7x64 .f32)
    (a6 : FVec Ideal S5x64 .f32) : FVec Ideal S1000000x64 .f32 :=
  Cert.Spec.edgeG (Host.gather gather_S100000x64_S1000000x1_S1000000x64_1_0_n_n_0_1_164 h (srcIdx (srcOf a1))) a2 (kEw3 a5) (shapeCast S1x64 (kVec3 a6) shapeCasts_S64_S1x64)

abbrev kAggD (h : FVec Ideal S100000x64 .f32) (a1 : IVec S2x1000000 32) (a2 : FVec Ideal S1000000x7 .f32) (a5 : FVec Ideal S5x7x64 .f32)
    (a6 : FVec Ideal S5x64 .f32) : FVec Ideal S100000x64 .f32 :=
  Host.scatterAdd scatter_S100000x64_S1000000x1_S1000000x64_1_0_0_1 kZero (kCol (kDstOf a1)) (kMsgD h a1 a2 a5 a6)

abbrev kZD (h : FVec Ideal S100000x64 .f32) (a1 : IVec S2x1000000 32) (a2 : FVec Ideal S1000000x7 .f32) (a5 : FVec Ideal S5x7x64 .f32)
    (a6 : FVec Ideal S5x64 .f32) (a7 : FVec Ideal S5x64x64 .f32) (a8 : FVec Ideal S5x64 .f32) (a9 : FVec Ideal S5x64x64 .f32)
    (a10 : FVec Ideal S5x64 .f32) : FVec Ideal S100000x64 .f32 :=
  Cert.Spec.mlpG h (kAggD h a1 a2 a5 a6) (kMat3 a7) (shapeCast S1x64 (kVec3 a8) shapeCasts_S64_S1x64) (kMat3 a9) (shapeCast S1x64 (kVec3 a10) shapeCasts_S64_S1x64)

abbrev kOutD (h : FVec Ideal S100000x64 .f32) (a1 : IVec S2x1000000 32) (a2 : FVec Ideal S1000000x7 .f32) (a5 : FVec Ideal S5x7x64 .f32)
    (a6 : FVec Ideal S5x64 .f32) (a7 : FVec Ideal S5x64x64 .f32) (a8 : FVec Ideal S5x64 .f32) (a9 : FVec Ideal S5x64x64 .f32)
    (a10 a11 a12 : FVec Ideal S5x64 .f32) : FVec Ideal S100000x64 .f32 :=
  Cert.Spec.bnReluG (kZD h a1 a2 a5 a6 a7 a8 a9 a10) (shapeCast S1x64 (kMean (kZD h a1 a2 a5 a6 a7 a8 a9 a10)) shapeCasts_S64_S1x64)
    (shapeCast S1x64 (kRs (kVar (kZD h a1 a2 a5 a6 a7 a8 a9 a10) (constantI S_ 32 0#32))) shapeCasts_S64_S1x64) (shapeCast S1x64 (kVec3 a11) shapeCasts_S64_S1x64) (shapeCast S1x64 (kVec3 a12) shapeCasts_S64_S1x64)

section
attribute [local irreducible] Host.gather Host.reduce Host.reduceAdd Host.scatterAdd Host.rsqrt Host.divf broadcastInDim select cmpi cmpf addi andi constantI constant sitofp extractStridedSlice maximumf addf mulf subf

private theorem k_take (V : Valuation τ sig (Elt Ideal)) :
    (after (hostOps9 (F := Ideal)) V (Proc.devRef .tc main_v116) : S1000000x64.Idx → EReal)
      = select (broadcastInDim S1000000x64 ![0] bcast_S1000000_S1000000x64_0
        (Host.reduce IntOp.andi
          (andi (cmpi .sge (srcIdx (V (Proc.devRef .tc main_v1) : IVec S1000000 32)) (broadcastInDim S1000000x1 ![] bcast_S_S1000000x1 (constantI S_ 32 0#32)))
            (cmpi .sle (srcIdx (V (Proc.devRef .tc main_v1) : IVec S1000000 32)) (broadcastInDim S1000000x1 ![0, 1] bcast_S1x1_S1000000x1_0_1
              (broadcastInDim S1x1 ![1] bcast_S1_S1x1_1 (constantI S1 32 99999#32)))))
          (constantI S_ 1 1#1) reducesTo_S1000000x1_S1000000_d1 h_S_))
      (Host.gather gather_S100000x64_S1000000x1_S1000000x64_1_0_n_n_0_1_164 (V (Proc.devRef .tc main_v115) : FVec Ideal S100000x64 .f32) (srcIdx (V (Proc.devRef .tc main_v1) : IVec S1000000 32)))
      (broadcastInDim S1000000x64 ![] bcast_S_S1000000x64 (constant (F := Ideal) S_ .f32 0x7FC00000#32)) := by
  after_results_simp
  simp only [ofBuf_toBuf]
  rfl

private theorem k_src (V : Valuation τ sig (Elt Ideal)) :
    (after (hostOps0 (F := Ideal)) V (Proc.devRef .tc main_v1) : S1000000.Idx → BitVec 32) = kSrcOf (V (Proc.devRef .tc main_arg1) : IVec S2x1000000 32) := by
  after_results_simp
  first | done | rfl

private theorem k_dst (V : Valuation τ sig (Elt Ideal)) :
    (after (hostOps0 (F := Ideal)) V (Proc.devRef .tc main_v3) : S1000000.Idx → BitVec 32) = kDstOf (V (Proc.devRef .tc main_arg1) : IVec S2x1000000 32) := by
  after_results_simp
  first | done | rfl

private theorem k_ew (V : Valuation τ sig (Elt Ideal)) :
    (after (hostOps9_1 (F := Ideal)) V (Proc.devRef .tc main_v118) : S7x64.Idx → EReal) = kEw3 (V (Proc.devRef .tc main_arg5) : FVec Ideal S5x7x64 .f32) := by
  after_results_simp
  first | done | rfl

private theorem k_eb (V : Valuation τ sig (Elt Ideal)) :
    (after (hostOps9_1 (F := Ideal)) V (Proc.devRef .tc main_v121) : S1x64.Idx → EReal) = shapeCast S1x64 (kVec3 (V (Proc.devRef .tc main_arg6) : FVec Ideal S5x64 .f32)) shapeCasts_S64_S1x64 := by
  after_results_simp
  first | done | rfl

private theorem k_agg (V : Valuation τ sig (Elt Ideal)) :
    (after (hostOps10 (F := Ideal)) V (Proc.devRef .tc main_v125) : S100000x64.Idx → EReal) = Host.scatterAdd scatter_S100000x64_S1000000x1_S1000000x64_1_0_0_1 kZero (kCol (V (Proc.devRef .tc main_v3) : IVec S1000000 32)) (V (Proc.devRef .tc main_v122) : FVec Ideal S1000000x64 .f32) := by
  after_results_simp
  first | done | rfl

private theorem k_w1 (V : Valuation τ sig (Elt Ideal)) :
    (after (hostOps10 (F := Ideal)) V (Proc.devRef .tc main_v127) : S64x64.Idx → EReal) = kMat3 (V (Proc.devRef .tc main_arg7) : FVec Ideal S5x64x64 .f32) := by
  after_results_simp
  first | done | rfl

private theorem k_b1 (V : Valuation τ sig (Elt Ideal)) :
    (after (hostOps10 (F := Ideal)) V (Proc.devRef .tc main_v134) : S1x64.Idx → EReal) = shapeCast S1x64 (kVec3 (V (Proc.devRef .tc main_arg8) : FVec Ideal S5x64 .f32)) shapeCasts_S64_S1x64 := by
  after_results_simp
  first | done | rfl

private theorem k_w2 (V : Valuation τ sig (Elt Ideal)) :
    (after (hostOps10 (F := Ideal)) V (Proc.devRef .tc main_v131) : S64x64.Idx → EReal) = kMat3 (V (Proc.devRef .tc main_arg9) : FVec Ideal S5x64x64 .f32) := by
  after_results_simp
  first | done | rfl

private theorem k_b2 (V : Valuation τ sig (Elt Ideal)) :
    (after (hostOps10 (F := Ideal)) V (Proc.devRef .tc main_v135) : S1x64.Idx → EReal) = shapeCast S1x64 (kVec3 (V (Proc.devRef .tc main_arg10) : FVec Ideal S5x64 .f32)) shapeCasts_S64_S1x64 := by
  after_results_simp
  first | done | rfl

private theorem k_mean (V : Valuation τ sig (Elt Ideal)) :
    (after (hostOps11 (F := Ideal)) V (Proc.devRef .tc main_v139) : S64.Idx → EReal) = kMean (V (Proc.devRef .tc main_v136) : FVec Ideal S100000x64 .f32) := by
  after_results_simp
  first | done | rfl

private theorem k_c16 (V : Valuation τ sig (Elt Ideal)) :
    (after (hostOps11 (F := Ideal)) V (Proc.devRef .tc main_c_16) : S_.Idx → BitVec 32) = constantI S_ 32 0#32 := by
  after_results_simp
  first | done | rfl

private theorem k_var (V : Valuation τ sig (Elt Ideal)) :
    (after (hostOps11_1 (F := Ideal)) V (Proc.devRef .tc main_v140) : S64.Idx → EReal) = kVar (V (Proc.devRef .tc main_v136) : FVec Ideal S100000x64 .f32) (V (Proc.devRef .tc main_c_16) : IVec S_ 32) := by
  after_results_simp
  simp only [ofBuf_toBuf]
  first | done | rfl

private theorem k_mu (V : Valuation τ sig (Elt Ideal)) :
    (after (hostOps11_2 (F := Ideal)) V (Proc.devRef .tc main_v145) : S1x64.Idx → EReal) = shapeCast S1x64 (V (Proc.devRef .tc main_v139) : FVec Ideal S64 .f32) shapeCasts_S64_S1x64 := by
  after_results_simp
  first | done | rfl

private theorem k_rs (V : Valuation τ sig (Elt Ideal)) :
    (after (hostOps11_2 (F := Ideal)) V (Proc.devRef .tc main_v149) : S1x64.Idx → EReal) = shapeCast S1x64 (kRs (V (Proc.devRef .tc main_v140) : FVec Ideal S64 .f32)) shapeCasts_S64_S1x64 := by
  after_results_simp
  first | done | rfl

private theorem k_ga (V : Valuation τ sig (Elt Ideal)) :
    (after (hostOps11_2 (F := Ideal)) V (Proc.devRef .tc main_v150) : S1x64.Idx → EReal) = shapeCast S1x64 (kVec3 (V (Proc.devRef .tc main_arg11) : FVec Ideal S5x64 .f32)) shapeCasts_S64_S1x64 := by
  after_results_simp
  first | done | rfl

private theorem k_be (V : Valuation τ sig (Elt Ideal)) :
    (after (hostOps11_2 (F := Ideal)) V (Proc.devRef .tc main_v151) : S1x64.Idx → EReal) = shapeCast S1x64 (kVec3 (V (Proc.devRef .tc main_arg12) : FVec Ideal S5x64 .f32)) shapeCasts_S64_S1x64 := by
  after_results_simp
  first | done | rfl

variable (c : Dev nD)

private theorem kLayer (hs : SrcInRange m) :
    (W38 m ρ c (Proc.devRef .tc main_v152) : FVec Ideal S100000x64 .f32) = kOutD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by

  have eSrc : (W29 m ρ c (Proc.devRef .tc main_v1) : IVec S1000000 32) = srcOf (m ((c : Thread nD τ).loc main_arg1)) := ((W29_kept m ρ c Cert.KernelIdeal.main_v1 (by decide))).trans (k_src (W0 m ρ c))
  have eDst : (W32 m ρ c (Proc.devRef .tc main_v3) : IVec S1000000 32) = kDstOf (m ((c : Thread nD τ).loc main_arg1)) := ((W32_kept m ρ c Cert.KernelIdeal.main_v3 (by decide))).trans (k_dst (W0 m ρ c))

  have e116 : (W31 m ρ c (Proc.devRef .tc main_v116) : FVec Ideal S1000000x64 .f32)
      = Host.gather gather_S100000x64_S1000000x1_S1000000x64_1_0_n_n_0_1_164 (W29 m ρ c (Proc.devRef .tc main_v115) : FVec Ideal S100000x64 .f32) (srcIdx (srcOf (m ((c : Thread nD τ).loc main_arg1)))) := by
    refine (keep_hostOps9_1 _ main_v116 (by decide)).trans ((k_take (W29 m ρ c)).trans ?_)
    rw [eSrc]
    exact take_src _ (srcOf_range _ (hs c)) _
  have e118 : (W31 m ρ c (Proc.devRef .tc main_v118) : FVec Ideal S7x64 .f32) = kEw3 (m ((c : Thread nD τ).loc main_arg5)) := (k_ew (W30 m ρ c)).trans (congrArg kEw3 (((W30_kept m ρ c Cert.KernelIdeal.main_arg5 (by decide)).trans (W1_arg m ρ c Cert.KernelIdeal.main_arg5 (by decide)))))
  have e121 : (W31 m ρ c (Proc.devRef .tc main_v121) : FVec Ideal S1x64 .f32) = (shapeCast S1x64 (kVec3 (m ((c : Thread nD τ).loc main_arg6))) shapeCasts_S64_S1x64) :=
    (k_eb (W30 m ρ c)).trans (congrArg (fun a => (shapeCast S1x64 (kVec3 a) shapeCasts_S64_S1x64)) (((W30_kept m ρ c Cert.KernelIdeal.main_arg6 (by decide)).trans (W1_arg m ρ c Cert.KernelIdeal.main_arg6 (by decide)))))

  have e122 : (W32 m ρ c (Proc.devRef .tc main_v122) : FVec Ideal S1000000x64 .f32) = kMsgD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) := by
    refine (W32_arr m ρ c 4).trans ((Cert.KernelIdeal.RegionValue.region9 (V31 m ρ) c).trans ?_)
    show Cert.Spec.edgeG (W31 m ρ c (Proc.devRef .tc main_v116) : FVec Ideal S1000000x64 .f32) (W31 m ρ c (Proc.devRef .tc main_arg2)) (W31 m ρ c (Proc.devRef .tc main_v118) : FVec Ideal S7x64 .f32) (W31 m ρ c (Proc.devRef .tc main_v121) : FVec Ideal S1x64 .f32) = _
    rw [e116, ((W31_kept m ρ c Cert.KernelIdeal.main_arg2 (by decide)).trans (W1_arg m ρ c Cert.KernelIdeal.main_arg2 (by decide))), e118, e121]

  have e125 : (W33 m ρ c (Proc.devRef .tc main_v125) : FVec Ideal S100000x64 .f32) = kAggD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) := by
    refine (k_agg (W32 m ρ c)).trans ?_
    rw [eDst, e122]

  have eH : (W33 m ρ c (Proc.devRef .tc main_v115) : FVec Ideal S100000x64 .f32) = (W29 m ρ c (Proc.devRef .tc main_v115) : FVec Ideal S100000x64 .f32) :=
    (keep_hostOps10 _ main_v115 (by decide)).trans ((W32_of_ne m ρ c main_v115 (by decide)).trans
      ((keep_hostOps9_1 _ main_v115 (by decide)).trans (keep_hostOps9 _ main_v115 (by decide))))
  have e127 : (W33 m ρ c (Proc.devRef .tc main_v127) : FVec Ideal S64x64 .f32) = kMat3 (m ((c : Thread nD τ).loc main_arg7)) := (k_w1 (W32 m ρ c)).trans (congrArg kMat3 (((W32_kept m ρ c Cert.KernelIdeal.main_arg7 (by decide)).trans (W1_arg m ρ c Cert.KernelIdeal.main_arg7 (by decide)))))
  have e134 : (W33 m ρ c (Proc.devRef .tc main_v134) : FVec Ideal S1x64 .f32) = (shapeCast S1x64 (kVec3 (m ((c : Thread nD τ).loc main_arg8))) shapeCasts_S64_S1x64) :=
    (k_b1 (W32 m ρ c)).trans (congrArg (fun a => (shapeCast S1x64 (kVec3 a) shapeCasts_S64_S1x64)) (((W32_kept m ρ c Cert.KernelIdeal.main_arg8 (by decide)).trans (W1_arg m ρ c Cert.KernelIdeal.main_arg8 (by decide)))))
  have e131 : (W33 m ρ c (Proc.devRef .tc main_v131) : FVec Ideal S64x64 .f32) = kMat3 (m ((c : Thread nD τ).loc main_arg9)) := (k_w2 (W32 m ρ c)).trans (congrArg kMat3 (((W32_kept m ρ c Cert.KernelIdeal.main_arg9 (by decide)).trans (W1_arg m ρ c Cert.KernelIdeal.main_arg9 (by decide)))))
  have e135 : (W33 m ρ c (Proc.devRef .tc main_v135) : FVec Ideal S1x64 .f32) = (shapeCast S1x64 (kVec3 (m ((c : Thread nD τ).loc main_arg10))) shapeCasts_S64_S1x64) :=
    (k_b2 (W32 m ρ c)).trans (congrArg (fun a => (shapeCast S1x64 (kVec3 a) shapeCasts_S64_S1x64)) (((W32_kept m ρ c Cert.KernelIdeal.main_arg10 (by decide)).trans (W1_arg m ρ c Cert.KernelIdeal.main_arg10 (by decide)))))
  have e136 : (W34 m ρ c (Proc.devRef .tc main_v136) : FVec Ideal S100000x64 .f32) = kZD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
    refine (W34_arr m ρ c 6).trans ((Cert.KernelIdeal.RegionValue.region10 (V33 m ρ) c).trans ?_)
    show Cert.Spec.mlpG (W33 m ρ c (Proc.devRef .tc main_v115) : FVec Ideal S100000x64 .f32) (W33 m ρ c (Proc.devRef .tc main_v125) : FVec Ideal S100000x64 .f32) (W33 m ρ c (Proc.devRef .tc main_v127) : FVec Ideal S64x64 .f32) (W33 m ρ c (Proc.devRef .tc main_v134) : FVec Ideal S1x64 .f32) (W33 m ρ c (Proc.devRef .tc main_v131) : FVec Ideal S64x64 .f32) (W33 m ρ c (Proc.devRef .tc main_v135) : FVec Ideal S1x64 .f32) = _
    rw [eH, e125, e127, e134, e131, e135]

  have eZ35 : (W35 m ρ c (Proc.devRef .tc main_v136) : FVec Ideal S100000x64 .f32) = (kZD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := (keep_hostOps11 _ main_v136 (by decide)).trans e136
  have eZ37 : (W37 m ρ c (Proc.devRef .tc main_v136) : FVec Ideal S100000x64 .f32) = (kZD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
    (keep_hostOps11_2 _ main_v136 (by decide)).trans ((keep_hostOps11_1 _ main_v136 (by decide)).trans eZ35)
  have e139 : (W36 m ρ c (Proc.devRef .tc main_v139) : FVec Ideal S64 .f32) = kMean (kZD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
    (keep_hostOps11_1 _ main_v139 (by decide)).trans ((k_mean (W34 m ρ c)).trans (congrArg kMean e136))
  have eC : (W35 m ρ c (Proc.devRef .tc main_c_16) : IVec S_ 32) = constantI S_ 32 0#32 := k_c16 (W34 m ρ c)
  have e140 : (W36 m ρ c (Proc.devRef .tc main_v140) : FVec Ideal S64 .f32) = kVar (kZD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (constantI S_ 32 0#32) := by
    refine (k_var (W35 m ρ c)).trans ?_
    rw [eZ35, eC]
  have e145 : (W37 m ρ c (Proc.devRef .tc main_v145) : FVec Ideal S1x64 .f32) = (shapeCast S1x64 (kMean (kZD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) shapeCasts_S64_S1x64) :=
    (k_mu (W36 m ρ c)).trans (congrArg (fun v => (shapeCast S1x64 v shapeCasts_S64_S1x64)) e139)
  have e149 : (W37 m ρ c (Proc.devRef .tc main_v149) : FVec Ideal S1x64 .f32) = (shapeCast S1x64 (kRs (kVar (kZD (W29 m ρ c (Proc.devRef .tc main_v115) : FVec Ideal S100000x64 .f32) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (constantI S_ 32 0#32))) shapeCasts_S64_S1x64) :=
    (k_rs (W36 m ρ c)).trans (congrArg (fun v => (shapeCast S1x64 (kRs v) shapeCasts_S64_S1x64)) e140)
  have e150 : (W37 m ρ c (Proc.devRef .tc main_v150) : FVec Ideal S1x64 .f32) = (shapeCast S1x64 (kVec3 (m ((c : Thread nD τ).loc main_arg11))) shapeCasts_S64_S1x64) :=
    (k_ga (W36 m ρ c)).trans (congrArg (fun a => (shapeCast S1x64 (kVec3 a) shapeCasts_S64_S1x64)) (((W36_kept m ρ c Cert.KernelIdeal.main_arg11 (by decide)).trans (W1_arg m ρ c Cert.KernelIdeal.main_arg11 (by decide)))))
  have e151 : (W37 m ρ c (Proc.devRef .tc main_v151) : FVec Ideal S1x64 .f32) = (shapeCast S1x64 (kVec3 (m ((c : Thread nD τ).loc main_arg12))) shapeCasts_S64_S1x64) :=
    (k_be (W36 m ρ c)).trans (congrArg (fun a => (shapeCast S1x64 (kVec3 a) shapeCasts_S64_S1x64)) (((W36_kept m ρ c Cert.KernelIdeal.main_arg12 (by decide)).trans (W1_arg m ρ c Cert.KernelIdeal.main_arg12 (by decide)))))

  refine (W38_arr m ρ c 5).trans ((Cert.KernelIdeal.RegionValue.region11 (V37 m ρ) c).trans ?_)
  show Cert.Spec.bnReluG (W37 m ρ c (Proc.devRef .tc main_v136) : FVec Ideal S100000x64 .f32) (W37 m ρ c (Proc.devRef .tc main_v145) : FVec Ideal S1x64 .f32) (W37 m ρ c (Proc.devRef .tc main_v149) : FVec Ideal S1x64 .f32) (W37 m ρ c (Proc.devRef .tc main_v150) : FVec Ideal S1x64 .f32) (W37 m ρ c (Proc.devRef .tc main_v151) : FVec Ideal S1x64 .f32) = _
  rw [eZ37, e145, e149, e150, e151]

end

end KernelSide

section RefSide
open Cert.ReferenceIdeal Cert.ReferenceIdeal.Ops Cert.ReferenceIdeal.Kinds
open Facts₀ Facts

abbrev rVec3 (a : FVec Ideal S5x64 .f32) : FVec Ideal S64 .f32 :=
  shapeCast S64 (extractStridedSlice S1x64 ![3, 0] a slices_S5x64_S1x64_3_0) shapeCasts_S1x64_S64

abbrev rMat3 (a : FVec Ideal S5x64x64 .f32) : FVec Ideal S64x64 .f32 :=
  shapeCast S64x64 (extractStridedSlice S1x64x64 ![3, 0, 0] a slices_S5x64x64_S1x64x64_3_0_0) shapeCasts_S1x64x64_S64x64

abbrev rEw3 (a : FVec Ideal S5x7x64 .f32) : FVec Ideal S7x64 .f32 :=
  shapeCast S7x64 (extractStridedSlice S1x7x64 ![3, 0, 0] a slices_S5x7x64_S1x7x64_3_0_0) shapeCasts_S1x7x64_S7x64

abbrev rZero : FVec Ideal S100000x64 .f32 :=
  broadcastInDim S100000x64 ![] bcast_S_S100000x64 (constant (F := Ideal) S_ .f32 0x00000000#32)

abbrev rMean (z : FVec Ideal S100000x64 .f32) : FVec Ideal S64 .f32 :=
  Host.divf (Host.reduceAdd z (constant (F := Ideal) S_ .f32 0x00000000#32) reducesTo_S100000x64_S64_d0 h_S_)
    (broadcastInDim S64 ![] bcast_S_S64 (constant (F := Ideal) S_ .f32 0x47C35000#32))

abbrev rDev (z : FVec Ideal S100000x64 .f32) : FVec Ideal S100000x64 .f32 :=
  subf z (broadcastInDim S100000x64 ![0, 1] bcast_S1x64_S100000x64_0_1
    (Host.divf (broadcastInDim S1x64 ![1] bcast_S64_S1x64_1
        (Host.reduceAdd z (constant (F := Ideal) S_ .f32 0x00000000#32) reducesTo_S100000x64_S64_d0 h_S_))
      (broadcastInDim S1x64 ![] bcast_S_S1x64 (constant (F := Ideal) S_ .f32 0x47C35000#32))))

abbrev rVar (z : FVec Ideal S100000x64 .f32) (c0 : IVec S_ 32) : FVec Ideal S64 .f32 :=
  select (broadcastInDim S64 ![] bcast_S_S64
      (cmpf .ogt (subf (constant (F := Ideal) S_ .f32 0x47C35000#32) (sitofp .f32 c0)) (constant (F := Ideal) S_ .f32 0x00000000#32)))
    (Host.divf (Host.reduceAdd (mulf (rDev z) (rDev z)) (constant (F := Ideal) S_ .f32 0x00000000#32) reducesTo_S100000x64_S64_d0 h_S_)
      (broadcastInDim S64 ![] bcast_S_S64 (subf (constant (F := Ideal) S_ .f32 0x47C35000#32) (sitofp .f32 c0))))
    (broadcastInDim S64 ![] bcast_S_S64 (id (constant (F := Ideal) S_ .f32 0x7FC00000#32)))

abbrev rRs (v : FVec Ideal S64 .f32) : FVec Ideal S64 .f32 :=
  Host.rsqrt (addf v (broadcastInDim S64 ![] bcast_S_S64 (constant (F := Ideal) S_ .f32 0x3727C5AC#32)))

abbrev rDstOf (a1 : IVec S2x1000000 32) : IVec S1000000 32 :=
  shapeCast S1000000 (extractStridedSlice S1x1000000 ![1, 0] a1 slices_S2x1000000_S1x1000000_1_0) shapeCasts_S1x1000000_S1000000

abbrev rSrcOf (a1 : IVec S2x1000000 32) : IVec S1000000 32 :=
  shapeCast S1000000 (extractStridedSlice S1x1000000 ![0, 0] a1 slices_S2x1000000_S1x1000000_0_0) shapeCasts_S1x1000000_S1000000

abbrev rCol (v : IVec S1000000 32) : IVec S1000000x1 32 := broadcastInDim S1000000x1 ![0] bcast_S1000000_S1000000x1_0 v

abbrev rIdx (src : IVec S1000000 32) : IVec S1000000x1 32 :=
  rCol (select (cmpi .slt src (broadcastInDim S1000000 ![] bcast_S_S1000000 (constantI S_ 32 0#32)))
    (addi src (broadcastInDim S1000000 ![] bcast_S_S1000000 (constantI S_ 32 100000#32))) src)

abbrev rMsgD (h : FVec Ideal S100000x64 .f32) (src : IVec S1000000 32) (a2 : FVec Ideal S1000000x7 .f32) (a5 : FVec Ideal S5x7x64 .f32)
    (a6 : FVec Ideal S5x64 .f32) : FVec Ideal S1000000x64 .f32 :=
  maximumf (addf (Host.gather gather_S100000x64_S1000000x1_S1000000x64_1_0_n_n_0_1_164 h (rIdx src))
      (addf (Host.dotGeneral (φ₁ := .f32) (φ₂ := .f32) dot_S1000000x7_S7x64_S1000000x64_1_0_0_1_n_n none a2 (rEw3 a5))
        (broadcastInDim S1000000x64 ![0, 1] bcast_S1x64_S1000000x64_0_1 (broadcastInDim S1x64 ![1] bcast_S64_S1x64_1 (rVec3 a6)))))
    (broadcastInDim S1000000x64 ![] bcast_S_S1000000x64 (constant (F := Ideal) S_ .f32 0x00000000#32))

abbrev rAggD (h : FVec Ideal S100000x64 .f32) (src dst : IVec S1000000 32) (a2 : FVec Ideal S1000000x7 .f32) (a5 : FVec Ideal S5x7x64 .f32)
    (a6 : FVec Ideal S5x64 .f32) : FVec Ideal S100000x64 .f32 :=
  Host.scatterAdd scatter_S100000x64_S1000000x1_S1000000x64_1_0_0_1 rZero (rCol dst) (rMsgD h src a2 a5 a6)

abbrev rZD (h : FVec Ideal S100000x64 .f32) (src dst : IVec S1000000 32) (a2 : FVec Ideal S1000000x7 .f32) (a5 : FVec Ideal S5x7x64 .f32)
    (a6 : FVec Ideal S5x64 .f32) (a7 : FVec Ideal S5x64x64 .f32) (a8 : FVec Ideal S5x64 .f32) (a9 : FVec Ideal S5x64x64 .f32)
    (a10 : FVec Ideal S5x64 .f32) : FVec Ideal S100000x64 .f32 :=
  addf (Host.dotGeneral (φ₁ := .f32) (φ₂ := .f32) dot_S100000x64_S64x64_S100000x64_1_0_0_1_n_n none
      (maximumf (addf (Host.dotGeneral (φ₁ := .f32) (φ₂ := .f32) dot_S100000x64_S64x64_S100000x64_1_0_0_1_n_n none (addf h (rAggD h src dst a2 a5 a6)) (rMat3 a7))
          (overNodes (rVec3 a8)))
        rZero)
      (rMat3 a9))
    (overNodes (rVec3 a10))

abbrev rOutD (h : FVec Ideal S100000x64 .f32) (src dst : IVec S1000000 32) (a2 : FVec Ideal S1000000x7 .f32) (a5 : FVec Ideal S5x7x64 .f32)
    (a6 : FVec Ideal S5x64 .f32) (a7 : FVec Ideal S5x64x64 .f32) (a8 : FVec Ideal S5x64 .f32) (a9 : FVec Ideal S5x64x64 .f32)
    (a10 a11 a12 : FVec Ideal S5x64 .f32) : FVec Ideal S100000x64 .f32 :=
  maximumf (addf (mulf (mulf (subf (rZD h src dst a2 a5 a6 a7 a8 a9 a10) (overNodes (rMean (rZD h src dst a2 a5 a6 a7 a8 a9 a10)))) (overNodes (rRs (rVar (rZD h src dst a2 a5 a6 a7 a8 a9 a10) (constantI S_ 32 0#32)))))
        (overNodes (rVec3 a11))) (overNodes (rVec3 a12)))
    rZero

private theorem rMsgD_eq (h : FVec Ideal S100000x64 .f32) (src : IVec S1000000 32) (a2 : FVec Ideal S1000000x7 .f32) (a5 : FVec Ideal S5x7x64 .f32)
    (a6 : FVec Ideal S5x64 .f32) :
    rMsgD h src a2 a5 a6 = Cert.Spec.edgeG (Host.gather gather_S100000x64_S1000000x1_S1000000x64_1_0_n_n_0_1_164 h (rIdx src)) a2 (rEw3 a5) (rowB (rVec3 a6)) :=
  ref_edge _ _ _ _

private theorem rZD_eq (h : FVec Ideal S100000x64 .f32) (src dst : IVec S1000000 32) (a2 : FVec Ideal S1000000x7 .f32) (a5 : FVec Ideal S5x7x64 .f32)
    (a6 : FVec Ideal S5x64 .f32) (a7 : FVec Ideal S5x64x64 .f32) (a8 : FVec Ideal S5x64 .f32) (a9 : FVec Ideal S5x64x64 .f32)
    (a10 : FVec Ideal S5x64 .f32) :
    rZD h src dst a2 a5 a6 a7 a8 a9 a10 = Cert.Spec.mlpG h (rAggD h src dst a2 a5 a6) (rMat3 a7) (rowB (rVec3 a8)) (rMat3 a9) (rowB (rVec3 a10)) :=
  ref_mlp _ _ _ _ _ _

private theorem rOutD_eq (h : FVec Ideal S100000x64 .f32) (src dst : IVec S1000000 32) (a2 : FVec Ideal S1000000x7 .f32) (a5 : FVec Ideal S5x7x64 .f32)
    (a6 : FVec Ideal S5x64 .f32) (a7 : FVec Ideal S5x64x64 .f32) (a8 : FVec Ideal S5x64 .f32) (a9 : FVec Ideal S5x64x64 .f32)
    (a10 a11 a12 : FVec Ideal S5x64 .f32) :
    rOutD h src dst a2 a5 a6 a7 a8 a9 a10 a11 a12 = Cert.Spec.bnReluG (rZD h src dst a2 a5 a6 a7 a8 a9 a10) (rowB (rMean (rZD h src dst a2 a5 a6 a7 a8 a9 a10))) (rowB (rRs (rVar (rZD h src dst a2 a5 a6 a7 a8 a9 a10) (constantI S_ 32 0#32)))) (rowB (rVec3 a11)) (rowB (rVec3 a12)) :=
  ref_bn_relu _ _ _ _ _

section
attribute [local irreducible] Host.gather Host.reduce Host.reduceAdd Host.scatterAdd Host.rsqrt Host.divf broadcastInDim select cmpi cmpf addi andi constantI constant sitofp extractStridedSlice maximumf addf mulf subf

set_option maxHeartbeats 4000000 in

private theorem r_out (V : Valuation τ sig (Elt Ideal)) :
    (after (chunkL3 (F := Ideal)) V (Proc.devRef .tc main_v258) : S100000x64.Idx → EReal)
      = rOutD (V (Proc.devRef .tc main_v196) : FVec Ideal S100000x64 .f32) (V (Proc.devRef .tc main_v1) : IVec S1000000 32) (V (Proc.devRef .tc main_v3) : IVec S1000000 32) (V (Proc.devRef .tc main_arg2) : FVec Ideal S1000000x7 .f32) (V (Proc.devRef .tc main_arg5) : FVec Ideal S5x7x64 .f32) (V (Proc.devRef .tc main_arg6) : FVec Ideal S5x64 .f32) (V (Proc.devRef .tc main_arg7) : FVec Ideal S5x64x64 .f32) (V (Proc.devRef .tc main_arg8) : FVec Ideal S5x64 .f32) (V (Proc.devRef .tc main_arg9) : FVec Ideal S5x64x64 .f32) (V (Proc.devRef .tc main_arg10) : FVec Ideal S5x64 .f32) (V (Proc.devRef .tc main_arg11) : FVec Ideal S5x64 .f32) (V (Proc.devRef .tc main_arg12) : FVec Ideal S5x64 .f32) := by
  after_results_simp
  simp only [ofBuf_toBuf]
  rfl

private theorem r_src (V : Valuation τ sig (Elt Ideal)) :
    (after (chunkH (F := Ideal)) V (Proc.devRef .tc main_v1) : S1000000.Idx → BitVec 32) = rSrcOf (V (Proc.devRef .tc main_arg1) : IVec S2x1000000 32) := by
  after_results_simp
  first | done | rfl

private theorem r_dst (V : Valuation τ sig (Elt Ideal)) :
    (after (chunkH (F := Ideal)) V (Proc.devRef .tc main_v3) : S1000000.Idx → BitVec 32) = rDstOf (V (Proc.devRef .tc main_arg1) : IVec S2x1000000 32) := by
  after_results_simp
  first | done | rfl
end

section
attribute [local irreducible] Host.gather Host.reduce Host.reduceAdd Host.scatterAdd Host.rsqrt Host.divf broadcastInDim select cmpi cmpf addi andi constantI constant sitofp extractStridedSlice maximumf addf mulf subf

variable (c : Dev nD)

private theorem rArg (b : Ref sig .tc) (hb : b.idx.val < 15) :
    UL2 m' c (Proc.devRef .tc b) = m' ((c : Thread nD τ).loc b) :=
  (Cert.ReferenceIdeal.Keep.keep_chunkL2 _ b (by omega)).trans ((Cert.ReferenceIdeal.Keep.keep_chunkL1 _ b (by omega)).trans
    ((Cert.ReferenceIdeal.Keep.keep_chunkL0 _ b (by omega)).trans (Cert.ReferenceIdeal.Keep.keep_chunkH _ b hb)))

private theorem rLayer :
    (UL3 m' c (Proc.devRef .tc main_v258) : FVec Ideal S100000x64 .f32)
      = rOutD (UL2 m' c (Proc.devRef .tc main_v196) : FVec Ideal S100000x64 .f32) (rSrcOf (m' ((c : Thread nD τ).loc main_arg1))) (rDstOf (m' ((c : Thread nD τ).loc main_arg1))) (m' ((c : Thread nD τ).loc main_arg2)) (m' ((c : Thread nD τ).loc main_arg5)) (m' ((c : Thread nD τ).loc main_arg6)) (m' ((c : Thread nD τ).loc main_arg7)) (m' ((c : Thread nD τ).loc main_arg8)) (m' ((c : Thread nD τ).loc main_arg9)) (m' ((c : Thread nD τ).loc main_arg10)) (m' ((c : Thread nD τ).loc main_arg11)) (m' ((c : Thread nD τ).loc main_arg12)) := by
  have eSrc : (UL2 m' c (Proc.devRef .tc main_v1) : IVec S1000000 32) = rSrcOf (m' ((c : Thread nD τ).loc main_arg1)) :=
    (Cert.ReferenceIdeal.Keep.keep_chunkL2 _ main_v1 (by decide)).trans ((Cert.ReferenceIdeal.Keep.keep_chunkL1 _ main_v1 (by decide)).trans
      ((Cert.ReferenceIdeal.Keep.keep_chunkL0 _ main_v1 (by decide)).trans (r_src (U0 m' c))))
  have eDst : (UL2 m' c (Proc.devRef .tc main_v3) : IVec S1000000 32) = rDstOf (m' ((c : Thread nD τ).loc main_arg1)) :=
    (Cert.ReferenceIdeal.Keep.keep_chunkL2 _ main_v3 (by decide)).trans ((Cert.ReferenceIdeal.Keep.keep_chunkL1 _ main_v3 (by decide)).trans
      ((Cert.ReferenceIdeal.Keep.keep_chunkL0 _ main_v3 (by decide)).trans (r_dst (U0 m' c))))
  refine (r_out (UL2 m' c)).trans ?_
  rw [eSrc, eDst, rArg m' c main_arg2 (by decide), rArg m' c main_arg5 (by decide), rArg m' c main_arg6 (by decide), rArg m' c main_arg7 (by decide), rArg m' c main_arg8 (by decide), rArg m' c main_arg9 (by decide), rArg m' c main_arg10 (by decide), rArg m' c main_arg11 (by decide), rArg m' c main_arg12 (by decide)]

end

end RefSide

section Bridge
attribute [local irreducible] Host.gather Host.reduce Host.reduceAdd Host.scatterAdd Host.rsqrt Host.divf broadcastInDim select cmpi cmpf addi andi constantI constant sitofp extractStridedSlice maximumf addf mulf subf Cert.Spec.edgeG Cert.Spec.mlpG Cert.Spec.bnReluG

private theorem kRow (v : FVec Ideal Cert.KernelIdeal.S64 .f32) :
    shapeCast Cert.KernelIdeal.S1x64 v Cert.KernelIdeal.Facts₀.shapeCasts_S64_S1x64 = broadcastInDim Cert.KernelIdeal.S1x64 ![1] Cert.KernelIdeal.Facts₀.bcast_S64_S1x64_1 v :=
  Cert.Rows.row_eq v _ _

private theorem bridge (h : FVec Ideal Cert.KernelIdeal.S100000x64 .f32) (a1 : IVec Cert.KernelIdeal.S2x1000000 32) (a2 : FVec Ideal Cert.KernelIdeal.S1000000x7 .f32)
    (a5 : FVec Ideal Cert.KernelIdeal.S5x7x64 .f32) (a6 : FVec Ideal Cert.KernelIdeal.S5x64 .f32) (a7 : FVec Ideal Cert.KernelIdeal.S5x64x64 .f32) (a8 : FVec Ideal Cert.KernelIdeal.S5x64 .f32)
    (a9 : FVec Ideal Cert.KernelIdeal.S5x64x64 .f32) (a10 a11 a12 : FVec Ideal Cert.KernelIdeal.S5x64 .f32) :
    kOutD h a1 a2 a5 a6 a7 a8 a9 a10 a11 a12 = rOutD h (rSrcOf a1) (rDstOf a1) a2 a5 a6 a7 a8 a9 a10 a11 a12 := by
  rw [rOutD_eq, rZD_eq]
  simp only [rAggD]
  rw [rMsgD_eq]
  simp only [kOutD, kZD, kAggD, kMsgD, kRow]
  rfl
end Bridge

theorem layer3 (hA : Agree m' m) (hs : SrcInRange m) (c : Dev Cert.KernelIdeal.nD) (h : Inv2 m' m ρ c) : Inv3 m' m ρ c := by
  obtain ⟨-, e1, e2, -, -, e5, e6, e7, e8, e9, e10, e11, e12, -, -⟩ := hA c
  unfold Inv2 at h
  unfold Inv3
  refine (kLayer m ρ c hs).trans (Eq.trans ?_ (rLayer m' c).symm)
  rw [h, e1, e2, e5, e6, e7, e8, e9, e10, e11, e12]
  exact bridge _ _ _ _ _ _ _ _ _ _ _

end Cert.Sim

end
-- ==== Proof.Region12.lean ====
import proofs.«408039_j61503931678734_1_alg».proof.Proof.Region0

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts : ∀ t : Fin cfg12.N,
    win12_4.index t (0 : Fin 2) = t.val ∧ win12_4.index t (1 : Fin 2) = 0
    ∧ win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0 :=
  (by decide +kernel : ∀ t : Fin grid12.N, _)

private theorem mem_blk (t : Fin cfg12.N) (i : S1000000x64.Idx) :
    i ∈ ((cfg12.win 4).blk t).view.set ↔ ∀ a : Fin 2, win12_4.index t a * S8000x64.size a ≤ (i a).val ∧ (i a).val < win12_4.index t a * S8000x64.size a + S8000x64.size a := by
  show i ∈ ((View.whole (Pipeline.arrRef spec12 4)).slice (win12_4.rect t)).set ↔ _
  rw [View.set_slice_whole, Rect.mem_set_unit]
  exact Iff.rfl

private theorem cover (i : S1000000x64.Idx) :
    ∃ t : Fin cfg12.N, (cfg12.win 4).flush t = true ∧ i ∈ ((cfg12.win 4).blk t).view.set := by
  have hi0 : (i 0).val < 1000000 := (i 0).isLt
  have hi1 : (i 1).val < 64 := (i 1).isLt
  have hN : cfg12.N = 125 := N_12
  refine ⟨⟨(i 0).val / 8000, by rw [hN]; omega⟩, flush12_4 _, ?_⟩
  rw [mem_blk]
  obtain ⟨e0, e1, -⟩ := idx_facts ⟨(i 0).val / 8000, by rw [hN]; omega⟩
  intro a
  match a with
  | ⟨0, _⟩ =>
    show win12_4.index ⟨(i 0).val / 8000, _⟩ (0 : Fin 2) * 8000 ≤ (i 0).val ∧ (i 0).val < win12_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win12_4.index ⟨(i 0).val / 8000, _⟩ (1 : Fin 2) * 64 ≤ (i 1).val ∧ (i 1).val < win12_4.index ⟨(i 0).val / 8000, _⟩ (1 : Fin 2) * 64 + 64
    rw [e1]; omega

private theorem rows_emb (t : Fin cfg12.N) (j : S8000x64.Idx) :
    ((cfg12.win 0).blk t).view.emb j = ((cfg12.win 4).blk t).view.emb j := by
  obtain ⟨e40, e41, e00, e01, -⟩ := idx_facts t
  funext a; apply Fin.ext
  match a with
  | ⟨0, _⟩ => show win12_0.index t (0 : Fin 2) * 8000 + 1 * (j 0).val = win12_4.index t (0 : Fin 2) * 8000 + 1 * (j 0).val; omega
  | ⟨1, _⟩ => show win12_0.index t (1 : Fin 2) * 64 + 1 * (j 1).val = win12_4.index t (1 : Fin 2) * 64 + 1 * (j 1).val; omega

private theorem attr_emb (t : Fin cfg12.N) (j : S8000x64.Idx) (k : Fin 7) :
    ((cfg12.win 1).blk t).view.emb (ix2 (j 0) k) = (ix2 ((((cfg12.win 4).blk t).view.emb j) 0) k : S1000000x7.Idx) := by
  obtain ⟨e40, e41, e00, e01, e10, e11, -⟩ := idx_facts t
  funext a; apply Fin.ext
  match a with
  | ⟨0, _⟩ => show win12_1.index t (0 : Fin 2) * 8000 + 1 * (j 0).val = win12_4.index t (0 : Fin 2) * 8000 + 1 * (j 0).val; omega
  | ⟨1, _⟩ => show win12_1.index t (1 : Fin 2) * 7 + 1 * k.val = k.val; omega

private theorem weight_emb (t : Fin cfg12.N) (j : S8000x64.Idx) (k : Fin 7) :
    ((cfg12.win 2).blk t).view.emb (ix2 k (j 1)) = (ix2 k ((((cfg12.win 4).blk t).view.emb j) 1) : S7x64.Idx) := by
  obtain ⟨e40, e41, e00, e01, e10, e11, e20, e21, -⟩ := idx_facts t
  funext a; apply Fin.ext
  match a with
  | ⟨0, _⟩ => show win12_2.index t (0 : Fin 2) * 7 + 1 * k.val = k.val; omega
  | ⟨1, _⟩ => show win12_2.index t (1 : Fin 2) * 64 + 1 * (j 1).val = win12_4.index t (1 : Fin 2) * 64 + 1 * (j 1).val; omega

private theorem bias_emb (t : Fin cfg12.N) (j : S8000x64.Idx) :
    ((cfg12.win 3).blk t).view.emb (ix2 (0 : Fin 1) (j 1)) = (ix2 (0 : Fin 1) ((((cfg12.win 4).blk t).view.emb j) 1) : S1x64.Idx) := by
  obtain ⟨e40, e41, e00, e01, e10, e11, e20, e21, e30, e31⟩ := idx_facts t
  funext a; apply Fin.ext
  match a with
  | ⟨0, _⟩ => show win12_3.index t (0 : Fin 2) * 1 + 1 * 0 = 0; omega
  | ⟨1, _⟩ => show win12_3.index t (1 : Fin 2) * 64 + 1 * (j 1).val = win12_4.index t (1 : Fin 2) * 64 + 1 * (j 1).val; omega

private theorem flushed_eq (c : Dev nD) (t : Fin cfg12.N) :
    (dat12 (F := Ideal) V c).flushed 4 t
      = ((cfg12.win 4).blk t).view.read (Elt Ideal)
          (Cert.Spec.edgeG (V c main_v153) (V c main_arg2) (V c main_v155) (V c main_v158)) := by
  show (cfg12.win 4).cut (grid12.coords t) ((dat12 (F := Ideal) V c).after 4 t) = _
  rw [after12_4]
  unfold out12_4
  rw [View.canon_unit_zero zero_offsets]
  simp only [View.ld_unit_zero (S := S8000x7) zero_offsets, View.ld_unit_zero (S := S7x64) zero_offsets,
    View.ld_unit_zero (S := S1x64) zero_offsets, View.ld_unit_zero (S := S8000x64) zero_offsets]
  refine funext fun (j : S8000x64.Idx) => ?_
  show k0_pay1 (F := Ideal) (iblk12 V c 1 t) (iblk12 V c 2 t) (iblk12 V c 3 t) (iblk12 V c 0 t) j
    = Cert.Spec.edgeG (V c main_v153) (V c main_arg2) (V c main_v155) (V c main_v158) (((cfg12.win 4).blk t).view.emb j)
  refine message_block_eq_spec (V c main_v153) (V c main_arg2) (V c main_v155) (V c main_v158)
    (iblk12 V c 0 t) (iblk12 V c 1 t) (iblk12 V c 2 t) (iblk12 V c 3 t) j (((cfg12.win 4).blk t).view.emb j)
    ?_ (fun k => ?_) (fun k => ?_) ?_
  · show V c main_v153 (((cfg12.win 0).blk t).view.emb j) = V c main_v153 (((cfg12.win 4).blk t).view.emb j)
    exact congrArg (V c main_v153) (rows_emb t j)
  · show V c main_arg2 (((cfg12.win 1).blk t).view.emb (ix2 (j 0) k))
      = V c main_arg2 (ix2 ((((cfg12.win 4).blk t).view.emb j) 0) k : S1000000x7.Idx)
    exact congrArg (V c main_arg2) (attr_emb t j k)
  · show V c main_v155 (((cfg12.win 2).blk t).view.emb (ix2 k (j 1)))
      = V c main_v155 (ix2 k ((((cfg12.win 4).blk t).view.emb j) 1) : S7x64.Idx)
    exact congrArg (V c main_v155) (weight_emb t j k)
  · show V c main_v158 (((cfg12.win 3).blk t).view.emb (ix2 (0 : Fin 1) (j 1)))
      = V c main_v158 (ix2 (0 : Fin 1) ((((cfg12.win 4).blk t).view.emb j) 1) : S1x64.Idx)
    exact congrArg (V c main_v158) (bias_emb t j)

theorem region12 (c : Dev nD) :
    (dat12 (F := Ideal) V c).arrAt 4 cfg12.N
      = Cert.Spec.edgeG (V c main_v153) (V c main_arg2) (V c main_v155) (V c main_v158) := by
  exact (dat12 (F := Ideal) V c).arrAt_eq_of_cover 4 _ (fun t _ => flushed_eq V c t) cover

end Cert.KernelIdeal.RegionValue

end
-- ==== Proof.Region13.lean ====
import proofs.«408039_j61503931678734_1_alg».proof.Proof.Region1

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

private theorem idx_facts1 : ∀ t : Fin cfg13.N,
    win13_0.index t (0 : Fin 2) = win13_6.index t (0 : Fin 2) ∧ win13_0.index t (1 : Fin 2) = 0
    ∧ win13_1.index t (0 : Fin 2) = win13_6.index t (0 : Fin 2) ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

private theorem mem_blk1 (t : Fin cfg13.N) (i : S100000x64.Idx) :
    i ∈ ((cfg13.win 6).blk t).view.set ↔ ∀ a : Fin 2, win13_6.index t a * S5000x64.size a ≤ (i a).val
      ∧ (i a).val < win13_6.index t a * S5000x64.size a + S5000x64.size a := by
  show i ∈ ((View.whole main_v173).slice (win13_6.rect t)).set ↔ _
  rw [View.set_slice_whole, Rect.mem_set_unit]
  exact Iff.rfl

private theorem cover1 (i : S100000x64.Idx) :
    ∃ t : Fin cfg13.N, (cfg13.win 6).flush t = true ∧ i ∈ ((cfg13.win 6).blk t).view.set := by
  have hi0 : (i 0).val < 100000 := (i 0).isLt
  have hi1 : (i 1).val < 64 := (i 1).isLt
  have hN : cfg13.N = 20 := N_13
  let t : Fin cfg13.N := ⟨(i 0).val / 5000, by omega⟩
  obtain ⟨-, -, -, -, -, -, -, -, -, -, -, -, e0, e1⟩ := idx_facts1 t
  have ht : t.val = (i 0).val / 5000 := rfl
  refine ⟨t, flush13_6 t, ?_⟩
  rw [mem_blk1]
  intro a
  match a with
  | ⟨0, _⟩ =>
    show win13_6.index t (0 : Fin 2) * 5000 ≤ (i 0).val ∧ (i 0).val < win13_6.index t (0 : Fin 2) * 5000 + 5000
    omega
  | ⟨1, _⟩ =>
    show win13_6.index t (1 : Fin 2) * 64 ≤ (i 1).val ∧ (i 1).val < win13_6.index t (1 : Fin 2) * 64 + 64
    omega

private theorem flushed1_eq (c : Dev nD) (t : Fin cfg13.N) :
    (dat13 (F := Ideal) V c).flushed 6 t = ((cfg13.win 6).blk t).view.read (Elt Ideal)
      (Cert.Spec.mlpG (V c main_v152) (V c main_v162) (V c main_v164) (V c main_v171) (V c main_v168) (V c main_v172)) := by
  show (cfg13.win 6).cut (grid13.coords t) ((dat13 V c).after 6 t) = _
  rw [after13_6]
  unfold out13_6
  rw [View.canon_unit_zero hz1]
  simp only [View.ld_unit_zero (S := S5000x64) hz1, View.ld_unit_zero (S := S64x64) hz1, View.ld_unit_zero (S := S1x64) hz1]
  obtain ⟨a0, b0, a1, b1, a2, b2, a3, b3, a4, b4, a5, b5, e0, e1⟩ := idx_facts1 t
  have hN : cfg13.N = 20 := N_13
  have ht : t.val < 20 := by have := t.isLt; omega

  have w2 : (iblk13 V c 2 t : S64x64.Idx → EReal) = V c main_v164 := funext fun y => by
    show V c main_v164 (((cfg13.win 2).blk t).view.emb y) = V c main_v164 y
    refine congrArg _ (funext fun a => Fin.ext ?_)
    match a with
    | ⟨0, _⟩ => show win13_2.index t (0 : Fin 2) * 64 + 1 * (y 0).val = (y 0).val; omega
    | ⟨1, _⟩ => show win13_2.index t (1 : Fin 2) * 64 + 1 * (y 1).val = (y 1).val; omega
  have w3 : (iblk13 V c 3 t : S1x64.Idx → EReal) = V c main_v171 := funext fun y => by
    show V c main_v171 (((cfg13.win 3).blk t).view.emb y) = V c main_v171 y
    refine congrArg _ (funext fun a => Fin.ext ?_)
    match a with
    | ⟨0, _⟩ => show win13_3.index t (0 : Fin 2) * 1 + 1 * (y 0).val = (y 0).val; omega
    | ⟨1, _⟩ => show win13_3.index t (1 : Fin 2) * 64 + 1 * (y 1).val = (y 1).val; omega
  have w4 : (iblk13 V c 4 t : S64x64.Idx → EReal) = V c main_v168 := funext fun y => by
    show V c main_v168 (((cfg13.win 4).blk t).view.emb y) = V c main_v168 y
    refine congrArg _ (funext fun a => Fin.ext ?_)
    match a with
    | ⟨0, _⟩ => show win13_4.index t (0 : Fin 2) * 64 + 1 * (y 0).val = (y 0).val; omega
    | ⟨1, _⟩ => show win13_4.index t (1 : Fin 2) * 64 + 1 * (y 1).val = (y 1).val; omega
  have w5 : (iblk13 V c 5 t : S1x64.Idx → EReal) = V c main_v172 := funext fun y => by
    show V c main_v172 (((cfg13.win 5).blk t).view.emb y) = V c main_v172 y
    refine congrArg _ (funext fun a => Fin.ext ?_)
    match a with
    | ⟨0, _⟩ => show win13_5.index t (0 : Fin 2) * 1 + 1 * (y 0).val = (y 0).val; omega
    | ⟨1, _⟩ => show win13_5.index t (1 : Fin 2) * 64 + 1 * (y 1).val = (y 1).val; omega

  have h0 : ∀ (p : Fin 5000) (k : Fin 64), (iblk13 V c 0 t : S5000x64.Idx → EReal) (ix2 p k)
      = V c main_v152 (ix2 (row1 t.val ht p) k) := fun p k => by
    show V c main_v152 (((cfg13.win 0).blk t).view.emb (ix2 p k)) = _
    refine congrArg _ (funext fun a => Fin.ext ?_)
    match a with
    | ⟨0, _⟩ => show win13_0.index t (0 : Fin 2) * 5000 + 1 * p.val = t.val * 5000 + p.val; omega
    | ⟨1, _⟩ => show win13_0.index t (1 : Fin 2) * 64 + 1 * k.val = k.val; omega
  have h1 : ∀ (p : Fin 5000) (k : Fin 64), (iblk13 V c 1 t : S5000x64.Idx → EReal) (ix2 p k)
      = V c main_v162 (ix2 (row1 t.val ht p) k) := fun p k => by
    show V c main_v162 (((cfg13.win 1).blk t).view.emb (ix2 p k)) = _
    refine congrArg _ (funext fun a => Fin.ext ?_)
    match a with
    | ⟨0, _⟩ => show win13_1.index t (0 : Fin 2) * 5000 + 1 * p.val = t.val * 5000 + p.val; omega
    | ⟨1, _⟩ => show win13_1.index t (1 : Fin 2) * 64 + 1 * k.val = k.val; omega
  funext j

  have hemb : (((cfg13.win 6).blk t).view.emb j : S100000x64.Idx) = ix2 (row1 t.val ht (j 0)) (j 1) :=
    funext fun a => Fin.ext (by
      match a with
      | ⟨0, _⟩ => show win13_6.index t (0 : Fin 2) * 5000 + 1 * (j 0).val = t.val * 5000 + (j 0).val; omega
      | ⟨1, _⟩ => show win13_6.index t (1 : Fin 2) * 64 + 1 * (j 1).val = (j 1).val; omega)
  show k1_pay1 (iblk13 V c 0 t) (iblk13 V c 1 t) (iblk13 V c 2 t) (iblk13 V c 3 t) (iblk13 V c 4 t) (iblk13 V c 5 t) j
    = Cert.Spec.mlpG (V c main_v152) (V c main_v162) (V c main_v164) (V c main_v171) (V c main_v168) (V c main_v172)
        (((cfg13.win 6).blk t).view.emb j)
  rw [hemb, ← w2, ← w3, ← w4, ← w5]
  exact (congrArg (k1_pay1 (iblk13 V c 0 t) (iblk13 V c 1 t) (iblk13 V c 2 t) (iblk13 V c 3 t) (iblk13 V c 4 t) (iblk13 V c 5 t))
      (eq_ix2 j)).trans
    (pay1_eq_spec (V c main_v152) (V c main_v162) _ _ _ _ _ _ (row1 t.val ht) h0 h1 (j 0) (j 1))

theorem region13 (c : Dev nD) :
    (dat13 (F := Ideal) V c).arrAt 6 cfg13.N
      = Cert.Spec.mlpG (V c main_v152) (V c main_v162) (V c main_v164) (V c main_v171) (V c main_v168) (V c main_v172) :=
  (dat13 (F := Ideal) V c).arrAt_eq_of_cover 6
    (Cert.Spec.mlpG (V c main_v152) (V c main_v162) (V c main_v164) (V c main_v171) (V c main_v168) (V c main_v172))
    (fun t _ => flushed1_eq V c t) cover1

end Cert.KernelIdeal.RegionValue

end
-- ==== Proof.Region14.lean ====
import proofs.«408039_j61503931678734_1_alg».proof.Proof.Gen.KernelIdeal.Frame
import proofs.«408039_j61503931678734_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem region14_zeros : (![0, 0] : Fin 2 → Nat) = fun _ => 0 :=
  funext fun a => match a with | ⟨0, _⟩ => rfl | ⟨1, _⟩ => rfl

theorem region14_row (v : Vec Ideal S1x64 .f32) (hc : S1x64.ShapeCasts S1x64) (hb : S1x64.Broadcasts S5000x64)
    (p : Fin 5000) (q : Fin 64) :
    broadcastTo S5000x64 (shapeCast S1x64 v hc) hb (ix2 p q) = v (ix2 (0 : Fin 1) q) :=
  (broadcastTo_1b_ab_apply _ hb p q).trans (congrFun (shapeCast_self v hc) _)

theorem region14_pay (x0 : Vec Ideal S5000x64 .f32) (x1 x2 x3 x4 : Vec Ideal S1x64 .f32) (p : Fin 5000) (q : Fin 64) :
    k14_pay1 x0 x1 x2 x3 x4 (ix2 p q)
      = (x0 (ix2 p q) - x1 (ix2 (0 : Fin 1) q)) * x2 (ix2 (0 : Fin 1) q) * x3 (ix2 (0 : Fin 1) q)
          + x4 (ix2 (0 : Fin 1) q) := by
  unfold k14_pay1
  rw [addf_apply, mulf_apply, mulf_apply, subf_apply, region14_row, region14_row, region14_row, region14_row,
    shapeCast_self]

theorem region14_block (x0 : Vec Ideal S5000x64 .f32) (x1 x2 x3 x4 : Vec Ideal S1x64 .f32)
    (z : Vec Ideal S100000x64 .f32) (mu s ga be : Vec Ideal S1x64 .f32) (r : Fin 5000 → Fin 100000)
    (h0 : ∀ p q, x0 (ix2 p q) = z (ix2 (r p) q))
    (h1 : ∀ q, x1 (ix2 (0 : Fin 1) q) = mu (ix2 (0 : Fin 1) q))
    (h2 : ∀ q, x2 (ix2 (0 : Fin 1) q) = s (ix2 (0 : Fin 1) q))
    (h3 : ∀ q, x3 (ix2 (0 : Fin 1) q) = ga (ix2 (0 : Fin 1) q))
    (h4 : ∀ q, x4 (ix2 (0 : Fin 1) q) = be (ix2 (0 : Fin 1) q)) (p : Fin 5000) (q : Fin 64) :
    k14_pay1 x0 x1 x2 x3 x4 (ix2 p q) = Cert.Spec.bnG z mu s ga be (ix2 (r p) q) := by
  rw [region14_pay, h0, h1, h2, h3, h4]
  rfl

theorem region14_idx : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

theorem region14_flushed (c : Dev nD) (t : Fin cfg14.N) :
    (dat14 (F := Ideal) V c).flushed 5 t
      = ((cfg14.win 5).blk t).view.read (Elt Ideal)
          (Cert.Spec.bnG (V c main_v173) (V c main_v182) (V c main_v186) (V c main_v187) (V c main_v188)) := by
  show (cfg14.win 5).cut (grid14.coords t) ((dat14 V c).after 5 t) = _
  rw [after14_5]
  unfold out14_5
  rw [View.canon_unit_zero region14_zeros]
  simp only [View.ld_unit_zero (S := S5000x64) region14_zeros, View.ld_unit_zero (S := S1x64) region14_zeros]
  obtain ⟨a0, a1, b0, b1, c0, c1, d0, d1, g0, g1, e0, e1⟩ := region14_idx t
  have hN : cfg14.N = 20 := N_14
  have ht : t.val < 20 := hN ▸ t.isLt
  funext j
  obtain ⟨p, q, rfl⟩ : ∃ (p : Fin 5000) (q : Fin 64), j = ix2 p q := ⟨j 0, j 1, eq_ix2 j⟩

  refine (region14_block (iblk14 V c 0 t) (iblk14 V c 1 t) (iblk14 V c 2 t) (iblk14 V c 3 t) (iblk14 V c 4 t)
    (V c main_v173) (V c main_v182) (V c main_v186) (V c main_v187) (V c main_v188)
    (fun p => ⟨t.val * 5000 + p.val, by have := p.isLt; omega⟩) ?_ ?_ ?_ ?_ ?_ p q).trans ?_
  · intro p q
    show V c main_v173 (((cfg14.win 0).blk t).view.emb (ix2 p q)) = V c main_v173 (ix2 ⟨t.val * 5000 + p.val, _⟩ q)
    refine congrArg (V c main_v173) (funext fun a => Fin.ext ?_)
    match a with
    | ⟨0, _⟩ => show win14_0.index t (0 : Fin 2) * 5000 + 1 * p.val = t.val * 5000 + p.val; rw [a0]; omega
    | ⟨1, _⟩ => show win14_0.index t (1 : Fin 2) * 64 + 1 * q.val = q.val; rw [a1]; omega
  · intro q
    show V c main_v182 (((cfg14.win 1).blk t).view.emb (ix2 (0 : Fin 1) q)) = V c main_v182 (ix2 (0 : Fin 1) q)
    refine congrArg (V c main_v182) (funext fun a => Fin.ext ?_)
    match a with
    | ⟨0, _⟩ => show win14_1.index t (0 : Fin 2) * 1 + 1 * 0 = 0; rw [b0]
    | ⟨1, _⟩ => show win14_1.index t (1 : Fin 2) * 64 + 1 * q.val = q.val; rw [b1]; omega
  · intro q
    show V c main_v186 (((cfg14.win 2).blk t).view.emb (ix2 (0 : Fin 1) q)) = V c main_v186 (ix2 (0 : Fin 1) q)
    refine congrArg (V c main_v186) (funext fun a => Fin.ext ?_)
    match a with
    | ⟨0, _⟩ => show win14_2.index t (0 : Fin 2) * 1 + 1 * 0 = 0; rw [c0]
    | ⟨1, _⟩ => show win14_2.index t (1 : Fin 2) * 64 + 1 * q.val = q.val; rw [c1]; omega
  · intro q
    show V c main_v187 (((cfg14.win 3).blk t).view.emb (ix2 (0 : Fin 1) q)) = V c main_v187 (ix2 (0 : Fin 1) q)
    refine congrArg (V c main_v187) (funext fun a => Fin.ext ?_)
    match a with
    | ⟨0, _⟩ => show win14_3.index t (0 : Fin 2) * 1 + 1 * 0 = 0; rw [d0]
    | ⟨1, _⟩ => show win14_3.index t (1 : Fin 2) * 64 + 1 * q.val = q.val; rw [d1]; omega
  · intro q
    show V c main_v188 (((cfg14.win 4).blk t).view.emb (ix2 (0 : Fin 1) q)) = V c main_v188 (ix2 (0 : Fin 1) q)
    refine congrArg (V c main_v188) (funext fun a => Fin.ext ?_)
    match a with
    | ⟨0, _⟩ => show win14_4.index t (0 : Fin 2) * 1 + 1 * 0 = 0; rw [g0]
    | ⟨1, _⟩ => show win14_4.index t (1 : Fin 2) * 64 + 1 * q.val = q.val; rw [g1]; omega
  · show Cert.Spec.bnG (V c main_v173) (V c main_v182) (V c main_v186) (V c main_v187) (V c main_v188) (ix2 ⟨t.val * 5000 + p.val, _⟩ q)
      = Cert.Spec.bnG (V c main_v173) (V c main_v182) (V c main_v186) (V c main_v187) (V c main_v188)
          (((cfg14.win 5).blk t).view.emb (ix2 p q))
    refine congrArg _ (funext fun a => Fin.ext ?_)
    match a with
    | ⟨0, _⟩ => show t.val * 5000 + p.val = win14_5.index t (0 : Fin 2) * 5000 + 1 * p.val; rw [e0]; omega
    | ⟨1, _⟩ => show q.val = win14_5.index t (1 : Fin 2) * 64 + 1 * q.val; rw [e1]; omega

theorem region14_mem (t : Fin cfg14.N) (i : S100000x64.Idx) :
    i ∈ ((cfg14.win 5).blk t).view.set ↔ ∀ a : Fin 2, win14_5.index t a * S5000x64.size a ≤ (i a).val
      ∧ (i a).val < win14_5.index t a * S5000x64.size a + S5000x64.size a := by
  show i ∈ ((View.whole (Pipeline.arrRef spec14 5)).slice (win14_5.rect t)).set ↔ _
  rw [View.set_slice_whole, Rect.mem_set_unit]
  exact Iff.rfl

theorem region14_cover (i : S100000x64.Idx) :
    ∃ t : Fin cfg14.N, (cfg14.win 5).flush t = true ∧ i ∈ ((cfg14.win 5).blk t).view.set := by
  have hi0 : (i 0).val < 100000 := (i 0).isLt
  have hi1 : (i 1).val < 64 := (i 1).isLt
  have hN : cfg14.N = 20 := N_14
  have ht : (i 0).val / 5000 < cfg14.N := by rw [hN]; omega
  obtain ⟨-, -, -, -, -, -, -, -, -, -, e0, e1⟩ := region14_idx ⟨(i 0).val / 5000, ht⟩
  refine ⟨⟨(i 0).val / 5000, ht⟩, flush14_5 _, ?_⟩
  rw [region14_mem]
  intro a
  match a with
  | ⟨0, _⟩ =>
    show win14_5.index ⟨(i 0).val / 5000, ht⟩ (0 : Fin 2) * 5000 ≤ (i 0).val
      ∧ (i 0).val < win14_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win14_5.index ⟨(i 0).val / 5000, ht⟩ (1 : Fin 2) * 64 ≤ (i 1).val
      ∧ (i 1).val < win14_5.index ⟨(i 0).val / 5000, ht⟩ (1 : Fin 2) * 64 + 64
    rw [e1]; omega

theorem region14 (c : Dev nD) :
    (dat14 (F := Ideal) V c).arrAt 5 cfg14.N
      = Cert.Spec.bnG (V c main_v173) (V c main_v182) (V c main_v186) (V c main_v187) (V c main_v188) := by
  exact (dat14 (F := Ideal) V c).arrAt_eq_of_cover 5 _ (fun t _ => region14_flushed V c t) (region14_cover)

end Cert.KernelIdeal.RegionValue

end
-- ==== Proof.Layer4.lean ====
import proofs.«408039_j61503931678734_1_alg».proof.Proof.Sim
import proofs.«408039_j61503931678734_1_alg».proof.Proof.Region12
import proofs.«408039_j61503931678734_1_alg».proof.Proof.Region13
import proofs.«408039_j61503931678734_1_alg».proof.Proof.Region14
import proofs.«408039_j61503931678734_1_alg».proof.Proof.RefEdge
import proofs.«408039_j61503931678734_1_alg».proof.Proof.RefMlp
import proofs.«408039_j61503931678734_1_alg».proof.Proof.RefBn
import proofs.«408039_j61503931678734_1_alg».proof.Proof.TakeMask
import Idealize.ShloMosaic.Lib.StableHlo.Run

set_option maxRecDepth 16384

noncomputable section

namespace Cert.Sim

open Idealize.ShloMosaic Idealize.ShloMosaic.TcCoe Idealize.ShloMosaic.StableHlo Idealize.SL.Sem

variable (m' : (ℓ : Loc Cert.ReferenceIdeal.nD Cert.ReferenceIdeal.τ Cert.ReferenceIdeal.sig) → Buf (Elt Ideal) ℓ)
  (m : (ℓ : Loc Cert.KernelIdeal.nD Cert.KernelIdeal.τ Cert.KernelIdeal.sig) → Buf (Elt Ideal) ℓ)
  (ρ : Dev Cert.KernelIdeal.nD → PrngReg)

namespace Layer4

open Idealize.ShloMosaic.ValueIdx

theorem row_cast_eq_bcast {α : Type} (v : (⟨1, ![64]⟩ : Shape).Idx → α)
    (hc : (⟨1, ![64]⟩ : Shape).ShapeCasts ⟨2, ![1, 64]⟩)
    (hb : (⟨1, ![64]⟩ : Shape).BroadcastsInDim ⟨2, ![1, 64]⟩ ![1]) :
    shapeCast ⟨2, ![1, 64]⟩ v hc = broadcastInDim ⟨2, ![1, 64]⟩ ![1] hb v := by
  funext i
  obtain ⟨u, q, rfl⟩ : ∃ (u : Fin 1) (q : Fin 64), i = ix2 u q := ⟨i 0, i 1, eq_ix2 i⟩
  rw [Cert.ReferenceIdeal.Kinds.broadcastInDim_b_1b_apply hb v u q]
  refine shapeCast_apply v hc (ix2 u q) (ix1 q) ?_
  rw [Shape.rowMajor_val_one, Shape.rowMajor_val_two]
  show q.val = u.val * 64 + q.val
  have := u.isLt
  omega

section Pieces

open Cert.ReferenceIdeal Cert.ReferenceIdeal.Facts₀ Cert.ReferenceIdeal.Facts

def vec4 (a : FVec Ideal S5x64 .f32) : FVec Ideal S64 .f32 :=
  shapeCast S64 (extractStridedSlice S1x64 ![4, 0] a slices_S5x64_S1x64_4_0) shapeCasts_S1x64_S64

def mat4 (a : FVec Ideal S5x64x64 .f32) : FVec Ideal S64x64 .f32 :=
  shapeCast S64x64 (extractStridedSlice S1x64x64 ![4, 0, 0] a slices_S5x64x64_S1x64x64_4_0_0) shapeCasts_S1x64x64_S64x64

def enc4 (a : FVec Ideal S5x7x64 .f32) : FVec Ideal S7x64 .f32 :=
  shapeCast S7x64 (extractStridedSlice S1x7x64 ![4, 0, 0] a slices_S5x7x64_S1x7x64_4_0_0) shapeCasts_S1x7x64_S7x64

def dstOf (a1 : IVec S2x1000000 32) : IVec S1000000 32 :=
  shapeCast S1000000 (extractStridedSlice S1x1000000 ![1, 0] a1 slices_S2x1000000_S1x1000000_1_0) shapeCasts_S1x1000000_S1000000

def srcOf (a1 : IVec S2x1000000 32) : IVec S1000000 32 :=
  shapeCast S1000000 (extractStridedSlice S1x1000000 ![0, 0] a1 slices_S2x1000000_S1x1000000_0_0) shapeCasts_S1x1000000_S1000000

def wrapIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

def gath (h : FVec Ideal S100000x64 .f32) (src : IVec S1000000 32) : FVec Ideal S1000000x64 .f32 :=
  Host.gather gather_S100000x64_S1000000x1_S1000000x64_1_0_n_n_0_1_164 h (wrapIdx src)

def agg (dst : IVec S1000000 32) (msg : FVec Ideal S1000000x64 .f32) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst) msg

def mean64 (z : FVec Ideal S100000x64 .f32) : FVec Ideal S64 .f32 :=
  Host.divf (Host.reduceAdd z (constant S_ .f32 0x00000000#32) reducesTo_S100000x64_S64_d0 h_S_)
    (broadcastInDim S64 ![] bcast_S_S64 (constant S_ .f32 0x47C35000#32))

def dev64 (z : FVec Ideal S100000x64 .f32) : FVec Ideal S100000x64 .f32 :=
  subf z (broadcastInDim S100000x64 ![0, 1] bcast_S1x64_S100000x64_0_1
    (Host.divf (broadcastInDim S1x64 ![1] bcast_S64_S1x64_1
        (Host.reduceAdd z (constant S_ .f32 0x00000000#32) reducesTo_S100000x64_S64_d0 h_S_))
      (broadcastInDim S1x64 ![] bcast_S_S1x64 (constant S_ .f32 0x47C35000#32))))

def cnt (dd : IVec S_ 32) : FVec Ideal S_ .f32 := subf (constant S_ .f32 0x47C35000#32) (sitofp .f32 dd)

def var64 (z : FVec Ideal S100000x64 .f32) (dd : IVec S_ 32) : FVec Ideal S64 .f32 :=
  select (broadcastInDim S64 ![] bcast_S_S64 (cmpf .ogt (cnt dd) (constant S_ .f32 0x00000000#32)))
    (Host.divf (Host.reduceAdd (mulf (dev64 z) (dev64 z)) (constant S_ .f32 0x00000000#32) reducesTo_S100000x64_S64_d0 h_S_)
      (broadcastInDim S64 ![] bcast_S_S64 (cnt dd)))
    (broadcastInDim S64 ![] bcast_S_S64 (constant S_ .f32 0x7FC00000#32))

def rs64 (v : FVec Ideal S64 .f32) : FVec Ideal S64 .f32 :=
  Host.rsqrt (addf v (broadcastInDim S64 ![] bcast_S_S64 (constant S_ .f32 0x3727C5AC#32)))

def dd0 : IVec S_ 32 := constantI S_ 32 0#32

def perc4 (h : FVec Ideal S100000x64 .f32) (src dst : IVec S1000000 32) (ea : FVec Ideal S1000000x7 .f32)
    (a5 : FVec Ideal S5x7x64 .f32) (a6 : FVec Ideal S5x64 .f32) (a7 : FVec Ideal S5x64x64 .f32) (a8 : FVec Ideal S5x64 .f32)
    (a9 : FVec Ideal S5x64x64 .f32) (a10 : FVec Ideal S5x64 .f32) : FVec Ideal S100000x64 .f32 :=
  Cert.Spec.mlpG h (agg dst (Cert.Spec.edgeG (gath h src) ea (enc4 a5) (Kinds.row (vec4 a6))))
    (mat4 a7) (Kinds.rowN (vec4 a8)) (mat4 a9) (Kinds.rowN (vec4 a10))

def norm4 (z : FVec Ideal S100000x64 .f32) (a11 a12 : FVec Ideal S5x64 .f32) : FVec Ideal S100000x64 .f32 :=
  Cert.Spec.bnG z (Kinds.rowB (mean64 z)) (Kinds.rowB (rs64 (var64 z dd0))) (Kinds.rowB (vec4 a11)) (Kinds.rowB (vec4 a12))

def msgRaw (h : FVec Ideal S100000x64 .f32) (src : IVec S1000000 32) (ea : FVec Ideal S1000000x7 .f32)
    (a5 : FVec Ideal S5x7x64 .f32) (a6 : FVec Ideal S5x64 .f32) : FVec Ideal S1000000x64 .f32 :=
  maximumf (addf (gath h src) (addf (Host.dotGeneral dot_S1000000x7_S7x64_S1000000x64_1_0_0_1_n_n none ea (enc4 a5))
      (broadcastInDim S1000000x64 ![0, 1] bcast_S1x64_S1000000x64_0_1 (broadcastInDim S1x64 ![1] bcast_S64_S1x64_1 (vec4 a6)))))
    (broadcastInDim S1000000x64 ![] bcast_S_S1000000x64 (constant S_ .f32 0x00000000#32))

def percRaw (h ag : FVec Ideal S100000x64 .f32) (a7 : FVec Ideal S5x64x64 .f32) (a8 : FVec Ideal S5x64 .f32)
    (a9 : FVec Ideal S5x64x64 .f32) (a10 : FVec Ideal S5x64 .f32) : FVec Ideal S100000x64 .f32 :=
  addf (Host.dotGeneral dot_S100000x64_S64x64_S100000x64_1_0_0_1_n_n none
      (maximumf (addf (Host.dotGeneral dot_S100000x64_S64x64_S100000x64_1_0_0_1_n_n none (addf h ag) (mat4 a7))
          (broadcastInDim S100000x64 ![0, 1] bcast_S1x64_S100000x64_0_1 (broadcastInDim S1x64 ![1] bcast_S64_S1x64_1 (vec4 a8))))
        (broadcastInDim S100000x64 ![] bcast_S_S100000x64 (constant S_ .f32 0x00000000#32)))
      (mat4 a9))
    (broadcastInDim S100000x64 ![0, 1] bcast_S1x64_S100000x64_0_1 (broadcastInDim S1x64 ![1] bcast_S64_S1x64_1 (vec4 a10)))

def normRaw (z : FVec Ideal S100000x64 .f32) (a11 a12 : FVec Ideal S5x64 .f32) : FVec Ideal S100000x64 .f32 :=
  addf (mulf (mulf (subf z (Kinds.overNodes (mean64 z))) (Kinds.overNodes (rs64 (var64 z dd0)))) (Kinds.overNodes (vec4 a11)))
    (Kinds.overNodes (vec4 a12))

theorem msgRaw_eq (h : FVec Ideal S100000x64 .f32) (src : IVec S1000000 32) (ea : FVec Ideal S1000000x7 .f32)
    (a5 : FVec Ideal S5x7x64 .f32) (a6 : FVec Ideal S5x64 .f32) :
    msgRaw h src ea a5 a6 = Cert.Spec.edgeG (gath h src) ea (enc4 a5) (Kinds.row (vec4 a6)) :=
  Kinds.ref_edge _ _ _ _
theorem percRaw_eq (h ag : FVec Ideal S100000x64 .f32) (a7 : FVec Ideal S5x64x64 .f32) (a8 : FVec Ideal S5x64 .f32)
    (a9 : FVec Ideal S5x64x64 .f32) (a10 : FVec Ideal S5x64 .f32) :
    percRaw h ag a7 a8 a9 a10
      = Cert.Spec.mlpG h ag (mat4 a7) (Kinds.rowN (vec4 a8)) (mat4 a9) (Kinds.rowN (vec4 a10)) :=
  Kinds.ref_mlp _ _ _ _ _ _
theorem normRaw_eq (z : FVec Ideal S100000x64 .f32) (a11 a12 : FVec Ideal S5x64 .f32) :
    normRaw z a11 a12 = norm4 z a11 a12 :=
  Kinds.ref_bn _ _ _ _ _

end Pieces

section Kernel

open Cert.KernelIdeal Cert.KernelIdeal.Gen Cert.KernelIdeal.Facts₀ Cert.KernelIdeal.Facts Cert.KernelIdeal.Keep

theorem k_src (V : Valuation τ sig (Elt Ideal)) :
    after (hostOps0 (F := Ideal)) V (Proc.devRef .tc main_v1) = srcOf (V (Proc.devRef .tc main_arg1)) := by
  after_results
  rfl

theorem k_dst (V : Valuation τ sig (Elt Ideal)) :
    after (hostOps0 (F := Ideal)) V (Proc.devRef .tc main_v3) = dstOf (V (Proc.devRef .tc main_arg1)) := by
  after_results
  rfl

theorem ofBuf_toBuf {sg : RefSig} {Val : EltTy → Type} {T : BufTy} (x : StableHlo.TRef sg T) (v : T.Contents Val) :
    x.ofBuf (x.toBuf v) = v := by
  obtain ⟨r, rfl, _, _⟩ := x
  rfl

attribute [local irreducible] Host.gather Host.reduce Host.reduceAdd Host.scatterAdd Host.rsqrt Host.divf broadcastInDim select cmpi cmpf addi andi constantI constant sitofp extractStridedSlice maximumf addf mulf subf in

theorem k_take_raw (V : Valuation τ sig (Elt Ideal)) :
    (after (hostOps12 (F := Ideal)) V (Proc.devRef .tc main_v153) : S1000000x64.Idx → EReal)
      = select (broadcastInDim S1000000x64 ![0] Facts₀.bcast_S1000000_S1000000x64_0
        (Host.reduce IntOp.andi
          (andi (cmpi .sge (Take.srcIdx (V (Proc.devRef .tc main_v1) : IVec S1000000 32)) (broadcastInDim S1000000x1 ![] Facts₀.bcast_S_S1000000x1 (constantI S_ 32 0#32)))
            (cmpi .sle (Take.srcIdx (V (Proc.devRef .tc main_v1) : IVec S1000000 32)) (broadcastInDim S1000000x1 ![0, 1] Facts₀.bcast_S1x1_S1000000x1_0_1
              (broadcastInDim S1x1 ![1] Facts₀.bcast_S1_S1x1_1 (constantI S1 32 99999#32)))))
          (constantI S_ 1 1#1) Facts₀.reducesTo_S1000000x1_S1000000_d1 Facts₀.h_S_))
      (Host.gather gather_S100000x64_S1000000x1_S1000000x64_1_0_n_n_0_1_164 (V (Proc.devRef .tc main_v152) : FVec Ideal S100000x64 .f32) (Take.srcIdx (V (Proc.devRef .tc main_v1) : IVec S1000000 32)))
      (broadcastInDim S1000000x64 ![] Facts₀.bcast_S_S1000000x64 (constant (F := Ideal) S_ .f32 0x7FC00000#32)) := by
  after_results_simp
  simp only [ofBuf_toBuf]
  rfl

attribute [local irreducible] Host.gather broadcastInDim select cmpi addi constantI in

theorem gath_eq (h : FVec Ideal S100000x64 .f32) (src : IVec S1000000 32) :
    Host.gather gather_S100000x64_S1000000x1_S1000000x64_1_0_n_n_0_1_164 h (Take.srcIdx src) = gath h src := rfl

theorem k_take (V : Valuation τ sig (Elt Ideal))
    (hsrc : ∀ j : S1000000.Idx, 0 ≤ ((V (Proc.devRef .tc main_v1) : IVec S1000000 32) j).toInt
      ∧ ((V (Proc.devRef .tc main_v1) : IVec S1000000 32) j).toInt < 100000) :
    after (hostOps12 (F := Ideal)) V (Proc.devRef .tc main_v153)
      = gath (V (Proc.devRef .tc main_v152)) (V (Proc.devRef .tc main_v1)) :=
  (k_take_raw V).trans ((Take.take_src (V (Proc.devRef .tc main_v1)) hsrc (V (Proc.devRef .tc main_v152))).trans
    (gath_eq (V (Proc.devRef .tc main_v152)) (V (Proc.devRef .tc main_v1))))

theorem k_enc (V : Valuation τ sig (Elt Ideal)) :
    after (hostOps12_1 (F := Ideal)) V (Proc.devRef .tc main_v155) = enc4 (V (Proc.devRef .tc main_arg5)) := by
  after_results
  rfl

theorem k_eb (V : Valuation τ sig (Elt Ideal)) :
    after (hostOps12_1 (F := Ideal)) V (Proc.devRef .tc main_v158)
      = Cert.ReferenceIdeal.Kinds.row (vec4 (V (Proc.devRef .tc main_arg6))) := by
  refine Eq.trans ?_ (row_cast_eq_bcast (vec4 (V (Proc.devRef .tc main_arg6))) Facts₀.shapeCasts_S64_S1x64 _)
  after_results
  rfl

attribute [local irreducible] Host.scatterAdd in

theorem k_agg (V : Valuation τ sig (Elt Ideal)) :
    after (hostOps13 (F := Ideal)) V (Proc.devRef .tc main_v162)
      = agg (V (Proc.devRef .tc main_v3)) (V (Proc.devRef .tc main_v159)) := by
  after_results
  rfl
theorem k_w1 (V : Valuation τ sig (Elt Ideal)) :
    after (hostOps13 (F := Ideal)) V (Proc.devRef .tc main_v164) = mat4 (V (Proc.devRef .tc main_arg7)) := by
  after_results
  rfl
theorem k_w2 (V : Valuation τ sig (Elt Ideal)) :
    after (hostOps13 (F := Ideal)) V (Proc.devRef .tc main_v168) = mat4 (V (Proc.devRef .tc main_arg9)) := by
  after_results
  rfl
theorem k_b1 (V : Valuation τ sig (Elt Ideal)) :
    after (hostOps13 (F := Ideal)) V (Proc.devRef .tc main_v171)
      = Cert.ReferenceIdeal.Kinds.rowN (vec4 (V (Proc.devRef .tc main_arg8))) := by
  refine Eq.trans ?_ (row_cast_eq_bcast (vec4 (V (Proc.devRef .tc main_arg8))) Facts₀.shapeCasts_S64_S1x64 _)
  after_results
  rfl
theorem k_b2 (V : Valuation τ sig (Elt Ideal)) :
    after (hostOps13 (F := Ideal)) V (Proc.devRef .tc main_v172)
      = Cert.ReferenceIdeal.Kinds.rowN (vec4 (V (Proc.devRef .tc main_arg10))) := by
  refine Eq.trans ?_ (row_cast_eq_bcast (vec4 (V (Proc.devRef .tc main_arg10))) Facts₀.shapeCasts_S64_S1x64 _)
  after_results
  rfl

attribute [local irreducible] Host.reduceAdd Host.divf in

theorem k_mean (V : Valuation τ sig (Elt Ideal)) :
    after (hostOps14 (F := Ideal)) V (Proc.devRef .tc main_v176) = mean64 (V (Proc.devRef .tc main_v173)) := by
  after_results
  rfl

theorem k_dd (V : Valuation τ sig (Elt Ideal)) :
    after (hostOps14 (F := Ideal)) V (Proc.devRef .tc main_c_21) = dd0 := by
  after_results
  rfl

attribute [local irreducible] Host.reduceAdd Host.divf broadcastInDim select cmpf constant in

theorem k_var (V : Valuation τ sig (Elt Ideal)) :
    after (hostOps14_1 (F := Ideal)) V (Proc.devRef .tc main_v177)
      = var64 (V (Proc.devRef .tc main_v173)) (V (Proc.devRef .tc main_c_21)) := by
  after_results_simp
  simp only [TRef.ofBuf, TRef.toBuf, cast_cast, cast_eq]
  rfl

theorem k_mu (V : Valuation τ sig (Elt Ideal)) :
    after (hostOps14_2 (F := Ideal)) V (Proc.devRef .tc main_v182)
      = Cert.ReferenceIdeal.Kinds.rowB (V (Proc.devRef .tc main_v176)) := by
  refine Eq.trans ?_ (row_cast_eq_bcast (V (Proc.devRef .tc main_v176)) Facts₀.shapeCasts_S64_S1x64 _)
  after_results
  rfl
attribute [local irreducible] Host.rsqrt in

theorem k_s (V : Valuation τ sig (Elt Ideal)) :
    after (hostOps14_2 (F := Ideal)) V (Proc.devRef .tc main_v186)
      = Cert.ReferenceIdeal.Kinds.rowB (rs64 (V (Proc.devRef .tc main_v177))) := by
  refine Eq.trans ?_ (row_cast_eq_bcast (rs64 (V (Proc.devRef .tc main_v177))) Facts₀.shapeCasts_S64_S1x64 _)
  after_results
  rfl

theorem k_ga (V : Valuation τ sig (Elt Ideal)) :
    after (hostOps14_2 (F := Ideal)) V (Proc.devRef .tc main_v187)
      = Cert.ReferenceIdeal.Kinds.rowB (vec4 (V (Proc.devRef .tc main_arg11))) := by
  refine Eq.trans ?_ (row_cast_eq_bcast (vec4 (V (Proc.devRef .tc main_arg11))) Facts₀.shapeCasts_S64_S1x64 _)
  after_results
  rfl

theorem k_be (V : Valuation τ sig (Elt Ideal)) :
    after (hostOps14_2 (F := Ideal)) V (Proc.devRef .tc main_v188)
      = Cert.ReferenceIdeal.Kinds.rowB (vec4 (V (Proc.devRef .tc main_arg12))) := by
  refine Eq.trans ?_ (row_cast_eq_bcast (vec4 (V (Proc.devRef .tc main_arg12))) Facts₀.shapeCasts_S64_S1x64 _)
  after_results
  rfl

end Kernel

section Reference

open Cert.ReferenceIdeal Cert.ReferenceIdeal.Ops Cert.ReferenceIdeal.Facts₀ Cert.ReferenceIdeal.Facts Cert.ReferenceIdeal.Keep

theorem r_src (V : Valuation τ sig (Elt Ideal)) :
    after (chunkH (F := Ideal)) V (Proc.devRef .tc main_v1) = srcOf (V (Proc.devRef .tc main_arg1)) := by
  after_results
  rfl

theorem r_dst (V : Valuation τ sig (Elt Ideal)) :
    after (chunkH (F := Ideal)) V (Proc.devRef .tc main_v3) = dstOf (V (Proc.devRef .tc main_arg1)) := by
  after_results
  rfl

attribute [local irreducible] Host.gather Host.scatterAdd Host.reduceAdd Host.rsqrt Host.divf broadcastInDim select cmpi cmpf addi constantI constant in
set_option maxHeartbeats 4000000 in

theorem r_raw (V : Valuation τ sig (Elt Ideal)) :
    after (chunkL4 (F := Ideal)) V (Proc.devRef .tc main_v319)
      = normRaw
          (percRaw (V (Proc.devRef .tc main_v258))
            (agg (V (Proc.devRef .tc main_v3))
              (msgRaw (V (Proc.devRef .tc main_v258)) (V (Proc.devRef .tc main_v1)) (V (Proc.devRef .tc main_arg2))
                (V (Proc.devRef .tc main_arg5)) (V (Proc.devRef .tc main_arg6))))
            (V (Proc.devRef .tc main_arg7)) (V (Proc.devRef .tc main_arg8)) (V (Proc.devRef .tc main_arg9))
            (V (Proc.devRef .tc main_arg10)))
          (V (Proc.devRef .tc main_arg11)) (V (Proc.devRef .tc main_arg12)) := by
  after_results_simp
  simp only [TRef.ofBuf, TRef.toBuf, cast_cast, cast_eq]
  rfl

theorem r_layer (V : Valuation τ sig (Elt Ideal)) :
    after (chunkL4 (F := Ideal)) V (Proc.devRef .tc main_v319)
      = norm4
          (perc4 (V (Proc.devRef .tc main_v258)) (V (Proc.devRef .tc main_v1)) (V (Proc.devRef .tc main_v3))
            (V (Proc.devRef .tc main_arg2)) (V (Proc.devRef .tc main_arg5)) (V (Proc.devRef .tc main_arg6))
            (V (Proc.devRef .tc main_arg7)) (V (Proc.devRef .tc main_arg8)) (V (Proc.devRef .tc main_arg9))
            (V (Proc.devRef .tc main_arg10)))
          (V (Proc.devRef .tc main_arg11)) (V (Proc.devRef .tc main_arg12)) := by
  rw [r_raw, msgRaw_eq, percRaw_eq, normRaw_eq]
  rfl

end Reference

theorem UL3_arg (c : Dev Cert.ReferenceIdeal.nD) (b : Ref Cert.ReferenceIdeal.sig .tc) (hb : b.idx.val < 15) :
    UL3 m' c (Proc.devRef .tc b) = U0 m' c (Proc.devRef .tc b) :=
  (Cert.ReferenceIdeal.Keep.keep_chunkL3 _ b (by omega)).trans
    ((Cert.ReferenceIdeal.Keep.keep_chunkL2 _ b (by omega)).trans
      ((Cert.ReferenceIdeal.Keep.keep_chunkL1 _ b (by omega)).trans
        ((Cert.ReferenceIdeal.Keep.keep_chunkL0 _ b (by omega)).trans (Cert.ReferenceIdeal.Keep.keep_chunkH _ b hb))))

theorem UL3_early (c : Dev Cert.ReferenceIdeal.nD) (b : Ref Cert.ReferenceIdeal.sig .tc) (hb : b.idx.val < 28) :
    UL3 m' c (Proc.devRef .tc b) = UH m' c (Proc.devRef .tc b) :=
  (Cert.ReferenceIdeal.Keep.keep_chunkL3 _ b (by omega)).trans
    ((Cert.ReferenceIdeal.Keep.keep_chunkL2 _ b (by omega)).trans
      ((Cert.ReferenceIdeal.Keep.keep_chunkL1 _ b (by omega)).trans (Cert.ReferenceIdeal.Keep.keep_chunkL0 _ b hb)))

theorem ref_layer4 (c : Dev Cert.KernelIdeal.nD) :
    UL4 m' c (Proc.devRef .tc Cert.ReferenceIdeal.main_v319)
      = norm4
        (perc4 (UL3 m' c (Proc.devRef .tc Cert.ReferenceIdeal.main_v258)) (srcOf (m' ((c.tc : Thread Cert.ReferenceIdeal.nD Cert.ReferenceIdeal.τ).loc Cert.ReferenceIdeal.main_arg1))) (dstOf (m' ((c.tc : Thread Cert.ReferenceIdeal.nD Cert.ReferenceIdeal.τ).loc Cert.ReferenceIdeal.main_arg1)))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10)))
        (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) := by
  have e1 : UL3 m' c (Proc.devRef .tc Cert.ReferenceIdeal.main_v1) = srcOf (m' ((c.tc : Thread Cert.ReferenceIdeal.nD Cert.ReferenceIdeal.τ).loc Cert.ReferenceIdeal.main_arg1)) :=
    (UL3_early m' c Cert.ReferenceIdeal.main_v1 (by decide)).trans (r_src (U0 m' c))
  have e3 : UL3 m' c (Proc.devRef .tc Cert.ReferenceIdeal.main_v3) = dstOf (m' ((c.tc : Thread Cert.ReferenceIdeal.nD Cert.ReferenceIdeal.τ).loc Cert.ReferenceIdeal.main_arg1)) :=
    (UL3_early m' c Cert.ReferenceIdeal.main_v3 (by decide)).trans (r_dst (U0 m' c))
  have a2 : UL3 m' c (Proc.devRef .tc Cert.ReferenceIdeal.main_arg2) = (m' ((c.tc : Thread Cert.ReferenceIdeal.nD Cert.ReferenceIdeal.τ).loc Cert.ReferenceIdeal.main_arg2)) :=
    UL3_arg m' c Cert.ReferenceIdeal.main_arg2 (by decide)
  have a5 : UL3 m' c (Proc.devRef .tc Cert.ReferenceIdeal.main_arg5) = (m' ((c.tc : Thread Cert.ReferenceIdeal.nD Cert.ReferenceIdeal.τ).loc Cert.ReferenceIdeal.main_arg5)) :=
    UL3_arg m' c Cert.ReferenceIdeal.main_arg5 (by decide)
  have a6 : UL3 m' c (Proc.devRef .tc Cert.ReferenceIdeal.main_arg6) = (m' ((c.tc : Thread Cert.ReferenceIdeal.nD Cert.ReferenceIdeal.τ).loc Cert.ReferenceIdeal.main_arg6)) :=
    UL3_arg m' c Cert.ReferenceIdeal.main_arg6 (by decide)
  have a7 : UL3 m' c (Proc.devRef .tc Cert.ReferenceIdeal.main_arg7) = (m' ((c.tc : Thread Cert.ReferenceIdeal.nD Cert.ReferenceIdeal.τ).loc Cert.ReferenceIdeal.main_arg7)) :=
    UL3_arg m' c Cert.ReferenceIdeal.main_arg7 (by decide)
  have a8 : UL3 m' c (Proc.devRef .tc Cert.ReferenceIdeal.main_arg8) = (m' ((c.tc : Thread Cert.ReferenceIdeal.nD Cert.ReferenceIdeal.τ).loc Cert.ReferenceIdeal.main_arg8)) :=
    UL3_arg m' c Cert.ReferenceIdeal.main_arg8 (by decide)
  have a9 : UL3 m' c (Proc.devRef .tc Cert.ReferenceIdeal.main_arg9) = (m' ((c.tc : Thread Cert.ReferenceIdeal.nD Cert.ReferenceIdeal.τ).loc Cert.ReferenceIdeal.main_arg9)) :=
    UL3_arg m' c Cert.ReferenceIdeal.main_arg9 (by decide)
  have a10 : UL3 m' c (Proc.devRef .tc Cert.ReferenceIdeal.main_arg10) = (m' ((c.tc : Thread Cert.ReferenceIdeal.nD Cert.ReferenceIdeal.τ).loc Cert.ReferenceIdeal.main_arg10)) :=
    UL3_arg m' c Cert.ReferenceIdeal.main_arg10 (by decide)
  have a11 : UL3 m' c (Proc.devRef .tc Cert.ReferenceIdeal.main_arg11) = (m' ((c.tc : Thread Cert.ReferenceIdeal.nD Cert.ReferenceIdeal.τ).loc Cert.ReferenceIdeal.main_arg11)) :=
    UL3_arg m' c Cert.ReferenceIdeal.main_arg11 (by decide)
  have a12 : UL3 m' c (Proc.devRef .tc Cert.ReferenceIdeal.main_arg12) = (m' ((c.tc : Thread Cert.ReferenceIdeal.nD Cert.ReferenceIdeal.τ).loc Cert.ReferenceIdeal.main_arg12)) :=
    UL3_arg m' c Cert.ReferenceIdeal.main_arg12 (by decide)
  have h := r_layer (UL3 m' c)
  rw [e1, e3, a2, a5, a6, a7, a8, a9, a10, a11, a12] at h
  exact h

theorem kernel_layer4 (hs : SrcInRange m) (c : Dev Cert.KernelIdeal.nD) :
    (Cert.KernelIdeal.Gen.W47 m ρ c (Proc.devRef .tc Cert.KernelIdeal.main_v189))
      = norm4
        (perc4 (Cert.KernelIdeal.Gen.W38 m ρ c (Proc.devRef .tc Cert.KernelIdeal.main_v152)) (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
          (m ((c.tc : Thread Cert.KernelIdeal.nD Cert.KernelIdeal.τ).loc Cert.KernelIdeal.main_arg10)))
        (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by

  have e_src : (Cert.KernelIdeal.Gen.W38 m ρ c (Proc.devRef .tc Cert.KernelIdeal.main_v1)) = srcOf (m ((c.tc : Thread Cert.KernelIdeal.nD Cert.KernelIdeal.τ).loc Cert.KernelIdeal.main_arg1)) :=
    ((Cert.KernelIdeal.Keep.W38_kept m ρ c Cert.KernelIdeal.main_v1 (by decide))).trans (k_src (Cert.KernelIdeal.Gen.W0 m ρ c))
  have e_dst : (Cert.KernelIdeal.Gen.W41 m ρ c (Proc.devRef .tc Cert.KernelIdeal.main_v3)) = dstOf (m ((c.tc : Thread Cert.KernelIdeal.nD Cert.KernelIdeal.τ).loc Cert.KernelIdeal.main_arg1)) :=
    ((Cert.KernelIdeal.Keep.W41_kept m ρ c Cert.KernelIdeal.main_v3 (by decide))).trans (k_dst (Cert.KernelIdeal.Gen.W0 m ρ c))
  have hsrc : ∀ j : Cert.KernelIdeal.S1000000.Idx, 0 ≤ (((Cert.KernelIdeal.Gen.W38 m ρ c (Proc.devRef .tc Cert.KernelIdeal.main_v1)) : IVec Cert.KernelIdeal.S1000000 32) j).toInt
      ∧ (((Cert.KernelIdeal.Gen.W38 m ρ c (Proc.devRef .tc Cert.KernelIdeal.main_v1)) : IVec Cert.KernelIdeal.S1000000 32) j).toInt < 100000 := by
    rw [e_src]
    exact Cert.KernelIdeal.Take.srcOf_range _ (hs c)

  have e153 : (Cert.KernelIdeal.Gen.W40 m ρ c (Proc.devRef .tc Cert.KernelIdeal.main_v153)) = gath (Cert.KernelIdeal.Gen.W38 m ρ c (Proc.devRef .tc Cert.KernelIdeal.main_v152)) (srcOf (m ((c.tc : Thread Cert.KernelIdeal.nD Cert.KernelIdeal.τ).loc Cert.KernelIdeal.main_arg1))) :=
    (Cert.KernelIdeal.Keep.keep_hostOps12_1 _ Cert.KernelIdeal.main_v153 (by decide)).trans
      ((k_take (Cert.KernelIdeal.Gen.W38 m ρ c) hsrc).trans (by rw [e_src]))
  have e155 : (Cert.KernelIdeal.Gen.W40 m ρ c (Proc.devRef .tc Cert.KernelIdeal.main_v155)) = enc4 (m ((c.tc : Thread Cert.KernelIdeal.nD Cert.KernelIdeal.τ).loc Cert.KernelIdeal.main_arg5)) :=
    (k_enc (Cert.KernelIdeal.Gen.W39 m ρ c)).trans (by rw [((Cert.KernelIdeal.Keep.W39_kept m ρ c Cert.KernelIdeal.main_arg5 (by decide)).trans (Cert.KernelIdeal.Keep.W1_arg m ρ c Cert.KernelIdeal.main_arg5 (by decide)))])
  have e158 : (Cert.KernelIdeal.Gen.W40 m ρ c (Proc.devRef .tc Cert.KernelIdeal.main_v158)) = Cert.ReferenceIdeal.Kinds.row (vec4 (m ((c.tc : Thread Cert.KernelIdeal.nD Cert.KernelIdeal.τ).loc Cert.KernelIdeal.main_arg6))) :=
    (k_eb (Cert.KernelIdeal.Gen.W39 m ρ c)).trans (by rw [((Cert.KernelIdeal.Keep.W39_kept m ρ c Cert.KernelIdeal.main_arg6 (by decide)).trans (Cert.KernelIdeal.Keep.W1_arg m ρ c Cert.KernelIdeal.main_arg6 (by decide)))])
  have e159 : (Cert.KernelIdeal.Gen.W41 m ρ c (Proc.devRef .tc Cert.KernelIdeal.main_v159))
      = Cert.Spec.edgeG (Cert.KernelIdeal.Gen.W40 m ρ c (Proc.devRef .tc Cert.KernelIdeal.main_v153)) (Cert.KernelIdeal.Gen.W40 m ρ c (Proc.devRef .tc Cert.KernelIdeal.main_arg2)) (Cert.KernelIdeal.Gen.W40 m ρ c (Proc.devRef .tc Cert.KernelIdeal.main_v155)) (Cert.KernelIdeal.Gen.W40 m ρ c (Proc.devRef .tc Cert.KernelIdeal.main_v158)) :=
    (Cert.KernelIdeal.Gen.W41_arr m ρ c 4).trans (Cert.KernelIdeal.RegionValue.region12 (Cert.KernelIdeal.Gen.V40 m ρ) c)
  rw [e153, ((Cert.KernelIdeal.Keep.W40_kept m ρ c Cert.KernelIdeal.main_arg2 (by decide)).trans (Cert.KernelIdeal.Keep.W1_arg m ρ c Cert.KernelIdeal.main_arg2 (by decide))), e155, e158] at e159

  have e162 : (Cert.KernelIdeal.Gen.W42 m ρ c (Proc.devRef .tc Cert.KernelIdeal.main_v162)) = agg (dstOf (m ((c.tc : Thread Cert.KernelIdeal.nD Cert.KernelIdeal.τ).loc Cert.KernelIdeal.main_arg1))) (Cert.KernelIdeal.Gen.W41 m ρ c (Proc.devRef .tc Cert.KernelIdeal.main_v159)) :=
    (k_agg (Cert.KernelIdeal.Gen.W41 m ρ c)).trans (by rw [e_dst])
  have e164 : (Cert.KernelIdeal.Gen.W42 m ρ c (Proc.devRef .tc Cert.KernelIdeal.main_v164)) = mat4 (m ((c.tc : Thread Cert.KernelIdeal.nD Cert.KernelIdeal.τ).loc Cert.KernelIdeal.main_arg7)) :=
    (k_w1 (Cert.KernelIdeal.Gen.W41 m ρ c)).trans (by rw [((Cert.KernelIdeal.Keep.W41_kept m ρ c Cert.KernelIdeal.main_arg7 (by decide)).trans (Cert.KernelIdeal.Keep.W1_arg m ρ c Cert.KernelIdeal.main_arg7 (by decide)))])
  have e171 : (Cert.KernelIdeal.Gen.W42 m ρ c (Proc.devRef .tc Cert.KernelIdeal.main_v171)) = Cert.ReferenceIdeal.Kinds.rowN (vec4 (m ((c.tc : Thread Cert.KernelIdeal.nD Cert.KernelIdeal.τ).loc Cert.KernelIdeal.main_arg8))) :=
    (k_b1 (Cert.KernelIdeal.Gen.W41 m ρ c)).trans (by rw [((Cert.KernelIdeal.Keep.W41_kept m ρ c Cert.KernelIdeal.main_arg8 (by decide)).trans (Cert.KernelIdeal.Keep.W1_arg m ρ c Cert.KernelIdeal.main_arg8 (by decide)))])
  have e168 : (Cert.KernelIdeal.Gen.W42 m ρ c (Proc.devRef .tc Cert.KernelIdeal.main_v168)) = mat4 (m ((c.tc : Thread Cert.KernelIdeal.nD Cert.KernelIdeal.τ).loc Cert.KernelIdeal.main_arg9)) :=
    (k_w2 (Cert.KernelIdeal.Gen.W41 m ρ c)).trans (by rw [((Cert.KernelIdeal.Keep.W41_kept m ρ c Cert.KernelIdeal.main_arg9 (by decide)).trans (Cert.KernelIdeal.Keep.W1_arg m ρ c Cert.KernelIdeal.main_arg9 (by decide)))])
  have e172 : (Cert.KernelIdeal.Gen.W42 m ρ c (Proc.devRef .tc Cert.KernelIdeal.main_v172)) = Cert.ReferenceIdeal.Kinds.rowN (vec4 (m ((c.tc : Thread Cert.KernelIdeal.nD Cert.KernelIdeal.τ).loc Cert.KernelIdeal.main_arg10))) :=
    (k_b2 (Cert.KernelIdeal.Gen.W41 m ρ c)).trans (by rw [((Cert.KernelIdeal.Keep.W41_kept m ρ c Cert.KernelIdeal.main_arg10 (by decide)).trans (Cert.KernelIdeal.Keep.W1_arg m ρ c Cert.KernelIdeal.main_arg10 (by decide)))])
  have e152 : (Cert.KernelIdeal.Gen.W42 m ρ c (Proc.devRef .tc Cert.KernelIdeal.main_v152)) = (Cert.KernelIdeal.Gen.W38 m ρ c (Proc.devRef .tc Cert.KernelIdeal.main_v152)) :=
    (Cert.KernelIdeal.Keep.keep_hostOps13 _ Cert.KernelIdeal.main_v152 (by decide)).trans
      ((Cert.KernelIdeal.Gen.W41_of_ne m ρ c Cert.KernelIdeal.main_v152 (by decide)).trans
        ((Cert.KernelIdeal.Keep.keep_hostOps12_1 _ Cert.KernelIdeal.main_v152 (by decide)).trans
          (Cert.KernelIdeal.Keep.keep_hostOps12 _ Cert.KernelIdeal.main_v152 (by decide))))
  have e173 : (Cert.KernelIdeal.Gen.W43 m ρ c (Proc.devRef .tc Cert.KernelIdeal.main_v173))
      = Cert.Spec.mlpG (Cert.KernelIdeal.Gen.W42 m ρ c (Proc.devRef .tc Cert.KernelIdeal.main_v152)) (Cert.KernelIdeal.Gen.W42 m ρ c (Proc.devRef .tc Cert.KernelIdeal.main_v162)) (Cert.KernelIdeal.Gen.W42 m ρ c (Proc.devRef .tc Cert.KernelIdeal.main_v164)) (Cert.KernelIdeal.Gen.W42 m ρ c (Proc.devRef .tc Cert.KernelIdeal.main_v171))
          (Cert.KernelIdeal.Gen.W42 m ρ c (Proc.devRef .tc Cert.KernelIdeal.main_v168)) (Cert.KernelIdeal.Gen.W42 m ρ c (Proc.devRef .tc Cert.KernelIdeal.main_v172)) :=
    (Cert.KernelIdeal.Gen.W43_arr m ρ c 6).trans (Cert.KernelIdeal.RegionValue.region13 (Cert.KernelIdeal.Gen.V42 m ρ) c)
  rw [e152, e162, e159, e164, e171, e168, e172] at e173
  have e173' : (Cert.KernelIdeal.Gen.W43 m ρ c (Proc.devRef .tc Cert.KernelIdeal.main_v173))
      = perc4 (Cert.KernelIdeal.Gen.W38 m ρ c (Proc.devRef .tc Cert.KernelIdeal.main_v152)) (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := e173

  have z44 : (Cert.KernelIdeal.Gen.W44 m ρ c (Proc.devRef .tc Cert.KernelIdeal.main_v173)) = (Cert.KernelIdeal.Gen.W43 m ρ c (Proc.devRef .tc Cert.KernelIdeal.main_v173)) :=
    Cert.KernelIdeal.Keep.keep_hostOps14 _ Cert.KernelIdeal.main_v173 (by decide)
  have edd : (Cert.KernelIdeal.Gen.W44 m ρ c (Proc.devRef .tc Cert.KernelIdeal.main_c_21)) = dd0 := k_dd (Cert.KernelIdeal.Gen.W43 m ρ c)
  have e176 : (Cert.KernelIdeal.Gen.W45 m ρ c (Proc.devRef .tc Cert.KernelIdeal.main_v176)) = mean64 (Cert.KernelIdeal.Gen.W43 m ρ c (Proc.devRef .tc Cert.KernelIdeal.main_v173)) :=
    (Cert.KernelIdeal.Keep.keep_hostOps14_1 _ Cert.KernelIdeal.main_v176 (by decide)).trans (k_mean (Cert.KernelIdeal.Gen.W43 m ρ c))
  have e177 : (Cert.KernelIdeal.Gen.W45 m ρ c (Proc.devRef .tc Cert.KernelIdeal.main_v177)) = var64 (Cert.KernelIdeal.Gen.W43 m ρ c (Proc.devRef .tc Cert.KernelIdeal.main_v173)) dd0 :=
    (k_var (Cert.KernelIdeal.Gen.W44 m ρ c)).trans (by rw [z44, edd])
  have e182 : (Cert.KernelIdeal.Gen.W46 m ρ c (Proc.devRef .tc Cert.KernelIdeal.main_v182)) = Cert.ReferenceIdeal.Kinds.rowB (mean64 (Cert.KernelIdeal.Gen.W43 m ρ c (Proc.devRef .tc Cert.KernelIdeal.main_v173))) :=
    (k_mu (Cert.KernelIdeal.Gen.W45 m ρ c)).trans (by rw [e176])
  have e186 : (Cert.KernelIdeal.Gen.W46 m ρ c (Proc.devRef .tc Cert.KernelIdeal.main_v186)) = Cert.ReferenceIdeal.Kinds.rowB (rs64 (var64 (Cert.KernelIdeal.Gen.W43 m ρ c (Proc.devRef .tc Cert.KernelIdeal.main_v173)) dd0)) :=
    (k_s (Cert.KernelIdeal.Gen.W45 m ρ c)).trans (by rw [e177])
  have e187 : (Cert.KernelIdeal.Gen.W46 m ρ c (Proc.devRef .tc Cert.KernelIdeal.main_v187)) = Cert.ReferenceIdeal.Kinds.rowB (vec4 (m ((c.tc : Thread Cert.KernelIdeal.nD Cert.KernelIdeal.τ).loc Cert.KernelIdeal.main_arg11))) :=
    (k_ga (Cert.KernelIdeal.Gen.W45 m ρ c)).trans (by rw [((Cert.KernelIdeal.Keep.W45_kept m ρ c Cert.KernelIdeal.main_arg11 (by decide)).trans (Cert.KernelIdeal.Keep.W1_arg m ρ c Cert.KernelIdeal.main_arg11 (by decide)))])
  have e188 : (Cert.KernelIdeal.Gen.W46 m ρ c (Proc.devRef .tc Cert.KernelIdeal.main_v188)) = Cert.ReferenceIdeal.Kinds.rowB (vec4 (m ((c.tc : Thread Cert.KernelIdeal.nD Cert.KernelIdeal.τ).loc Cert.KernelIdeal.main_arg12))) :=
    (k_be (Cert.KernelIdeal.Gen.W45 m ρ c)).trans (by rw [((Cert.KernelIdeal.Keep.W45_kept m ρ c Cert.KernelIdeal.main_arg12 (by decide)).trans (Cert.KernelIdeal.Keep.W1_arg m ρ c Cert.KernelIdeal.main_arg12 (by decide)))])
  have z46 : (Cert.KernelIdeal.Gen.W46 m ρ c (Proc.devRef .tc Cert.KernelIdeal.main_v173)) = (Cert.KernelIdeal.Gen.W43 m ρ c (Proc.devRef .tc Cert.KernelIdeal.main_v173)) :=
    (Cert.KernelIdeal.Keep.keep_hostOps14_2 _ Cert.KernelIdeal.main_v173 (by decide)).trans
      ((Cert.KernelIdeal.Keep.keep_hostOps14_1 _ Cert.KernelIdeal.main_v173 (by decide)).trans
        (Cert.KernelIdeal.Keep.keep_hostOps14 _ Cert.KernelIdeal.main_v173 (by decide)))

  have e189 : (Cert.KernelIdeal.Gen.W47 m ρ c (Proc.devRef .tc Cert.KernelIdeal.main_v189))
      = Cert.Spec.bnG (Cert.KernelIdeal.Gen.W46 m ρ c (Proc.devRef .tc Cert.KernelIdeal.main_v173)) (Cert.KernelIdeal.Gen.W46 m ρ c (Proc.devRef .tc Cert.KernelIdeal.main_v182)) (Cert.KernelIdeal.Gen.W46 m ρ c (Proc.devRef .tc Cert.KernelIdeal.main_v186)) (Cert.KernelIdeal.Gen.W46 m ρ c (Proc.devRef .tc Cert.KernelIdeal.main_v187))
          (Cert.KernelIdeal.Gen.W46 m ρ c (Proc.devRef .tc Cert.KernelIdeal.main_v188)) :=
    (Cert.KernelIdeal.Gen.W47_arr m ρ c 5).trans (Cert.KernelIdeal.RegionValue.region14 (Cert.KernelIdeal.Gen.V46 m ρ) c)
  rw [z46, e182, e186, e187, e188, e173'] at e189
  exact e189

end Layer4

theorem layer4 (hA : Agree m' m) (hs : SrcInRange m) (c : Dev Cert.KernelIdeal.nD) (h : Inv3 m' m ρ c) : Inv4 m' m ρ c := by
  obtain ⟨-, h1, h2, -, -, h5, h6, h7, h8, h9, h10, h11, h12, -, -⟩ := hA c
  have hk := Layer4.kernel_layer4 m ρ hs c
  have hr := Layer4.ref_layer4 m' c
  have h' : UL3 m' c (Proc.devRef .tc Cert.ReferenceIdeal.main_v258) = (Cert.KernelIdeal.Gen.W38 m ρ c (Proc.devRef .tc Cert.KernelIdeal.main_v152)) := h.symm
  rw [h', h1, h2, h5, h6, h7, h8, h9, h10, h11, h12] at hr
  exact hk.trans hr.symm

end Cert.Sim

end
-- ==== Proof.Tail.lean ====
import proofs.«408039_j61503931678734_1_alg».proof.Proof.Sim

import Idealize.ShloMosaic.Lib.StableHlo.Run

set_option maxRecDepth 16384

noncomputable section

namespace Cert.Sim

open Idealize.ShloMosaic Idealize.ShloMosaic.TcCoe Idealize.ShloMosaic.StableHlo Idealize.SL.Sem

section Pool

open Cert.KernelIdeal Cert.KernelIdeal.Facts₀ Cert.KernelIdeal.Facts

def poolProj (h : FVec Ideal S100000x64 .f32) (g : IVec S100000 32) (w : FVec Ideal S64x10 .f32)
    (b : FVec Ideal S10 .f32) : FVec Ideal S128x10 .f32 :=
  addf
    (Host.dotGeneral dot_S128x64_S64x10_S128x10_1_0_0_1_n_n none
      (Host.divf
        (Host.scatterAdd scatter_S128x64_S100000x1_S100000x64_1_0_0_1
          (broadcastInDim S128x64 ![] bcast_S_S128x64 (constant S_ .f32 0x00000000#32))
          (broadcastInDim S100000x1 ![0] bcast_S100000_S100000x1_0 g) h)
        (broadcastInDim S128x64 ![0, 1] bcast_S128x1_S128x64_0_1
          (broadcastInDim S128x1 ![0] bcast_S128_S128x1_0
            (maximumf
              (Host.scatterAdd scatter_S128_S100000x1_S100000_n_0_0_1
                (broadcastInDim S128 ![] bcast_S_S128 (constant S_ .f32 0x00000000#32))
                (broadcastInDim S100000x1 ![0] bcast_S100000_S100000x1_0 g)
                (broadcastInDim S100000 ![] bcast_S_S100000 (constant S_ .f32 0x3F800000#32)))
              (broadcastInDim S128 ![] bcast_S_S128 (constant S_ .f32 0x3F800000#32))))))
      w)
    (broadcastInDim S128x10 ![0, 1] bcast_S1x10_S128x10_0_1 (broadcastInDim S1x10 ![1] bcast_S10_S1x10_1 b))

end Pool

attribute [local irreducible] Host.scatterAdd Host.divf broadcastInDim constant in
set_option maxHeartbeats 1600000 in

theorem kernel_tail (V : Valuation Cert.KernelIdeal.τ Cert.KernelIdeal.sig (Elt Ideal)) :
    after (Cert.KernelIdeal.Gen.hostOps15 (F := Ideal)) V (Proc.devRef .tc Cert.KernelIdeal.main_v205)
      = poolProj (V (Proc.devRef .tc Cert.KernelIdeal.main_v189)) (V (Proc.devRef .tc Cert.KernelIdeal.main_arg3))
          (V (Proc.devRef .tc Cert.KernelIdeal.main_arg13)) (V (Proc.devRef .tc Cert.KernelIdeal.main_arg14)) := by
  after_results_simp
  rfl

attribute [local irreducible] Host.scatterAdd Host.divf broadcastInDim constant in
set_option maxHeartbeats 1600000 in

theorem ref_tail (V : Valuation Cert.ReferenceIdeal.τ Cert.ReferenceIdeal.sig (Elt Ideal)) :
    after (Cert.ReferenceIdeal.Ops.chunkT (F := Ideal)) V (Proc.devRef .tc Cert.ReferenceIdeal.main_v335)
      = poolProj (V (Proc.devRef .tc Cert.ReferenceIdeal.main_v319)) (V (Proc.devRef .tc Cert.ReferenceIdeal.main_arg3))
          (V (Proc.devRef .tc Cert.ReferenceIdeal.main_arg13)) (V (Proc.devRef .tc Cert.ReferenceIdeal.main_arg14)) := by
  after_results_simp
  rfl

variable (m' : (ℓ : Loc Cert.ReferenceIdeal.nD Cert.ReferenceIdeal.τ Cert.ReferenceIdeal.sig) → Buf (Elt Ideal) ℓ)
  (m : (ℓ : Loc Cert.KernelIdeal.nD Cert.KernelIdeal.τ Cert.KernelIdeal.sig) → Buf (Elt Ideal) ℓ)
  (ρ : Dev Cert.KernelIdeal.nD → PrngReg)

theorem UL4_arg (c : Dev Cert.ReferenceIdeal.nD) (b : Ref Cert.ReferenceIdeal.sig .tc) (hb : b.idx.val < 15) :
    UL4 m' c (Proc.devRef .tc b) = U0 m' c (Proc.devRef .tc b) :=
  (Cert.ReferenceIdeal.Keep.keep_chunkL4 _ b (by omega)).trans
    ((Cert.ReferenceIdeal.Keep.keep_chunkL3 _ b (by omega)).trans
      ((Cert.ReferenceIdeal.Keep.keep_chunkL2 _ b (by omega)).trans
        ((Cert.ReferenceIdeal.Keep.keep_chunkL1 _ b (by omega)).trans
          ((Cert.ReferenceIdeal.Keep.keep_chunkL0 _ b (by omega)).trans
            (Cert.ReferenceIdeal.Keep.keep_chunkH _ b hb)))))

theorem tail (hA : Agree m' m) (c : Dev Cert.KernelIdeal.nD) (h : Inv4 m' m ρ c) : Final m' m ρ c := by
  obtain ⟨-, -, -, h3, -, -, -, -, -, -, -, -, -, h13, h14⟩ := hA c
  have e3 : U0 m' c (Proc.devRef .tc Cert.ReferenceIdeal.main_arg3)
      = m ((c.tc : Thread Cert.KernelIdeal.nD Cert.KernelIdeal.τ).loc Cert.KernelIdeal.main_arg3) := h3
  have e13 : U0 m' c (Proc.devRef .tc Cert.ReferenceIdeal.main_arg13)
      = m ((c.tc : Thread Cert.KernelIdeal.nD Cert.KernelIdeal.τ).loc Cert.KernelIdeal.main_arg13) := h13
  have e14 : U0 m' c (Proc.devRef .tc Cert.ReferenceIdeal.main_arg14)
      = m ((c.tc : Thread Cert.KernelIdeal.nD Cert.KernelIdeal.τ).loc Cert.KernelIdeal.main_arg14) := h14
  have h4 : (Cert.KernelIdeal.Gen.W47 m ρ c (Proc.devRef .tc Cert.KernelIdeal.main_v189) : Cert.Spec.N64.Idx → EReal)
      = (UL4 m' c (Proc.devRef .tc Cert.ReferenceIdeal.main_v319) : Cert.Spec.N64.Idx → EReal) := h
  have hk := kernel_tail (Cert.KernelIdeal.Gen.W47 m ρ c)
  have hr := ref_tail (UL4 m' c)
  rw [((Cert.KernelIdeal.Keep.W47_kept m ρ c Cert.KernelIdeal.main_arg3 (by decide)).trans (Cert.KernelIdeal.Keep.W1_arg m ρ c Cert.KernelIdeal.main_arg3 (by decide))), ((Cert.KernelIdeal.Keep.W47_kept m ρ c Cert.KernelIdeal.main_arg13 (by decide)).trans (Cert.KernelIdeal.Keep.W1_arg m ρ c Cert.KernelIdeal.main_arg13 (by decide))), ((Cert.KernelIdeal.Keep.W47_kept m ρ c Cert.KernelIdeal.main_arg14 (by decide)).trans (Cert.KernelIdeal.Keep.W1_arg m ρ c Cert.KernelIdeal.main_arg14 (by decide))), h4] at hk
  rw [UL4_arg m' c Cert.ReferenceIdeal.main_arg3 (by decide), UL4_arg m' c Cert.ReferenceIdeal.main_arg13 (by decide),
    UL4_arg m' c Cert.ReferenceIdeal.main_arg14 (by decide), e3, e13, e14] at hr
  exact hk.trans hr.symm

end Cert.Sim

end
-- ==== Proof.lean ====
import proofs.«408039_j61503931678734_1_alg».proof.Defs
import proofs.«408039_j61503931678734_1_alg».proof.Proof.Gen.Kernel
import proofs.«408039_j61503931678734_1_alg».proof.Proof.Gen.Kernel.Skeleton
import proofs.«408039_j61503931678734_1_alg».proof.Proof.Gen.Kernel.Launch
import proofs.«408039_j61503931678734_1_alg».proof.Proof.Gen.Kernel.Points
import proofs.«408039_j61503931678734_1_alg».proof.Proof.Gen.Kernel.Frame
import proofs.«408039_j61503931678734_1_alg».proof.Proof.Gen.KernelIdeal
import proofs.«408039_j61503931678734_1_alg».proof.Proof.Gen.KernelIdeal.Skeleton
import proofs.«408039_j61503931678734_1_alg».proof.Proof.Gen.KernelIdeal.Launch
import proofs.«408039_j61503931678734_1_alg».proof.Proof.Gen.KernelIdeal.Points
import proofs.«408039_j61503931678734_1_alg».proof.Proof.Gen.KernelIdeal.Frame
import proofs.«408039_j61503931678734_1_alg».proof.Proof.Gen.ReferenceIdeal
import proofs.«408039_j61503931678734_1_alg».proof.Proof.Gen.Pre_finite_inputs
import proofs.«408039_j61503931678734_1_alg».proof.Proof.KRun
import proofs.«408039_j61503931678734_1_alg».proof.Proof.RefRun
import proofs.«408039_j61503931678734_1_alg».proof.Proof.RKeep
import proofs.«408039_j61503931678734_1_alg».proof.Proof.Sim
import proofs.«408039_j61503931678734_1_alg».proof.Proof.PreDecode
import proofs.«408039_j61503931678734_1_alg».proof.Proof.Layer0
import proofs.«408039_j61503931678734_1_alg».proof.Proof.Layer1
import proofs.«408039_j61503931678734_1_alg».proof.Proof.Layer2
import proofs.«408039_j61503931678734_1_alg».proof.Proof.Layer3
import proofs.«408039_j61503931678734_1_alg».proof.Proof.Layer4
import proofs.«408039_j61503931678734_1_alg».proof.Proof.Tail
import Idealize.ShloMosaic.Adequacy
import Idealize.ShloMosaic.Init

noncomputable section

namespace Cert.Proof

open Idealize.ShloMosaic Idealize.ShloMosaic.StableHlo Idealize.SL.Sem

theorem frame_ref : Cert.frame_ReferenceIdeal := fun m ρ _ =>
  (θ_run Cert.ReferenceIdeal.defs _ _).mono (fun r h c =>
    ⟨(h c Cert.ReferenceIdeal.main_arg0).trans (Cert.ReferenceIdeal.Keep.arg_kept _ Cert.ReferenceIdeal.main_arg0 (by decide)),
     (h c Cert.ReferenceIdeal.main_arg1).trans (Cert.ReferenceIdeal.Keep.arg_kept _ Cert.ReferenceIdeal.main_arg1 (by decide)),
     (h c Cert.ReferenceIdeal.main_arg2).trans (Cert.ReferenceIdeal.Keep.arg_kept _ Cert.ReferenceIdeal.main_arg2 (by decide)),
     (h c Cert.ReferenceIdeal.main_arg3).trans (Cert.ReferenceIdeal.Keep.arg_kept _ Cert.ReferenceIdeal.main_arg3 (by decide)),
     (h c Cert.ReferenceIdeal.main_arg4).trans (Cert.ReferenceIdeal.Keep.arg_kept _ Cert.ReferenceIdeal.main_arg4 (by decide)),
     (h c Cert.ReferenceIdeal.main_arg5).trans (Cert.ReferenceIdeal.Keep.arg_kept _ Cert.ReferenceIdeal.main_arg5 (by decide)),
     (h c Cert.ReferenceIdeal.main_arg6).trans (Cert.ReferenceIdeal.Keep.arg_kept _ Cert.ReferenceIdeal.main_arg6 (by decide)),
     (h c Cert.ReferenceIdeal.main_arg7).trans (Cert.ReferenceIdeal.Keep.arg_kept _ Cert.ReferenceIdeal.main_arg7 (by decide)),
     (h c Cert.ReferenceIdeal.main_arg8).trans (Cert.ReferenceIdeal.Keep.arg_kept _ Cert.ReferenceIdeal.main_arg8 (by decide)),
     (h c Cert.ReferenceIdeal.main_arg9).trans (Cert.ReferenceIdeal.Keep.arg_kept _ Cert.ReferenceIdeal.main_arg9 (by decide)),
     (h c Cert.ReferenceIdeal.main_arg10).trans (Cert.ReferenceIdeal.Keep.arg_kept _ Cert.ReferenceIdeal.main_arg10 (by decide)),
     (h c Cert.ReferenceIdeal.main_arg11).trans (Cert.ReferenceIdeal.Keep.arg_kept _ Cert.ReferenceIdeal.main_arg11 (by decide)),
     (h c Cert.ReferenceIdeal.main_arg12).trans (Cert.ReferenceIdeal.Keep.arg_kept _ Cert.ReferenceIdeal.main_arg12 (by decide)),
     (h c Cert.ReferenceIdeal.main_arg13).trans (Cert.ReferenceIdeal.Keep.arg_kept _ Cert.ReferenceIdeal.main_arg13 (by decide)),
     (h c Cert.ReferenceIdeal.main_arg14).trans (Cert.ReferenceIdeal.Keep.arg_kept _ Cert.ReferenceIdeal.main_arg14 (by decide))⟩)
    (Cert.ReferenceIdeal.Run.run_main (F := Ideal) m ρ)

theorem algebraic : Cert.algebraic_KernelIdeal_ReferenceIdeal := by
  intro m ρ m' ρ' hpre hagree
  have hx := Cert.Sim.pre_x m hpre
  have hs := Cert.Sim.pre_src m hpre
  have hfin : ∀ c, Cert.Sim.Final m' m ρ c := fun c =>
    Cert.Sim.tail m' m ρ hagree c (Cert.Sim.layer4 m' m ρ hagree hs c (Cert.Sim.layer3 m' m ρ hagree hs c
      (Cert.Sim.layer2 m' m ρ hagree hs c (Cert.Sim.layer1 m' m ρ hagree hs c (Cert.Sim.layer0 m' m ρ hagree hx hs c)))))
  refine ⟨fun c => Cert.KernelIdeal.Gen.W48 m ρ c (Proc.devRef .tc Cert.KernelIdeal.main_v205),
    Cert.KernelIdeal.ValueRun.run_value m ρ, ?_⟩
  refine (θ_run Cert.ReferenceIdeal.defs _ _).mono (fun r h c =>
    ⟨(h c Cert.ReferenceIdeal.main_v335).trans ((congrFun (Cert.Sim.UT_eq m' c) _).trans (hfin c).symm),
     (h c Cert.ReferenceIdeal.main_arg0).trans (Cert.ReferenceIdeal.Keep.arg_kept _ Cert.ReferenceIdeal.main_arg0 (by decide)),
     (h c Cert.ReferenceIdeal.main_arg1).trans (Cert.ReferenceIdeal.Keep.arg_kept _ Cert.ReferenceIdeal.main_arg1 (by decide)),
     (h c Cert.ReferenceIdeal.main_arg2).trans (Cert.ReferenceIdeal.Keep.arg_kept _ Cert.ReferenceIdeal.main_arg2 (by decide)),
     (h c Cert.ReferenceIdeal.main_arg3).trans (Cert.ReferenceIdeal.Keep.arg_kept _ Cert.ReferenceIdeal.main_arg3 (by decide)),
     (h c Cert.ReferenceIdeal.main_arg4).trans (Cert.ReferenceIdeal.Keep.arg_kept _ Cert.ReferenceIdeal.main_arg4 (by decide)),
     (h c Cert.ReferenceIdeal.main_arg5).trans (Cert.ReferenceIdeal.Keep.arg_kept _ Cert.ReferenceIdeal.main_arg5 (by decide)),
     (h c Cert.ReferenceIdeal.main_arg6).trans (Cert.ReferenceIdeal.Keep.arg_kept _ Cert.ReferenceIdeal.main_arg6 (by decide)),
     (h c Cert.ReferenceIdeal.main_arg7).trans (Cert.ReferenceIdeal.Keep.arg_kept _ Cert.ReferenceIdeal.main_arg7 (by decide)),
     (h c Cert.ReferenceIdeal.main_arg8).trans (Cert.ReferenceIdeal.Keep.arg_kept _ Cert.ReferenceIdeal.main_arg8 (by decide)),
     (h c Cert.ReferenceIdeal.main_arg9).trans (Cert.ReferenceIdeal.Keep.arg_kept _ Cert.ReferenceIdeal.main_arg9 (by decide)),
     (h c Cert.ReferenceIdeal.main_arg10).trans (Cert.ReferenceIdeal.Keep.arg_kept _ Cert.ReferenceIdeal.main_arg10 (by decide)),
     (h c Cert.ReferenceIdeal.main_arg11).trans (Cert.ReferenceIdeal.Keep.arg_kept _ Cert.ReferenceIdeal.main_arg11 (by decide)),
     (h c Cert.ReferenceIdeal.main_arg12).trans (Cert.ReferenceIdeal.Keep.arg_kept _ Cert.ReferenceIdeal.main_arg12 (by decide)),
     (h c Cert.ReferenceIdeal.main_arg13).trans (Cert.ReferenceIdeal.Keep.arg_kept _ Cert.ReferenceIdeal.main_arg13 (by decide)),
     (h c Cert.ReferenceIdeal.main_arg14).trans (Cert.ReferenceIdeal.Keep.arg_kept _ Cert.ReferenceIdeal.main_arg14 (by decide))⟩)
    (Cert.ReferenceIdeal.Run.run_main (F := Ideal) m' ρ')

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref, trivial, algebraic⟩

end Cert.Proof

end
